-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v22) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v167) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩

class Facts : Prop where
  bcast_S_S64x512 : S_.BroadcastsInDim S64x512 (![] : Fin 0 → Fin S64x512.rank)
  reducesTo_S64x512_S_d0_1 : S64x512.ReducesTo [0, 1] S_
  h_S_ : 0 < S_.numel
  bcast_S_S2x64x32768 : S_.BroadcastsInDim S2x64x32768 (![] : Fin 0 → Fin S2x64x32768.rank)
  reducesTo_S2x64x32768_S_d0_1_2 : S2x64x32768.ReducesTo [0, 1, 2] S_
  bcast_S_S512x512 : S_.BroadcastsInDim S512x512 (![] : Fin 0 → Fin S512x512.rank)
  reducesTo_S512x512_S_d0_1 : S512x512.ReducesTo [0, 1] S_
  bcast_S_S195x128 : S_.BroadcastsInDim S195x128 (![] : Fin 0 → Fin S195x128.rank)
  reducesTo_S195x128_S_d0_1 : S195x128.ReducesTo [0, 1] S_
  bcast_S_S128 : S_.BroadcastsInDim S128 (![] : Fin 0 → Fin S128.rank)
  reducesTo_S128_S_d0 : S128.ReducesTo [0] S_
  bcast_S_S195x64 : S_.BroadcastsInDim S195x64 (![] : Fin 0 → Fin S195x64.rank)
  reducesTo_S195x64_S_d0_1 : S195x64.ReducesTo [0, 1] S_
  bcast_S_S64 : S_.BroadcastsInDim S64 (![] : Fin 0 → Fin S64.rank)
  reducesTo_S64_S_d0 : S64.ReducesTo [0] S_
  bcast_S_S384x128 : S_.BroadcastsInDim S384x128 (![] : Fin 0 → Fin S384x128.rank)
  reducesTo_S384x128_S_d0_1 : S384x128.ReducesTo [0, 1] S_
  bcast_S_S384x64 : S_.BroadcastsInDim S384x64 (![] : Fin 0 → Fin S384x64.rank)
  reducesTo_S384x64_S_d0_1 : S384x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S64x1 .f32) (main_arg12 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x1 .f32 := Host.absf main_arg11
  let main_cst_20 : FVec F S_ .f32 := constant S_ .f32 0x7F800000#32
  let main_v55 : FVec F S64x1 .f32 := broadcastInDim S64x1 ![] bcast_S_S64x1 main_cst_20
  let main_v56 : IVec S64x1 1 := cmpf .olt main_v54 main_v55
  let main_c_21 : IVec S_ 1 := constantI S_ 1 1#1
  let main_v57 : IVec S_ 1 := (fun x v => Host.reduce IntOp.andi x v reducesTo_S64x1_S_d0_1 h_S_) main_v56 main_c_21
  let main_v58 : IVec S_ 1 := andi main_v53 main_v57
  let main_v59 : FVec F S1 .f32 := Host.absf main_arg12
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg7 : FVec F S384x128 .f32) (main_arg8 : FVec F S128 .f32) (main_arg9 : FVec F S384x64 .f32) (main_arg10 : FVec F S64 .f32) (main_arg11 : FVec F S64x1 .f32) (main_arg12 : FVec F S1 .f32) (main_v33 : IVec S_ 1) : IVec S_ 1 :=
  let main_v34 : FVec F S384x128 .f32 := Host.absf main_arg7
  let main_cst_12 : FVec F S_ .f32 := constant S_ .f32 0x7F800000#32
  let main_v35 : FVec F S384x128 .f32 := broadcastInDim S384x128 ![] bcast_S_S384x128 main_cst_12
  let main_v36 : IVec S384x128 1 := cmpf .olt main_v34 main_v35
  let main_c_13 : IVec S_ 1 := constantI S_ 1 1#1
  let main_v37 : IVec S_ 1 := (fun x v => Host.reduce IntOp.andi x v reducesTo_S384x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S384x64 .f32 := Host.absf main_arg9
  let main_cst_16 : FVec F S_ .f32 := constant S_ .f32 0x7F800000#32
  let main_v45 : FVec F S384x64 .f32 := broadcastInDim S384x64 ![] bcast_S_S384x64 main_cst_16
  let main_v46 : IVec S384x64 1 := cmpf .olt main_v44 main_v45
  let main_c_17 : IVec S_ 1 := constantI S_ 1 1#1
  let main_v47 : IVec S_ 1 := (fun x v => Host.reduce IntOp.andi x v reducesTo_S384x64_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_v48 main_v49 main_v50

def fn_part1 {F : FTy → Type} [FloatOps F] (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) (main_v13 : IVec S_ 1) (main_v16 : IVec S195x128 1) : IVec S_ 1 :=
  let main_c_5 : IVec S_ 1 := constantI S_ 1 1#1
  let main_v17 : IVec S_ 1 := (fun x v => Host.reduce IntOp.andi x v reducesTo_S195x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S195x64 .f32 := Host.absf main_arg5
  let main_cst_8 : FVec F S_ .f32 := constant S_ .f32 0x7F800000#32
  let main_v25 : FVec F S195x64 .f32 := broadcastInDim S195x64 ![] bcast_S_S195x64 main_cst_8
  let main_v26 : IVec S195x64 1 := cmpf .olt main_v24 main_v25
  let main_c_9 : IVec S_ 1 := constantI S_ 1 1#1
  let main_v27 : IVec S_ 1 := (fun x v => Host.reduce IntOp.andi x v reducesTo_S195x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S64x512 .f32) (main_arg1 : FVec F S2x64x32768 .f32) (main_arg2 : FVec F S512x512 .f32) (main_arg3 : FVec F S195x128 .f32) (main_arg4 : FVec F S128 .f32) (main_arg5 : FVec F S195x64 .f32) (main_arg6 : FVec F S64 .f32) (main_arg7 : FVec F S384x128 .f32) (main_arg8 : FVec F S128 .f32) (main_arg9 : FVec F S384x64 .f32) (main_arg10 : FVec F S64 .f32) (main_arg11 : FVec F S64x1 .f32) (main_arg12 : FVec F S1 .f32) : IVec S_ 1 :=
  let main_v0 : FVec F S64x512 .f32 := Host.absf main_arg0
  let main_cst : FVec F S_ .f32 := constant S_ .f32 0x7F800000#32
  let main_v1 : FVec F S64x512 .f32 := broadcastInDim S64x512 ![] bcast_S_S64x512 main_cst
  let main_v2 : IVec S64x512 1 := cmpf .olt main_v0 main_v1
  let main_c : IVec S_ 1 := constantI S_ 1 1#1
  let main_v3 : IVec S_ 1 := (fun x v => Host.reduce IntOp.andi x v reducesTo_S64x512_S_d0_1 h_S_) main_v2 main_c
  let main_v4 : FVec F S2x64x32768 .f32 := Host.absf main_arg1
  let main_cst_0 : FVec F S_ .f32 := constant S_ .f32 0x7F800000#32
  let main_v5 : FVec F S2x64x32768 .f32 := broadcastInDim S2x64x32768 ![] bcast_S_S2x64x32768 main_cst_0
  let main_v6 : IVec S2x64x32768 1 := cmpf .olt main_v4 main_v5
  let main_c_1 : IVec S_ 1 := constantI S_ 1 1#1
  let main_v7 : IVec S_ 1 := (fun x v => Host.reduce IntOp.andi x v reducesTo_S2x64x32768_S_d0_1_2 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S195x128 .f32 := Host.absf main_arg3
  let main_cst_4 : FVec F S_ .f32 := constant S_ .f32 0x7F800000#32
  let main_v15 : FVec F S195x128 .f32 := broadcastInDim S195x128 ![] bcast_S_S195x128 main_cst_4
  let main_v16 : IVec S195x128 1 := cmpf .olt main_v14 main_v15
  fn_part1 (F := F) main_arg4 main_arg5 main_arg6 main_arg7 main_arg8 main_arg9 main_arg10 main_arg11 main_arg12 main_v13 main_v16
-- ==== Kernel.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S65x3x128 : Shape := ⟨3, ![65, 3, 128]⟩
abbrev S3x65x128 : Shape := ⟨3, ![3, 65, 128]⟩
abbrev S65x3x64 : Shape := ⟨3, ![65, 3, 64]⟩
abbrev S3x65x64 : Shape := ⟨3, ![3, 65, 64]⟩
abbrev S128x3x128 : Shape := ⟨3, ![128, 3, 128]⟩
abbrev S3x128x128 : Shape := ⟨3, ![3, 128, 128]⟩
abbrev S128x3x64 : Shape := ⟨3, ![128, 3, 64]⟩
abbrev S3x128x64 : Shape := ⟨3, ![3, 128, 64]⟩
abbrev S1x128 : Shape := ⟨2, ![1, 128]⟩
abbrev S1x64 : Shape := ⟨2, ![1, 64]⟩
abbrev S6x256 : Shape := ⟨2, ![6, 256]⟩
abbrev S3x128x256 : Shape := ⟨3, ![3, 128, 256]⟩
abbrev S1x256 : Shape := ⟨2, ![1, 256]⟩
abbrev S6x128 : Shape := ⟨2, ![6, 128]⟩
abbrev S128x2 : Shape := ⟨2, ![128, 2]⟩
abbrev S512 : Shape := ⟨1, ![512]⟩
abbrev S512x1 : Shape := ⟨2, ![512, 1]⟩
abbrev S1x512 : Shape := ⟨2, ![1, 512]⟩
abbrev S1x1x64 : Shape := ⟨3, ![1, 1, 64]⟩
abbrev S1x64x64 : Shape := ⟨3, ![1, 64, 64]⟩
abbrev S64x64 : Shape := ⟨2, ![64, 64]⟩
abbrev S1x64x512 : Shape := ⟨3, ![1, 64, 512]⟩
abbrev S3x64x512 : Shape := ⟨3, ![3, 64, 512]⟩
abbrev S3x32x2x512 : Shape := ⟨4, ![3, 32, 2, 512]⟩
abbrev S2x64x512x64 : Shape := ⟨4, ![2, 64, 512, 64]⟩
abbrev S1x1 : Shape := ⟨2, ![1, 1]⟩
abbrev S32x2x512 : Shape := ⟨3, ![32, 2, 512]⟩
abbrev S3x1x2x512 : Shape := ⟨4, ![3, 1, 2, 512]⟩
abbrev S2x2x512x64 : Shape := ⟨4, ![2, 2, 512, 64]⟩
abbrev S1x2x512 : Shape := ⟨3, ![1, 2, 512]⟩
abbrev S1x1x2x512 : Shape := ⟨4, ![1, 1, 2, 512]⟩
abbrev S2x512 : Shape := ⟨2, ![2, 512]⟩
abbrev S6x512 : Shape := ⟨2, ![6, 512]⟩
abbrev S512x6 : Shape := ⟨2, ![512, 6]⟩
abbrev S1x1x512x64 : Shape := ⟨4, ![1, 1, 512, 64]⟩
abbrev S512x64 : Shape := ⟨2, ![512, 64]⟩
abbrev S512x128 : Shape := ⟨2, ![512, 128]⟩
abbrev S512x256 : Shape := ⟨2, ![512, 256]⟩
abbrev S1x128x256 : Shape := ⟨3, ![1, 128, 256]⟩
abbrev S128x256 : Shape := ⟨2, ![128, 256]⟩
abbrev S1x128x128 : Shape := ⟨3, ![1, 128, 128]⟩
abbrev S128x128 : Shape := ⟨2, ![128, 128]⟩
abbrev S512x2 : Shape := ⟨2, ![512, 2]⟩

abbrev nBuf : Space → Nat
  | .hbm => 52
  | .vmem => 50
  | .smem => 0
  | _ => 0

abbrev bufTy : (tb : Table) → Fin (tcTables nBuf tb) → BufTy
  | .hbm, ⟨0, _⟩ => ⟨S64x512, .f32⟩
  | .hbm, ⟨1, _⟩ => ⟨S2x64x32768, .f32⟩
  | .hbm, ⟨2, _⟩ => ⟨S512x512, .f32⟩
  | .hbm, ⟨3, _⟩ => ⟨S195x128, .f32⟩
  | .hbm, ⟨4, _⟩ => ⟨S128, .f32⟩
  | .hbm, ⟨5, _⟩ => ⟨S195x64, .f32⟩
  | .hbm, ⟨6, _⟩ => ⟨S64, .f32⟩
  | .hbm, ⟨7, _⟩ => ⟨S384x128, .f32⟩
  | .hbm, ⟨8, _⟩ => ⟨S128, .f32⟩
  | .hbm, ⟨9, _⟩ => ⟨S384x64, .f32⟩
  | .hbm, ⟨10, _⟩ => ⟨S64, .f32⟩
  | .hbm, ⟨11, _⟩ => ⟨S64x1, .f32⟩
  | .hbm, ⟨12, _⟩ => ⟨S1, .f32⟩
  | .hbm, ⟨13, _⟩ => ⟨S65x3x128, .f32⟩
  | .hbm, ⟨14, _⟩ => ⟨S3x65x128, .f32⟩
  | .hbm, ⟨15, _⟩ => ⟨S65x3x64, .f32⟩
  | .hbm, ⟨16, _⟩ => ⟨S3x65x64, .f32⟩
  | .hbm, ⟨17, _⟩ => ⟨S128x3x128, .f32⟩
  | .hbm, ⟨18, _⟩ => ⟨S3x128x128, .f32⟩
  | .hbm, ⟨19, _⟩ => ⟨S128x3x64, .f32⟩
  | .hbm, ⟨20, _⟩ => ⟨S3x128x64, .f32⟩
  | .hbm, ⟨21, _⟩ => ⟨S1x128, .f32⟩
  | .hbm, ⟨22, _⟩ => ⟨S1x64, .f32⟩
  | .hbm, ⟨23, _⟩ => ⟨S1x128, .f32⟩
  | .hbm, ⟨24, _⟩ => ⟨S1x64, .f32⟩
  | .hbm, ⟨25, _⟩ => ⟨S512x512, .f32⟩
  | .hbm, ⟨26, _⟩ => ⟨S64x512, .f32⟩
  | .hbm, ⟨27, _⟩ => ⟨S64x512, .f32⟩
  | .hbm, ⟨28, _⟩ => ⟨S6x256, .f32⟩
  | .hbm, ⟨29, _⟩ => ⟨S3x128x256, .f32⟩
  | .hbm, ⟨30, _⟩ => ⟨S1x256, .f32⟩
  | .hbm, ⟨31, _⟩ => ⟨S6x128, .f32⟩
  | .hbm, ⟨32, _⟩ => ⟨S3x128x128, .f32⟩
  | .hbm, ⟨33, _⟩ => ⟨S1x128, .f32⟩
  | .hbm, ⟨34, _⟩ => ⟨S3x128x256, .f32⟩
  | .hbm, ⟨35, _⟩ => ⟨S3x128x256, .f32⟩
  | .hbm, ⟨36, _⟩ => ⟨S1x256, .f32⟩
  | .hbm, ⟨37, _⟩ => ⟨S3x128x128, .f32⟩
  | .hbm, ⟨38, _⟩ => ⟨S3x128x128, .f32⟩
  | .hbm, ⟨39, _⟩ => ⟨S1x128, .f32⟩
  | .hbm, ⟨40, _⟩ => ⟨S128x2, .f32⟩
  | .hbm, ⟨41, _⟩ => ⟨S1x64x512, .f32⟩
  | .hbm, ⟨42, _⟩ => ⟨S1x64x512, .f32⟩
  | .hbm, ⟨43, _⟩ => ⟨S1x64x512, .f32⟩
  | .hbm, ⟨44, _⟩ => ⟨S3x64x512, .f32⟩
  | .hbm, ⟨45, _⟩ => ⟨S3x32x2x512, .f32⟩
  | .hbm, ⟨46, _⟩ => ⟨S2x64x512x64, .f32⟩
  | .hbm, ⟨47, _⟩ => ⟨S1x1, .f32⟩
  | .hbm, ⟨48, _⟩ => ⟨S32x2x512, .f32⟩
  | .hbm, ⟨49, _⟩ => ⟨S2x64x512x64, .f32⟩
  | .hbm, ⟨50, _⟩ => ⟨S64x512, .f32⟩
  | .hbm, ⟨51, _⟩ => ⟨S2x64x32768, .f32⟩
  | .local _ .vmem, ⟨0, _⟩ => ⟨S512x512, .f32⟩
  | .local _ .vmem, ⟨1, _⟩ => ⟨S64x512, .f32⟩
  | .local _ .vmem, ⟨2, _⟩ => ⟨S3x65x128, .f32⟩
  | .local _ .vmem, ⟨3, _⟩ => ⟨S3x65x64, .f32⟩
  | .local _ .vmem, ⟨4, _⟩ => ⟨S3x128x128, .f32⟩
  | .local _ .vmem, ⟨5, _⟩ => ⟨S3x128x64, .f32⟩
  | .local _ .vmem, ⟨6, _⟩ => ⟨S1x128, .f32⟩
  | .local _ .vmem, ⟨7, _⟩ => ⟨S1x64, .f32⟩
  | .local _ .vmem, ⟨8, _⟩ => ⟨S1x128, .f32⟩
  | .local _ .vmem, ⟨9, _⟩ => ⟨S1x64, .f32⟩
  | .local _ .vmem, ⟨10, _⟩ => ⟨S64x1, .f32⟩
  | .local _ .vmem, ⟨11, _⟩ => ⟨S512x512, .f32⟩
  | .local _ .vmem, ⟨12, _⟩ => ⟨S64x512, .f32⟩
  | .local _ .vmem, ⟨13, _⟩ => ⟨S64x512, .f32⟩
  | .local _ .vmem, ⟨14, _⟩ => ⟨S6x256, .f32⟩
  | .local _ .vmem, ⟨15, _⟩ => ⟨S3x128x256, .f32⟩
  | .local _ .vmem, ⟨16, _⟩ => ⟨S1x256, .f32⟩
  | .local _ .vmem, ⟨17, _⟩ => ⟨S6x128, .f32⟩
  | .local _ .vmem, ⟨18, _⟩ => ⟨S3x128x128, .f32⟩
  | .local _ .vmem, ⟨19, _⟩ => ⟨S1x128, .f32⟩
  | .local _ .vmem, ⟨20, _⟩ => ⟨S3x128x256, .f32⟩
  | .local _ .vmem, ⟨21, _⟩ => ⟨S3x128x256, .f32⟩
  | .local _ .vmem, ⟨22, _⟩ => ⟨S1x256, .f32⟩
  | .local _ .vmem, ⟨23, _⟩ => ⟨S3x128x128, .f32⟩
  | .local _ .vmem, ⟨24, _⟩ => ⟨S3x128x128, .f32⟩
  | .local _ .vmem, ⟨25, _⟩ => ⟨S1x128, .f32⟩
  | .local _ .vmem, ⟨26, _⟩ => ⟨S128x2, .f32⟩
  | .local _ .vmem, ⟨27, _⟩ => ⟨S512x512, .f32⟩
  | .local _ .vmem, ⟨28, _⟩ => ⟨S3x1x2x512, .f32⟩
  | .local _ .vmem, ⟨29, _⟩ => ⟨S3x1x2x512, .f32⟩
  | .local _ .vmem, ⟨30, _⟩ => ⟨S2x2x512x64, .f32⟩
  | .local _ .vmem, ⟨31, _⟩ => ⟨S2x2x512x64, .f32⟩
  | .local _ .vmem, ⟨32, _⟩ => ⟨S6x256, .f32⟩
  | .local _ .vmem, ⟨33, _⟩ => ⟨S3x128x256, .f32⟩
  | .local _ .vmem, ⟨34, _⟩ => ⟨S1x256, .f32⟩
  | .local _ .vmem, ⟨35, _⟩ => ⟨S6x128, .f32⟩
  | .local _ .vmem, ⟨36, _⟩ => ⟨S3x128x128, .f32⟩
  | .local _ .vmem, ⟨37, _⟩ => ⟨S1x128, .f32⟩
  | .local _ .vmem, ⟨38, _⟩ => ⟨S3x128x256, .f32⟩
  | .local _ .vmem, ⟨39, _⟩ => ⟨S3x128x256, .f32⟩
  | .local _ .vmem, ⟨40, _⟩ => ⟨S1x256, .f32⟩
  | .local _ .vmem, ⟨41, _⟩ => ⟨S3x128x128, .f32⟩
  | .local _ .vmem, ⟨42, _⟩ => ⟨S3x128x128, .f32⟩
  | .local _ .vmem, ⟨43, _⟩ => ⟨S1x128, .f32⟩
  | .local _ .vmem, ⟨44, _⟩ => ⟨S128x2, .f32⟩
  | .local _ .vmem, ⟨45, _⟩ => ⟨S1x1, .f32⟩
  | .local _ .vmem, ⟨46, _⟩ => ⟨S1x2x512, .f32⟩
  | .local _ .vmem, ⟨47, _⟩ => ⟨S1x2x512, .f32⟩
  | .local _ .vmem, ⟨48, _⟩ => ⟨S2x2x512x64, .f32⟩
  | .local _ .vmem, ⟨49, _⟩ => ⟨S2x2x512x64, .f32⟩
  | _, _ => ⟨S64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12_0 : Ref sig .tc := ⟨.hbm, 25, rfl⟩
abbrev main_v12_1 : Ref sig .tc := ⟨.hbm, 26, rfl⟩
abbrev main_v12_2 : Ref sig .tc := ⟨.hbm, 27, rfl⟩
abbrev main_v12_3 : Ref sig .tc := ⟨.hbm, 28, rfl⟩
abbrev main_v12_4 : Ref sig .tc := ⟨.hbm, 29, rfl⟩
abbrev main_v12_5 : Ref sig .tc := ⟨.hbm, 30, rfl⟩
abbrev main_v12_6 : Ref sig .tc := ⟨.hbm, 31, rfl⟩
abbrev main_v12_7 : Ref sig .tc := ⟨.hbm, 32, rfl⟩
abbrev main_v12_8 : Ref sig .tc := ⟨.hbm, 33, rfl⟩
abbrev main_v12_9 : Ref sig .tc := ⟨.hbm, 34, rfl⟩
abbrev main_v12_10 : Ref sig .tc := ⟨.hbm, 35, rfl⟩
abbrev main_v12_11 : Ref sig .tc := ⟨.hbm, 36, rfl⟩
abbrev main_v12_12 : Ref sig .tc := ⟨.hbm, 37, rfl⟩
abbrev main_v12_13 : Ref sig .tc := ⟨.hbm, 38, rfl⟩
abbrev main_v12_14 : Ref sig .tc := ⟨.hbm, 39, rfl⟩
abbrev main_v12_15 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20_0 : Ref sig .tc := ⟨.hbm, 48, rfl⟩
abbrev main_v20_1 : Ref sig .tc := ⟨.hbm, 49, rfl⟩
abbrev main_v21 : Ref sig .tc := ⟨.hbm, 50, rfl⟩
abbrev main_v22 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc1_stg0_0 : Ref sig .tc := ⟨.vmem, 27, rfl⟩
abbrev cc1_stg1_0 : Ref sig .tc := ⟨.vmem, 28, rfl⟩
abbrev cc1_stg1_1 : Ref sig .tc := ⟨.vmem, 29, rfl⟩
abbrev cc1_stg2_0 : Ref sig .tc := ⟨.vmem, 30, rfl⟩
abbrev cc1_stg2_1 : Ref sig .tc := ⟨.vmem, 31, rfl⟩
abbrev cc1_stg3_0 : Ref sig .tc := ⟨.vmem, 32, rfl⟩
abbrev cc1_stg4_0 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg8_0 : Ref sig .tc := ⟨.vmem, 37, rfl⟩
abbrev cc1_stg9_0 : Ref sig .tc := ⟨.vmem, 38, rfl⟩
abbrev cc1_stg10_0 : Ref sig .tc := ⟨.vmem, 39, rfl⟩
abbrev cc1_stg11_0 : Ref sig .tc := ⟨.vmem, 40, rfl⟩
abbrev cc1_stg12_0 : Ref sig .tc := ⟨.vmem, 41, rfl⟩
abbrev cc1_stg13_0 : Ref sig .tc := ⟨.vmem, 42, rfl⟩
abbrev cc1_stg14_0 : Ref sig .tc := ⟨.vmem, 43, rfl⟩
abbrev cc1_stg15_0 : Ref sig .tc := ⟨.vmem, 44, rfl⟩
abbrev cc1_stg16_0 : Ref sig .tc := ⟨.vmem, 45, rfl⟩
abbrev cc1_stg17_0 : Ref sig .tc := ⟨.vmem, 46, rfl⟩
abbrev cc1_stg17_1 : Ref sig .tc := ⟨.vmem, 47, rfl⟩
abbrev cc1_stg18_0 : Ref sig .tc := ⟨.vmem, 48, rfl⟩
abbrev cc1_stg18_1 : Ref sig .tc := ⟨.vmem, 49, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc1_sem0_0 : DmaSem sig := 27
abbrev cc1_sem1_0 : DmaSem sig := 28
abbrev cc1_sem1_1 : DmaSem sig := 29
abbrev cc1_sem2_0 : DmaSem sig := 30
abbrev cc1_sem2_1 : DmaSem sig := 31
abbrev cc1_sem3_0 : DmaSem sig := 32
abbrev cc1_sem4_0 : DmaSem sig := 33
abbrev cc1_sem5_0 : DmaSem sig := 34
abbrev cc1_sem6_0 : DmaSem sig := 35
abbrev cc1_sem7_0 : DmaSem sig := 36
abbrev cc1_sem8_0 : DmaSem sig := 37
abbrev cc1_sem9_0 : DmaSem sig := 38
abbrev cc1_sem10_0 : DmaSem sig := 39
abbrev cc1_sem11_0 : DmaSem sig := 40
abbrev cc1_sem12_0 : DmaSem sig := 41
abbrev cc1_sem13_0 : DmaSem sig := 42
abbrev cc1_sem14_0 : DmaSem sig := 43
abbrev cc1_sem15_0 : DmaSem sig := 44
abbrev cc1_sem16_0 : DmaSem sig := 45
abbrev cc1_sem17_0 : DmaSem sig := 46
abbrev cc1_sem17_1 : DmaSem sig := 47
abbrev cc1_sem18_0 : DmaSem sig := 48
abbrev cc1_sem18_1 : DmaSem sig := 49

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3x65x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x65x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x128x256 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S6x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S3x128x256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S3x128x256 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S3x128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S3x128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S128x2 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_17 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_18 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage1_0 : Fin 1 → Memref sig .tc .vmem S512x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3x1x2x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x2x512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S6x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x128x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S6x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S3x128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S3x128x256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S3x128x256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x256 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S3x128x128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S3x128x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S128x2 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S1x1 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S1x2x512 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev stage1_18 : Fin 2 → Memref sig .tc .vmem S2x2x512x64 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true]

class Facts₀ : Prop where
  shapeCasts_S195x128_S65x3x128 : S195x128.ShapeCasts S65x3x128
  transposes_S65x3x128_S3x65x128_1_0_2 : S65x3x128.Transposes [1, 0, 2] S3x65x128
  shapeCasts_S195x64_S65x3x64 : S195x64.ShapeCasts S65x3x64
  transposes_S65x3x64_S3x65x64_1_0_2 : S65x3x64.Transposes [1, 0, 2] S3x65x64
  shapeCasts_S384x128_S128x3x128 : S384x128.ShapeCasts S128x3x128
  transposes_S128x3x128_S3x128x128_1_0_2 : S128x3x128.Transposes [1, 0, 2] S3x128x128
  shapeCasts_S384x64_S128x3x64 : S384x64.ShapeCasts S128x3x64
  transposes_S128x3x64_S3x128x64_1_0_2 : S128x3x64.Transposes [1, 0, 2] S3x128x64
  shapeCasts_S128_S1x128 : S128.ShapeCasts S1x128
  shapeCasts_S64_S1x64 : S64.ShapeCasts S1x64
  inb_S512x512_S512x512_0_0 : ∀ a, (![0, 0] : Fin 2 → Nat) a + S512x512.size a ≤ S512x512.size a
  h_S512x512 : 0 < S512x512.numel
  transposes_S512x512_p1_0_S512x512 : S512x512.Transposes [1, 0] S512x512
  reduces_S512x512_S512 : S512x512.Reduces [1] S512
  shapeCasts_S512_S512x1 : S512.ShapeCasts S512x1
  reduces_S512x512_S512_2 : S512x512.Reduces [0] S512
  shapeCasts_S512_S1x512 : S512.ShapeCasts S1x512
  broadcasts_S512x1_S512x512 : S512x1.Broadcasts S512x512
  broadcasts_S1x512_S512x512 : S1x512.Broadcasts S512x512
  inb_S64x512_S64x512_0_0 : ∀ a, (![0, 0] : Fin 2 → Nat) a + S64x512.size a ≤ S64x512.size a
  h_S64x512 : 0 < S64x512.numel
  inb_S6x256_S6x256_0_0 : ∀ a, (![0, 0] : Fin 2 → Nat) a + S6x256.size a ≤ S6x256.size a
  h_S6x256 : 0 < S6x256.numel
  inb_S6x128_S6x128_0_0 : ∀ a, (![0, 0] : Fin 2 → Nat) a + S6x128.size a ≤ S6x128.size a
  h_S6x128 : 0 < S6x128.numel
  inb_S3x128x256_S3x128x256_0_0_0 : ∀ a, (![0, 0, 0] : Fin 3 → Nat) a + S3x128x256.size a ≤ S3x128x256.size a
  h_S3x128x256 : 0 < S3x128x256.numel
  inb_S3x128x128_S3x128x128_0_0_0 : ∀ a, (![0, 0, 0] : Fin 3 → Nat) a + S3x128x128.size a ≤ S3x128x128.size a
  h_S3x128x128 : 0 < S3x128x128.numel
  inb_S3x65x128_S1x1x64_0_0_0 : ∀ a, (![0, 0, 0] : Fin 3 → Nat) a + S1x1x64.size a ≤ S3x65x128.size a
  h_S1x1x64 : 0 < S1x1x64.numel
  shapeCasts_S1x1x64_S64 : S1x1x64.ShapeCasts S64
  inb_S6x256_S1x64_0_0 : ∀ a, (![0, 0] : Fin 2 → Nat) a + S1x64.size a ≤ S6x256.size a
  h_S1x64 : 0 < S1x64.numel
  shapeCasts_S1x64_S64 : S1x64.ShapeCasts S64
  inb_S3x65x128_S1x1x64_0_0_64 : ∀ a, (![0, 0, 64] : Fin 3 → Nat) a + S1x1x64.size a ≤ S3x65x128.size a
  inb_S6x256_S1x64_0_128 : ∀ a, (![0, 128] : Fin 2 → Nat) a + S1x64.size a ≤ S6x256.size a
  inb_S6x256_S1x64_1_64 : ∀ a, (![1, 64] : Fin 2 → Nat) a + S1x64.size a ≤ S6x256.size a
  inb_S6x256_S1x64_1_192 : ∀ a, (![1, 192] : Fin 2 → Nat) a + S1x64.size a ≤ S6x256.size a
  inb_S3x65x64_S1x1x64_0_0_0 : ∀ a, (![0, 0, 0] : Fin 3 → Nat) a + S1x1x64.size a ≤ S3x65x64.size a
  inb_S6x128_S1x64_0_0 : ∀ a, (![0, 0] : Fin 2 → Nat) a + S1x64.size a ≤ S6x128.size a
  inb_S6x128_S1x64_1_64 : ∀ a, (![1, 64] : Fin 2 → Nat) a + S1x64.size a ≤ S6x128.size a
  inb_S3x65x128_S1x64x64_0_1_0 : ∀ a, (![0, 1, 0] : Fin 3 → Nat) a + S1x64x64.size a ≤ S3x65x128.size a
  h_S1x64x64 : 0 < S1x64x64.numel
  shapeCasts_S1x64x64_S64x64 : S1x64x64.ShapeCasts S64x64
  inb_S3x65x128_S1x64x64_0_1_64 : ∀ a, (![0, 1, 64] : Fin 3 → Nat) a + S1x64x64.size a ≤ S3x65x128.size a
  inb_S3x128x256_S1x64x64_0_0_0 : ∀ a, (![0, 0, 0] : Fin 3 → Nat) a + S1x64x64.size a ≤ S3x128x256.size a
  shapeCasts_S64x64_S1x64x64 : S64x64.ShapeCasts S1x64x64
  inb_S3x128x256_S1x64x64_0_0_128 : ∀ a, (![0, 0, 128] : Fin 3 → Nat) a + S1x64x64.size a ≤ S3x128x256.size a
  inb_S3x128x256_S1x64x64_0_64_64 : ∀ a, (![0, 64, 64] : Fin 3 → Nat) a + S1x64x64.size a ≤ S3x128x256.size a
  inb_S3x128x256_S1x64x64_0_64_192 : ∀ a, (![0, 64, 192] : Fin 3 → Nat) a + S1x64x64.size a ≤ S3x128x256.size a
  inb_S3x65x64_S1x64x64_0_1_0 : ∀ a, (![0, 1, 0] : Fin 3 → Nat) a + S1x64x64.size a ≤ S3x65x64.size a
  inb_S3x128x128_S1x64x64_0_0_0 : ∀ a, (![0, 0, 0] : Fin 3 → Nat) a + S1x64x64.size a ≤ S3x128x128.size a
  inb_S3x128x128_S1x64x64_0_64_64 : ∀ a, (![0, 64, 64] : Fin 3 → Nat) a + S1x64x64.size a ≤ S3x128x128.size a
  inb_S3x128x128_S1x64x64_0_0_64 : ∀ a, (![0, 0, 64] : Fin 3 → Nat) a + S1x64x64.size a ≤ S3x128x128.size a
  inb_S3x128x128_S1x64x64_0_64_0 : ∀ a, (![0, 64, 0] : Fin 3 → Nat) a + S1x64x64.size a ≤ S3x128x128.size a
  inb_S3x128x64_S1x64x64_0_0_0 : ∀ a, (![0, 0, 0] : Fin 3 → Nat) a + S1x64x64.size a ≤ S3x128x64.size a
  inb_S3x128x64_S1x64x64_0_64_0 : ∀ a, (![0, 64, 0] : Fin 3 → Nat) a + S1x64x64.size a ≤ S3x128x64.size a
  inb_S3x65x128_S1x1x64_1_0_0 : ∀ a, (![1, 0, 0] : Fin 3 → Nat) a + S1x1x64.size a ≤ S3x65x128.size a
  inb_S6x256_S1x64_2_0 : ∀ a, (![2, 0] : Fin 2 → Nat) a + S1x64.size a ≤ S6x256.size a
  inb_S3x65x128_S1x1x64_1_0_64 : ∀ a, (![1, 0, 64] : Fin 3 → Nat) a + S1x1x64.size a ≤ S3x65x128.size a
  inb_S6x256_S1x64_2_128 : ∀ a, (![2, 128] : Fin 2 → Nat) a + S1x64.size a ≤ S6x256.size a
  inb_S6x256_S1x64_3_64 : ∀ a, (![3, 64] : Fin 2 → Nat) a + S1x64.size a ≤ S6x256.size a
  inb_S6x256_S1x64_3_192 : ∀ a, (![3, 192] : Fin 2 → Nat) a + S1x64.size a ≤ S6x256.size a
  inb_S3x65x64_S1x1x64_1_0_0 : ∀ a, (![1, 0, 0] : Fin 3 → Nat) a + S1x1x64.size a ≤ S3x65x64.size a
  inb_S6x128_S1x64_2_0 : ∀ a, (![2, 0] : Fin 2 → Nat) a + S1x64.size a ≤ S6x128.size a
  inb_S6x128_S1x64_3_64 : ∀ a, (![3, 64] : Fin 2 → Nat) a + S1x64.size a ≤ S6x128.size a
  inb_S3x65x128_S1x64x64_1_1_0 : ∀ a, (![1, 1, 0] : Fin 3 → Nat) a + S1x64x64.size a ≤ S3x65x128.size a
  inb_S3x65x128_S1x64x64_1_1_64 : ∀ a, (![1, 1, 64] : Fin 3 → Nat) a + S1x64x64.size a ≤ S3x65x128.size a
  inb_S3x128x256_S1x64x64_1_0_0 : ∀ a, (![1, 0, 0] : Fin 3 → Nat) a + S1x64x64.size a ≤ S3x128x256.size a
  inb_S3x128x256_S1x64x64_1_0_128 : ∀ a, (![1, 0, 128] : Fin 3 → Nat) a + S1x64x64.size a ≤ S3x128x256.size a
  inb_S3x128x256_S1x64x64_1_64_64 : ∀ a, (![1, 64, 64] : Fin 3 → Nat) a + S1x64x64.size a ≤ S3x128x256.size a
  inb_S3x128x256_S1x64x64_1_64_192 : ∀ a, (![1, 64, 192] : Fin 3 → Nat) a + S1x64x64.size a ≤ S3x128x256.size a
  inb_S3x65x64_S1x64x64_1_1_0 : ∀ a, (![1, 1, 0] : Fin 3 → Nat) a + S1x64x64.size a ≤ S3x65x64.size a
  inb_S3x128x128_S1x64x64_1_0_0 : ∀ a, (![1, 0, 0] : Fin 3 → Nat) a + S1x64x64.size a ≤ S3x128x128.size a
  inb_S3x128x128_S1x64x64_1_64_64 : ∀ a, (![1, 64, 64] : Fin 3 → Nat) a + S1x64x64.size a ≤ S3x128x128.size a
  inb_S3x128x128_S1x64x64_1_0_64 : ∀ a, (![1, 0, 64] : Fin 3 → Nat) a + S1x64x64.size a ≤ S3x128x128.size a
  inb_S3x128x128_S1x64x64_1_64_0 : ∀ a, (![1, 64, 0] : Fin 3 → Nat) a + S1x64x64.size a ≤ S3x128x128.size a
  inb_S3x128x64_S1x64x64_1_0_0 : ∀ a, (![1, 0, 0] : Fin 3 → Nat) a + S1x64x64.size a ≤ S3x128x64.size a
  inb_S3x128x64_S1x64x64_1_64_0 : ∀ a, (![1, 64, 0] : Fin 3 → Nat) a + S1x64x64.size a ≤ S3x128x64.size a
  inb_S3x65x128_S1x1x64_2_0_0 : ∀ a, (![2, 0, 0] : Fin 3 → Nat) a + S1x1x64.size a ≤ S3x65x128.size a
  inb_S6x256_S1x64_4_0 : ∀ a, (![4, 0] : Fin 2 → Nat) a + S1x64.size a ≤ S6x256.size a
  inb_S3x65x128_S1x1x64_2_0_64 : ∀ a, (![2, 0, 64] : Fin 3 → Nat) a + S1x1x64.size a ≤ S3x65x128.size a
  inb_S6x256_S1x64_4_128 : ∀ a, (![4, 128] : Fin 2 → Nat) a + S1x64.size a ≤ S6x256.size a
  inb_S6x256_S1x64_5_64 : ∀ a, (![5, 64] : Fin 2 → Nat) a + S1x64.size a ≤ S6x256.size a
  inb_S6x256_S1x64_5_192 : ∀ a, (![5, 192] : Fin 2 → Nat) a + S1x64.size a ≤ S6x256.size a
  inb_S3x65x64_S1x1x64_2_0_0 : ∀ a, (![2, 0, 0] : Fin 3 → Nat) a + S1x1x64.size a ≤ S3x65x64.size a
  inb_S6x128_S1x64_4_0 : ∀ a, (![4, 0] : Fin 2 → Nat) a + S1x64.size a ≤ S6x128.size a
  inb_S6x128_S1x64_5_64 : ∀ a, (![5, 64] : Fin 2 → Nat) a + S1x64.size a ≤ S6x128.size a
  inb_S3x65x128_S1x64x64_2_1_0 : ∀ a, (![2, 1, 0] : Fin 3 → Nat) a + S1x64x64.size a ≤ S3x65x128.size a
  inb_S3x65x128_S1x64x64_2_1_64 : ∀ a, (![2, 1, 64] : Fin 3 → Nat) a + S1x64x64.size a ≤ S3x65x128.size a
  inb_S3x128x256_S1x64x64_2_0_0 : ∀ a, (![2, 0, 0] : Fin 3 → Nat) a + S1x64x64.size a ≤ S3x128x256.size a
  inb_S3x128x256_S1x64x64_2_0_128 : ∀ a, (![2, 0, 128] : Fin 3 → Nat) a + S1x64x64.size a ≤ S3x128x256.size a
  inb_S3x128x256_S1x64x64_2_64_64 : ∀ a, (![2, 64, 64] : Fin 3 → Nat) a + S1x64x64.size a ≤ S3x128x256.size a
  inb_S3x128x256_S1x64x64_2_64_192 : ∀ a, (![2, 64, 192] : Fin 3 → Nat) a + S1x64x64.size a ≤ S3x128x256.size a
  inb_S3x65x64_S1x64x64_2_1_0 : ∀ a, (![2, 1, 0] : Fin 3 → Nat) a + S1x64x64.size a ≤ S3x65x64.size a
  inb_S3x128x128_S1x64x64_2_0_0 : ∀ a, (![2, 0, 0] : Fin 3 → Nat) a + S1x64x64.size a ≤ S3x128x128.size a
  inb_S3x128x128_S1x64x64_2_64_64 : ∀ a, (![2, 64, 64] : Fin 3 → Nat) a + S1x64x64.size a ≤ S3x128x128.size a
  inb_S3x128x128_S1x64x64_2_0_64 : ∀ a, (![2, 0, 64] : Fin 3 → Nat) a + S1x64x64.size a ≤ S3x128x128.size a
  inb_S3x128x128_S1x64x64_2_64_0 : ∀ a, (![2, 64, 0] : Fin 3 → Nat) a + S1x64x64.size a ≤ S3x128x128.size a
  inb_S3x128x64_S1x64x64_2_0_0 : ∀ a, (![2, 0, 0] : Fin 3 → Nat) a + S1x64x64.size a ≤ S3x128x64.size a
  inb_S3x128x64_S1x64x64_2_64_0 : ∀ a, (![2, 64, 0] : Fin 3 → Nat) a + S1x64x64.size a ≤ S3x128x64.size a
  inb_S1x128_S1x64_0_0 : ∀ a, (![0, 0] : Fin 2 → Nat) a + S1x64.size a ≤ S1x128.size a
  inb_S1x256_S1x64_0_0 : ∀ a, (![0, 0] : Fin 2 → Nat) a + S1x64.size a ≤ S1x256.size a
  inb_S1x256_S1x64_0_64 : ∀ a, (![0, 64] : Fin 2 → Nat) a + S1x64.size a ≤ S1x256.size a
  inb_S1x128_S1x64_0_64 : ∀ a, (![0, 64] : Fin 2 → Nat) a + S1x64.size a ≤ S1x128.size a
  inb_S1x256_S1x64_0_128 : ∀ a, (![0, 128] : Fin 2 → Nat) a + S1x64.size a ≤ S1x256.size a
  inb_S1x256_S1x64_0_192 : ∀ a, (![0, 192] : Fin 2 → Nat) a + S1x64.size a ≤ S1x256.size a
  inb_S1x64_S1x64_0_0 : ∀ a, (![0, 0] : Fin 2 → Nat) a + S1x64.size a ≤ S1x64.size a
  inb_S128x2_S128x2_0_0 : ∀ a, (![0, 0] : Fin 2 → Nat) a + S128x2.size a ≤ S128x2.size a
  h_S128x2 : 0 < S128x2.numel
  inb_S64x1_S64x1_0_0 : ∀ a, (![0, 0] : Fin 2 → Nat) a + S64x1.size a ≤ S64x1.size a
  h_S64x1 : 0 < S64x1.numel
  inb_S128x2_S64x1_0_0 : ∀ a, (![0, 0] : Fin 2 → Nat) a + S64x1.size a ≤ S128x2.size a
  inb_S128x2_S64x1_64_1 : ∀ a, (![64, 1] : Fin 2 → Nat) a + S64x1.size a ≤ S128x2.size a
  bcast_S64x512_S1x64x512_1_2 : S64x512.BroadcastsInDim S1x64x512 (![1, 2] : Fin 2 → Fin S1x64x512.rank)
  concatenates_S1x64x512_S1x64x512_S1x64x512_S3x64x512_d0 : Shape.Concatenates [S1x64x512, S1x64x512, S1x64x512] S3x64x512 0
  shapeCasts_S3x64x512_S3x32x2x512 : S3x64x512.ShapeCasts S3x32x2x512
  shapeCasts_S2x64x32768_S2x64x512x64 : S2x64x32768.ShapeCasts S2x64x512x64
  shapeCasts_S1_S1x1 : S1.ShapeCasts S1x1
  shapeCasts_S512x512_S512x512 : S512x512.ShapeCasts S512x512
  inb_S3x1x2x512_S1x1x2x512_0_0_0_0 : ∀ a, (![0, 0, 0, 0] : Fin 4 → Nat) a + S1x1x2x512.size a ≤ S3x1x2x512.size a
  h_S1x1x2x512 : 0 < S1x1x2x512.numel
  shapeCasts_S1x1x2x512_S2x512 : S1x1x2x512.ShapeCasts S2x512
  inb_S3x1x2x512_S1x1x2x512_1_0_0_0 : ∀ a, (![1, 0, 0, 0] : Fin 4 → Nat) a + S1x1x2x512.size a ≤ S3x1x2x512.size a
  inb_S3x1x2x512_S1x1x2x512_2_0_0_0 : ∀ a, (![2, 0, 0, 0] : Fin 4 → Nat) a + S1x1x2x512.size a ≤ S3x1x2x512.size a
  concatenates_S2x512_S2x512_S2x512_S6x512_d0 : Shape.Concatenates [S2x512, S2x512, S2x512] S6x512 0
  transposes_S6x512_p1_0_S512x6 : S6x512.Transposes [1, 0] S512x6
  inb_S2x2x512x64_S1x1x512x64_0_0_0_0 : ∀ a, (![0, 0, 0, 0] : Fin 4 → Nat) a + S1x1x512x64.size a ≤ S2x2x512x64.size a
  h_S1x1x512x64 : 0 < S1x1x512x64.numel
  shapeCasts_S1x1x512x64_S512x64 : S1x1x512x64.ShapeCasts S512x64
  inb_S2x2x512x64_S1x1x512x64_0_1_0_0 : ∀ a, (![0, 1, 0, 0] : Fin 4 → Nat) a + S1x1x512x64.size a ≤ S2x2x512x64.size a
  concatenates_S512x64_S512x64_S512x128_d1 : Shape.Concatenates [S512x64, S512x64] S512x128 1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  shapeCasts_S6x256_S6x256 : S6x256.ShapeCasts S6x256
  broadcasts_S1x256_S512x256 : S1x256.Broadcasts S512x256
  inb_S3x128x256_S1x128x256_0_0_0 : ∀ a, (![0, 0, 0] : Fin 3 → Nat) a + S1x128x256.size a ≤ S3x128x256.size a
  h_S1x128x256 : 0 < S1x128x256.numel
  shapeCasts_S1x128x256_S128x256 : S1x128x256.ShapeCasts S128x256
  inb_S3x128x256_S1x128x256_1_0_0 : ∀ a, (![1, 0, 0] : Fin 3 → Nat) a + S1x128x256.size a ≤ S3x128x256.size a
  inb_S3x128x256_S1x128x256_2_0_0 : ∀ a, (![2, 0, 0] : Fin 3 → Nat) a + S1x128x256.size a ≤ S3x128x256.size a
  slices_S512x256_o0_0_S512x128 : S512x256.Slices ![0, 0] S512x128
  slices_S512x256_o0_128_S512x128 : S512x256.Slices ![0, 128] S512x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S6x128_S6x128 : S6x128.ShapeCasts S6x128
  broadcasts_S1x128_S512x128 : S1x128.Broadcasts S512x128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  inb_S3x128x128_S1x128x128_1_0_0 : ∀ a, (![1, 0, 0] : Fin 3 → Nat) a + S1x128x128.size a ≤ S3x128x128.size a
  inb_S3x128x128_S1x128x128_2_0_0 : ∀ a, (![2, 0, 0] : Fin 3 → Nat) a + S1x128x128.size a ≤ S3x128x128.size a
  slices_S512x128_o0_0_S512x64 : S512x128.Slices ![0, 0] S512x64
  shapeCasts_S512x64_S1x1x512x64 : S512x64.ShapeCasts S1x1x512x64
  slices_S512x128_o0_64_S512x64 : S512x128.Slices ![0, 64] S512x64
  inb_S2x2x512x64_S1x1x512x64_1_0_0_0 : ∀ a, (![1, 0, 0, 0] : Fin 4 → Nat) a + S1x1x512x64.size a ≤ S2x2x512x64.size a
  inb_S2x2x512x64_S1x1x512x64_1_1_0_0 : ∀ a, (![1, 1, 0, 0] : Fin 4 → Nat) a + S1x1x512x64.size a ≤ S2x2x512x64.size a
  concatenates_S512x128_S512x128_S512x256_d1 : Shape.Concatenates [S512x128, S512x128] S512x256 1
  shapeCasts_S128x2_S128x2 : S128x2.ShapeCasts S128x2
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x2 : S1x1.Broadcasts S512x2
  transposes_S512x2_p1_0_S2x512 : S512x2.Transposes [1, 0] S2x512
  inb_S1x2x512_S1x2x512_0_0_0 : ∀ a, (![0, 0, 0] : Fin 3 → Nat) a + S1x2x512.size a ≤ S1x2x512.size a
  h_S1x2x512 : 0 < S1x2x512.numel
  shapeCasts_S1x2x512_S2x512 : S1x2x512.ShapeCasts S2x512
  shapeCasts_S2x512_S1x2x512 : S2x512.ShapeCasts S1x2x512
  shapeCasts_S32x2x512_S64x512 : S32x2x512.ShapeCasts S64x512
  shapeCasts_S2x64x512x64_S2x64x32768 : S2x64x512x64.ShapeCasts S2x64x32768
  dot_S64x512_S512x512_S64x512_1_0_0_1_n_n_wf : DotDims.WF S64x512 S512x512 S64x512 [1] [0] [0] [1] [] []
  dot_S512x6_S6x256_S512x256_1_0_0_1_n_n_wf : DotDims.WF S512x6 S6x256 S512x256 [1] [0] [0] [1] [] []
  dot_S512x128_S128x256_S512x256_1_0_0_1_n_n_wf : DotDims.WF S512x128 S128x256 S512x256 [1] [0] [0] [1] [] []
  dot_S512x512_S512x128_S512x128_1_0_0_1_n_n_wf : DotDims.WF S512x512 S512x128 S512x128 [1] [0] [0] [1] [] []
  dot_S512x6_S6x128_S512x128_1_0_0_1_n_n_wf : DotDims.WF S512x6 S6x128 S512x128 [1] [0] [0] [1] [] []
  dot_S512x128_S128x128_S512x128_1_0_0_1_n_n_wf : DotDims.WF S512x128 S128x128 S512x128 [1] [0] [0] [1] [] []
  dot_S512x512_S512x256_S512x256_1_0_0_1_n_n_wf : DotDims.WF S512x512 S512x256 S512x256 [1] [0] [0] [1] [] []
  dot_S512x128_S128x2_S512x2_1_0_0_1_n_n_wf : DotDims.WF S512x128 S128x2 S512x2 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole
  hstage0_13 : ∀ j, (stage0_13 j).IsWhole
  hstage0_14 : ∀ j, (stage0_14 j).IsWhole
  hstage0_15 : ∀ j, (stage0_15 j).IsWhole
  hstage0_16 : ∀ j, (stage0_16 j).IsWhole
  hstage0_17 : ∀ j, (stage0_17 j).IsWhole
  hstage0_18 : ∀ j, (stage0_18 j).IsWhole
  hstage0_19 : ∀ j, (stage0_19 j).IsWhole
  hstage0_20 : ∀ j, (stage0_20 j).IsWhole
  hstage0_21 : ∀ j, (stage0_21 j).IsWhole
  hstage0_22 : ∀ j, (stage0_22 j).IsWhole
  hstage0_23 : ∀ j, (stage0_23 j).IsWhole
  hstage0_24 : ∀ j, (stage0_24 j).IsWhole
  hstage0_25 : ∀ j, (stage0_25 j).IsWhole
  hstage0_26 : ∀ j, (stage0_26 j).IsWhole
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S512x512.size a ≤ S512x512.size a
  hwx1_0 : ∀ i : grid1.Coords, EltTy.bits .f32 = 32 ∨ (Rect.block (s := S512x512) S512x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S3x1x2x512.size a ≤ S3x32x2x512.size a
  hwx1_1 : ∀ i : grid1.Coords, EltTy.bits .f32 = 32 ∨ (Rect.block (s := S3x32x2x512) S3x1x2x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x2x512x64.size a ≤ S2x64x512x64.size a
  hwx1_2 : ∀ i : grid1.Coords, EltTy.bits .f32 = 32 ∨ (Rect.block (s := S2x64x512x64) S2x2x512x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S6x256.size a ≤ S6x256.size a
  hwx1_3 : ∀ i : grid1.Coords, EltTy.bits .f32 = 32 ∨ (Rect.block (s := S6x256) S6x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x128x256.size a ≤ S3x128x256.size a
  hwx1_4 : ∀ i : grid1.Coords, EltTy.bits .f32 = 32 ∨ (Rect.block (s := S3x128x256) S3x128x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x256.size a
  hwx1_5 : ∀ i : grid1.Coords, EltTy.bits .f32 = 32 ∨ (Rect.block (s := S1x256) S1x256.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S6x128.size a ≤ S6x128.size a
  hwx1_6 : ∀ i : grid1.Coords, EltTy.bits .f32 = 32 ∨ (Rect.block (s := S6x128) S6x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S3x128x128.size a ≤ S3x128x128.size a
  hwx1_7 : ∀ i : grid1.Coords, EltTy.bits .f32 = 32 ∨ (Rect.block (s := S3x128x128) S3x128x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x128.size a ≤ S1x128.size a
  hwx1_8 : ∀ i : grid1.Coords, EltTy.bits .f32 = 32 ∨ (Rect.block (s := S1x128) S1x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S3x128x256.size a ≤ S3x128x256.size a
  hwx1_9 : ∀ i : grid1.Coords, EltTy.bits .f32 = 32 ∨ (Rect.block (s := S3x128x256) S3x128x256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S3x128x256.size a ≤ S3x128x256.size a
  hwx1_10 : ∀ i : grid1.Coords, EltTy.bits .f32 = 32 ∨ (Rect.block (s := S3x128x256) S3x128x256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x256.size a ≤ S1x256.size a
  hwx1_11 : ∀ i : grid1.Coords, EltTy.bits .f32 = 32 ∨ (Rect.block (s := S1x256) S1x256.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S3x128x128.size a ≤ S3x128x128.size a
  hwx1_12 : ∀ i : grid1.Coords, EltTy.bits .f32 = 32 ∨ (Rect.block (s := S3x128x128) S3x128x128.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S3x128x128.size a ≤ S3x128x128.size a
  hwx1_13 : ∀ i : grid1.Coords, EltTy.bits .f32 = 32 ∨ (Rect.block (s := S3x128x128) S3x128x128.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S1x128.size a ≤ S1x128.size a
  hwx1_14 : ∀ i : grid1.Coords, EltTy.bits .f32 = 32 ∨ (Rect.block (s := S1x128) S1x128.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S128x2.size a ≤ S128x2.size a
  hwx1_15 : ∀ i : grid1.Coords, EltTy.bits .f32 = 32 ∨ (Rect.block (s := S128x2) S128x2.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S1x1.size a ≤ S1x1.size a
  hwx1_16 : ∀ i : grid1.Coords, EltTy.bits .f32 = 32 ∨ (Rect.block (s := S1x1) S1x1.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S1x2x512.size a ≤ S32x2x512.size a
  hwx1_17 : ∀ i : grid1.Coords, EltTy.bits .f32 = 32 ∨ (Rect.block (s := S32x2x512) S1x2x512.size (cc1_transform_17 i) (hinb1_17 i)).WholeWords (EltTy.packing .f32)
  hstage1_18 : ∀ j, (stage1_18 j).IsWhole
  nbuf1_18 : grid1.bufCount reads1_18 false = 2
  hreads1_18 : ∀ i i' : grid1.Coords, (∀ a, reads1_18 a = true → i a = i' a) → cc1_transform_18 i = cc1_transform_18 i'
  hinb1_18 : ∀ (i : grid1.Coords) a, (cc1_transform_18 i a + 1) * S2x2x512x64.size a ≤ S2x64x512x64.size a
  hwx1_18 : ∀ i : grid1.Coords, EltTy.bits .f32 = 32 ∨ (Rect.block (s := S2x64x512x64) S2x2x512x64.size (cc1_transform_18 i) (hinb1_18 i)).WholeWords (EltTy.packing .f32)

variable [Facts₀]

def dot_S64x512_S512x512_S64x512_1_0_0_1_n_n : DotDims S64x512 S512x512 S64x512 where
  lhsContracting := [1]
  rhsContracting := [0]
  lhsNonContracting := [0]
  rhsNonContracting := [1]
  lhsBatch := []
  rhsBatch := []
  wf := dot_S64x512_S512x512_S64x512_1_0_0_1_n_n_wf
def dot_S512x6_S6x256_S512x256_1_0_0_1_n_n : DotDims S512x6 S6x256 S512x256 where
  lhsContracting := [1]
  rhsContracting := [0]
  lhsNonContracting := [0]
  rhsNonContracting := [1]
  lhsBatch := []
  rhsBatch := []
  wf := dot_S512x6_S6x256_S512x256_1_0_0_1_n_n_wf
def dot_S512x128_S128x256_S512x256_1_0_0_1_n_n : DotDims S512x128 S128x256 S512x256 where
  lhsContracting := [1]
  rhsContracting := [0]
  lhsNonContracting := [0]
  rhsNonContracting := [1]
  lhsBatch := []
  rhsBatch := []
  wf := dot_S512x128_S128x256_S512x256_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x6_S6x128_S512x128_1_0_0_1_n_n : DotDims S512x6 S6x128 S512x128 where
  lhsContracting := [1]
  rhsContracting := [0]
  lhsNonContracting := [0]
  rhsNonContracting := [1]
  lhsBatch := []
  rhsBatch := []
  wf := dot_S512x6_S6x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S512x128_S128x2_S512x2_1_0_0_1_n_n : DotDims S512x128 S128x2 S512x2 where
  lhsContracting := [1]
  rhsContracting := [0]
  lhsNonContracting := [0]
  rhsNonContracting := [1]
  lhsBatch := []
  rhsBatch := []
  wf := dot_S512x128_S128x2_S512x2_1_0_0_1_n_n_wf

abbrev win0_0 : Pipeline.Window sig grid0 :=
  Pipeline.Window.whole (Memref.whole main_arg2) false false (stage0_0 0) (sem0_0 0) (Memref.isWhole_whole _) (hstage0_0 0)

abbrev win0_1 : Pipeline.Window sig grid0 :=
  Pipeline.Window.whole (Memref.whole main_arg0) false false (stage0_1 0) (sem0_1 0) (Memref.isWhole_whole _) (hstage0_1 0)

abbrev win0_2 : Pipeline.Window sig grid0 :=
  Pipeline.Window.whole (Memref.whole main_v1) false false (stage0_2 0) (sem0_2 0) (Memref.isWhole_whole _) (hstage0_2 0)

abbrev win0_3 : Pipeline.Window sig grid0 :=
  Pipeline.Window.whole (Memref.whole main_v3) false false (stage0_3 0) (sem0_3 0) (Memref.isWhole_whole _) (hstage0_3 0)

abbrev win0_4 : Pipeline.Window sig grid0 :=
  Pipeline.Window.whole (Memref.whole main_v5) false false (stage0_4 0) (sem0_4 0) (Memref.isWhole_whole _) (hstage0_4 0)

abbrev win0_5 : Pipeline.Window sig grid0 :=
  Pipeline.Window.whole (Memref.whole main_v7) false false (stage0_5 0) (sem0_5 0) (Memref.isWhole_whole _) (hstage0_5 0)

abbrev win0_6 : Pipeline.Window sig grid0 :=
  Pipeline.Window.whole (Memref.whole main_v8) false false (stage0_6 0) (sem0_6 0) (Memref.isWhole_whole _) (hstage0_6 0)

abbrev win0_7 : Pipeline.Window sig grid0 :=
  Pipeline.Window.whole (Memref.whole main_v9) false false (stage0_7 0) (sem0_7 0) (Memref.isWhole_whole _) (hstage0_7 0)

abbrev win0_8 : Pipeline.Window sig grid0 :=
  Pipeline.Window.whole (Memref.whole main_v10) false false (stage0_8 0) (sem0_8 0) (Memref.isWhole_whole _) (hstage0_8 0)

abbrev win0_9 : Pipeline.Window sig grid0 :=
  Pipeline.Window.whole (Memref.whole main_v11) false false (stage0_9 0) (sem0_9 0) (Memref.isWhole_whole _) (hstage0_9 0)

abbrev win0_10 : Pipeline.Window sig grid0 :=
  Pipeline.Window.whole (Memref.whole main_arg11) false false (stage0_10 0) (sem0_10 0) (Memref.isWhole_whole _) (hstage0_10 0)

abbrev win0_11 : Pipeline.Window sig grid0 :=
  Pipeline.Window.whole (Memref.whole main_v12_0) true false (stage0_11 0) (sem0_11 0) (Memref.isWhole_whole _) (hstage0_11 0)

abbrev win0_12 : Pipeline.Window sig grid0 :=
  Pipeline.Window.whole (Memref.whole main_v12_1) true false (stage0_12 0) (sem0_12 0) (Memref.isWhole_whole _) (hstage0_12 0)

abbrev win0_13 : Pipeline.Window sig grid0 :=
  Pipeline.Window.whole (Memref.whole main_v12_2) true false (stage0_13 0) (sem0_13 0) (Memref.isWhole_whole _) (hstage0_13 0)

abbrev win0_14 : Pipeline.Window sig grid0 :=
  Pipeline.Window.whole (Memref.whole main_v12_3) true false (stage0_14 0) (sem0_14 0) (Memref.isWhole_whole _) (hstage0_14 0)

abbrev win0_15 : Pipeline.Window sig grid0 :=
  Pipeline.Window.whole (Memref.whole main_v12_4) true false (stage0_15 0) (sem0_15 0) (Memref.isWhole_whole _) (hstage0_15 0)

abbrev win0_16 : Pipeline.Window sig grid0 :=
  Pipeline.Window.whole (Memref.whole main_v12_5) true false (stage0_16 0) (sem0_16 0) (Memref.isWhole_whole _) (hstage0_16 0)

abbrev win0_17 : Pipeline.Window sig grid0 :=
  Pipeline.Window.whole (Memref.whole main_v12_6) true false (stage0_17 0) (sem0_17 0) (Memref.isWhole_whole _) (hstage0_17 0)

abbrev win0_18 : Pipeline.Window sig grid0 :=
  Pipeline.Window.whole (Memref.whole main_v12_7) true false (stage0_18 0) (sem0_18 0) (Memref.isWhole_whole _) (hstage0_18 0)

abbrev win0_19 : Pipeline.Window sig grid0 :=
  Pipeline.Window.whole (Memref.whole main_v12_8) true false (stage0_19 0) (sem0_19 0) (Memref.isWhole_whole _) (hstage0_19 0)

abbrev win0_20 : Pipeline.Window sig grid0 :=
  Pipeline.Window.whole (Memref.whole main_v12_9) true false (stage0_20 0) (sem0_20 0) (Memref.isWhole_whole _) (hstage0_20 0)

abbrev win0_21 : Pipeline.Window sig grid0 :=
  Pipeline.Window.whole (Memref.whole main_v12_10) true false (stage0_21 0) (sem0_21 0) (Memref.isWhole_whole _) (hstage0_21 0)

abbrev win0_22 : Pipeline.Window sig grid0 :=
  Pipeline.Window.whole (Memref.whole main_v12_11) true false (stage0_22 0) (sem0_22 0) (Memref.isWhole_whole _) (hstage0_22 0)

abbrev win0_23 : Pipeline.Window sig grid0 :=
  Pipeline.Window.whole (Memref.whole main_v12_12) true false (stage0_23 0) (sem0_23 0) (Memref.isWhole_whole _) (hstage0_23 0)

abbrev win0_24 : Pipeline.Window sig grid0 :=
  Pipeline.Window.whole (Memref.whole main_v12_13) true false (stage0_24 0) (sem0_24 0) (Memref.isWhole_whole _) (hstage0_24 0)

abbrev win0_25 : Pipeline.Window sig grid0 :=
  Pipeline.Window.whole (Memref.whole main_v12_14) true false (stage0_25 0) (sem0_25 0) (Memref.isWhole_whole _) (hstage0_25 0)

abbrev win0_26 : Pipeline.Window sig grid0 :=
  Pipeline.Window.whole (Memref.whole main_v12_15) true false (stage0_26 0) (sem0_26 0) (Memref.isWhole_whole _) (hstage0_26 0)

abbrev win0 : Fin 27 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | ⟨_ + 27, h⟩ => absurd h (Nat.not_lt.2 (Nat.le_add_left _ _))
abbrev spec0 : Fin 27 → Pipeline.WinSpec sig grid0.rank := fun w => (win0 w).toWinSpec

abbrev win1_0 : Pipeline.Window sig grid1 :=
  Pipeline.Window.ofSpec (Memref.whole main_v12_0) S512x512.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v17) S3x1x2x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S2x2x512x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12_3) S6x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12_4) S3x128x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v12_5) S1x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v12_6) S6x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v12_7) S3x128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v12_8) S1x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v12_9) S3x128x256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v12_10) S3x128x256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v12_11) S1x256.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_v12_12) S3x128x128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v12_13) S3x128x128.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_v12_14) S1x128.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_v12_15) S128x2.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_v19) S1x1.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v20_0) S1x2x512.size cc1_transform_17 reads1_17 true false 2 stage1_17 sem1_17
    hrank1 hreads1_17 hinb1_17 nbuf1_17 (Memref.isWhole_whole _) hwx1_17 hstage1_17

abbrev win1_18 : Pipeline.Window sig grid1 :=
  Pipeline.Window.ofSpec (Memref.whole main_v20_1) S2x2x512x64.size cc1_transform_18 reads1_18 true false 2 stage1_18 sem1_18
    hrank1 hreads1_18 hinb1_18 nbuf1_18 (Memref.isWhole_whole _) hwx1_18 hstage1_18

abbrev win1 : Fin 19 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | 18 => win1_18 | ⟨_ + 19, h⟩ => absurd h (Nat.not_lt.2 (Nat.le_add_left _ _))
abbrev spec1 : Fin 19 → Pipeline.WinSpec sig grid1.rank := fun w => (win1 w).toWinSpec

class Facts : Prop extends Facts₀ where

variable [Facts]
-- ==== ReferenceIdeal.lean ====
abbrev S64x512 : Shape := ⟨2, ![64, 512]⟩
abbrev S2x64x32768 : Shape := ⟨3, ![2, 64, 32768]⟩
abbrev S512x512 : Shape := ⟨2, ![512, 512]⟩
abbrev S195x128 : Shape := ⟨2, ![195, 128]⟩
abbrev S128 : Shape := ⟨1, ![128]⟩
abbrev S195x64 : Shape := ⟨2, ![195, 64]⟩
abbrev S64 : Shape := ⟨1, ![64]⟩
abbrev S384x128 : Shape := ⟨2, ![384, 128]⟩
abbrev S384x64 : Shape := ⟨2, ![384, 64]⟩
abbrev S64x1 : Shape := ⟨2, ![64, 1]⟩
abbrev S1 : Shape := ⟨1, ![1]⟩
abbrev S_ : Shape := ⟨0, ![]⟩
abbrev S512 : Shape := ⟨1, ![512]⟩
abbrev S512x1 : Shape := ⟨2, ![512, 1]⟩
abbrev S1x512 : Shape := ⟨2, ![1, 512]⟩
abbrev S1x64x32768 : Shape := ⟨3, ![1, 64, 32768]⟩
abbrev S64x32768 : Shape := ⟨2, ![64, 32768]⟩
abbrev S64x512x1 : Shape := ⟨3, ![64, 512, 1]⟩
abbrev S64x512x64 : Shape := ⟨3, ![64, 512, 64]⟩
abbrev S64x512x65 : Shape := ⟨3, ![64, 512, 65]⟩
abbrev S512x65x64 : Shape := ⟨3, ![512, 65, 64]⟩
abbrev S512x4160 : Shape := ⟨2, ![512, 4160]⟩
abbrev S1x512x4160 : Shape := ⟨3, ![1, 512, 4160]⟩
abbrev S3x512x4160 : Shape := ⟨3, ![3, 512, 4160]⟩
abbrev S3x512x65x64 : Shape := ⟨4, ![3, 512, 65, 64]⟩
abbrev S64x512x65x3 : Shape := ⟨4, ![64, 512, 65, 3]⟩
abbrev S32768x195 : Shape := ⟨2, ![32768, 195]⟩
abbrev S32768x128 : Shape := ⟨2, ![32768, 128]⟩
abbrev S1x128 : Shape := ⟨2, ![1, 128]⟩
abbrev S64x65536 : Shape := ⟨2, ![64, 65536]⟩
abbrev S64x512x128 : Shape := ⟨3, ![64, 512, 128]⟩
abbrev S32768x64 : Shape := ⟨2, ![32768, 64]⟩
abbrev S1x64 : Shape := ⟨2, ![1, 64]⟩
abbrev S512x128x64 : Shape := ⟨3, ![512, 128, 64]⟩
abbrev S512x8192 : Shape := ⟨2, ![512, 8192]⟩
abbrev S1x512x8192 : Shape := ⟨3, ![1, 512, 8192]⟩
abbrev S3x512x8192 : Shape := ⟨3, ![3, 512, 8192]⟩
abbrev S3x512x128x64 : Shape := ⟨4, ![3, 512, 128, 64]⟩
abbrev S64x512x128x3 : Shape := ⟨4, ![64, 512, 128, 3]⟩
abbrev S32768x384 : Shape := ⟨2, ![32768, 384]⟩
abbrev S32768x1 : Shape := ⟨2, ![32768, 1]⟩
abbrev S1x1 : Shape := ⟨2, ![1, 1]⟩

abbrev nBuf : Space → Nat
  | .hbm => 200
  | .vmem => 0
  | .smem => 0
  | _ => 0

abbrev hbmTy0_0 (i : Nat) : BufTy := match i % 128 with
  | 0 => ⟨S64x512, .f32⟩
  | 1 => ⟨S2x64x32768, .f32⟩
  | 2 => ⟨S512x512, .f32⟩
  | 3 => ⟨S195x128, .f32⟩
  | 4 => ⟨S128, .f32⟩
  | 5 => ⟨S195x64, .f32⟩
  | 6 => ⟨S64, .f32⟩
  | 7 => ⟨S384x128, .f32⟩
  | 8 => ⟨S128, .f32⟩
  | 9 => ⟨S384x64, .f32⟩
  | 10 => ⟨S64, .f32⟩
  | 11 => ⟨S64x1, .f32⟩
  | 12 => ⟨S1, .f32⟩
  | 13 => ⟨S512x512, .f32⟩
  | 14 => ⟨S512x512, .f32⟩
  | 15 => ⟨S_, .f32⟩
  | 16 => ⟨S512, .f32⟩
  | 17 => ⟨S_, .f32⟩
  | 18 => ⟨S512, .f32⟩
  | 19 => ⟨S512, .i1⟩
  | 20 => ⟨S512, .f32⟩
  | 21 => ⟨S_, .f32⟩
  | 22 => ⟨S512, .f32⟩
  | 23 => ⟨S512, .f32⟩
  | 24 => ⟨S_, .f32⟩
  | 25 => ⟨S_, .f32⟩
  | 26 => ⟨S512, .f32⟩
  | 27 => ⟨S512, .f32⟩
  | 28 => ⟨S512x512, .i32⟩
  | 29 => ⟨S512x512, .i32⟩
  | 30 => ⟨S_, .i32⟩
  | 31 => ⟨S512x512, .i32⟩
  | 32 => ⟨S512x512, .i32⟩
  | 33 => ⟨S512x512, .i1⟩
  | 34 => ⟨S512x512, .f32⟩
  | 35 => ⟨S512x1, .f32⟩
  | 36 => ⟨S512x512, .f32⟩
  | 37 => ⟨S512x512, .f32⟩
  | 38 => ⟨S1x512, .f32⟩
  | 39 => ⟨S512x512, .f32⟩
  | 40 => ⟨S512x512, .f32⟩
  | 41 => ⟨S512x512, .f32⟩
  | 42 => ⟨S_, .f32⟩
  | 43 => ⟨S512x512, .f32⟩
  | 44 => ⟨S512x512, .f32⟩
  | 45 => ⟨S512x512, .i32⟩
  | 46 => ⟨S512x512, .i32⟩
  | 47 => ⟨S_, .i32⟩
  | 48 => ⟨S512x512, .i32⟩
  | 49 => ⟨S512x512, .i32⟩
  | 50 => ⟨S512x512, .i1⟩
  | 51 => ⟨S512x512, .f32⟩
  | 52 => ⟨S512x512, .f32⟩
  | 53 => ⟨S1x64x32768, .f32⟩
  | 54 => ⟨S64x32768, .f32⟩
  | 55 => ⟨S64x512x1, .f32⟩
  | 56 => ⟨S64x512x64, .f32⟩
  | 57 => ⟨S64x512x65, .f32⟩
  | 58 => ⟨S512x65x64, .f32⟩
  | 59 => ⟨S512x4160, .f32⟩
  | 60 => ⟨S512x4160, .f32⟩
  | 61 => ⟨S512x4160, .f32⟩
  | 62 => ⟨S_, .f32⟩
  | 63 => ⟨S512x4160, .f32⟩
  | 64 => ⟨S512x4160, .f32⟩
  | 65 => ⟨S512x4160, .f32⟩
  | 66 => ⟨S1x512x4160, .f32⟩
  | 67 => ⟨S1x512x4160, .f32⟩
  | 68 => ⟨S1x512x4160, .f32⟩
  | 69 => ⟨S3x512x4160, .f32⟩
  | 70 => ⟨S3x512x65x64, .f32⟩
  | 71 => ⟨S64x512x65x3, .f32⟩
  | 72 => ⟨S32768x195, .f32⟩
  | 73 => ⟨S32768x128, .f32⟩
  | 74 => ⟨S1x128, .f32⟩
  | 75 => ⟨S32768x128, .f32⟩
  | 76 => ⟨S32768x128, .f32⟩
  | 77 => ⟨S64x65536, .f32⟩
  | 78 => ⟨S64x65536, .f32⟩
  | 79 => ⟨S64x65536, .f32⟩
  | 80 => ⟨S_, .f32⟩
  | 81 => ⟨S64x65536, .f32⟩
  | 82 => ⟨S64x65536, .f32⟩
  | 83 => ⟨S_, .f32⟩
  | 84 => ⟨S64x65536, .f32⟩
  | 85 => ⟨S64x65536, .f32⟩
  | 86 => ⟨S64x512x128, .f32⟩
  | 87 => ⟨S64x512x64, .f32⟩
  | 88 => ⟨S64x32768, .f32⟩
  | 89 => ⟨S64x512x64, .f32⟩
  | 90 => ⟨S64x32768, .f32⟩
  | 91 => ⟨S64x32768, .f32⟩
  | 92 => ⟨S64x512x1, .f32⟩
  | 93 => ⟨S64x512x64, .f32⟩
  | 94 => ⟨S64x512x65, .f32⟩
  | 95 => ⟨S512x65x64, .f32⟩
  | 96 => ⟨S512x4160, .f32⟩
  | 97 => ⟨S512x4160, .f32⟩
  | 98 => ⟨S512x4160, .f32⟩
  | 99 => ⟨S_, .f32⟩
  | 100 => ⟨S512x4160, .f32⟩
  | 101 => ⟨S512x4160, .f32⟩
  | 102 => ⟨S512x4160, .f32⟩
  | 103 => ⟨S1x512x4160, .f32⟩
  | 104 => ⟨S1x512x4160, .f32⟩
  | 105 => ⟨S1x512x4160, .f32⟩
  | 106 => ⟨S3x512x4160, .f32⟩
  | 107 => ⟨S3x512x65x64, .f32⟩
  | 108 => ⟨S64x512x65x3, .f32⟩
  | 109 => ⟨S32768x195, .f32⟩
  | 110 => ⟨S32768x64, .f32⟩
  | 111 => ⟨S1x64, .f32⟩
  | 112 => ⟨S32768x64, .f32⟩
  | 113 => ⟨S32768x64, .f32⟩
  | 114 => ⟨S64x32768, .f32⟩
  | 115 => ⟨S64x32768, .f32⟩
  | 116 => ⟨S64x32768, .f32⟩
  | 117 => ⟨S_, .f32⟩
  | 118 => ⟨S64x32768, .f32⟩
  | 119 => ⟨S64x32768, .f32⟩
  | 120 => ⟨S64x32768, .f32⟩
  | 121 => ⟨S64x32768, .f32⟩
  | 122 => ⟨S1x64x32768, .f32⟩
  | 123 => ⟨S64x32768, .f32⟩
  | 124 => ⟨S64x512x64, .f32⟩
  | 125 => ⟨S64x512x64, .f32⟩
  | 126 => ⟨S64x512x128, .f32⟩
  | 127 => ⟨S512x128x64, .f32⟩
  | _ => ⟨S64x512, .f32⟩

abbrev hbmTy0_1 (i : Nat) : BufTy := match i % 128 with
  | 0 => ⟨S512x8192, .f32⟩
  | 1 => ⟨S512x8192, .f32⟩
  | 2 => ⟨S512x8192, .f32⟩
  | 3 => ⟨S_, .f32⟩
  | 4 => ⟨S512x8192, .f32⟩
  | 5 => ⟨S512x8192, .f32⟩
  | 6 => ⟨S512x8192, .f32⟩
  | 7 => ⟨S1x512x8192, .f32⟩
  | 8 => ⟨S1x512x8192, .f32⟩
  | 9 => ⟨S1x512x8192, .f32⟩
  | 10 => ⟨S3x512x8192, .f32⟩
  | 11 => ⟨S3x512x128x64, .f32⟩
  | 12 => ⟨S64x512x128x3, .f32⟩
  | 13 => ⟨S32768x384, .f32⟩
  | 14 => ⟨S32768x128, .f32⟩
  | 15 => ⟨S1x128, .f32⟩
  | 16 => ⟨S32768x128, .f32⟩
  | 17 => ⟨S32768x128, .f32⟩
  | 18 => ⟨S64x65536, .f32⟩
  | 19 => ⟨S64x65536, .f32⟩
  | 20 => ⟨S64x65536, .f32⟩
  | 21 => ⟨S_, .f32⟩
  | 22 => ⟨S64x65536, .f32⟩
  | 23 => ⟨S64x65536, .f32⟩
  | 24 => ⟨S_, .f32⟩
  | 25 => ⟨S64x65536, .f32⟩
  | 26 => ⟨S64x65536, .f32⟩
  | 27 => ⟨S64x512x128, .f32⟩
  | 28 => ⟨S64x512x64, .f32⟩
  | 29 => ⟨S64x32768, .f32⟩
  | 30 => ⟨S64x512x64, .f32⟩
  | 31 => ⟨S64x32768, .f32⟩
  | 32 => ⟨S64x32768, .f32⟩
  | 33 => ⟨S64x512x64, .f32⟩
  | 34 => ⟨S64x512x64, .f32⟩
  | 35 => ⟨S64x512x128, .f32⟩
  | 36 => ⟨S512x128x64, .f32⟩
  | 37 => ⟨S512x8192, .f32⟩
  | 38 => ⟨S512x8192, .f32⟩
  | 39 => ⟨S512x8192, .f32⟩
  | 40 => ⟨S_, .f32⟩
  | 41 => ⟨S512x8192, .f32⟩
  | 42 => ⟨S512x8192, .f32⟩
  | 43 => ⟨S512x8192, .f32⟩
  | 44 => ⟨S1x512x8192, .f32⟩
  | 45 => ⟨S1x512x8192, .f32⟩
  | 46 => ⟨S1x512x8192, .f32⟩
  | 47 => ⟨S3x512x8192, .f32⟩
  | 48 => ⟨S3x512x128x64, .f32⟩
  | 49 => ⟨S64x512x128x3, .f32⟩
  | 50 => ⟨S32768x384, .f32⟩
  | 51 => ⟨S32768x64, .f32⟩
  | 52 => ⟨S1x64, .f32⟩
  | 53 => ⟨S32768x64, .f32⟩
  | 54 => ⟨S32768x64, .f32⟩
  | 55 => ⟨S64x32768, .f32⟩
  | 56 => ⟨S64x32768, .f32⟩
  | 57 => ⟨S64x32768, .f32⟩
  | 58 => ⟨S_, .f32⟩
  | 59 => ⟨S64x32768, .f32⟩
  | 60 => ⟨S64x32768, .f32⟩
  | 61 => ⟨S64x32768, .f32⟩
  | 62 => ⟨S64x32768, .f32⟩
  | 63 => ⟨S32768x64, .f32⟩
  | 64 => ⟨S32768x1, .f32⟩
  | 65 => ⟨S1x1, .f32⟩
  | 66 => ⟨S32768x1, .f32⟩
  | 67 => ⟨S32768x1, .f32⟩
  | 68 => ⟨S64x512, .f32⟩
  | 69 => ⟨S1x64x32768, .f32⟩
  | 70 => ⟨S1x64x32768, .f32⟩
  | 71 => ⟨S2x64x32768, .f32⟩
  | _ => ⟨S64x512, .f32⟩

abbrev hbmTy (i : Nat) : BufTy := match i / 128 with
  | 0 => hbmTy0_0 i
  | 1 => hbmTy0_1 i
  | _ => ⟨S64x512, .f32⟩

abbrev bufTy : (tb : Table) → Fin (tcTables nBuf tb) → BufTy
  | .hbm, ⟨i, _⟩ => hbmTy i
  | _, _ => ⟨S64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_cst_0 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_c : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_5 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_6 : Ref sig .tc := ⟨.hbm, 80, rfl⟩
abbrev main_v57 : Ref sig .tc := ⟨.hbm, 81, rfl⟩
abbrev main_v58 : Ref sig .tc := ⟨.hbm, 82, rfl⟩
abbrev main_cst_7 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_8 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_cst_9 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_10 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_v115 : Ref sig .tc := ⟨.hbm, 143, rfl⟩
abbrev main_v116 : Ref sig .tc := ⟨.hbm, 144, rfl⟩
abbrev main_v117 : Ref sig .tc := ⟨.hbm, 145, rfl⟩
abbrev main_v118 : Ref sig .tc := ⟨.hbm, 146, rfl⟩
abbrev main_v119 : Ref sig .tc := ⟨.hbm, 147, rfl⟩
abbrev main_v120 : Ref sig .tc := ⟨.hbm, 148, rfl⟩
abbrev main_cst_11 : Ref sig .tc := ⟨.hbm, 149, rfl⟩
abbrev main_v121 : Ref sig .tc := ⟨.hbm, 150, rfl⟩
abbrev main_v122 : Ref sig .tc := ⟨.hbm, 151, rfl⟩
abbrev main_cst_12 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_13 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_v152 : Ref sig .tc := ⟨.hbm, 183, rfl⟩
abbrev main_v153 : Ref sig .tc := ⟨.hbm, 184, rfl⟩
abbrev main_v154 : Ref sig .tc := ⟨.hbm, 185, rfl⟩
abbrev main_cst_14 : Ref sig .tc := ⟨.hbm, 186, rfl⟩
abbrev main_v155 : Ref sig .tc := ⟨.hbm, 187, rfl⟩
abbrev main_v156 : Ref sig .tc := ⟨.hbm, 188, rfl⟩
abbrev main_v157 : Ref sig .tc := ⟨.hbm, 189, rfl⟩
abbrev main_v158 : Ref sig .tc := ⟨.hbm, 190, rfl⟩
abbrev main_v159 : Ref sig .tc := ⟨.hbm, 191, rfl⟩
abbrev main_v160 : Ref sig .tc := ⟨.hbm, 192, rfl⟩
abbrev main_v161 : Ref sig .tc := ⟨.hbm, 193, rfl⟩
abbrev main_v162 : Ref sig .tc := ⟨.hbm, 194, rfl⟩
abbrev main_v163 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩

abbrev nD : Nat := 1
abbrev τ : Topo := Topo.v7x

variable {F : FTy → Type} [FloatOps F]

class Facts₀ : Prop where
  transposes_S512x512_S512x512_1_0 : S512x512.Transposes [1, 0] S512x512
  reducesTo_S512x512_S512_d1 : S512x512.ReducesTo [1] S512
  h_S_ : 0 < S_.numel
  bcast_S_S512 : S_.BroadcastsInDim S512 (![] : Fin 0 → Fin S512.rank)
  bcast_S_S512x512 : S_.BroadcastsInDim S512x512 (![] : Fin 0 → Fin S512x512.rank)
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  slices_S2x64x32768_S1x64x32768_0_0_0 : S2x64x32768.Slices ![0, 0, 0] S1x64x32768
  shapeCasts_S1x64x32768_S64x32768 : S1x64x32768.ShapeCasts S64x32768
  shapeCasts_S64x512_S64x512x1 : S64x512.ShapeCasts S64x512x1
  shapeCasts_S64x32768_S64x512x64 : S64x32768.ShapeCasts S64x512x64
  concatenates_S64x512x1_S64x512x64_S64x512x65_d2 : Shape.Concatenates [S64x512x1, S64x512x64] S64x512x65 2
  transposes_S64x512x65_S512x65x64_1_2_0 : S64x512x65.Transposes [1, 2, 0] S512x65x64
  shapeCasts_S512x65x64_S512x4160 : S512x65x64.ShapeCasts S512x4160
  bcast_S_S512x4160 : S_.BroadcastsInDim S512x4160 (![] : Fin 0 → Fin S512x4160.rank)
  bcast_S512x4160_S1x512x4160_1_2 : S512x4160.BroadcastsInDim S1x512x4160 (![1, 2] : Fin 2 → Fin S1x512x4160.rank)
  concatenates_S1x512x4160_S1x512x4160_S1x512x4160_S3x512x4160_d0 : Shape.Concatenates [S1x512x4160, S1x512x4160, S1x512x4160] S3x512x4160 0
  shapeCasts_S3x512x4160_S3x512x65x64 : S3x512x4160.ShapeCasts S3x512x65x64
  transposes_S3x512x65x64_S64x512x65x3_3_1_2_0 : S3x512x65x64.Transposes [3, 1, 2, 0] S64x512x65x3
  shapeCasts_S64x512x65x3_S32768x195 : S64x512x65x3.ShapeCasts S32768x195
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  shapeCasts_S32768x128_S64x65536 : S32768x128.ShapeCasts S64x65536
  bcast_S_S64x65536 : S_.BroadcastsInDim S64x65536 (![] : Fin 0 → Fin S64x65536.rank)
  shapeCasts_S64x65536_S64x512x128 : S64x65536.ShapeCasts S64x512x128
  slices_S64x512x128_S64x512x64_0_0_0 : S64x512x128.Slices ![0, 0, 0] S64x512x64
  shapeCasts_S64x512x64_S64x32768 : S64x512x64.ShapeCasts S64x32768
  slices_S64x512x128_S64x512x64_0_0_64 : S64x512x128.Slices ![0, 0, 64] S64x512x64
  bcast_S64_S1x64_1 : S64.BroadcastsInDim S1x64 (![1] : Fin 1 → Fin S1x64.rank)
  bcast_S1x64_S32768x64_0_1 : S1x64.BroadcastsInDim S32768x64 (![0, 1] : Fin 2 → Fin S32768x64.rank)
  shapeCasts_S32768x64_S64x32768 : S32768x64.ShapeCasts S64x32768
  bcast_S_S64x32768 : S_.BroadcastsInDim S64x32768 (![] : Fin 0 → Fin S64x32768.rank)
  slices_S2x64x32768_S1x64x32768_1_0_0 : S2x64x32768.Slices ![1, 0, 0] S1x64x32768
  concatenates_S64x512x64_S64x512x64_S64x512x128_d2 : Shape.Concatenates [S64x512x64, S64x512x64] S64x512x128 2
  transposes_S64x512x128_S512x128x64_1_2_0 : S64x512x128.Transposes [1, 2, 0] S512x128x64
  shapeCasts_S512x128x64_S512x8192 : S512x128x64.ShapeCasts S512x8192
  bcast_S_S512x8192 : S_.BroadcastsInDim S512x8192 (![] : Fin 0 → Fin S512x8192.rank)
  bcast_S512x8192_S1x512x8192_1_2 : S512x8192.BroadcastsInDim S1x512x8192 (![1, 2] : Fin 2 → Fin S1x512x8192.rank)
  concatenates_S1x512x8192_S1x512x8192_S1x512x8192_S3x512x8192_d0 : Shape.Concatenates [S1x512x8192, S1x512x8192, S1x512x8192] S3x512x8192 0
  shapeCasts_S3x512x8192_S3x512x128x64 : S3x512x8192.ShapeCasts S3x512x128x64
  transposes_S3x512x128x64_S64x512x128x3_3_1_2_0 : S3x512x128x64.Transposes [3, 1, 2, 0] S64x512x128x3
  shapeCasts_S64x512x128x3_S32768x384 : S64x512x128x3.ShapeCasts S32768x384
  shapeCasts_S64x32768_S32768x64 : S64x32768.ShapeCasts S32768x64
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  shapeCasts_S32768x1_S64x512 : S32768x1.ShapeCasts S64x512
  bcast_S64x32768_S1x64x32768_1_2 : S64x32768.BroadcastsInDim S1x64x32768 (![1, 2] : Fin 2 → Fin S1x64x32768.rank)
  concatenates_S1x64x32768_S1x64x32768_S2x64x32768_d0 : Shape.Concatenates [S1x64x32768, S1x64x32768] S2x64x32768 0
  dot_S512x512_S512x4160_S512x4160_1_0_0_1_n_n_wf : DotDims.WF S512x512 S512x4160 S512x4160 [1] [0] [0] [1] [] []
  dot_S32768x195_S195x128_S32768x128_1_0_0_1_n_n_wf : DotDims.WF S32768x195 S195x128 S32768x128 [1] [0] [0] [1] [] []
  dot_S32768x195_S195x64_S32768x64_1_0_0_1_n_n_wf : DotDims.WF S32768x195 S195x64 S32768x64 [1] [0] [0] [1] [] []
  dot_S512x512_S512x8192_S512x8192_1_0_0_1_n_n_wf : DotDims.WF S512x512 S512x8192 S512x8192 [1] [0] [0] [1] [] []
  dot_S32768x384_S384x128_S32768x128_1_0_0_1_n_n_wf : DotDims.WF S32768x384 S384x128 S32768x128 [1] [0] [0] [1] [] []
  dot_S32768x384_S384x64_S32768x64_1_0_0_1_n_n_wf : DotDims.WF S32768x384 S384x64 S32768x64 [1] [0] [0] [1] [] []
  dot_S32768x64_S64x1_S32768x1_1_0_0_1_n_n_wf : DotDims.WF S32768x64 S64x1 S32768x1 [1] [0] [0] [1] [] []

variable [Facts₀]

def dot_S512x512_S512x4160_S512x4160_1_0_0_1_n_n : DotDims S512x512 S512x4160 S512x4160 where
  lhsContracting := [1]
  rhsContracting := [0]
  lhsNonContracting := [0]
  rhsNonContracting := [1]
  lhsBatch := []
  rhsBatch := []
  wf := dot_S512x512_S512x4160_S512x4160_1_0_0_1_n_n_wf
def dot_S32768x195_S195x128_S32768x128_1_0_0_1_n_n : DotDims S32768x195 S195x128 S32768x128 where
  lhsContracting := [1]
  rhsContracting := [0]
  lhsNonContracting := [0]
  rhsNonContracting := [1]
  lhsBatch := []
  rhsBatch := []
  wf := dot_S32768x195_S195x128_S32768x128_1_0_0_1_n_n_wf
def dot_S32768x195_S195x64_S32768x64_1_0_0_1_n_n : DotDims S32768x195 S195x64 S32768x64 where
  lhsContracting := [1]
  rhsContracting := [0]
  lhsNonContracting := [0]
  rhsNonContracting := [1]
  lhsBatch := []
  rhsBatch := []
  wf := dot_S32768x195_S195x64_S32768x64_1_0_0_1_n_n_wf
def dot_S512x512_S512x8192_S512x8192_1_0_0_1_n_n : DotDims S512x512 S512x8192 S512x8192 where
  lhsContracting := [1]
  rhsContracting := [0]
  lhsNonContracting := [0]
  rhsNonContracting := [1]
  lhsBatch := []
  rhsBatch := []
  wf := dot_S512x512_S512x8192_S512x8192_1_0_0_1_n_n_wf
def dot_S32768x384_S384x128_S32768x128_1_0_0_1_n_n : DotDims S32768x384 S384x128 S32768x128 where
  lhsContracting := [1]
  rhsContracting := [0]
  lhsNonContracting := [0]
  rhsNonContracting := [1]
  lhsBatch := []
  rhsBatch := []
  wf := dot_S32768x384_S384x128_S32768x128_1_0_0_1_n_n_wf
def dot_S32768x384_S384x64_S32768x64_1_0_0_1_n_n : DotDims S32768x384 S384x64 S32768x64 where
  lhsContracting := [1]
  rhsContracting := [0]
  lhsNonContracting := [0]
  rhsNonContracting := [1]
  lhsBatch := []
  rhsBatch := []
  wf := dot_S32768x384_S384x64_S32768x64_1_0_0_1_n_n_wf
def dot_S32768x64_S64x1_S32768x1_1_0_0_1_n_n : DotDims S32768x64 S64x1 S32768x1 where
  lhsContracting := [1]
  rhsContracting := [0]
  lhsNonContracting := [0]
  rhsNonContracting := [1]
  lhsBatch := []
  rhsBatch := []
  wf := dot_S32768x64_S64x1_S32768x1_1_0_0_1_n_n_wf

class Facts : Prop extends Facts₀ where

variable [Facts]
-- ==== Proof.KI.Frame0.lean ====
import proofs.«105208_g19069654794669_cont_sun_m_30_30_alg».proof.Proof.Gen.KernelIdeal.Launch
import proofs.«105208_g19069654794669_cont_sun_m_30_30_alg».proof.Proof.Gen.KernelIdeal.Skeleton
import proofs.«105208_g19069654794669_cont_sun_m_30_30_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev box_S512x512_S512x512_0_0 : Rect S512x512 := Rect.unit (s := S512x512) ![0, 0] S512x512.size inb_S512x512_S512x512_0_0
abbrev box_S64x512_S64x512_0_0 : Rect S64x512 := Rect.unit (s := S64x512) ![0, 0] S64x512.size inb_S64x512_S64x512_0_0
abbrev box_S6x256_S6x256_0_0 : Rect S6x256 := Rect.unit (s := S6x256) ![0, 0] S6x256.size inb_S6x256_S6x256_0_0
abbrev box_S6x128_S6x128_0_0 : Rect S6x128 := Rect.unit (s := S6x128) ![0, 0] S6x128.size inb_S6x128_S6x128_0_0
abbrev box_S3x128x256_S3x128x256_0_0_0 : Rect S3x128x256 := Rect.unit (s := S3x128x256) ![0, 0, 0] S3x128x256.size inb_S3x128x256_S3x128x256_0_0_0
abbrev box_S3x128x128_S3x128x128_0_0_0 : Rect S3x128x128 := Rect.unit (s := S3x128x128) ![0, 0, 0] S3x128x128.size inb_S3x128x128_S3x128x128_0_0_0
abbrev box_S3x65x128_S1x1x64_0_0_0 : Rect S3x65x128 := Rect.unit (s := S3x65x128) ![0, 0, 0] S1x1x64.size inb_S3x65x128_S1x1x64_0_0_0
abbrev box_S6x256_S1x64_0_0 : Rect S6x256 := Rect.unit (s := S6x256) ![0, 0] S1x64.size inb_S6x256_S1x64_0_0
abbrev box_S3x65x128_S1x1x64_0_0_64 : Rect S3x65x128 := Rect.unit (s := S3x65x128) ![0, 0, 64] S1x1x64.size inb_S3x65x128_S1x1x64_0_0_64
abbrev box_S6x256_S1x64_0_128 : Rect S6x256 := Rect.unit (s := S6x256) ![0, 128] S1x64.size inb_S6x256_S1x64_0_128
abbrev box_S6x256_S1x64_1_64 : Rect S6x256 := Rect.unit (s := S6x256) ![1, 64] S1x64.size inb_S6x256_S1x64_1_64
abbrev box_S6x256_S1x64_1_192 : Rect S6x256 := Rect.unit (s := S6x256) ![1, 192] S1x64.size inb_S6x256_S1x64_1_192
abbrev box_S3x65x64_S1x1x64_0_0_0 : Rect S3x65x64 := Rect.unit (s := S3x65x64) ![0, 0, 0] S1x1x64.size inb_S3x65x64_S1x1x64_0_0_0
abbrev box_S6x128_S1x64_0_0 : Rect S6x128 := Rect.unit (s := S6x128) ![0, 0] S1x64.size inb_S6x128_S1x64_0_0
abbrev box_S6x128_S1x64_1_64 : Rect S6x128 := Rect.unit (s := S6x128) ![1, 64] S1x64.size inb_S6x128_S1x64_1_64
abbrev box_S3x65x128_S1x64x64_0_1_0 : Rect S3x65x128 := Rect.unit (s := S3x65x128) ![0, 1, 0] S1x64x64.size inb_S3x65x128_S1x64x64_0_1_0
abbrev box_S3x65x128_S1x64x64_0_1_64 : Rect S3x65x128 := Rect.unit (s := S3x65x128) ![0, 1, 64] S1x64x64.size inb_S3x65x128_S1x64x64_0_1_64
abbrev box_S3x128x256_S1x64x64_0_0_0 : Rect S3x128x256 := Rect.unit (s := S3x128x256) ![0, 0, 0] S1x64x64.size inb_S3x128x256_S1x64x64_0_0_0
abbrev box_S3x128x256_S1x64x64_0_0_128 : Rect S3x128x256 := Rect.unit (s := S3x128x256) ![0, 0, 128] S1x64x64.size inb_S3x128x256_S1x64x64_0_0_128
abbrev box_S3x128x256_S1x64x64_0_64_64 : Rect S3x128x256 := Rect.unit (s := S3x128x256) ![0, 64, 64] S1x64x64.size inb_S3x128x256_S1x64x64_0_64_64
abbrev box_S3x128x256_S1x64x64_0_64_192 : Rect S3x128x256 := Rect.unit (s := S3x128x256) ![0, 64, 192] S1x64x64.size inb_S3x128x256_S1x64x64_0_64_192
abbrev box_S3x65x64_S1x64x64_0_1_0 : Rect S3x65x64 := Rect.unit (s := S3x65x64) ![0, 1, 0] S1x64x64.size inb_S3x65x64_S1x64x64_0_1_0
abbrev box_S3x128x128_S1x64x64_0_0_0 : Rect S3x128x128 := Rect.unit (s := S3x128x128) ![0, 0, 0] S1x64x64.size inb_S3x128x128_S1x64x64_0_0_0
abbrev box_S3x128x128_S1x64x64_0_64_64 : Rect S3x128x128 := Rect.unit (s := S3x128x128) ![0, 64, 64] S1x64x64.size inb_S3x128x128_S1x64x64_0_64_64
abbrev box_S3x128x128_S1x64x64_0_0_64 : Rect S3x128x128 := Rect.unit (s := S3x128x128) ![0, 0, 64] S1x64x64.size inb_S3x128x128_S1x64x64_0_0_64
abbrev box_S3x128x128_S1x64x64_0_64_0 : Rect S3x128x128 := Rect.unit (s := S3x128x128) ![0, 64, 0] S1x64x64.size inb_S3x128x128_S1x64x64_0_64_0
abbrev box_S3x128x64_S1x64x64_0_0_0 : Rect S3x128x64 := Rect.unit (s := S3x128x64) ![0, 0, 0] S1x64x64.size inb_S3x128x64_S1x64x64_0_0_0
abbrev box_S3x128x64_S1x64x64_0_64_0 : Rect S3x128x64 := Rect.unit (s := S3x128x64) ![0, 64, 0] S1x64x64.size inb_S3x128x64_S1x64x64_0_64_0
abbrev box_S3x65x128_S1x1x64_1_0_0 : Rect S3x65x128 := Rect.unit (s := S3x65x128) ![1, 0, 0] S1x1x64.size inb_S3x65x128_S1x1x64_1_0_0
abbrev box_S6x256_S1x64_2_0 : Rect S6x256 := Rect.unit (s := S6x256) ![2, 0] S1x64.size inb_S6x256_S1x64_2_0
abbrev box_S3x65x128_S1x1x64_1_0_64 : Rect S3x65x128 := Rect.unit (s := S3x65x128) ![1, 0, 64] S1x1x64.size inb_S3x65x128_S1x1x64_1_0_64
abbrev box_S6x256_S1x64_2_128 : Rect S6x256 := Rect.unit (s := S6x256) ![2, 128] S1x64.size inb_S6x256_S1x64_2_128
abbrev box_S6x256_S1x64_3_64 : Rect S6x256 := Rect.unit (s := S6x256) ![3, 64] S1x64.size inb_S6x256_S1x64_3_64
abbrev box_S6x256_S1x64_3_192 : Rect S6x256 := Rect.unit (s := S6x256) ![3, 192] S1x64.size inb_S6x256_S1x64_3_192
abbrev box_S3x65x64_S1x1x64_1_0_0 : Rect S3x65x64 := Rect.unit (s := S3x65x64) ![1, 0, 0] S1x1x64.size inb_S3x65x64_S1x1x64_1_0_0
abbrev box_S6x128_S1x64_2_0 : Rect S6x128 := Rect.unit (s := S6x128) ![2, 0] S1x64.size inb_S6x128_S1x64_2_0
abbrev box_S6x128_S1x64_3_64 : Rect S6x128 := Rect.unit (s := S6x128) ![3, 64] S1x64.size inb_S6x128_S1x64_3_64
abbrev box_S3x65x128_S1x64x64_1_1_0 : Rect S3x65x128 := Rect.unit (s := S3x65x128) ![1, 1, 0] S1x64x64.size inb_S3x65x128_S1x64x64_1_1_0
abbrev box_S3x65x128_S1x64x64_1_1_64 : Rect S3x65x128 := Rect.unit (s := S3x65x128) ![1, 1, 64] S1x64x64.size inb_S3x65x128_S1x64x64_1_1_64
abbrev box_S3x128x256_S1x64x64_1_0_0 : Rect S3x128x256 := Rect.unit (s := S3x128x256) ![1, 0, 0] S1x64x64.size inb_S3x128x256_S1x64x64_1_0_0
abbrev box_S3x128x256_S1x64x64_1_0_128 : Rect S3x128x256 := Rect.unit (s := S3x128x256) ![1, 0, 128] S1x64x64.size inb_S3x128x256_S1x64x64_1_0_128
abbrev box_S3x128x256_S1x64x64_1_64_64 : Rect S3x128x256 := Rect.unit (s := S3x128x256) ![1, 64, 64] S1x64x64.size inb_S3x128x256_S1x64x64_1_64_64
abbrev box_S3x128x256_S1x64x64_1_64_192 : Rect S3x128x256 := Rect.unit (s := S3x128x256) ![1, 64, 192] S1x64x64.size inb_S3x128x256_S1x64x64_1_64_192
abbrev box_S3x65x64_S1x64x64_1_1_0 : Rect S3x65x64 := Rect.unit (s := S3x65x64) ![1, 1, 0] S1x64x64.size inb_S3x65x64_S1x64x64_1_1_0
abbrev box_S3x128x128_S1x64x64_1_0_0 : Rect S3x128x128 := Rect.unit (s := S3x128x128) ![1, 0, 0] S1x64x64.size inb_S3x128x128_S1x64x64_1_0_0
abbrev box_S3x128x128_S1x64x64_1_64_64 : Rect S3x128x128 := Rect.unit (s := S3x128x128) ![1, 64, 64] S1x64x64.size inb_S3x128x128_S1x64x64_1_64_64
abbrev box_S3x128x128_S1x64x64_1_0_64 : Rect S3x128x128 := Rect.unit (s := S3x128x128) ![1, 0, 64] S1x64x64.size inb_S3x128x128_S1x64x64_1_0_64
abbrev box_S3x128x128_S1x64x64_1_64_0 : Rect S3x128x128 := Rect.unit (s := S3x128x128) ![1, 64, 0] S1x64x64.size inb_S3x128x128_S1x64x64_1_64_0
abbrev box_S3x128x64_S1x64x64_1_0_0 : Rect S3x128x64 := Rect.unit (s := S3x128x64) ![1, 0, 0] S1x64x64.size inb_S3x128x64_S1x64x64_1_0_0
abbrev box_S3x128x64_S1x64x64_1_64_0 : Rect S3x128x64 := Rect.unit (s := S3x128x64) ![1, 64, 0] S1x64x64.size inb_S3x128x64_S1x64x64_1_64_0
abbrev box_S3x65x128_S1x1x64_2_0_0 : Rect S3x65x128 := Rect.unit (s := S3x65x128) ![2, 0, 0] S1x1x64.size inb_S3x65x128_S1x1x64_2_0_0
abbrev box_S6x256_S1x64_4_0 : Rect S6x256 := Rect.unit (s := S6x256) ![4, 0] S1x64.size inb_S6x256_S1x64_4_0
abbrev box_S3x65x128_S1x1x64_2_0_64 : Rect S3x65x128 := Rect.unit (s := S3x65x128) ![2, 0, 64] S1x1x64.size inb_S3x65x128_S1x1x64_2_0_64
abbrev box_S6x256_S1x64_4_128 : Rect S6x256 := Rect.unit (s := S6x256) ![4, 128] S1x64.size inb_S6x256_S1x64_4_128
abbrev box_S6x256_S1x64_5_64 : Rect S6x256 := Rect.unit (s := S6x256) ![5, 64] S1x64.size inb_S6x256_S1x64_5_64
abbrev box_S6x256_S1x64_5_192 : Rect S6x256 := Rect.unit (s := S6x256) ![5, 192] S1x64.size inb_S6x256_S1x64_5_192
abbrev box_S3x65x64_S1x1x64_2_0_0 : Rect S3x65x64 := Rect.unit (s := S3x65x64) ![2, 0, 0] S1x1x64.size inb_S3x65x64_S1x1x64_2_0_0
abbrev box_S6x128_S1x64_4_0 : Rect S6x128 := Rect.unit (s := S6x128) ![4, 0] S1x64.size inb_S6x128_S1x64_4_0
abbrev box_S6x128_S1x64_5_64 : Rect S6x128 := Rect.unit (s := S6x128) ![5, 64] S1x64.size inb_S6x128_S1x64_5_64
abbrev box_S3x65x128_S1x64x64_2_1_0 : Rect S3x65x128 := Rect.unit (s := S3x65x128) ![2, 1, 0] S1x64x64.size inb_S3x65x128_S1x64x64_2_1_0
abbrev box_S3x65x128_S1x64x64_2_1_64 : Rect S3x65x128 := Rect.unit (s := S3x65x128) ![2, 1, 64] S1x64x64.size inb_S3x65x128_S1x64x64_2_1_64
abbrev box_S3x128x256_S1x64x64_2_0_0 : Rect S3x128x256 := Rect.unit (s := S3x128x256) ![2, 0, 0] S1x64x64.size inb_S3x128x256_S1x64x64_2_0_0
abbrev box_S3x128x256_S1x64x64_2_0_128 : Rect S3x128x256 := Rect.unit (s := S3x128x256) ![2, 0, 128] S1x64x64.size inb_S3x128x256_S1x64x64_2_0_128
abbrev box_S3x128x256_S1x64x64_2_64_64 : Rect S3x128x256 := Rect.unit (s := S3x128x256) ![2, 64, 64] S1x64x64.size inb_S3x128x256_S1x64x64_2_64_64
abbrev box_S3x128x256_S1x64x64_2_64_192 : Rect S3x128x256 := Rect.unit (s := S3x128x256) ![2, 64, 192] S1x64x64.size inb_S3x128x256_S1x64x64_2_64_192
abbrev box_S3x65x64_S1x64x64_2_1_0 : Rect S3x65x64 := Rect.unit (s := S3x65x64) ![2, 1, 0] S1x64x64.size inb_S3x65x64_S1x64x64_2_1_0
abbrev box_S3x128x128_S1x64x64_2_0_0 : Rect S3x128x128 := Rect.unit (s := S3x128x128) ![2, 0, 0] S1x64x64.size inb_S3x128x128_S1x64x64_2_0_0
abbrev box_S3x128x128_S1x64x64_2_64_64 : Rect S3x128x128 := Rect.unit (s := S3x128x128) ![2, 64, 64] S1x64x64.size inb_S3x128x128_S1x64x64_2_64_64
abbrev box_S3x128x128_S1x64x64_2_0_64 : Rect S3x128x128 := Rect.unit (s := S3x128x128) ![2, 0, 64] S1x64x64.size inb_S3x128x128_S1x64x64_2_0_64
abbrev box_S3x128x128_S1x64x64_2_64_0 : Rect S3x128x128 := Rect.unit (s := S3x128x128) ![2, 64, 0] S1x64x64.size inb_S3x128x128_S1x64x64_2_64_0
abbrev box_S3x128x64_S1x64x64_2_0_0 : Rect S3x128x64 := Rect.unit (s := S3x128x64) ![2, 0, 0] S1x64x64.size inb_S3x128x64_S1x64x64_2_0_0
abbrev box_S3x128x64_S1x64x64_2_64_0 : Rect S3x128x64 := Rect.unit (s := S3x128x64) ![2, 64, 0] S1x64x64.size inb_S3x128x64_S1x64x64_2_64_0
abbrev box_S1x128_S1x64_0_0 : Rect S1x128 := Rect.unit (s := S1x128) ![0, 0] S1x64.size inb_S1x128_S1x64_0_0
abbrev box_S1x256_S1x64_0_0 : Rect S1x256 := Rect.unit (s := S1x256) ![0, 0] S1x64.size inb_S1x256_S1x64_0_0
abbrev box_S1x256_S1x64_0_64 : Rect S1x256 := Rect.unit (s := S1x256) ![0, 64] S1x64.size inb_S1x256_S1x64_0_64
abbrev box_S1x128_S1x64_0_64 : Rect S1x128 := Rect.unit (s := S1x128) ![0, 64] S1x64.size inb_S1x128_S1x64_0_64
abbrev box_S1x256_S1x64_0_128 : Rect S1x256 := Rect.unit (s := S1x256) ![0, 128] S1x64.size inb_S1x256_S1x64_0_128
abbrev box_S1x256_S1x64_0_192 : Rect S1x256 := Rect.unit (s := S1x256) ![0, 192] S1x64.size inb_S1x256_S1x64_0_192
abbrev box_S1x64_S1x64_0_0 : Rect S1x64 := Rect.unit (s := S1x64) ![0, 0] S1x64.size inb_S1x64_S1x64_0_0
abbrev box_S128x2_S128x2_0_0 : Rect S128x2 := Rect.unit (s := S128x2) ![0, 0] S128x2.size inb_S128x2_S128x2_0_0
abbrev box_S64x1_S64x1_0_0 : Rect S64x1 := Rect.unit (s := S64x1) ![0, 0] S64x1.size inb_S64x1_S64x1_0_0
abbrev box_S128x2_S64x1_0_0 : Rect S128x2 := Rect.unit (s := S128x2) ![0, 0] S64x1.size inb_S128x2_S64x1_0_0
abbrev box_S128x2_S64x1_64_1 : Rect S128x2 := Rect.unit (s := S128x2) ![64, 1] S64x1.size inb_S128x2_S64x1_64_1

def left0_11 (x0 : Vec F S512x512 .f32) : Vec F S512x512 .f32 :=
  View.canon
    [⟨box_S512x512_S512x512_0_0, k0_pay1 (View.ld x0 box_S512x512_S512x512_0_0)⟩]

def left0_12 (x0 : Vec F S512x512 .f32) (x1 : Vec F S64x512 .f32) : Vec F S64x512 .f32 :=
  View.canon
    [⟨box_S64x512_S64x512_0_0, k0_pay2 (View.ld x0 box_S512x512_S512x512_0_0) (View.ld x1 box_S64x512_S64x512_0_0)⟩]

def left0_13 (x0 : Vec F S512x512 .f32) (x1 : Vec F S64x512 .f32) : Vec F S64x512 .f32 :=
  View.canon
    [⟨box_S64x512_S64x512_0_0, k0_pay3 (View.ld x0 box_S512x512_S512x512_0_0) (View.ld x1 box_S64x512_S64x512_0_0)⟩]

def left0_14 (x2 : Vec F S3x65x128 .f32) : Vec F S6x256 .f32 :=
  View.canon
    [⟨box_S6x256_S1x64_5_192, k0_pay83 (View.ld x2 box_S3x65x128_S1x1x64_2_0_64)⟩,
      ⟨box_S6x256_S1x64_5_64, k0_pay82 (View.ld x2 box_S3x65x128_S1x1x64_2_0_0)⟩,
      ⟨box_S6x256_S1x64_4_128, k0_pay81 (View.ld x2 box_S3x65x128_S1x1x64_2_0_64)⟩,
      ⟨box_S6x256_S1x64_4_0, k0_pay80 (View.ld x2 box_S3x65x128_S1x1x64_2_0_0)⟩,
      ⟨box_S6x256_S1x64_3_192, k0_pay50 (View.ld x2 box_S3x65x128_S1x1x64_1_0_64)⟩,
      ⟨box_S6x256_S1x64_3_64, k0_pay49 (View.ld x2 box_S3x65x128_S1x1x64_1_0_0)⟩,
      ⟨box_S6x256_S1x64_2_128, k0_pay48 (View.ld x2 box_S3x65x128_S1x1x64_1_0_64)⟩,
      ⟨box_S6x256_S1x64_2_0, k0_pay47 (k0_pay46 (View.ld x2 box_S3x65x128_S1x1x64_1_0_0))⟩,
      ⟨box_S6x256_S1x64_1_192, k0_pay16 (View.ld x2 box_S3x65x128_S1x1x64_0_0_64)⟩,
      ⟨box_S6x256_S1x64_1_64, k0_pay15 (View.ld x2 box_S3x65x128_S1x1x64_0_0_0)⟩,
      ⟨box_S6x256_S1x64_0_128, k0_pay14 (View.ld x2 box_S3x65x128_S1x1x64_0_0_64)⟩,
      ⟨box_S6x256_S1x64_0_0, k0_pay13 (k0_pay12 (View.ld x2 box_S3x65x128_S1x1x64_0_0_0))⟩,
      ⟨box_S6x256_S6x256_0_0, k0_pay4 (F := F)⟩]

def left0_15 (x2 : Vec F S3x65x128 .f32) : Vec F S3x128x256 .f32 :=
  View.canon
    [⟨box_S3x128x256_S1x64x64_2_64_192, k0_pay91 (View.ld x2 box_S3x65x128_S1x64x64_2_1_64)⟩,
      ⟨box_S3x128x256_S1x64x64_2_64_64, k0_pay90 (k0_pay86 (View.ld x2 box_S3x65x128_S1x64x64_2_1_0))⟩,
      ⟨box_S3x128x256_S1x64x64_2_0_128, k0_pay89 (View.ld x2 box_S3x65x128_S1x64x64_2_1_64)⟩,
      ⟨box_S3x128x256_S1x64x64_2_0_0, k0_pay88 (k0_pay86 (View.ld x2 box_S3x65x128_S1x64x64_2_1_0))⟩,
      ⟨box_S3x128x256_S1x64x64_1_64_192, k0_pay58 (View.ld x2 box_S3x65x128_S1x64x64_1_1_64)⟩,
      ⟨box_S3x128x256_S1x64x64_1_64_64, k0_pay57 (View.ld x2 box_S3x65x128_S1x64x64_1_1_0)⟩,
      ⟨box_S3x128x256_S1x64x64_1_0_128, k0_pay56 (View.ld x2 box_S3x65x128_S1x64x64_1_1_64)⟩,
      ⟨box_S3x128x256_S1x64x64_1_0_0, k0_pay55 (View.ld x2 box_S3x65x128_S1x64x64_1_1_0)⟩,
      ⟨box_S3x128x256_S1x64x64_0_64_192, k0_pay24 (View.ld x2 box_S3x65x128_S1x64x64_0_1_64)⟩,
      ⟨box_S3x128x256_S1x64x64_0_64_64, k0_pay23 (View.ld x2 box_S3x65x128_S1x64x64_0_1_0)⟩,
      ⟨box_S3x128x256_S1x64x64_0_0_128, k0_pay22 (View.ld x2 box_S3x65x128_S1x64x64_0_1_64)⟩,
      ⟨box_S3x128x256_S1x64x64_0_0_0, k0_pay21 (View.ld x2 box_S3x65x128_S1x64x64_0_1_0)⟩,
      ⟨box_S3x128x256_S3x128x256_0_0_0, k0_pay6 (F := F)⟩]

def left0_16 (x6 : Vec F S1x128 .f32) : Vec F S1x256 .f32 :=
  View.canon
    [⟨box_S1x256_S1x64_0_192, k0_pay117 (View.ld x6 box_S1x128_S1x64_0_64)⟩,
      ⟨box_S1x256_S1x64_0_128, k0_pay116 (View.ld x6 box_S1x128_S1x64_0_64)⟩,
      ⟨box_S1x256_S1x64_0_64, k0_pay115 (k0_pay114 (View.ld x6 box_S1x128_S1x64_0_0))⟩,
      ⟨box_S1x256_S1x64_0_0, k0_pay113 (View.ld x6 box_S1x128_S1x64_0_0)⟩]

def left0_17 (x3 : Vec F S3x65x64 .f32) : Vec F S6x128 .f32 :=
  View.canon
    [⟨box_S6x128_S1x64_5_64, k0_pay85 (View.ld x3 box_S3x65x64_S1x1x64_2_0_0)⟩,
      ⟨box_S6x128_S1x64_4_0, k0_pay84 (View.ld x3 box_S3x65x64_S1x1x64_2_0_0)⟩,
      ⟨box_S6x128_S1x64_3_64, k0_pay52 (View.ld x3 box_S3x65x64_S1x1x64_1_0_0)⟩,
      ⟨box_S6x128_S1x64_2_0, k0_pay51 (View.ld x3 box_S3x65x64_S1x1x64_1_0_0)⟩,
      ⟨box_S6x128_S1x64_1_64, k0_pay18 (View.ld x3 box_S3x65x64_S1x1x64_0_0_0)⟩,
      ⟨box_S6x128_S1x64_0_0, k0_pay17 (View.ld x3 box_S3x65x64_S1x1x64_0_0_0)⟩,
      ⟨box_S6x128_S6x128_0_0, k0_pay5 (F := F)⟩]

def left0_18 (x3 : Vec F S3x65x64 .f32) : Vec F S3x128x128 .f32 :=
  View.canon
    [⟨box_S3x128x128_S1x64x64_2_64_64, k0_pay94 (View.ld x3 box_S3x65x64_S1x64x64_2_1_0)⟩,
      ⟨box_S3x128x128_S1x64x64_2_0_0, k0_pay93 (View.ld x3 box_S3x65x64_S1x64x64_2_1_0)⟩,
      ⟨box_S3x128x128_S1x64x64_1_64_64, k0_pay61 (View.ld x3 box_S3x65x64_S1x64x64_1_1_0)⟩,
      ⟨box_S3x128x128_S1x64x64_1_0_0, k0_pay60 (View.ld x3 box_S3x65x64_S1x64x64_1_1_0)⟩,
      ⟨box_S3x128x128_S1x64x64_0_64_64, k0_pay27 (View.ld x3 box_S3x65x64_S1x64x64_0_1_0)⟩,
      ⟨box_S3x128x128_S1x64x64_0_0_0, k0_pay26 (View.ld x3 box_S3x65x64_S1x64x64_0_1_0)⟩,
      ⟨box_S3x128x128_S3x128x128_0_0_0, k0_pay7 (F := F)⟩]

def left0_19 (x7 : Vec F S1x64 .f32) : Vec F S1x128 .f32 :=
  View.canon
    [⟨box_S1x128_S1x64_0_64, k0_pay119 (View.ld x7 box_S1x64_S1x64_0_0)⟩,
      ⟨box_S1x128_S1x64_0_0, k0_pay118 (View.ld x7 box_S1x64_S1x64_0_0)⟩]

def left0_20 (x4 : Vec F S3x128x128 .f32) : Vec F S3x128x256 .f32 :=
  View.canon
    [⟨box_S3x128x256_S1x64x64_2_64_192, k0_pay100 (View.ld x4 box_S3x128x128_S1x64x64_2_0_64)⟩,
      ⟨box_S3x128x256_S1x64x64_2_64_64, k0_pay99 (k0_pay95 (View.ld x4 box_S3x128x128_S1x64x64_2_0_0))⟩,
      ⟨box_S3x128x256_S1x64x64_2_0_128, k0_pay98 (View.ld x4 box_S3x128x128_S1x64x64_2_0_64)⟩,
      ⟨box_S3x128x256_S1x64x64_2_0_0, k0_pay97 (k0_pay95 (View.ld x4 box_S3x128x128_S1x64x64_2_0_0))⟩,
      ⟨box_S3x128x256_S1x64x64_1_64_192, k0_pay67 (View.ld x4 box_S3x128x128_S1x64x64_1_0_64)⟩,
      ⟨box_S3x128x256_S1x64x64_1_64_64, k0_pay66 (k0_pay62 (View.ld x4 box_S3x128x128_S1x64x64_1_0_0))⟩,
      ⟨box_S3x128x256_S1x64x64_1_0_128, k0_pay65 (View.ld x4 box_S3x128x128_S1x64x64_1_0_64)⟩,
      ⟨box_S3x128x256_S1x64x64_1_0_0, k0_pay64 (k0_pay62 (View.ld x4 box_S3x128x128_S1x64x64_1_0_0))⟩,
      ⟨box_S3x128x256_S1x64x64_0_64_192, k0_pay33 (View.ld x4 box_S3x128x128_S1x64x64_0_0_64)⟩,
      ⟨box_S3x128x256_S1x64x64_0_64_64, k0_pay32 (View.ld x4 box_S3x128x128_S1x64x64_0_0_0)⟩,
      ⟨box_S3x128x256_S1x64x64_0_0_128, k0_pay31 (View.ld x4 box_S3x128x128_S1x64x64_0_0_64)⟩,
      ⟨box_S3x128x256_S1x64x64_0_0_0, k0_pay30 (View.ld x4 box_S3x128x128_S1x64x64_0_0_0)⟩,
      ⟨box_S3x128x256_S3x128x256_0_0_0, k0_pay8 (F := F)⟩]

def left0_21 (x4 : Vec F S3x128x128 .f32) : Vec F S3x128x256 .f32 :=
  View.canon
    [⟨box_S3x128x256_S1x64x64_2_64_192, k0_pay106 (k0_pay102 (View.ld x4 box_S3x128x128_S1x64x64_2_64_64))⟩,
      ⟨box_S3x128x256_S1x64x64_2_64_64, k0_pay105 (View.ld x4 box_S3x128x128_S1x64x64_2_64_0)⟩,
      ⟨box_S3x128x256_S1x64x64_2_0_128, k0_pay104 (View.ld x4 box_S3x128x128_S1x64x64_2_64_64)⟩,
      ⟨box_S3x128x256_S1x64x64_2_0_0, k0_pay103 (View.ld x4 box_S3x128x128_S1x64x64_2_64_0)⟩,
      ⟨box_S3x128x256_S1x64x64_1_64_192, k0_pay73 (k0_pay69 (View.ld x4 box_S3x128x128_S1x64x64_1_64_64))⟩,
      ⟨box_S3x128x256_S1x64x64_1_64_64, k0_pay72 (k0_pay68 (View.ld x4 box_S3x128x128_S1x64x64_1_64_0))⟩,
      ⟨box_S3x128x256_S1x64x64_1_0_128, k0_pay71 (View.ld x4 box_S3x128x128_S1x64x64_1_64_64)⟩,
      ⟨box_S3x128x256_S1x64x64_1_0_0, k0_pay70 (View.ld x4 box_S3x128x128_S1x64x64_1_64_0)⟩,
      ⟨box_S3x128x256_S1x64x64_0_64_192, k0_pay39 (k0_pay35 (View.ld x4 box_S3x128x128_S1x64x64_0_64_64))⟩,
      ⟨box_S3x128x256_S1x64x64_0_64_64, k0_pay38 (k0_pay34 (View.ld x4 box_S3x128x128_S1x64x64_0_64_0))⟩,
      ⟨box_S3x128x256_S1x64x64_0_0_128, k0_pay37 (View.ld x4 box_S3x128x128_S1x64x64_0_64_64)⟩,
      ⟨box_S3x128x256_S1x64x64_0_0_0, k0_pay36 (View.ld x4 box_S3x128x128_S1x64x64_0_64_0)⟩,
      ⟨box_S3x128x256_S3x128x256_0_0_0, k0_pay9 (F := F)⟩]

def left0_22 (x8 : Vec F S1x128 .f32) : Vec F S1x256 .f32 :=
  View.canon
    [⟨box_S1x256_S1x64_0_192, k0_pay124 (View.ld x8 box_S1x128_S1x64_0_64)⟩,
      ⟨box_S1x256_S1x64_0_128, k0_pay123 (View.ld x8 box_S1x128_S1x64_0_64)⟩,
      ⟨box_S1x256_S1x64_0_64, k0_pay122 (k0_pay121 (View.ld x8 box_S1x128_S1x64_0_0))⟩,
      ⟨box_S1x256_S1x64_0_0, k0_pay120 (View.ld x8 box_S1x128_S1x64_0_0)⟩]

def left0_23 (x5 : Vec F S3x128x64 .f32) : Vec F S3x128x128 .f32 :=
  View.canon
    [⟨box_S3x128x128_S1x64x64_2_64_64, k0_pay109 (View.ld x5 box_S3x128x64_S1x64x64_2_0_0)⟩,
      ⟨box_S3x128x128_S1x64x64_2_0_0, k0_pay108 (View.ld x5 box_S3x128x64_S1x64x64_2_0_0)⟩,
      ⟨box_S3x128x128_S1x64x64_1_64_64, k0_pay76 (View.ld x5 box_S3x128x64_S1x64x64_1_0_0)⟩,
      ⟨box_S3x128x128_S1x64x64_1_0_0, k0_pay75 (View.ld x5 box_S3x128x64_S1x64x64_1_0_0)⟩,
      ⟨box_S3x128x128_S1x64x64_0_64_64, k0_pay42 (View.ld x5 box_S3x128x64_S1x64x64_0_0_0)⟩,
      ⟨box_S3x128x128_S1x64x64_0_0_0, k0_pay41 (View.ld x5 box_S3x128x64_S1x64x64_0_0_0)⟩,
      ⟨box_S3x128x128_S3x128x128_0_0_0, k0_pay10 (F := F)⟩]

def left0_24 (x5 : Vec F S3x128x64 .f32) : Vec F S3x128x128 .f32 :=
  View.canon
    [⟨box_S3x128x128_S1x64x64_2_64_64, k0_pay112 (View.ld x5 box_S3x128x64_S1x64x64_2_64_0)⟩,
      ⟨box_S3x128x128_S1x64x64_2_0_0, k0_pay111 (View.ld x5 box_S3x128x64_S1x64x64_2_64_0)⟩,
      ⟨box_S3x128x128_S1x64x64_1_64_64, k0_pay79 (View.ld x5 box_S3x128x64_S1x64x64_1_64_0)⟩,
      ⟨box_S3x128x128_S1x64x64_1_0_0, k0_pay78 (View.ld x5 box_S3x128x64_S1x64x64_1_64_0)⟩,
      ⟨box_S3x128x128_S1x64x64_0_64_64, k0_pay45 (View.ld x5 box_S3x128x64_S1x64x64_0_64_0)⟩,
      ⟨box_S3x128x128_S1x64x64_0_0_0, k0_pay44 (View.ld x5 box_S3x128x64_S1x64x64_0_64_0)⟩,
      ⟨box_S3x128x128_S3x128x128_0_0_0, k0_pay11 (F := F)⟩]

def left0_25 (x9 : Vec F S1x64 .f32) : Vec F S1x128 .f32 :=
  View.canon
    [⟨box_S1x128_S1x64_0_64, k0_pay126 (View.ld x9 box_S1x64_S1x64_0_0)⟩,
      ⟨box_S1x128_S1x64_0_0, k0_pay125 (View.ld x9 box_S1x64_S1x64_0_0)⟩]

def left0_26 (x10 : Vec F S64x1 .f32) : Vec F S128x2 .f32 :=
  View.canon
    [⟨box_S128x2_S64x1_64_1, View.ld x10 box_S64x1_S64x1_0_0⟩,
      ⟨box_S128x2_S64x1_0_0, View.ld x10 box_S64x1_S64x1_0_0⟩,
      ⟨box_S128x2_S128x2_0_0, k0_pay127 (F := F)⟩]

set_option maxHeartbeats 4000000 in

theorem sound_kernel0 (c : Dev nD) (E : Set ℕ) (arg0 : Memref sig .tc .vmem S512x512 .f32) (harg0 : arg0.IsWhole) (arg1 : Memref sig .tc .vmem S64x512 .f32) (harg1 : arg1.IsWhole) (arg2 : Memref sig .tc .vmem S3x65x128 .f32) (harg2 : arg2.IsWhole) (arg3 : Memref sig .tc .vmem S3x65x64 .f32) (harg3 : arg3.IsWhole) (arg4 : Memref sig .tc .vmem S3x128x128 .f32) (harg4 : arg4.IsWhole) (arg5 : Memref sig .tc .vmem S3x128x64 .f32) (harg5 : arg5.IsWhole) (arg6 : Memref sig .tc .vmem S1x128 .f32) (harg6 : arg6.IsWhole) (arg7 : Memref sig .tc .vmem S1x64 .f32) (harg7 : arg7.IsWhole) (arg8 : Memref sig .tc .vmem S1x128 .f32) (harg8 : arg8.IsWhole) (arg9 : Memref sig .tc .vmem S1x64 .f32) (harg9 : arg9.IsWhole) (arg10 : Memref sig .tc .vmem S64x1 .f32) (harg10 : arg10.IsWhole) (arg11 : Memref sig .tc .vmem S512x512 .f32) (harg11 : arg11.IsWhole) (arg12 : Memref sig .tc .vmem S64x512 .f32) (harg12 : arg12.IsWhole) (arg13 : Memref sig .tc .vmem S64x512 .f32) (harg13 : arg13.IsWhole) (arg14 : Memref sig .tc .vmem S6x256 .f32) (harg14 : arg14.IsWhole) (arg15 : Memref sig .tc .vmem S3x128x256 .f32) (harg15 : arg15.IsWhole) (arg16 : Memref sig .tc .vmem S1x256 .f32) (harg16 : arg16.IsWhole) (arg17 : Memref sig .tc .vmem S6x128 .f32) (harg17 : arg17.IsWhole) (arg18 : Memref sig .tc .vmem S3x128x128 .f32) (harg18 : arg18.IsWhole) (arg19 : Memref sig .tc .vmem S1x128 .f32) (harg19 : arg19.IsWhole) (arg20 : Memref sig .tc .vmem S3x128x256 .f32) (harg20 : arg20.IsWhole) (arg21 : Memref sig .tc .vmem S3x128x256 .f32) (harg21 : arg21.IsWhole) (arg22 : Memref sig .tc .vmem S1x256 .f32) (harg22 : arg22.IsWhole) (arg23 : Memref sig .tc .vmem S3x128x128 .f32) (harg23 : arg23.IsWhole) (arg24 : Memref sig .tc .vmem S3x128x128 .f32) (harg24 : arg24.IsWhole) (arg25 : Memref sig .tc .vmem S1x128 .f32) (harg25 : arg25.IsWhole) (arg26 : Memref sig .tc .vmem S128x2 .f32) (harg26 : arg26.IsWhole)
    (x0 : Vec F S512x512 .f32) (x1 : Vec F S64x512 .f32) (x2 : Vec F S3x65x128 .f32) (x3 : Vec F S3x65x64 .f32) (x4 : Vec F S3x128x128 .f32) (x5 : Vec F S3x128x64 .f32) (x6 : Vec F S1x128 .f32) (x7 : Vec F S1x64 .f32) (x8 : Vec F S1x128 .f32) (x9 : Vec F S1x64 .f32) (x10 : Vec F S64x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
        ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10
            ∗ owns (c : Thread nD τ) arg11 fullShare (left0_11 x0) ∗ owns (c : Thread nD τ) arg12 fullShare (left0_12 x0 x1) ∗ owns (c : Thread nD τ) arg13 fullShare (left0_13 x0 x1) ∗ owns (c : Thread nD τ) arg14 fullShare (left0_14 x2) ∗ owns (c : Thread nD τ) arg15 fullShare (left0_15 x2) ∗ owns (c : Thread nD τ) arg16 fullShare (left0_16 x6) ∗ owns (c : Thread nD τ) arg17 fullShare (left0_17 x3) ∗ owns (c : Thread nD τ) arg18 fullShare (left0_18 x3) ∗ owns (c : Thread nD τ) arg19 fullShare (left0_19 x7) ∗ owns (c : Thread nD τ) arg20 fullShare (left0_20 x4) ∗ owns (c : Thread nD τ) arg21 fullShare (left0_21 x4) ∗ owns (c : Thread nD τ) arg22 fullShare (left0_22 x8) ∗ owns (c : Thread nD τ) arg23 fullShare (left0_23 x5) ∗ owns (c : Thread nD τ) arg24 fullShare (left0_24 x5) ∗ owns (c : Thread nD τ) arg25 fullShare (left0_25 x9) ∗ owns (c : Thread nD τ) arg26 fullShare (left0_26 x10)) -∗ K ⟨⟩))
      ⊢ wp frame (wpE (defs₀ (F := F)) Variants.none c none) E (cc0__prep_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K := by
  simp only [cc0__prep_kernel_eq_skeleton]; unfold cc0__prep_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, Hk⟩
  subst hf0; subst hf1; subst hf2; subst hf3; subst hf4; subst hf5; subst hf6; subst hf7; subst hf8; subst hf9; subst hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    exact View.read_writes_eq_canon _ _ _ (View.cover_of_wholeMem _ (by sl_whole_mem))
  isplitl [H12]
  · iexists _; isplitr
    swap; · iexact H12
    ipureintro
    exact View.read_writes_eq_canon _ _ _ (View.cover_of_wholeMem _ (by sl_whole_mem))
  isplitl [H13]
  · iexists _; isplitr
    swap; · iexact H13
    ipureintro
    exact View.read_writes_eq_canon _ _ _ (View.cover_of_wholeMem _ (by sl_whole_mem))
  isplitl [H14]
  · iexists _; isplitr
    swap; · iexact H14
    ipureintro
    exact View.read_writes_eq_canon _ _ _ (View.cover_of_wholeMem _ (by sl_whole_mem))
  isplitl [H15]
  · iexists _; isplitr
    swap; · iexact H15
    ipureintro
    exact View.read_writes_eq_canon _ _ _ (View.cover_of_wholeMem _ (by sl_whole_mem))
  isplitl [H16]
  · iexists _; isplitr
    swap; · iexact H16
    ipureintro
    exact View.read_writes_eq_canon _ _ _ (View.cover_of_tiledL _ S1x64.size (by sl_kernel_rfl))
  isplitl [H17]
  · iexists _; isplitr
    swap; · iexact H17
    ipureintro
    exact View.read_writes_eq_canon _ _ _ (View.cover_of_wholeMem _ (by sl_whole_mem))
  isplitl [H18]
  · iexists _; isplitr
    swap; · iexact H18
    ipureintro
    exact View.read_writes_eq_canon _ _ _ (View.cover_of_wholeMem _ (by sl_whole_mem))
  isplitl [H19]
  · iexists _; isplitr
    swap; · iexact H19
    ipureintro
    exact View.read_writes_eq_canon _ _ _ (View.cover_of_tiledL _ S1x64.size (by sl_kernel_rfl))
  isplitl [H20]
  · iexists _; isplitr
    swap; · iexact H20
    ipureintro
    exact View.read_writes_eq_canon _ _ _ (View.cover_of_wholeMem _ (by sl_whole_mem))
  isplitl [H21]
  · iexists _; isplitr
    swap; · iexact H21
    ipureintro
    exact View.read_writes_eq_canon _ _ _ (View.cover_of_wholeMem _ (by sl_whole_mem))
  isplitl [H22]
  · iexists _; isplitr
    swap; · iexact H22
    ipureintro
    exact View.read_writes_eq_canon _ _ _ (View.cover_of_tiledL _ S1x64.size (by sl_kernel_rfl))
  isplitl [H23]
  · iexists _; isplitr
    swap; · iexact H23
    ipureintro
    exact View.read_writes_eq_canon _ _ _ (View.cover_of_wholeMem _ (by sl_whole_mem))
  isplitl [H24]
  · iexists _; isplitr
    swap; · iexact H24
    ipureintro
    exact View.read_writes_eq_canon _ _ _ (View.cover_of_wholeMem _ (by sl_whole_mem))
  isplitl [H25]
  · iexists _; isplitr
    swap; · iexact H25
    ipureintro
    exact View.read_writes_eq_canon _ _ _ (View.cover_of_tiledL _ S1x64.size (by sl_kernel_rfl))
  iexists _; isplitr
  swap; · iexact H26
  ipureintro
  exact View.read_writes_eq_canon _ _ _ (View.cover_of_wholeMem _ (by sl_whole_mem))

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => left0_11 (iblk0 V c 0 t)
    | ⟨12, _⟩ => left0_12 (iblk0 V c 0 t) (iblk0 V c 1 t)
    | ⟨13, _⟩ => left0_13 (iblk0 V c 0 t) (iblk0 V c 1 t)
    | ⟨14, _⟩ => left0_14 (iblk0 V c 2 t)
    | ⟨15, _⟩ => left0_15 (iblk0 V c 2 t)
    | ⟨16, _⟩ => left0_16 (iblk0 V c 6 t)
    | ⟨17, _⟩ => left0_17 (iblk0 V c 3 t)
    | ⟨18, _⟩ => left0_18 (iblk0 V c 3 t)
    | ⟨19, _⟩ => left0_19 (iblk0 V c 7 t)
    | ⟨20, _⟩ => left0_20 (iblk0 V c 4 t)
    | ⟨21, _⟩ => left0_21 (iblk0 V c 4 t)
    | ⟨22, _⟩ => left0_22 (iblk0 V c 8 t)
    | ⟨23, _⟩ => left0_23 (iblk0 V c 5 t)
    | ⟨24, _⟩ => left0_24 (iblk0 V c 5 t)
    | ⟨25, _⟩ => left0_25 (iblk0 V c 9 t)
    | ⟨26, _⟩ => left0_26 (iblk0 V c 10 t)
    | ⟨_ + 27, h⟩ => absurd h (Nat.not_lt.2 (Nat.le_add_left _ _))
  Φ _ := Pipeline.ΦA spec0 c
  q _ := fullShare
  owed _ := 0

theorem A_eq0 (c : Dev nD) (w : Fin cfg0.W) : (dat0 V c).A w = V c (Pipeline.arrRef spec0 w) := by
  dsimp only [dat0]

theorem inBefore0_0 (c : Dev nD) (t : Fin cfg0.N) (d) : (dat0 V c).before 0 t d = iblk0 V c 0 t :=
  ((dat0 V c).before_in_eq_fetched 0 rfl (fun _ => rfl) (fun _ _ _ => rfl) (fun _ => rfl) t d).trans rfl
theorem inBefore0_1 (c : Dev nD) (t : Fin cfg0.N) (d) : (dat0 V c).before 1 t d = iblk0 V c 1 t :=
  ((dat0 V c).before_in_eq_fetched 1 rfl (fun _ => rfl) (fun _ _ _ => rfl) (fun _ => rfl) t d).trans rfl
theorem inBefore0_2 (c : Dev nD) (t : Fin cfg0.N) (d) : (dat0 V c).before 2 t d = iblk0 V c 2 t :=
  ((dat0 V c).before_in_eq_fetched 2 rfl (fun _ => rfl) (fun _ _ _ => rfl) (fun _ => rfl) t d).trans rfl
theorem inBefore0_3 (c : Dev nD) (t : Fin cfg0.N) (d) : (dat0 V c).before 3 t d = iblk0 V c 3 t :=
  ((dat0 V c).before_in_eq_fetched 3 rfl (fun _ => rfl) (fun _ _ _ => rfl) (fun _ => rfl) t d).trans rfl
theorem inBefore0_4 (c : Dev nD) (t : Fin cfg0.N) (d) : (dat0 V c).before 4 t d = iblk0 V c 4 t :=
  ((dat0 V c).before_in_eq_fetched 4 rfl (fun _ => rfl) (fun _ _ _ => rfl) (fun _ => rfl) t d).trans rfl
theorem inBefore0_5 (c : Dev nD) (t : Fin cfg0.N) (d) : (dat0 V c).before 5 t d = iblk0 V c 5 t :=
  ((dat0 V c).before_in_eq_fetched 5 rfl (fun _ => rfl) (fun _ _ _ => rfl) (fun _ => rfl) t d).trans rfl
theorem inBefore0_6 (c : Dev nD) (t : Fin cfg0.N) (d) : (dat0 V c).before 6 t d = iblk0 V c 6 t :=
  ((dat0 V c).before_in_eq_fetched 6 rfl (fun _ => rfl) (fun _ _ _ => rfl) (fun _ => rfl) t d).trans rfl
theorem inBefore0_7 (c : Dev nD) (t : Fin cfg0.N) (d) : (dat0 V c).before 7 t d = iblk0 V c 7 t :=
  ((dat0 V c).before_in_eq_fetched 7 rfl (fun _ => rfl) (fun _ _ _ => rfl) (fun _ => rfl) t d).trans rfl
theorem inBefore0_8 (c : Dev nD) (t : Fin cfg0.N) (d) : (dat0 V c).before 8 t d = iblk0 V c 8 t :=
  ((dat0 V c).before_in_eq_fetched 8 rfl (fun _ => rfl) (fun _ _ _ => rfl) (fun _ => rfl) t d).trans rfl
theorem inBefore0_9 (c : Dev nD) (t : Fin cfg0.N) (d) : (dat0 V c).before 9 t d = iblk0 V c 9 t :=
  ((dat0 V c).before_in_eq_fetched 9 rfl (fun _ => rfl) (fun _ _ _ => rfl) (fun _ => rfl) t d).trans rfl
theorem inBefore0_10 (c : Dev nD) (t : Fin cfg0.N) (d) : (dat0 V c).before 10 t d = iblk0 V c 10 t :=
  ((dat0 V c).before_in_eq_fetched 10 rfl (fun _ => rfl) (fun _ _ _ => rfl) (fun _ => rfl) t d).trans rfl

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d))
    ∗ (∃ d, owns (c : Thread nD τ) (st0_21 t) fullShare ((dat0 V c).before 21 t d))
    ∗ (∃ d, owns (c : Thread nD τ) (st0_22 t) fullShare ((dat0 V c).before 22 t d))
    ∗ (∃ d, owns (c : Thread nD τ) (st0_23 t) fullShare ((dat0 V c).before 23 t d))
    ∗ (∃ d, owns (c : Thread nD τ) (st0_24 t) fullShare ((dat0 V c).before 24 t d))
    ∗ (∃ d, owns (c : Thread nD τ) (st0_25 t) fullShare ((dat0 V c).before 25 t d))
    ∗ (∃ d, owns (c : Thread nD τ) (st0_26 t) fullShare ((dat0 V c).before 26 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t)
    ∗ owns (c : Thread nD τ) (st0_21 t) fullShare ((dat0 V c).after 21 t)
    ∗ owns (c : Thread nD τ) (st0_22 t) fullShare ((dat0 V c).after 22 t)
    ∗ owns (c : Thread nD τ) (st0_23 t) fullShare ((dat0 V c).after 23 t)
    ∗ owns (c : Thread nD τ) (st0_24 t) fullShare ((dat0 V c).after 24 t)
    ∗ owns (c : Thread nD τ) (st0_25 t) fullShare ((dat0 V c).after 25 t)
    ∗ owns (c : Thread nD τ) (st0_26 t) fullShare ((dat0 V c).after 26 t))

set_option maxHeartbeats 1000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [inBefore0_0, inBefore0_1, inBefore0_2, inBefore0_3, inBefore0_4, inBefore0_5, inBefore0_6, inBefore0_7, inBefore0_8, inBefore0_9, inBefore0_10]
  rw [show (dat0 V c).Φ t.succ = (dat0 V c).Φ t.castSucc from rfl,
    show (dat0 V c).owesAt () t.succ = (dat0 V c).owesAt () t.castSucc from rfl]
  dsimp only [dat0]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
  iapply (sound_kernel0 c Set.univ _ _ _ _ _ _ _ _ _ _ _ _ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  isplitl [H23]; · iexists _; iexact H23
  isplitl [H24]; · iexists _; iexact H24
  isplitl [H25]; · iexists _; iexact H25
  isplitl [H26]; · iexists _; iexact H26
  iintro ⟨H0, H1, H2, H3, H4, H5, H6, H7, H8, H9, H10, H11, H12, H13, H14, H15, H16, H17, H18, H19, H20, H21, H22, H23, H24, H25, H26⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  iexact H26

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Frame1.lean ====
import proofs.«105208_g19069654794669_cont_sun_m_30_30_alg».proof.Proof.Gen.KernelIdeal.Launch
import proofs.«105208_g19069654794669_cont_sun_m_30_30_alg».proof.Proof.Gen.KernelIdeal.Skeleton
import proofs.«105208_g19069654794669_cont_sun_m_30_30_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rSup : Rect S512x512 := Rect.unit (s := S512x512) ![0, 0] S512x512.size inb_S512x512_S512x512_0_0

abbrev rCol0 : Rect S3x1x2x512 := Rect.unit (s := S3x1x2x512) ![0, 0, 0, 0] S1x1x2x512.size inb_S3x1x2x512_S1x1x2x512_0_0_0_0

abbrev rCol1 : Rect S3x1x2x512 := Rect.unit (s := S3x1x2x512) ![1, 0, 0, 0] S1x1x2x512.size inb_S3x1x2x512_S1x1x2x512_1_0_0_0

abbrev rCol2 : Rect S3x1x2x512 := Rect.unit (s := S3x1x2x512) ![2, 0, 0, 0] S1x1x2x512.size inb_S3x1x2x512_S1x1x2x512_2_0_0_0

abbrev rHid00 : Rect S2x2x512x64 := Rect.unit (s := S2x2x512x64) ![0, 0, 0, 0] S1x1x512x64.size inb_S2x2x512x64_S1x1x512x64_0_0_0_0

abbrev rHid01 : Rect S2x2x512x64 := Rect.unit (s := S2x2x512x64) ![0, 1, 0, 0] S1x1x512x64.size inb_S2x2x512x64_S1x1x512x64_0_1_0_0

abbrev rHid10 : Rect S2x2x512x64 := Rect.unit (s := S2x2x512x64) ![1, 0, 0, 0] S1x1x512x64.size inb_S2x2x512x64_S1x1x512x64_1_0_0_0

abbrev rHid11 : Rect S2x2x512x64 := Rect.unit (s := S2x2x512x64) ![1, 1, 0, 0] S1x1x512x64.size inb_S2x2x512x64_S1x1x512x64_1_1_0_0

abbrev rWa0 : Rect S6x256 := Rect.unit (s := S6x256) ![0, 0] S6x256.size inb_S6x256_S6x256_0_0

abbrev rGate0 : Rect S3x128x256 := Rect.unit (s := S3x128x256) ![0, 0, 0] S1x128x256.size inb_S3x128x256_S1x128x256_0_0_0

abbrev rGate1 : Rect S3x128x256 := Rect.unit (s := S3x128x256) ![1, 0, 0] S1x128x256.size inb_S3x128x256_S1x128x256_1_0_0

abbrev rGate2 : Rect S3x128x256 := Rect.unit (s := S3x128x256) ![2, 0, 0] S1x128x256.size inb_S3x128x256_S1x128x256_2_0_0

abbrev rB256 : Rect S1x256 := Rect.unit (s := S1x256) ![0, 0] S1x256.size inb_S1x256_S1x256_0_0

abbrev rWac0 : Rect S6x128 := Rect.unit (s := S6x128) ![0, 0] S6x128.size inb_S6x128_S6x128_0_0

abbrev rCand0 : Rect S3x128x128 := Rect.unit (s := S3x128x128) ![0, 0, 0] S1x128x128.size inb_S3x128x128_S1x128x128_0_0_0

abbrev rCand1 : Rect S3x128x128 := Rect.unit (s := S3x128x128) ![1, 0, 0] S1x128x128.size inb_S3x128x128_S1x128x128_1_0_0

abbrev rCand2 : Rect S3x128x128 := Rect.unit (s := S3x128x128) ![2, 0, 0] S1x128x128.size inb_S3x128x128_S1x128x128_2_0_0

abbrev rB128 : Rect S1x128 := Rect.unit (s := S1x128) ![0, 0] S1x128.size inb_S1x128_S1x128_0_0

abbrev rWp : Rect S128x2 := Rect.unit (s := S128x2) ![0, 0] S128x2.size inb_S128x2_S128x2_0_0

abbrev rBp : Rect S1x1 := Rect.unit (s := S1x1) ![0, 0] S1x1.size inb_S1x1_S1x1_0_0

abbrev rOut : Rect S1x2x512 := Rect.unit (s := S1x2x512) ![0, 0, 0] S1x2x512.size inb_S1x2x512_S1x2x512_0_0_0

def supp (x0 : Vec F S512x512 .f32) : FVec F S512x512 .f32 :=
  k1_pay5 (View.ld x0 rSup)

def cols (x1 : Vec F S3x1x2x512 .f32) : FVec F S512x6 .f32 :=
  k1_pay6 (View.ld x1 rCol0) (View.ld x1 rCol1) (View.ld x1 rCol2)

def st0 (x2 : Vec F S2x2x512x64 .f32) : FVec F S512x128 .f32 :=
  k1_pay7 (View.ld x2 rHid00) (View.ld x2 rHid01)

def gate0a (x1 : Vec F S3x1x2x512 .f32) (x2 : Vec F S2x2x512x64 .f32) (x3 : Vec F S6x256 .f32) (x4 : Vec F S3x128x256 .f32) (x5 : Vec F S1x256 .f32) : FVec F S512x256 .f32 :=
  k1_pay8 (View.ld x1 rCol0) (View.ld x1 rCol1) (View.ld x1 rCol2) (View.ld x2 rHid00) (View.ld x2 rHid01) (View.ld x5 rB256) (View.ld x3 rWa0) (View.ld x4 rGate0)

def st0d1 (x0 : Vec F S512x512 .f32) (x2 : Vec F S2x2x512x64 .f32) : FVec F S512x128 .f32 :=
  k1_pay9 (View.ld x0 rSup) (View.ld x2 rHid00) (View.ld x2 rHid01)

def upd0 (x0 : Vec F S512x512 .f32) (x1 : Vec F S3x1x2x512 .f32) (x2 : Vec F S2x2x512x64 .f32) (x3 : Vec F S6x256 .f32) (x4 : Vec F S3x128x256 .f32) (x5 : Vec F S1x256 .f32) : FVec F S512x128 .f32 :=
  k1_pay11 (supp x0) (st0 x2) (gate0a x1 x2 x3 x4 x5) (st0d1 x0 x2) (View.ld x4 rGate1) (View.ld x4 rGate2)

def rst0 (x0 : Vec F S512x512 .f32) (x1 : Vec F S3x1x2x512 .f32) (x2 : Vec F S2x2x512x64 .f32) (x3 : Vec F S6x256 .f32) (x4 : Vec F S3x128x256 .f32) (x5 : Vec F S1x256 .f32) : FVec F S512x128 .f32 :=
  k1_pay12 (supp x0) (st0 x2) (gate0a x1 x2 x3 x4 x5) (st0d1 x0 x2) (View.ld x4 rGate1) (View.ld x4 rGate2)

def cand0a (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) : FVec F S512x128 .f32 :=
  k1_pay14 (supp x0) (cols x1) (st0 x2) (gate0a x1 x2 x3 x4 x5) (st0d1 x0 x2) (View.ld x4 rGate1) (View.ld x4 rGate2) (View.ld x8 rB128) (View.ld x6 rWac0) (View.ld x7 rCand0) (View.ld x7 rCand1)

def rst0d2 (x0 : Vec F S512x512 .f32) (x1 : Vec F S3x1x2x512 .f32) (x2 : Vec F S2x2x512x64 .f32) (x3 : Vec F S6x256 .f32) (x4 : Vec F S3x128x256 .f32) (x5 : Vec F S1x256 .f32) : FVec F S512x128 .f32 :=
  k1_pay15 (supp x0) (st0 x2) (gate0a x1 x2 x3 x4 x5) (st0d1 x0 x2) (View.ld x4 rGate1) (View.ld x4 rGate2)

def new0 (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) : FVec F S512x128 .f32 :=
  k1_pay17 (st0 x2) (upd0 x0 x1 x2 x3 x4 x5) (rst0 x0 x1 x2 x3 x4 x5) (cand0a x0 x1 x2 x3 x4 x5 x6 x7 x8) (rst0d2 x0 x1 x2 x3 x4 x5) (k1_pay16 (F := F)) (View.ld x7 rCand2)

def st1 (x2 : Vec F S2x2x512x64 .f32) : FVec F S512x128 .f32 :=
  k1_pay20 (View.ld x2 rHid10) (View.ld x2 rHid11)

def gate1a (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) : FVec F S512x256 .f32 :=
  k1_pay21 (st0 x2) (upd0 x0 x1 x2 x3 x4 x5) (rst0 x0 x1 x2 x3 x4 x5) (cand0a x0 x1 x2 x3 x4 x5 x6 x7 x8) (rst0d2 x0 x1 x2 x3 x4 x5) (k1_pay16 (F := F)) (View.ld x7 rCand2) (View.ld x9 rGate0)

def bias1 (x11 : Vec F S1x256 .f32) : FVec F S512x256 .f32 :=
  k1_pay22 (View.ld x11 rB256)

def in1d1 (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) : FVec F S512x128 .f32 :=
  k1_pay25 (supp x0) (new0 x0 x1 x2 x3 x4 x5 x6 x7 x8) (st1 x2)

def in1d2 (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) : FVec F S512x128 .f32 :=
  k1_pay27 (supp x0) (new0 x0 x1 x2 x3 x4 x5 x6 x7 x8) (st1 x2)

def upd1 (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) : FVec F S512x128 .f32 :=
  k1_pay29 (supp x0) (new0 x0 x1 x2 x3 x4 x5 x6 x7 x8) (st1 x2) (gate1a x0 x1 x2 x3 x4 x5 x6 x7 x8 x9) (bias1 x11) (View.ld x10 rGate0) (View.ld x9 rGate1) (View.ld x10 rGate1) (View.ld x9 rGate2) (View.ld x10 rGate2)

def rst1 (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) : FVec F S512x128 .f32 :=
  k1_pay30 (supp x0) (new0 x0 x1 x2 x3 x4 x5 x6 x7 x8) (st1 x2) (gate1a x0 x1 x2 x3 x4 x5 x6 x7 x8 x9) (bias1 x11) (View.ld x10 rGate0) (View.ld x9 rGate1) (View.ld x10 rGate1) (View.ld x9 rGate2) (View.ld x10 rGate2)

def cand1 (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) : FVec F S512x128 .f32 :=
  k1_pay31 (supp x0) (new0 x0 x1 x2 x3 x4 x5 x6 x7 x8) (in1d1 x0 x1 x2 x3 x4 x5 x6 x7 x8) (in1d2 x0 x1 x2 x3 x4 x5 x6 x7 x8) (rst1 x0 x1 x2 x3 x4 x5 x6 x7 x8 x9 x10 x11) (View.ld x14 rB128) (View.ld x12 rCand0) (View.ld x12 rCand1) (View.ld x12 rCand2) (View.ld x13 rCand0) (View.ld x13 rCand1) (View.ld x13 rCand2)

def out1_17 (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32) : Vec F S1x2x512 .f32 :=
  View.canon [⟨rOut, k1_pay4 (st1 x2) (upd1 x0 x1 x2 x3 x4 x5 x6 x7 x8 x9 x10 x11) (cand1 x0 x1 x2 x3 x4 x5 x6 x7 x8 x9 x10 x11 x12 x13 x14) (View.ld x15 rWp) (View.ld x16 rBp)⟩]

def out1_18 (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) : Vec F S2x2x512x64 .f32 :=
  View.canon [⟨rHid11, k1_pay3 (st1 x2) (upd1 x0 x1 x2 x3 x4 x5 x6 x7 x8 x9 x10 x11) (cand1 x0 x1 x2 x3 x4 x5 x6 x7 x8 x9 x10 x11 x12 x13 x14)⟩, ⟨rHid10, k1_pay2 (st1 x2) (upd1 x0 x1 x2 x3 x4 x5 x6 x7 x8 x9 x10 x11) (cand1 x0 x1 x2 x3 x4 x5 x6 x7 x8 x9 x10 x11 x12 x13 x14)⟩,
    ⟨rHid01, k1_pay19 (st0 x2) (upd0 x0 x1 x2 x3 x4 x5) (rst0 x0 x1 x2 x3 x4 x5) (cand0a x0 x1 x2 x3 x4 x5 x6 x7 x8) (rst0d2 x0 x1 x2 x3 x4 x5) (k1_pay16 (F := F)) (View.ld x7 rCand2)⟩, ⟨rHid00, k1_pay18 (st0 x2) (upd0 x0 x1 x2 x3 x4 x5) (rst0 x0 x1 x2 x3 x4 x5) (cand0a x0 x1 x2 x3 x4 x5 x6 x7 x8) (rst0d2 x0 x1 x2 x3 x4 x5) (k1_pay16 (F := F)) (View.ld x7 rCand2)⟩]

theorem cover1_17 (p : Vec F S1x2x512 .f32) (y : S1x2x512.Idx) :
    ∃ pc ∈ ([⟨rOut, p⟩] : List (View.Piece (Elt F) S1x2x512 .f32)), y ∈ pc.1.set :=
  View.cover_of_tiled [⟨rOut, p⟩] S1x2x512.size (by rfl) y

theorem cover1_18 (p11 p10 p01 p00 : Vec F S1x1x512x64 .f32) (y : S2x2x512x64.Idx) :
    ∃ pc ∈ ([⟨rHid11, p11⟩, ⟨rHid10, p10⟩, ⟨rHid01, p01⟩, ⟨rHid00, p00⟩] : List (View.Piece (Elt F) S2x2x512x64 .f32)), y ∈ pc.1.set :=
  View.cover_of_tiled [⟨rHid11, p11⟩, ⟨rHid10, p10⟩, ⟨rHid01, p01⟩, ⟨rHid00, p00⟩] S1x1x512x64.size (by rfl) y

set_option maxHeartbeats 4000000 in

theorem sound_kernel1 (c : Dev nD) (E : Set ℕ) (i : grid1.Coords) (arg1 : Memref sig .tc .vmem S512x512 .f32) (harg1 : arg1.IsWhole) (arg2 : Memref sig .tc .vmem S3x1x2x512 .f32) (harg2 : arg2.IsWhole) (arg3 : Memref sig .tc .vmem S2x2x512x64 .f32) (harg3 : arg3.IsWhole) (arg4 : Memref sig .tc .vmem S6x256 .f32) (harg4 : arg4.IsWhole) (arg5 : Memref sig .tc .vmem S3x128x256 .f32) (harg5 : arg5.IsWhole) (arg6 : Memref sig .tc .vmem S1x256 .f32) (harg6 : arg6.IsWhole) (arg7 : Memref sig .tc .vmem S6x128 .f32) (harg7 : arg7.IsWhole) (arg8 : Memref sig .tc .vmem S3x128x128 .f32) (harg8 : arg8.IsWhole) (arg9 : Memref sig .tc .vmem S1x128 .f32) (harg9 : arg9.IsWhole) (arg10 : Memref sig .tc .vmem S3x128x256 .f32) (harg10 : arg10.IsWhole) (arg11 : Memref sig .tc .vmem S3x128x256 .f32) (harg11 : arg11.IsWhole) (arg12 : Memref sig .tc .vmem S1x256 .f32) (harg12 : arg12.IsWhole) (arg13 : Memref sig .tc .vmem S3x128x128 .f32) (harg13 : arg13.IsWhole) (arg14 : Memref sig .tc .vmem S3x128x128 .f32) (harg14 : arg14.IsWhole) (arg15 : Memref sig .tc .vmem S1x128 .f32) (harg15 : arg15.IsWhole) (arg16 : Memref sig .tc .vmem S128x2 .f32) (harg16 : arg16.IsWhole) (arg17 : Memref sig .tc .vmem S1x1 .f32) (harg17 : arg17.IsWhole) (arg18 : Memref sig .tc .vmem S1x2x512 .f32) (harg18 : arg18.IsWhole) (arg19 : Memref sig .tc .vmem S2x2x512x64 .f32) (harg19 : arg19.IsWhole)
    (x0 : Vec F S512x512 .f32) (x1 : Vec F S3x1x2x512 .f32) (x2 : Vec F S2x2x512x64 .f32) (x3 : Vec F S6x256 .f32) (x4 : Vec F S3x128x256 .f32) (x5 : Vec F S1x256 .f32) (x6 : Vec F S6x128 .f32) (x7 : Vec F S3x128x128 .f32) (x8 : Vec F S1x128 .f32) (x9 : Vec F S3x128x256 .f32) (x10 : Vec F S3x128x256 .f32) (x11 : Vec F S1x256 .f32) (x12 : Vec F S3x128x128 .f32) (x13 : Vec F S3x128x128 .f32) (x14 : Vec F S1x128 .f32) (x15 : Vec F S128x2 .f32) (x16 : Vec F S1x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
        ∗ (∃ d, owns (c : Thread nD τ) arg18 fullShare d) ∗ (∃ d, owns (c : Thread nD τ) arg19 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16
            ∗ owns (c : Thread nD τ) arg18 fullShare (out1_17 x0 x1 x2 x3 x4 x5 x6 x7 x8 x9 x10 x11 x12 x13 x14 x15 x16) ∗ owns (c : Thread nD τ) arg19 fullShare (out1_18 x0 x1 x2 x3 x4 x5 x6 x7 x8 x9 x10 x11 x12 x13 x14)) -∗ K ⟨⟩))
      ⊢ wp frame (wpE (defs₀ (F := F)) Variants.none c none) E (cc1__main_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K := by
  rw [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%d17, %f17, -, H17⟩, ⟨%d18, %f18, -, H18⟩, Hk⟩
  subst hf0; subst hf1; subst hf2; subst hf3; subst hf4; subst hf5; subst hf6; subst hf7; subst hf8; subst hf9; subst hf10; subst hf11; subst hf12; subst hf13; subst hf14; subst hf15; subst hf16
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists _; isplitr
    swap; · iexact H17
    ipureintro
    exact View.read_writes_eq_canon _ _ _ (cover1_17 _)
  iexists _; isplitr
  swap; · iexact H18
  ipureintro
  exact View.read_writes_eq_canon _ _ _ (cover1_18 _ _ _ _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => iblk1 V c 16 t
    | ⟨17, _⟩ => out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t)
    | ⟨18, _⟩ => out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t)
    | ⟨_ + 19, h⟩ => absurd h (Nat.not_lt.2 (Nat.le_add_left _ _))
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_17 (c : Dev nD) (t : Fin cfg1.N) : (dat1 V c).after 17 t = out1_17 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) := by dsimp only [dat1]
theorem after1_18 (c : Dev nD) (t : Fin cfg1.N) : (dat1 V c).after 18 t = out1_18 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun _ => rfl) t d).trans rfl

theorem before1_1 (c : Dev nD) (t : Fin cfg1.N) (d) : (dat1 V c).before 1 t d = iblk1 V c 1 t :=
  ((dat1 V c).before_in_eq_fetched 1 rfl (fun _ => rfl) (fun _ _ _ => rfl) (fun _ => rfl) t d).trans rfl

theorem before1_2 (c : Dev nD) (t : Fin cfg1.N) (d) : (dat1 V c).before 2 t d = iblk1 V c 2 t :=
  ((dat1 V c).before_in_eq_fetched 2 rfl (fun _ => rfl) (fun _ _ _ => rfl) (fun _ => rfl) t d).trans rfl

theorem before1_3 (c : Dev nD) (t : Fin cfg1.N) (d) : (dat1 V c).before 3 t d = iblk1 V c 3 t :=
  ((dat1 V c).before_in_eq_fetched 3 rfl (fun _ => rfl) (fun _ _ _ => rfl) (fun _ => rfl) t d).trans rfl

theorem before1_4 (c : Dev nD) (t : Fin cfg1.N) (d) : (dat1 V c).before 4 t d = iblk1 V c 4 t :=
  ((dat1 V c).before_in_eq_fetched 4 rfl (fun _ => rfl) (fun _ _ _ => rfl) (fun _ => rfl) t d).trans rfl

theorem before1_5 (c : Dev nD) (t : Fin cfg1.N) (d) : (dat1 V c).before 5 t d = iblk1 V c 5 t :=
  ((dat1 V c).before_in_eq_fetched 5 rfl (fun _ => rfl) (fun _ _ _ => rfl) (fun _ => rfl) t d).trans rfl

theorem before1_6 (c : Dev nD) (t : Fin cfg1.N) (d) : (dat1 V c).before 6 t d = iblk1 V c 6 t :=
  ((dat1 V c).before_in_eq_fetched 6 rfl (fun _ => rfl) (fun _ _ _ => rfl) (fun _ => rfl) t d).trans rfl

theorem before1_7 (c : Dev nD) (t : Fin cfg1.N) (d) : (dat1 V c).before 7 t d = iblk1 V c 7 t :=
  ((dat1 V c).before_in_eq_fetched 7 rfl (fun _ => rfl) (fun _ _ _ => rfl) (fun _ => rfl) t d).trans rfl

theorem before1_8 (c : Dev nD) (t : Fin cfg1.N) (d) : (dat1 V c).before 8 t d = iblk1 V c 8 t :=
  ((dat1 V c).before_in_eq_fetched 8 rfl (fun _ => rfl) (fun _ _ _ => rfl) (fun _ => rfl) t d).trans rfl

theorem before1_9 (c : Dev nD) (t : Fin cfg1.N) (d) : (dat1 V c).before 9 t d = iblk1 V c 9 t :=
  ((dat1 V c).before_in_eq_fetched 9 rfl (fun _ => rfl) (fun _ _ _ => rfl) (fun _ => rfl) t d).trans rfl

theorem before1_10 (c : Dev nD) (t : Fin cfg1.N) (d) : (dat1 V c).before 10 t d = iblk1 V c 10 t :=
  ((dat1 V c).before_in_eq_fetched 10 rfl (fun _ => rfl) (fun _ _ _ => rfl) (fun _ => rfl) t d).trans rfl

theorem before1_11 (c : Dev nD) (t : Fin cfg1.N) (d) : (dat1 V c).before 11 t d = iblk1 V c 11 t :=
  ((dat1 V c).before_in_eq_fetched 11 rfl (fun _ => rfl) (fun _ _ _ => rfl) (fun _ => rfl) t d).trans rfl

theorem before1_12 (c : Dev nD) (t : Fin cfg1.N) (d) : (dat1 V c).before 12 t d = iblk1 V c 12 t :=
  ((dat1 V c).before_in_eq_fetched 12 rfl (fun _ => rfl) (fun _ _ _ => rfl) (fun _ => rfl) t d).trans rfl

theorem before1_13 (c : Dev nD) (t : Fin cfg1.N) (d) : (dat1 V c).before 13 t d = iblk1 V c 13 t :=
  ((dat1 V c).before_in_eq_fetched 13 rfl (fun _ => rfl) (fun _ _ _ => rfl) (fun _ => rfl) t d).trans rfl

theorem before1_14 (c : Dev nD) (t : Fin cfg1.N) (d) : (dat1 V c).before 14 t d = iblk1 V c 14 t :=
  ((dat1 V c).before_in_eq_fetched 14 rfl (fun _ => rfl) (fun _ _ _ => rfl) (fun _ => rfl) t d).trans rfl

theorem before1_15 (c : Dev nD) (t : Fin cfg1.N) (d) : (dat1 V c).before 15 t d = iblk1 V c 15 t :=
  ((dat1 V c).before_in_eq_fetched 15 rfl (fun _ => rfl) (fun _ _ _ => rfl) (fun _ => rfl) t d).trans rfl

theorem before1_16 (c : Dev nD) (t : Fin cfg1.N) (d) : (dat1 V c).before 16 t d = iblk1 V c 16 t :=
  ((dat1 V c).before_in_eq_fetched 16 rfl (fun _ => rfl) (fun _ _ _ => rfl) (fun _ => rfl) t d).trans rfl

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d))
    ∗ (∃ d, owns (c : Thread nD τ) (st1_14 t) fullShare ((dat1 V c).before 14 t d))
    ∗ (∃ d, owns (c : Thread nD τ) (st1_15 t) fullShare ((dat1 V c).before 15 t d))
    ∗ (∃ d, owns (c : Thread nD τ) (st1_16 t) fullShare ((dat1 V c).before 16 t d))
    ∗ (∃ d, owns (c : Thread nD τ) (st1_17 t) fullShare ((dat1 V c).before 17 t d))
    ∗ (∃ d, owns (c : Thread nD τ) (st1_18 t) fullShare ((dat1 V c).before 18 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t)
    ∗ owns (c : Thread nD τ) (st1_14 t) fullShare ((dat1 V c).after 14 t)
    ∗ owns (c : Thread nD τ) (st1_15 t) fullShare ((dat1 V c).after 15 t)
    ∗ owns (c : Thread nD τ) (st1_16 t) fullShare ((dat1 V c).after 16 t)
    ∗ owns (c : Thread nD τ) (st1_17 t) fullShare ((dat1 V c).after 17 t)
    ∗ owns (c : Thread nD τ) (st1_18 t) fullShare ((dat1 V c).after 18 t))

set_option maxHeartbeats 2000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15, before1_16]
  rw [show (dat1 V c).Φ t.succ = (dat1 V c).Φ t.castSucc from rfl,
    show (dat1 V c).owesAt () t.succ = (dat1 V c).owesAt () t.castSucc from rfl]
  dsimp only [dat1]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
  iapply (sound_kernel1 c Set.univ _ _ _ _ _ _ _ _ _ _ _ _ _ _ _ _ _ _ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (iblk1 V c 16 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexists _; iexact H17
  isplitl [H18]; · iexists _; iexact H18
  iintro ⟨H0, H1, H2, H3, H4, H5, H6, H7, H8, H9, H10, H11, H12, H13, H14, H15, H16, H17, H18⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  iexact H18

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Run.lean ====
import proofs.«105208_g19069654794669_cont_sun_m_30_30_alg».proof.Proof.KI.Frame0
import proofs.«105208_g19069654794669_cont_sun_m_30_30_alg».proof.Proof.KI.Frame1
import proofs.«105208_g19069654794669_cont_sun_m_30_30_alg».proof.Proof.Gen.KernelIdeal.Regions

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 : Dev nD → Valuation τ sig (Elt F) := fun c b => (s₀ m ρ).mem ((c : Dev nD), b)

abbrev W1 : Dev nD → Valuation τ sig (Elt F) := fun c => StableHlo.after hostOps0 (W0 m ρ c)

abbrev V1 : (c : Dev nD) → (b : Ref sig .tc) → Buf (Elt F) ((c : Thread nD τ).loc b) := fun c b => W1 m ρ c b

def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b

def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

abbrev W5 : Dev nD → Valuation τ sig (Elt F) := fun c => StableHlo.after hostOps2 (W4 m ρ c)

-- Five boundaries lie between the launch and the end; a buffer left alone at each of them ends as launched.
theorem W5_keep (c : Dev nD) (b : Ref sig .tc) (h21 : W2 m ρ c (Proc.devRef .tc b) = W1 m ρ c (Proc.devRef .tc b))
    (h2 : b ∉ hostOps2_W := by decide) (h4 : ∀ w, Pipeline.arrRef spec1 w ≠ b := by decide)
    (h1 : b ∉ hostOps1_W := by decide) (h0 : b ∉ hostOps0_W := by decide) :
    W5 m ρ c (Proc.devRef .tc b) = m ((c : Thread nD τ).loc b) :=
  (StableHlo.after_of_writes_sub hostOps2 (W4 m ρ c) hostOps2_writes h2).trans <| (W4_of_ne m ρ c b h4).trans <|
    (StableHlo.after_of_writes_sub hostOps1 (W2 m ρ c) hostOps1_writes h1).trans <| h21.trans <|
    (StableHlo.after_of_writes_sub hostOps0 (W0 m ρ c) hostOps0_writes h0).trans rfl

abbrev adm : (p : Fin 2) → (pcfgs (F := F) p).Adm := fun p => (cfgs p).toPCfg_adm

def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W5 m ρ c) ∗ ∃ r, prngReg c r)

set_option backward.isDefEq.respectTransparency.types false in

def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in

def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in

theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (W5 m ρ c) ∗ R c) : sProp 𝕄) ⊢ _
      iintro ⟨Hh, Hp, Ho⟩
      isplitr [Ho]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

-- What the frame and the value claim both say of the argument arrays.
def Kept (μ : (ℓ : Loc nD τ sig) → Buf (Elt F) ℓ) (c : Dev nD) : Prop :=
  μ ((c.tc : Thread nD τ).loc main_arg0) = m ((c.tc : Thread nD τ).loc main_arg0)
  ∧ μ ((c.tc : Thread nD τ).loc main_arg1) = m ((c.tc : Thread nD τ).loc main_arg1)
  ∧ μ ((c.tc : Thread nD τ).loc main_arg2) = m ((c.tc : Thread nD τ).loc main_arg2)
  ∧ μ ((c.tc : Thread nD τ).loc main_arg3) = m ((c.tc : Thread nD τ).loc main_arg3)
  ∧ μ ((c.tc : Thread nD τ).loc main_arg4) = m ((c.tc : Thread nD τ).loc main_arg4)
  ∧ μ ((c.tc : Thread nD τ).loc main_arg5) = m ((c.tc : Thread nD τ).loc main_arg5)
  ∧ μ ((c.tc : Thread nD τ).loc main_arg6) = m ((c.tc : Thread nD τ).loc main_arg6)
  ∧ μ ((c.tc : Thread nD τ).loc main_arg7) = m ((c.tc : Thread nD τ).loc main_arg7)
  ∧ μ ((c.tc : Thread nD τ).loc main_arg8) = m ((c.tc : Thread nD τ).loc main_arg8)
  ∧ μ ((c.tc : Thread nD τ).loc main_arg9) = m ((c.tc : Thread nD τ).loc main_arg9)
  ∧ μ ((c.tc : Thread nD τ).loc main_arg10) = m ((c.tc : Thread nD τ).loc main_arg10)
  ∧ μ ((c.tc : Thread nD τ).loc main_arg11) = m ((c.tc : Thread nD τ).loc main_arg11)
  ∧ μ ((c.tc : Thread nD τ).loc main_arg12) = m ((c.tc : Thread nD τ).loc main_arg12)

theorem kept (c : Dev nD) (μ : (ℓ : Loc nD τ sig) → Buf (Elt F) ℓ)
    (h : ∀ b ∈ Pipeline.ucRefs τ sig, μ (((c : Thread nD τ)).1, b) = W5 m ρ c b) : Kept m μ c :=
  ⟨(h _ (mem_uc main_arg0 (by decide))).trans (W5_keep m ρ c main_arg0 ((W2_arr m ρ c 1).trans (((dat0 (V1 m ρ) c).arrAt_in 1 rfl _).trans (A_eq0 (V1 m ρ) c 1)))),
   (h _ (mem_uc main_arg1 (by decide))).trans (W5_keep m ρ c main_arg1 (W2_of_ne m ρ c main_arg1 (by decide))),
   (h _ (mem_uc main_arg2 (by decide))).trans (W5_keep m ρ c main_arg2 ((W2_arr m ρ c 0).trans (((dat0 (V1 m ρ) c).arrAt_in 0 rfl _).trans (A_eq0 (V1 m ρ) c 0)))),
   (h _ (mem_uc main_arg3 (by decide))).trans (W5_keep m ρ c main_arg3 (W2_of_ne m ρ c main_arg3 (by decide))),
   (h _ (mem_uc main_arg4 (by decide))).trans (W5_keep m ρ c main_arg4 (W2_of_ne m ρ c main_arg4 (by decide))),
   (h _ (mem_uc main_arg5 (by decide))).trans (W5_keep m ρ c main_arg5 (W2_of_ne m ρ c main_arg5 (by decide))),
   (h _ (mem_uc main_arg6 (by decide))).trans (W5_keep m ρ c main_arg6 (W2_of_ne m ρ c main_arg6 (by decide))),
   (h _ (mem_uc main_arg7 (by decide))).trans (W5_keep m ρ c main_arg7 (W2_of_ne m ρ c main_arg7 (by decide))),
   (h _ (mem_uc main_arg8 (by decide))).trans (W5_keep m ρ c main_arg8 (W2_of_ne m ρ c main_arg8 (by decide))),
   (h _ (mem_uc main_arg9 (by decide))).trans (W5_keep m ρ c main_arg9 (W2_of_ne m ρ c main_arg9 (by decide))),
   (h _ (mem_uc main_arg10 (by decide))).trans (W5_keep m ρ c main_arg10 (W2_of_ne m ρ c main_arg10 (by decide))),
   (h _ (mem_uc main_arg11 (by decide))).trans (W5_keep m ρ c main_arg11 ((W2_arr m ρ c 10).trans (((dat0 (V1 m ρ) c).arrAt_in 10 rfl _).trans (A_eq0 (V1 m ρ) c 10)))),
   (h _ (mem_uc main_arg12 (by decide))).trans (W5_keep m ρ c main_arg12 (W2_of_ne m ρ c main_arg12 (by decide)))⟩

-- The frame with its precondition left open: the frame claim of either float instance is an instance of it.
def Framed (pre : ((ℓ : Loc nD τ sig) → Buf (Elt F) ℓ) → Prop) : Prop :=
  ∀ (m : (ℓ : Loc nD τ sig) → Buf (Elt F) ℓ) (ρ : Dev nD → PrngReg), pre m →
    θ_run defs (onTc (τ := τ) (main (F := F))) ⟨m, fun _ => 0, ρ⟩ (fun r => ∀ c : Dev nD, Kept m r.2.mem c)

theorem frame_all (pre : ((ℓ : Loc nD τ sig) → Buf (Elt F) ℓ) → Prop) : Framed (F := F) pre := fun m ρ _ =>
  (θ_run defs _ _).mono (fun r h c => kept m ρ c r.2.mem (h c)) (run_all m ρ)

end Cert.KernelIdeal.Hand

end
-- ==== Proof.Spec.lean ====
import Idealize.ShloMosaic.PureOps.Ideal
import Idealize.ShloMosaic.Lib.ValueIdx

noncomputable section

open scoped BigOperators

namespace Cert.Spec

open Idealize.ShloMosaic

abbrev R := EReal

def c0 : R := Ideal.ofBits .f32 0x00000000#32
def c1 : R := Ideal.ofBits .f32 0x3F800000#32
def c2 : R := Ideal.ofBits .f32 0x40000000#32

def cur1 {a : ℕ} (x : (⟨1, ![a]⟩ : Shape).Idx → R) (i : Fin a) : R := x (ValueIdx.ix1 i)
def cur2 {a b : ℕ} (x : (⟨2, ![a, b]⟩ : Shape).Idx → R) (i : Fin a) (j : Fin b) : R := x (ValueIdx.ix2 i j)
def cur3 {a b c : ℕ} (x : (⟨3, ![a, b, c]⟩ : Shape).Idx → R) (i : Fin a) (j : Fin b) (k : Fin c) : R := x (ValueIdx.ix3 i j k)

def bat (p : Fin 32) (β : Fin 2) : Fin 64 := ⟨2 * p.val + β.val, by omega⟩

def pairOf (b : Fin 64) : Fin 32 := ⟨b.val / 2, by omega⟩
def slotOf (b : Fin 64) : Fin 2 := ⟨b.val % 2, by omega⟩

def nu (n : Fin 512) (u : Fin 64) : Fin 32768 := ⟨n.val * 64 + u.val, by omega⟩
def nodeOf (q : Fin 32768) : Fin 512 := ⟨q.val / 64, by omega⟩
def unitOf (q : Fin 32768) : Fin 64 := ⟨q.val % 64, by omega⟩

def lane (β : Fin 2) (u : Fin 64) : Fin 128 := ⟨64 * β.val + u.val, by omega⟩
def hi (l : Fin 128) : Fin 2 := ⟨l.val / 64, by omega⟩
def lo (l : Fin 128) : Fin 64 := ⟨l.val % 64, by omega⟩

def qg (q : Fin 256) : Fin 2 := ⟨q.val / 128, by omega⟩
def qb (q : Fin 256) : Fin 2 := ⟨q.val % 128 / 64, by omega⟩
def qo (q : Fin 256) : Fin 64 := ⟨q.val % 64, by omega⟩

def go (g : Fin 2) (o : Fin 64) : Fin 128 := ⟨64 * g.val + o.val, by omega⟩

def lowQ (l : Fin 128) : Fin 256 := ⟨l.val, by omega⟩
def highQ (l : Fin 128) : Fin 256 := ⟨128 + l.val, by omega⟩

def fk65 (f : Fin 65) (k : Fin 3) : Fin 195 := ⟨f.val * 3 + k.val, by omega⟩
def fk128 (f : Fin 128) (k : Fin 3) : Fin 384 := ⟨f.val * 3 + k.val, by omega⟩

def f1 (u : Fin 64) : Fin 65 := ⟨1 + u.val, by omega⟩
def fL (u : Fin 64) : Fin 128 := ⟨u.val, by omega⟩
def fH (u : Fin 64) : Fin 128 := ⟨64 + u.val, by omega⟩

def invs (d : R) : R := Scalar.select (Ideal.cmp .ogt d c0) (Ideal.div c1 (Ideal.sqrt d)) c0

def sym (Adj : Fin 512 → Fin 512 → R) (i j : Fin 512) : R := max (Adj i j) (Adj j i)

def diff {m : ℕ} (S : Fin 512 → Fin 512 → R) (M : Fin 512 → Fin m → R) (n : Fin 512) (l : Fin m) : R := ∑ j, S n j * M j l

def cheb2 {m : ℕ} (S : Fin 512 → Fin 512 → R) (M : Fin 512 → Fin m → R) (n : Fin 512) (l : Fin m) : R :=
  c2 * diff S (diff S M) n l - M n l

def mm {a b : ℕ} (M : Fin 512 → Fin a → R) (W : Fin a → Fin b → R) (n : Fin 512) (q : Fin b) : R := ∑ l, M n l * W l q

def sig (x : R) : R := Ideal.div c1 (c1 + Ideal.exp (-x))

section
variable (X : Fin 64 → Fin 512 → R) (Hs : Fin 2 → Fin 64 → Fin 32768 → R) (Adj : Fin 512 → Fin 512 → R)
  (Wru0 : Fin 195 → Fin 128 → R) (bru0 : Fin 128 → R) (Wc0 : Fin 195 → Fin 64 → R) (bc0 : Fin 64 → R)
  (Wru1 : Fin 384 → Fin 128 → R) (bru1 : Fin 128 → R) (Wc1 : Fin 384 → Fin 64 → R) (bc1 : Fin 64 → R)
  (Wp : Fin 64 → Fin 1 → R) (bp : Fin 1 → R)

def supK (i j : Fin 512) : R :=
  (c0 - invs (∑ j', sym Adj i j') * sym Adj i j) * invs (∑ i', sym Adj i' j)

def a1K (b : Fin 64) (n : Fin 512) : R := ∑ j, X b j * supK Adj j n
def a2K (b : Fin 64) (n : Fin 512) : R := c2 * (∑ j, a1K X Adj b j * supK Adj j n) - X b n

def waRu0 (r : Fin 6) (q : Fin 256) : R :=
  if r.val % 2 = (qb q).val then Wru0 (fk65 0 ⟨r.val / 2, by omega⟩) (go (qg q) (qo q)) else c0
def waC0 (r : Fin 6) (l : Fin 128) : R :=
  if r.val % 2 = (hi l).val then Wc0 (fk65 0 ⟨r.val / 2, by omega⟩) (lo l) else c0
def whRu0 (k : Fin 3) (l : Fin 128) (q : Fin 256) : R :=
  if hi l = qb q then Wru0 (fk65 (f1 (lo l)) k) (go (qg q) (qo q)) else c0
def whC0 (k : Fin 3) (l l' : Fin 128) : R :=
  if hi l = hi l' then Wc0 (fk65 (f1 (lo l)) k) (lo l') else c0
def wgRu1 (k : Fin 3) (l : Fin 128) (q : Fin 256) : R :=
  if hi l = qb q then Wru1 (fk128 (fL (lo l)) k) (go (qg q) (qo q)) else c0
def wkRu1 (k : Fin 3) (l : Fin 128) (q : Fin 256) : R :=
  if hi l = qb q then Wru1 (fk128 (fH (lo l)) k) (go (qg q) (qo q)) else c0
def wgC1 (k : Fin 3) (l l' : Fin 128) : R :=
  if hi l = hi l' then Wc1 (fk128 (fL (lo l)) k) (lo l') else c0
def wkC1 (k : Fin 3) (l l' : Fin 128) : R :=
  if hi l = hi l' then Wc1 (fk128 (fH (lo l)) k) (lo l') else c0
def bRu0 (q : Fin 256) : R := bru0 (go (qg q) (qo q))
def bC0 (l : Fin 128) : R := bc0 (lo l)
def bRu1 (q : Fin 256) : R := bru1 (go (qg q) (qo q))
def bC1 (l : Fin 128) : R := bc1 (lo l)
def wpp (l : Fin 128) (j : Fin 2) : R := if hi l = j then Wp (lo l) 0 else c0

def acolK (p : Fin 32) (n : Fin 512) (r : Fin 6) : R :=
  if r.val / 2 = 0 then X (bat p ⟨r.val % 2, by omega⟩) n
  else if r.val / 2 = 1 then a1K X Adj (bat p ⟨r.val % 2, by omega⟩) n
  else a2K X Adj (bat p ⟨r.val % 2, by omega⟩) n

def stK (L : Fin 2) (p : Fin 32) (n : Fin 512) (l : Fin 128) : R := Hs L (bat p (hi l)) (nu n (lo l))

def ruK (p : Fin 32) (n : Fin 512) (q : Fin 256) : R :=
  (((bRu0 bru0 q + mm (acolK X Adj p) (waRu0 Wru0) n q) + mm (stK Hs 0 p) (whRu0 Wru0 0) n q)
    + mm (diff (supK Adj) (stK Hs 0 p)) (whRu0 Wru0 1) n q)
    + mm (cheb2 (supK Adj) (stK Hs 0 p)) (whRu0 Wru0 2) n q
def rK (p : Fin 32) (n : Fin 512) (l : Fin 128) : R := Ideal.logistic (ruK X Hs Adj Wru0 bru0 p n (lowQ l))
def uK (p : Fin 32) (n : Fin 512) (l : Fin 128) : R := Ideal.logistic (ruK X Hs Adj Wru0 bru0 p n (highQ l))
def rhK (p : Fin 32) (n : Fin 512) (l : Fin 128) : R := rK X Hs Adj Wru0 bru0 p n l * stK Hs 0 p n l
def cK (p : Fin 32) (n : Fin 512) (l : Fin 128) : R :=
  Ideal.tanh ((((bC0 bc0 l + mm (acolK X Adj p) (waC0 Wc0) n l) + mm (rhK X Hs Adj Wru0 bru0 p) (whC0 Wc0 0) n l)
    + mm (diff (supK Adj) (rhK X Hs Adj Wru0 bru0 p)) (whC0 Wc0 1) n l)
    + mm (cheb2 (supK Adj) (rhK X Hs Adj Wru0 bru0 p)) (whC0 Wc0 2) n l)
def h0K (p : Fin 32) (n : Fin 512) (l : Fin 128) : R :=
  uK X Hs Adj Wru0 bru0 p n l * stK Hs 0 p n l + (c1 - uK X Hs Adj Wru0 bru0 p n l) * cK X Hs Adj Wru0 bru0 Wc0 bc0 p n l

end

section
variable (S : Fin 512 → Fin 512 → R) (G K0 : Fin 512 → Fin 128 → R)
  (Wru1 : Fin 384 → Fin 128 → R) (bru1 : Fin 128 → R) (Wc1 : Fin 384 → Fin 64 → R) (bc1 : Fin 64 → R)

def ru1K (n : Fin 512) (q : Fin 256) : R :=
  (((bRu1 bru1 q + mm G (wgRu1 Wru1 0) n q) + mm K0 (wkRu1 Wru1 0) n q)
    + (mm (diff S G) (wgRu1 Wru1 1) n q + mm (diff S K0) (wkRu1 Wru1 1) n q))
    + (mm (cheb2 S G) (wgRu1 Wru1 2) n q + mm (cheb2 S K0) (wkRu1 Wru1 2) n q)
def r1K (n : Fin 512) (l : Fin 128) : R := Ideal.logistic (ru1K S G K0 Wru1 bru1 n (lowQ l))
def u1K (n : Fin 512) (l : Fin 128) : R := Ideal.logistic (ru1K S G K0 Wru1 bru1 n (highQ l))
def rh1K (n : Fin 512) (l : Fin 128) : R := r1K S G K0 Wru1 bru1 n l * K0 n l
def c1K (n : Fin 512) (l : Fin 128) : R :=
  Ideal.tanh (((((((bC1 bc1 l + mm G (wgC1 Wc1 0) n l) + mm (diff S G) (wgC1 Wc1 1) n l) + mm (cheb2 S G) (wgC1 Wc1 2) n l)
    + mm (rh1K S G K0 Wru1 bru1) (wkC1 Wc1 0) n l) + mm (diff S (rh1K S G K0 Wru1 bru1)) (wkC1 Wc1 1) n l)
    + mm (cheb2 S (rh1K S G K0 Wru1 bru1)) (wkC1 Wc1 2) n l))
def h1Kof (n : Fin 512) (l : Fin 128) : R :=
  u1K S G K0 Wru1 bru1 n l * K0 n l + (c1 - u1K S G K0 Wru1 bru1 n l) * c1K S G K0 Wru1 bru1 Wc1 bc1 n l
end

section
variable (X : Fin 64 → Fin 512 → R) (Hs : Fin 2 → Fin 64 → Fin 32768 → R) (Adj : Fin 512 → Fin 512 → R)
  (Wru0 : Fin 195 → Fin 128 → R) (bru0 : Fin 128 → R) (Wc0 : Fin 195 → Fin 64 → R) (bc0 : Fin 64 → R)
  (Wru1 : Fin 384 → Fin 128 → R) (bru1 : Fin 128 → R) (Wc1 : Fin 384 → Fin 64 → R) (bc1 : Fin 64 → R)
  (Wp : Fin 64 → Fin 1 → R) (bp : Fin 1 → R)

def h1K (p : Fin 32) (n : Fin 512) (l : Fin 128) : R :=
  h1Kof (supK Adj) (h0K X Hs Adj Wru0 bru0 Wc0 bc0 p) (stK Hs 1 p) Wru1 bru1 Wc1 bc1 n l

def prjK (p : Fin 32) (n : Fin 512) (j : Fin 2) : R :=
  mm (h1K X Hs Adj Wru0 bru0 Wc0 bc0 Wru1 bru1 Wc1 bc1 p) (wpp Wp) n j + bp 0

def outK (b : Fin 64) (n : Fin 512) : R :=
  prjK X Hs Adj Wru0 bru0 Wc0 bc0 Wru1 bru1 Wc1 bc1 Wp bp (pairOf b) n (slotOf b)
def hidK (L : Fin 2) (b : Fin 64) (q : Fin 32768) : R :=
  if L = 0 then h0K X Hs Adj Wru0 bru0 Wc0 bc0 (pairOf b) (nodeOf q) (lane (slotOf b) (unitOf q))
  else h1K X Hs Adj Wru0 bru0 Wc0 bc0 Wru1 bru1 Wc1 bc1 (pairOf b) (nodeOf q) (lane (slotOf b) (unitOf q))

def eye (i j : Fin 512) : R := if i = j then 1 else 0

def degR (i : Fin 512) : R := c0 + ∑ j, sym Adj i j

def supR (i j : Fin 512) : R :=
  c1 * (eye i j - (invs (degR Adj i) * sym Adj i j) * invs (degR Adj j)) - eye i j

end

def chebR {nf : ℕ} (S : Fin 512 → Fin 512 → R) (feat : Fin nf → Fin 64 → Fin 512 → R) (k : Fin 3) (f : Fin nf) (b : Fin 64)
    (n : Fin 512) : R :=
  if k = 0 then feat f b n
  else if k = 1 then ∑ j, S n j * feat f b j
  else c2 * (∑ j, S n j * (∑ j', S j j' * feat f b j')) - feat f b n

def gconv65 {no : ℕ} (S : Fin 512 → Fin 512 → R) (feat : Fin 65 → Fin 64 → Fin 512 → R) (W : Fin 195 → Fin no → R)
    (bias : Fin no → R) (b : Fin 64) (n : Fin 512) (o : Fin no) : R :=
  (∑ q : Fin 195, chebR S feat ⟨q.val % 3, by omega⟩ ⟨q.val / 3, by omega⟩ b n * W q o) + bias o

def gconv128 {no : ℕ} (S : Fin 512 → Fin 512 → R) (feat : Fin 128 → Fin 64 → Fin 512 → R) (W : Fin 384 → Fin no → R)
    (bias : Fin no → R) (b : Fin 64) (n : Fin 512) (o : Fin no) : R :=
  (∑ q : Fin 384, chebR S feat ⟨q.val % 3, by omega⟩ ⟨q.val / 3, by omega⟩ b n * W q o) + bias o

section
variable (X : Fin 64 → Fin 512 → R) (Hs : Fin 2 → Fin 64 → Fin 32768 → R) (Adj : Fin 512 → Fin 512 → R)
  (Wru0 : Fin 195 → Fin 128 → R) (bru0 : Fin 128 → R) (Wc0 : Fin 195 → Fin 64 → R) (bc0 : Fin 64 → R)
  (Wru1 : Fin 384 → Fin 128 → R) (bru1 : Fin 128 → R) (Wc1 : Fin 384 → Fin 64 → R) (bc1 : Fin 64 → R)
  (Wp : Fin 64 → Fin 1 → R) (bp : Fin 1 → R)

def feat0 (f : Fin 65) (b : Fin 64) (n : Fin 512) : R :=
  if h : f.val = 0 then X b n else Hs 0 b (nu n ⟨f.val - 1, by omega⟩)
def val0R (b : Fin 64) (n : Fin 512) (o : Fin 128) : R := sig (gconv65 (supR Adj) (feat0 X Hs) Wru0 bru0 b n o)
def r0R (b : Fin 64) (n : Fin 512) (u : Fin 64) : R := val0R X Hs Adj Wru0 bru0 b n (go 0 u)
def u0R (b : Fin 64) (n : Fin 512) (u : Fin 64) : R := val0R X Hs Adj Wru0 bru0 b n (go 1 u)
def featc0 (f : Fin 65) (b : Fin 64) (n : Fin 512) : R :=
  if h : f.val = 0 then X b n
  else r0R X Hs Adj Wru0 bru0 b n ⟨f.val - 1, by omega⟩ * Hs 0 b (nu n ⟨f.val - 1, by omega⟩)
def c0R (b : Fin 64) (n : Fin 512) (u : Fin 64) : R :=
  Ideal.tanh (gconv65 (supR Adj) (featc0 X Hs Adj Wru0 bru0) Wc0 bc0 b n u)
def h0R (b : Fin 64) (n : Fin 512) (u : Fin 64) : R :=
  u0R X Hs Adj Wru0 bru0 b n u * Hs 0 b (nu n u) + (c1 - u0R X Hs Adj Wru0 bru0 b n u) * c0R X Hs Adj Wru0 bru0 Wc0 bc0 b n u

def feat1 (f : Fin 128) (b : Fin 64) (n : Fin 512) : R :=
  if h : f.val < 64 then h0R X Hs Adj Wru0 bru0 Wc0 bc0 b n ⟨f.val, h⟩ else Hs 1 b (nu n ⟨f.val - 64, by omega⟩)
def val1R (b : Fin 64) (n : Fin 512) (o : Fin 128) : R :=
  sig (gconv128 (supR Adj) (feat1 X Hs Adj Wru0 bru0 Wc0 bc0) Wru1 bru1 b n o)
def r1R (b : Fin 64) (n : Fin 512) (u : Fin 64) : R := val1R X Hs Adj Wru0 bru0 Wc0 bc0 Wru1 bru1 b n (go 0 u)
def u1R (b : Fin 64) (n : Fin 512) (u : Fin 64) : R := val1R X Hs Adj Wru0 bru0 Wc0 bc0 Wru1 bru1 b n (go 1 u)
def featc1 (f : Fin 128) (b : Fin 64) (n : Fin 512) : R :=
  if h : f.val < 64 then h0R X Hs Adj Wru0 bru0 Wc0 bc0 b n ⟨f.val, h⟩
  else r1R X Hs Adj Wru0 bru0 Wc0 bc0 Wru1 bru1 b n ⟨f.val - 64, by omega⟩ * Hs 1 b (nu n ⟨f.val - 64, by omega⟩)
def c1R (b : Fin 64) (n : Fin 512) (u : Fin 64) : R :=
  Ideal.tanh (gconv128 (supR Adj) (featc1 X Hs Adj Wru0 bru0 Wc0 bc0 Wru1 bru1) Wc1 bc1 b n u)
def h1R (b : Fin 64) (n : Fin 512) (u : Fin 64) : R :=
  u1R X Hs Adj Wru0 bru0 Wc0 bc0 Wru1 bru1 b n u * Hs 1 b (nu n u)
    + (c1 - u1R X Hs Adj Wru0 bru0 Wc0 bc0 Wru1 bru1 b n u) * c1R X Hs Adj Wru0 bru0 Wc0 bc0 Wru1 bru1 Wc1 bc1 b n u

def outR (b : Fin 64) (n : Fin 512) : R :=
  (∑ u : Fin 64, h1R X Hs Adj Wru0 bru0 Wc0 bc0 Wru1 bru1 Wc1 bc1 b n u * Wp u 0) + bp 0
def hidR (L : Fin 2) (b : Fin 64) (q : Fin 32768) : R :=
  if L = 0 then h0R X Hs Adj Wru0 bru0 Wc0 bc0 b (nodeOf q) (unitOf q)
  else h1R X Hs Adj Wru0 bru0 Wc0 bc0 Wru1 bru1 Wc1 bc1 b (nodeOf q) (unitOf q)

end

end Cert.Spec

end
-- ==== Proof.Ref.Support.lean ====
import proofs.«105208_g19069654794669_cont_sun_m_30_30_alg».proof.Proof.Ref.ReadP
import proofs.«105208_g19069654794669_cont_sun_m_30_30_alg».proof.Proof.Ref.Ops
import proofs.«105208_g19069654794669_cont_sun_m_30_30_alg».proof.Proof.Spec

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec
open Cert.ReferenceIdeal.ValueP Idealize.ShloMosaic.StableHlo Idealize.ShloMosaic.TcCoe

section Entries
variable (x2 : (⟨S512x512, .f32⟩ : BufTy).Contents (Elt Ideal))

private theorem sym_apply (i j : Fin 512) : val_main_v1 (F := Ideal) x2 (ix2 i j) = sym (cur2 x2) i j := by
  rw [val_main_v1_apply, val_main_v0_apply]
  have h : idx_main_v0 (ix2 i j) = ix2 j i := funext fun a => by match a with | ⟨0, _⟩ => rfl | ⟨1, _⟩ => rfl
  rw [h]
  rfl

private theorem deg_apply (i : Fin 512) : val_main_v2 (F := Ideal) x2 (ix1 i) = degR (cur2 x2) i := by
  rw [val_main_v2_apply]
  unfold degR
  refine congrArg₂ (· + ·) rfl (Finset.sum_congr rfl fun k _ => ?_)
  have h : idx_main_v2 (ix1 i) k = ix2 i k := funext fun a => by match a with | ⟨0, _⟩ => rfl | ⟨1, _⟩ => rfl
  rw [h, sym_apply]

private theorem invs_apply (i : Fin 512) : val_main_v8 (F := Ideal) x2 (ix1 i) = invs (degR (cur2 x2) i) := by
  rw [val_main_v8_apply, val_main_v4_apply, val_main_v7_apply, val_main_v5_apply, val_main_v3_apply, val_main_v6_apply,
    val_main_call0_v1_apply, val_main_call0_v0_apply, val_main_cst_0_apply, val_main_cst_1_apply, val_main_cst_2_apply,
    deg_apply]
  generalize degR (cur2 x2) i = d
  rfl

end Entries

private theorem word_eq_iff (i j : Fin 512) : (BitVec.ofNat 32 i.val + 0#32 == BitVec.ofNat 32 j.val) = decide (i = j) := by
  rw [BitVec.add_zero, Bool.eq_iff_iff, beq_iff_eq, decide_eq_true_eq]
  constructor
  · intro h
    have h' := congrArg BitVec.toNat h
    rw [BitVec.toNat_ofNat, BitVec.toNat_ofNat] at h'
    have hi := i.isLt
    have hj := j.isLt
    exact Fin.ext (by omega)
  · intro h
    rw [h]

private theorem eye_word (i j : Fin 512) :
    (FloatOps.uitofp (F := Ideal) .f32 (IntOp.cmpi .eq (IntOp.addi (BitVec.ofNat 32 i.val) 0#32) (BitVec.ofNat 32 j.val))) = eye i j := by
  show (((BitVec.ofBool (BitVec.ofNat 32 i.val + 0#32 == BitVec.ofNat 32 j.val)).toNat : ℝ) : EReal) = eye i j
  rw [word_eq_iff]
  unfold eye
  by_cases h : i = j
  · rw [if_pos h, decide_eq_true h]
    simp
  · rw [if_neg h, decide_eq_false h]
    simp

private theorem eye14_apply (i j : Fin 512) : val_main_v14 (F := Ideal) (ix2 i j) = eye i j := by
  rw [val_main_v14_apply, val_main_v13_apply, val_main_v12_apply, val_main_v9_apply, val_main_v10_apply, val_main_v11_apply,
    val_main_c_apply]
  exact eye_word i j

private theorem eye29_apply (i j : Fin 512) : val_main_v29 (F := Ideal) (ix2 i j) = eye i j := by
  rw [val_main_v29_apply, val_main_v28_apply, val_main_v27_apply, val_main_v24_apply, val_main_v25_apply, val_main_v26_apply,
    val_main_c_4_apply]
  exact eye_word i j

theorem support_apply (x2 : (⟨S512x512, .f32⟩ : BufTy).Contents (Elt Ideal)) (i j : Fin 512) :
    val_main_v30 (F := Ideal) x2 (ix2 i j) = supR (cur2 x2) i j := by
  rw [val_main_v30_apply, val_main_v23_apply, val_main_v21_apply, val_main_v20_apply, val_main_v17_apply,
    val_main_v16_apply, val_main_v15_apply, val_main_v19_apply, val_main_v18_apply, val_main_v22_apply, val_main_cst_3_apply]
  have h16 : idx_main_v15 (idx_main_v16 (ix2 i j)) = ix1 i := funext fun a => by match a with | ⟨0, _⟩ => rfl
  have h19 : idx_main_v18 (idx_main_v19 (ix2 i j)) = ix1 j := funext fun a => by match a with | ⟨0, _⟩ => rfl
  rw [h16, h19, invs_apply, invs_apply, sym_apply, eye14_apply, eye29_apply]
  rfl

theorem run1 (V : Valuation τ sig (Elt Ideal)) :
    after (ops1 (F := Ideal)) V main_v30 = val_main_v30 (F := Ideal) (V main_arg2) := by
  unfold ops1
  after_results_simp
  rfl

abbrev written1 : List (Ref sig .tc) :=
  [main_v0, main_v1, main_cst, main_v2, main_cst_0, main_v3, main_v4, main_v5, main_cst_1, main_v6, main_v7, main_cst_2, main_call0_v0, main_call0_v1, main_v8, main_v9, main_v10, main_c, main_v11, main_v12, main_v13, main_v14, main_v15, main_v16, main_v17, main_v18, main_v19, main_v20, main_v21, main_cst_3, main_v22, main_v23, main_v24, main_v25, main_c_4, main_v26, main_v27, main_v28, main_v29, main_v30]

theorem ops1_writes :
    (ops1 : List (HloOp τ sig (Elt Ideal))).Forall fun op => op.writes ⊆ (written1.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, ternary_writes, Finset.singleton_subset_iff, List.mem_toFinset]
     exact List.mem_map_of_mem (by decide))

theorem keep1 (V : Valuation τ sig (Elt Ideal)) (r : Ref sig .tc) (h : r ∉ written1) :
    after (ops1 (F := Ideal)) V r = V r :=
  after_of_writes_sub ops1 V ops1_writes h

end Cert.ReferenceIdeal.RefValue

end
-- ==== Proof.Ref.Gates0.lean ====
import proofs.«105208_g19069654794669_cont_sun_m_30_30_alg».proof.Proof.Ref.ReadP
import proofs.«105208_g19069654794669_cont_sun_m_30_30_alg».proof.Proof.Spec
import proofs.«105208_g19069654794669_cont_sun_m_30_30_alg».proof.Proof.Ref.Support
import proofs.«105208_g19069654794669_cont_sun_m_30_30_alg».proof.Proof.Ref.Ops

set_option maxRecDepth 8192

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec
open Cert.ReferenceIdeal.ValueP Idealize.ShloMosaic.StableHlo Idealize.ShloMosaic.TcCoe

theorem nary3_result2 {x a b y : Ref sig .tc}
    (f : ((k : Fin 3) → ((![x, a, b] : Fin 3 → Ref sig .tc) k).ty.Contents (Elt Ideal)) → y.ty.Contents (Elt Ideal)) (hxs hy)
    (W : Valuation τ sig (Elt Ideal)) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

local macro "chunk_results2" : tactic =>
  `(tactic| (simp only [after_cons, after_nil]
             repeat (first
               | rw [nullary_result] | rw [unary_result] | rw [binary_result] | rw [reshape_result] | rw [nary3_result2]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

abbrev written2 : List (Ref sig .tc) := [main_v31, main_v32, main_v33, main_v34, main_v35, main_v36, main_v37, main_v38, main_v39, main_cst_5, main_v40, main_v41, main_v42, main_v43, main_v44, main_v45, main_v46, main_v47, main_v48, main_v49, main_v50, main_v51, main_v52, main_v53, main_v54, main_v55, main_v56, main_cst_6, main_v57, main_v58, main_cst_7, main_v59, main_v60]

theorem ops2_writes : (ops2 : List (HloOp τ sig (Elt Ideal))).Forall fun op => op.writes ⊆ (written2.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals (simp only [StableHlo.nullary_writes, StableHlo.unary_writes, StableHlo.binary_writes, StableHlo.reshape_writes, StableHlo.nary_writes, Finset.singleton_subset_iff, List.mem_toFinset]; exact List.mem_map_of_mem (by decide))

theorem keep2 (V : Valuation τ sig (Elt Ideal)) (r : Ref sig .tc) (h : r ∉ written2) : after (ops2 (F := Ideal)) V r = V r :=
  StableHlo.after_of_writes_sub ops2 V ops2_writes h

theorem run2_v32 (V : Valuation τ sig (Elt Ideal)) :
    after (ops2 (F := Ideal)) V main_v32 = val_main_v32 (F := Ideal) (V main_arg1) := by
  chunk_results2
  rfl

set_option maxHeartbeats 4000000 in

theorem run2_v60 (V : Valuation τ sig (Elt Ideal)) (h30 : V main_v30 = val_main_v30 (F := Ideal) (V main_arg2)) :
    after (ops2 (F := Ideal)) V main_v60 = val_main_v60 (F := Ideal) (V main_arg0) (V main_arg1) (V main_arg2) (V main_arg3) (V main_arg4) := by
  chunk_results2
  rw [h30]
  rfl

theorem run2 (V : Valuation τ sig (Elt Ideal)) (h30 : V main_v30 = val_main_v30 (F := Ideal) (V main_arg2)) :
    after (ops2 (F := Ideal)) V main_v60 = val_main_v60 (F := Ideal) (V main_arg0) (V main_arg1) (V main_arg2) (V main_arg3) (V main_arg4)
    ∧ after (ops2 (F := Ideal)) V main_v32 = val_main_v32 (F := Ideal) (V main_arg1) :=
  ⟨run2_v60 V h30, run2_v32 V⟩

theorem gates0_feat35 (x0 : (⟨S64x512, .f32⟩ : BufTy).Contents (Elt Ideal)) (x1 : (⟨S2x64x32768, .f32⟩ : BufTy).Contents (Elt Ideal)) (b : Fin 64) (n : Fin 512) (f : Fin 65) :
    val_main_v35 (F := Ideal) x0 x1 (ix3 b n f) = feat0 (cur2 x0) (cur3 x1) f b n := by
  unfold val_main_v35 feat0
  by_cases hf : f.val = 0
  · rw [dif_pos hf]
    rw [concatenate_pair_apply_left (t := S64x512x65) (s₁ := S64x512x1) (s₂ := S64x512x64) (2 : Fin 3) _ _ _ (ix3 b n f) rfl (ix3 b n (0 : Fin 1))
      (fun c => by match c with | ⟨0, _⟩ => rfl | ⟨1, _⟩ => rfl | ⟨2, _⟩ => exact hf.symm)]
    rw [val_main_v33_apply]
    unfold cur2
    congr 1
    funext a; apply Fin.ext
    match a with
    | ⟨0, _⟩ => show ((b.val * 512 + n.val) * 1 + 0) / 512 = b.val; omega
    | ⟨1, _⟩ => show ((b.val * 512 + n.val) * 1 + 0) % 512 = n.val; omega
  · rw [dif_neg hf]
    rw [concatenate_pair_apply_right (t := S64x512x65) (s₁ := S64x512x1) (s₂ := S64x512x64) (2 : Fin 3) _ _ _ (ix3 b n f) rfl rfl (ix3 b n (⟨f.val - 1, by omega⟩ : Fin 64))
      (fun c hc => by match c with | ⟨0, _⟩ => rfl | ⟨1, _⟩ => rfl | ⟨2, _⟩ => exact absurd rfl hc)
      (by show f.val - 1 + 1 = f.val; omega)]
    rw [val_main_v34_apply, val_main_v32_apply, val_main_v31_apply]
    unfold cur3 nu
    congr 1
    funext a; apply Fin.ext
    match a with
    | ⟨0, _⟩ => rfl
    | ⟨1, _⟩ => show ((((b.val * 512 + n.val) * 64 + (f.val - 1)) / 32768) * 32768 + ((b.val * 512 + n.val) * 64 + (f.val - 1)) % 32768) / 32768 % 64 = b.val; omega
    | ⟨2, _⟩ => show ((((b.val * 512 + n.val) * 64 + (f.val - 1)) / 32768) * 32768 + ((b.val * 512 + n.val) * 64 + (f.val - 1)) % 32768) % 32768 = n.val * 64 + (f.val - 1); omega

theorem gates0_feat37 (x0 : (⟨S64x512, .f32⟩ : BufTy).Contents (Elt Ideal)) (x1 : (⟨S2x64x32768, .f32⟩ : BufTy).Contents (Elt Ideal)) (n : Fin 512) (f : Fin 65) (b : Fin 64) :
    val_main_v37 (F := Ideal) x0 x1 (ix2 n (⟨f.val * 64 + b.val, by omega⟩ : Fin 4160)) = feat0 (cur2 x0) (cur3 x1) f b n := by
  rw [val_main_v37_apply, val_main_v36_apply, ← gates0_feat35]
  congr 1
  funext a; apply Fin.ext
  match a with
  | ⟨0, _⟩ => show (n.val * 4160 + (f.val * 64 + b.val)) % 64 = b.val; omega
  | ⟨1, _⟩ => show (n.val * 4160 + (f.val * 64 + b.val)) / 4160 = n.val; omega
  | ⟨2, _⟩ => show (n.val * 4160 + (f.val * 64 + b.val)) / 64 % 65 = f.val; omega

theorem gates0_diff38 (x0 : (⟨S64x512, .f32⟩ : BufTy).Contents (Elt Ideal)) (x1 : (⟨S2x64x32768, .f32⟩ : BufTy).Contents (Elt Ideal)) (x2 : (⟨S512x512, .f32⟩ : BufTy).Contents (Elt Ideal)) (n : Fin 512) (f : Fin 65) (b : Fin 64) :
    val_main_v38 (F := Ideal) x0 x1 x2 (ix2 n (⟨f.val * 64 + b.val, by omega⟩ : Fin 4160))
      = ∑ j : Fin 512, supR (cur2 x2) n j * feat0 (cur2 x0) (cur3 x1) f b j := by
  rw [val_main_v38_apply]
  refine Finset.sum_congr rfl fun j _ => ?_
  have el : lidx_main_v38 (ix2 n (⟨f.val * 64 + b.val, by omega⟩ : Fin 4160)) j = ix2 n j :=
    funext fun a => match a with | ⟨0, _⟩ => rfl | ⟨1, _⟩ => rfl
  have er : ridx_main_v38 (ix2 n (⟨f.val * 64 + b.val, by omega⟩ : Fin 4160)) j = ix2 j (⟨f.val * 64 + b.val, by omega⟩ : Fin 4160) :=
    funext fun a => match a with | ⟨0, _⟩ => rfl | ⟨1, _⟩ => rfl
  rw [el, er, support_apply, gates0_feat37]

theorem gates0_diff39 (x0 : (⟨S64x512, .f32⟩ : BufTy).Contents (Elt Ideal)) (x1 : (⟨S2x64x32768, .f32⟩ : BufTy).Contents (Elt Ideal)) (x2 : (⟨S512x512, .f32⟩ : BufTy).Contents (Elt Ideal)) (n : Fin 512) (f : Fin 65) (b : Fin 64) :
    val_main_v39 (F := Ideal) x0 x1 x2 (ix2 n (⟨f.val * 64 + b.val, by omega⟩ : Fin 4160))
      = ∑ j : Fin 512, supR (cur2 x2) n j * ∑ j' : Fin 512, supR (cur2 x2) j j' * feat0 (cur2 x0) (cur3 x1) f b j' := by
  rw [val_main_v39_apply]
  refine Finset.sum_congr rfl fun j _ => ?_
  have el : lidx_main_v39 (ix2 n (⟨f.val * 64 + b.val, by omega⟩ : Fin 4160)) j = ix2 n j :=
    funext fun a => match a with | ⟨0, _⟩ => rfl | ⟨1, _⟩ => rfl
  have er : ridx_main_v39 (ix2 n (⟨f.val * 64 + b.val, by omega⟩ : Fin 4160)) j = ix2 j (⟨f.val * 64 + b.val, by omega⟩ : Fin 4160) :=
    funext fun a => match a with | ⟨0, _⟩ => rfl | ⟨1, _⟩ => rfl
  rw [el, er, support_apply, gates0_diff38]

theorem gates0_cheb42 (x0 : (⟨S64x512, .f32⟩ : BufTy).Contents (Elt Ideal)) (x1 : (⟨S2x64x32768, .f32⟩ : BufTy).Contents (Elt Ideal)) (x2 : (⟨S512x512, .f32⟩ : BufTy).Contents (Elt Ideal)) (n : Fin 512) (f : Fin 65) (b : Fin 64) :
    val_main_v42 (F := Ideal) x0 x1 x2 (ix2 n (⟨f.val * 64 + b.val, by omega⟩ : Fin 4160))
      = c2 * (∑ j : Fin 512, supR (cur2 x2) n j * ∑ j' : Fin 512, supR (cur2 x2) j j' * feat0 (cur2 x0) (cur3 x1) f b j')
        - feat0 (cur2 x0) (cur3 x1) f b n := by
  rw [val_main_v42_apply, val_main_v41_apply, val_main_v40_apply, val_main_cst_5_apply, gates0_diff39, gates0_feat37]
  rfl

theorem gates0_cheb46 (x0 : (⟨S64x512, .f32⟩ : BufTy).Contents (Elt Ideal)) (x1 : (⟨S2x64x32768, .f32⟩ : BufTy).Contents (Elt Ideal)) (x2 : (⟨S512x512, .f32⟩ : BufTy).Contents (Elt Ideal)) (k : Fin 3) (n : Fin 512) (f : Fin 65) (b : Fin 64) :
    val_main_v46 (F := Ideal) x0 x1 x2 (ix3 k n (⟨f.val * 64 + b.val, by omega⟩ : Fin 4160))
      = chebR (supR (cur2 x2)) (feat0 (cur2 x0) (cur3 x1)) k f b n := by
  unfold val_main_v46 chebR
  by_cases h0 : k = 0
  · subst h0
    rw [if_pos rfl]
    rw [concatenate_apply_piece (t := S3x512x4160) (0 : Fin 3) _ _ (ix3 (0 : Fin 3) n (⟨f.val * 64 + b.val, by omega⟩ : Fin 4160)) 0 (by show 0 < 3; omega) S1x512x4160 _ rfl rfl 0 rfl
      (ix3 (0 : Fin 1) n (⟨f.val * 64 + b.val, by omega⟩ : Fin 4160)) (fun c hc => by match c with | ⟨0, _⟩ => exact absurd rfl hc | ⟨1, _⟩ => rfl | ⟨2, _⟩ => rfl) rfl]
    rw [val_main_v43_apply, ← gates0_feat37]
    congr 1
    funext a; match a with | ⟨0, _⟩ => rfl | ⟨1, _⟩ => rfl
  · rw [if_neg h0]
    by_cases h1 : k = 1
    · subst h1
      rw [if_pos rfl]
      rw [concatenate_apply_piece (t := S3x512x4160) (0 : Fin 3) _ _ (ix3 (1 : Fin 3) n (⟨f.val * 64 + b.val, by omega⟩ : Fin 4160)) 1 (by show 1 < 3; omega) S1x512x4160 _ rfl rfl 1 rfl
        (ix3 (0 : Fin 1) n (⟨f.val * 64 + b.val, by omega⟩ : Fin 4160)) (fun c hc => by match c with | ⟨0, _⟩ => exact absurd rfl hc | ⟨1, _⟩ => rfl | ⟨2, _⟩ => rfl) rfl]
      rw [val_main_v44_apply, ← gates0_diff38]
      congr 1
      funext a; match a with | ⟨0, _⟩ => rfl | ⟨1, _⟩ => rfl
    · rw [if_neg h1]
      have h2 : k = 2 := by
        apply Fin.ext
        have hk := k.isLt
        have e0 : k.val ≠ 0 := fun h => h0 (Fin.ext h)
        have e1 : k.val ≠ 1 := fun h => h1 (Fin.ext h)
        show k.val = 2
        omega
      subst h2
      rw [concatenate_apply_piece (t := S3x512x4160) (0 : Fin 3) _ _ (ix3 (2 : Fin 3) n (⟨f.val * 64 + b.val, by omega⟩ : Fin 4160)) 2 (by show 2 < 3; omega) S1x512x4160 _ rfl rfl 2 rfl
        (ix3 (0 : Fin 1) n (⟨f.val * 64 + b.val, by omega⟩ : Fin 4160)) (fun c hc => by match c with | ⟨0, _⟩ => exact absurd rfl hc | ⟨1, _⟩ => rfl | ⟨2, _⟩ => rfl) rfl]
      rw [val_main_v45_apply, ← gates0_cheb42]
      congr 1
      funext a; match a with | ⟨0, _⟩ => rfl | ⟨1, _⟩ => rfl

theorem gates0_split47 (x0 : (⟨S64x512, .f32⟩ : BufTy).Contents (Elt Ideal)) (x1 : (⟨S2x64x32768, .f32⟩ : BufTy).Contents (Elt Ideal)) (x2 : (⟨S512x512, .f32⟩ : BufTy).Contents (Elt Ideal)) (k : Fin 3) (n : Fin 512) (f : Fin 65) (b : Fin 64) :
    val_main_v47 (F := Ideal) x0 x1 x2 (ix4 k n f b) = val_main_v46 (F := Ideal) x0 x1 x2 (ix3 k n (⟨f.val * 64 + b.val, by omega⟩ : Fin 4160)) := by
  rw [val_main_v47_apply]
  congr 1
  funext a; apply Fin.ext
  match a with
  | ⟨0, _⟩ => show (((k.val * 512 + n.val) * 65 + f.val) * 64 + b.val) / 2129920 = k.val; omega
  | ⟨1, _⟩ => show (((k.val * 512 + n.val) * 65 + f.val) * 64 + b.val) / 4160 % 512 = n.val; omega
  | ⟨2, _⟩ => show (((k.val * 512 + n.val) * 65 + f.val) * 64 + b.val) % 4160 = f.val * 64 + b.val; omega

theorem gates0_cheb49 (x0 : (⟨S64x512, .f32⟩ : BufTy).Contents (Elt Ideal)) (x1 : (⟨S2x64x32768, .f32⟩ : BufTy).Contents (Elt Ideal)) (x2 : (⟨S512x512, .f32⟩ : BufTy).Contents (Elt Ideal)) (b : Fin 64) (n : Fin 512) (q : Fin 195) :
    val_main_v49 (F := Ideal) x0 x1 x2 (ix2 (⟨b.val * 512 + n.val, by omega⟩ : Fin 32768) q)
      = chebR (supR (cur2 x2)) (feat0 (cur2 x0) (cur3 x1)) ⟨q.val % 3, by omega⟩ ⟨q.val / 3, by omega⟩ b n := by
  rw [val_main_v49_apply, val_main_v48_apply, ← gates0_cheb46, ← gates0_split47]
  congr 1
  funext a; apply Fin.ext
  match a with
  | ⟨0, _⟩ => show ((b.val * 512 + n.val) * 195 + q.val) % 3 = q.val % 3; omega
  | ⟨1, _⟩ => show ((b.val * 512 + n.val) * 195 + q.val) / 195 % 512 = n.val; omega
  | ⟨2, _⟩ => show ((b.val * 512 + n.val) * 195 + q.val) / 3 % 65 = q.val / 3; omega
  | ⟨3, _⟩ => show ((b.val * 512 + n.val) * 195 + q.val) / 99840 = b.val; omega

theorem gates0_conv53 (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (b : Fin 64) (n : Fin 512) (o : Fin 128) :
    val_main_v53 (F := Ideal) x0 x1 x2 x3 x4 (ix2 (⟨b.val * 512 + n.val, by omega⟩ : Fin 32768) o)
      = gconv65 (supR (cur2 x2)) (feat0 (cur2 x0) (cur3 x1)) (cur2 x3) (cur1 x4) b n o := by
  rw [val_main_v53_apply, val_main_v50_apply, val_main_v52_apply, val_main_v51_apply]
  unfold gconv65
  rw [Ideal.addf_def]
  congr 1
  · refine Finset.sum_congr rfl fun q _ => ?_
    have el : lidx_main_v50 (ix2 (⟨b.val * 512 + n.val, by omega⟩ : Fin 32768) o) q = ix2 (⟨b.val * 512 + n.val, by omega⟩ : Fin 32768) q :=
      funext fun a => match a with | ⟨0, _⟩ => rfl | ⟨1, _⟩ => rfl
    have er : ridx_main_v50 (ix2 (⟨b.val * 512 + n.val, by omega⟩ : Fin 32768) o) q = ix2 q o :=
      funext fun a => match a with | ⟨0, _⟩ => rfl | ⟨1, _⟩ => rfl
    rw [el, er, gates0_cheb49]
    rfl
  · unfold cur1
    congr 1
    funext a; match a with | ⟨0, _⟩ => rfl

theorem gates0_apply (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (b : Fin 64) (n : Fin 512) (o : Fin 128) :
    val_main_v60 (F := Ideal) x0 x1 x2 x3 x4 (ix2 b (⟨n.val * 128 + o.val, by omega⟩ : Fin 65536)) = val0R (cur2 x0) (cur3 x1) (cur2 x2) (cur2 x3) (cur1 x4) b n o := by
  rw [val_main_v60_apply, val_main_v59_apply, val_main_cst_7_apply, val_main_v58_apply, val_main_v57_apply, val_main_cst_6_apply,
    val_main_v56_apply, val_main_v55_apply, val_main_v54_apply]
  have e : idx_main_v54 (ix2 b (⟨n.val * 128 + o.val, by omega⟩ : Fin 65536)) = ix2 (⟨b.val * 512 + n.val, by omega⟩ : Fin 32768) o := by
    funext a; apply Fin.ext
    match a with
    | ⟨0, _⟩ => show (b.val * 65536 + (n.val * 128 + o.val)) / 128 = b.val * 512 + n.val; omega
    | ⟨1, _⟩ => show (b.val * 65536 + (n.val * 128 + o.val)) % 128 = o.val; omega
  rw [e, gates0_conv53]
  rfl

end Cert.ReferenceIdeal.RefValue

end
-- ==== Proof.Ref.Cell0State.lean ====
import proofs.«105208_g19069654794669_cont_sun_m_30_30_alg».proof.Proof.Ref.ReadP
import proofs.«105208_g19069654794669_cont_sun_m_30_30_alg».proof.Proof.Spec
import proofs.«105208_g19069654794669_cont_sun_m_30_30_alg».proof.Proof.Ref.Support
import proofs.«105208_g19069654794669_cont_sun_m_30_30_alg».proof.Proof.Ref.Gates0

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec

section Read0
variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal)) (x5 : (⟨S195x64, .f32⟩ : BufTy).Contents (Elt Ideal))
  (x6 : (⟨S64, .f32⟩ : BufTy).Contents (Elt Ideal))

theorem state0_apply (b : Fin 64) (q : Fin 32768) :
    val_main_v32 (F := Ideal) x1 (ix2 b q) = cur3 x1 0 b q := by
  rw [val_main_v32_apply, val_main_v31_apply]
  unfold cur3
  congr 1
  funext a
  refine Fin.ext ?_
  match a with
  | ⟨0, _⟩ => rfl
  | ⟨1, _⟩ => show (b.val * 32768 + q.val) / 32768 % 64 = b.val; omega
  | ⟨2, _⟩ => show (b.val * 32768 + q.val) % 32768 = q.val; omega

theorem gate_r0_apply (b : Fin 64) (n : Fin 512) (u : Fin 64) :
    val_main_v63 (F := Ideal) x0 x1 x2 x3 x4 (ix2 b (nu n u))
      = r0R (cur2 x0) (cur3 x1) (cur2 x2) (cur2 x3) (cur1 x4) b n u := by
  rw [val_main_v63_apply, val_main_v62_apply, val_main_v61_apply]
  have e : idx_main_v61 (idx_main_v62 (idx_main_v63 (ix2 b (nu n u))))
      = ix2 b (⟨n.val * 128 + (go 0 u).val, by have := (go 0 u).isLt; omega⟩ : Fin 65536) := by
    funext a
    refine Fin.ext ?_
    match a with
    | ⟨0, _⟩ =>
      show (((b.val * 32768 + (n.val * 64 + u.val)) / 32768 * 512 + (b.val * 32768 + (n.val * 64 + u.val)) / 64 % 512) * 128
        + (b.val * 32768 + (n.val * 64 + u.val)) % 64) / 65536 = b.val
      omega
    | ⟨1, _⟩ =>
      show (((b.val * 32768 + (n.val * 64 + u.val)) / 32768 * 512 + (b.val * 32768 + (n.val * 64 + u.val)) / 64 % 512) * 128
        + (b.val * 32768 + (n.val * 64 + u.val)) % 64) % 65536 = n.val * 128 + (64 * 0 + u.val)
      omega
  rw [e, gates0_apply]
  rfl

theorem gate_u0_apply (b : Fin 64) (n : Fin 512) (u : Fin 64) :
    val_main_v65 (F := Ideal) x0 x1 x2 x3 x4 (ix2 b (nu n u))
      = u0R (cur2 x0) (cur3 x1) (cur2 x2) (cur2 x3) (cur1 x4) b n u := by
  rw [val_main_v65_apply, val_main_v64_apply, val_main_v61_apply]
  have e : idx_main_v61 (idx_main_v64 (idx_main_v65 (ix2 b (nu n u))))
      = ix2 b (⟨n.val * 128 + (go 1 u).val, by have := (go 1 u).isLt; omega⟩ : Fin 65536) := by
    funext a
    refine Fin.ext ?_
    match a with
    | ⟨0, _⟩ =>
      show (((b.val * 32768 + (n.val * 64 + u.val)) / 32768 * 512 + (b.val * 32768 + (n.val * 64 + u.val)) / 64 % 512) * 128
        + (64 + (b.val * 32768 + (n.val * 64 + u.val)) % 64)) / 65536 = b.val
      omega
    | ⟨1, _⟩ =>
      show (((b.val * 32768 + (n.val * 64 + u.val)) / 32768 * 512 + (b.val * 32768 + (n.val * 64 + u.val)) / 64 % 512) * 128
        + (64 + (b.val * 32768 + (n.val * 64 + u.val)) % 64)) % 65536 = n.val * 128 + (64 * 1 + u.val)
      omega
  rw [e, gates0_apply]
  rfl

theorem featc0_apply (n : Fin 512) (f : Fin 65) (b : Fin 64) :
    val_main_v71 (F := Ideal) x0 x1 x2 x3 x4 (ix2 n (⟨f.val * 64 + b.val, by omega⟩ : Fin 4160))
      = featc0 (cur2 x0) (cur3 x1) (cur2 x2) (cur2 x3) (cur1 x4) f b n := by
  rw [val_main_v71_apply, val_main_v70_apply]
  have e : idx_main_v70 (idx_main_v71 (ix2 n (⟨f.val * 64 + b.val, by omega⟩ : Fin 4160))) = ix3 b n f := by
    funext a
    refine Fin.ext ?_
    match a with
    | ⟨0, _⟩ => show (n.val * 4160 + (f.val * 64 + b.val)) % 64 = b.val; omega
    | ⟨1, _⟩ => show (n.val * 4160 + (f.val * 64 + b.val)) / 4160 = n.val; omega
    | ⟨2, _⟩ => show (n.val * 4160 + (f.val * 64 + b.val)) / 64 % 65 = f.val; omega
  rw [e]
  unfold val_main_v69 featc0
  by_cases hf : f.val = 0
  · rw [dif_pos hf]
    refine (concatenate_pair_apply_left (s₁ := S64x512x1) (s₂ := S64x512x64) (2 : Fin S64x512x65.rank) _ _ _ (ix3 b n f) rfl
      (ix3 b n (0 : Fin 1)) (fun c => ?_)).trans ?_
    · match c with
      | ⟨0, _⟩ => rfl
      | ⟨1, _⟩ => rfl
      | ⟨2, _⟩ => show 0 = f.val; omega
    · rw [val_main_v67_apply]
      unfold cur2
      congr 1
      funext a
      refine Fin.ext ?_
      match a with
      | ⟨0, _⟩ => show ((b.val * 512 + n.val) * 1 + 0) / 512 = b.val; omega
      | ⟨1, _⟩ => show ((b.val * 512 + n.val) * 1 + 0) % 512 = n.val; omega
  · rw [dif_neg hf]
    refine (concatenate_pair_apply_right (s₁ := S64x512x1) (s₂ := S64x512x64) (2 : Fin S64x512x65.rank) _ _ _ (ix3 b n f) rfl rfl
      (ix3 b n (⟨f.val - 1, by omega⟩ : Fin 64)) (fun c hc => ?_) ?_).trans ?_
    · match c with
      | ⟨0, _⟩ => rfl
      | ⟨1, _⟩ => rfl
      | ⟨2, _⟩ => exact absurd rfl hc
    · show f.val - 1 + 1 = f.val; omega
    · rw [val_main_v68_apply]
      have e3 : idx_main_v68 (ix3 b n (⟨f.val - 1, by omega⟩ : Fin 64)) = ix2 b (nu n ⟨f.val - 1, by omega⟩) := by
        funext a
        refine Fin.ext ?_
        match a with
        | ⟨0, _⟩ => show ((b.val * 512 + n.val) * 64 + (f.val - 1)) / 32768 = b.val; omega
        | ⟨1, _⟩ => show ((b.val * 512 + n.val) * 64 + (f.val - 1)) % 32768 = n.val * 64 + (f.val - 1); omega
      rw [e3, val_main_v66_apply, gate_r0_apply, state0_apply]
      rfl

theorem c0_diff1_apply (n : Fin 512) (c : Fin 4160) :
    val_main_v72 (F := Ideal) x0 x1 x2 x3 x4 (ix2 n c)
      = ∑ j : Fin 512, supR (cur2 x2) n j * val_main_v71 (F := Ideal) x0 x1 x2 x3 x4 (ix2 j c) := by
  rw [val_main_v72_apply]
  refine Finset.sum_congr rfl fun j _ => ?_
  have el : lidx_main_v72 (ix2 n c) j = ix2 n j :=
    funext fun a => Fin.ext (by match a with | ⟨0, _⟩ => rfl | ⟨1, _⟩ => rfl)
  have er : ridx_main_v72 (ix2 n c) j = ix2 j c :=
    funext fun a => Fin.ext (by match a with | ⟨0, _⟩ => rfl | ⟨1, _⟩ => rfl)
  rw [el, er, support_apply]

theorem c0_diff2_apply (n : Fin 512) (c : Fin 4160) :
    val_main_v73 (F := Ideal) x0 x1 x2 x3 x4 (ix2 n c)
      = ∑ j : Fin 512, supR (cur2 x2) n j * val_main_v72 (F := Ideal) x0 x1 x2 x3 x4 (ix2 j c) := by
  rw [val_main_v73_apply]
  refine Finset.sum_congr rfl fun j _ => ?_
  have el : lidx_main_v73 (ix2 n c) j = ix2 n j :=
    funext fun a => Fin.ext (by match a with | ⟨0, _⟩ => rfl | ⟨1, _⟩ => rfl)
  have er : ridx_main_v73 (ix2 n c) j = ix2 j c :=
    funext fun a => Fin.ext (by match a with | ⟨0, _⟩ => rfl | ⟨1, _⟩ => rfl)
  rw [el, er, support_apply]

theorem c0_cheb2_apply (n : Fin 512) (c : Fin 4160) :
    val_main_v76 (F := Ideal) x0 x1 x2 x3 x4 (ix2 n c)
      = c2 * val_main_v73 (F := Ideal) x0 x1 x2 x3 x4 (ix2 n c) - val_main_v71 (F := Ideal) x0 x1 x2 x3 x4 (ix2 n c) := by
  rw [val_main_v76_apply, val_main_v75_apply, val_main_v74_apply, val_main_cst_8_apply]
  rfl

theorem c0_stack_apply (t : Fin 3) (n : Fin 512) (c : Fin 4160) :
    val_main_v80 (F := Ideal) x0 x1 x2 x3 x4 (ix3 t n c)
      = if t = 0 then val_main_v71 (F := Ideal) x0 x1 x2 x3 x4 (ix2 n c)
        else if t = 1 then val_main_v72 (F := Ideal) x0 x1 x2 x3 x4 (ix2 n c)
        else val_main_v76 (F := Ideal) x0 x1 x2 x3 x4 (ix2 n c) := by
  unfold val_main_v80
  have hi : ∀ d : Fin S1x512x4160.rank, d.cast (rfl : S1x512x4160.rank = S3x512x4160.rank) ≠ (0 : Fin S3x512x4160.rank) →
      ((ix3 (0 : Fin 1) n c : S1x512x4160.Idx) d).val = ((ix3 t n c : S3x512x4160.Idx) (d.cast rfl)).val := by
    intro d hd
    match d with
    | ⟨0, _⟩ => exact absurd rfl hd
    | ⟨1, _⟩ => rfl
    | ⟨2, _⟩ => rfl
  match t with
  | ⟨0, _⟩ =>
    rw [if_pos (show (⟨0, by omega⟩ : Fin 3) = 0 from Fin.ext rfl)]
    refine (concatenate_apply_piece (0 : Fin S3x512x4160.rank) _ _ (ix3 (⟨0, by omega⟩ : Fin 3) n c) 0 (by simp) S1x512x4160 _ rfl rfl 0 rfl
      (ix3 (0 : Fin 1) n c) hi rfl).trans ?_
    rw [val_main_v77_apply]
    exact congrArg _ (funext fun a => Fin.ext (by match a with | ⟨0, _⟩ => rfl | ⟨1, _⟩ => rfl))
  | ⟨1, _⟩ =>
    rw [if_neg (by simp [Fin.ext_iff]), if_pos (show (⟨1, by omega⟩ : Fin 3) = 1 from Fin.ext rfl)]
    refine (concatenate_apply_piece (0 : Fin S3x512x4160.rank) _ _ (ix3 (⟨1, by omega⟩ : Fin 3) n c) 1 (by simp) S1x512x4160 _ rfl rfl 1 rfl
      (ix3 (0 : Fin 1) n c) hi rfl).trans ?_
    rw [val_main_v78_apply]
    exact congrArg _ (funext fun a => Fin.ext (by match a with | ⟨0, _⟩ => rfl | ⟨1, _⟩ => rfl))
  | ⟨2, _⟩ =>
    rw [if_neg (by simp [Fin.ext_iff]), if_neg (by simp [Fin.ext_iff])]
    refine (concatenate_apply_piece (0 : Fin S3x512x4160.rank) _ _ (ix3 (⟨2, by omega⟩ : Fin 3) n c) 2 (by simp) S1x512x4160 _ rfl rfl 2 rfl
      (ix3 (0 : Fin 1) n c) hi rfl).trans ?_
    rw [val_main_v79_apply]
    exact congrArg _ (funext fun a => Fin.ext (by match a with | ⟨0, _⟩ => rfl | ⟨1, _⟩ => rfl))

theorem c0_diff1_feat (n : Fin 512) (f : Fin 65) (b : Fin 64) :
    val_main_v72 (F := Ideal) x0 x1 x2 x3 x4 (ix2 n (⟨f.val * 64 + b.val, by omega⟩ : Fin 4160))
      = ∑ j : Fin 512, supR (cur2 x2) n j * featc0 (cur2 x0) (cur3 x1) (cur2 x2) (cur2 x3) (cur1 x4) f b j := by
  rw [c0_diff1_apply]
  exact Finset.sum_congr rfl fun j _ => by rw [featc0_apply]

theorem c0_diff2_feat (n : Fin 512) (f : Fin 65) (b : Fin 64) :
    val_main_v73 (F := Ideal) x0 x1 x2 x3 x4 (ix2 n (⟨f.val * 64 + b.val, by omega⟩ : Fin 4160))
      = ∑ j : Fin 512, supR (cur2 x2) n j * ∑ j' : Fin 512, supR (cur2 x2) j j'
          * featc0 (cur2 x0) (cur3 x1) (cur2 x2) (cur2 x3) (cur1 x4) f b j' := by
  rw [c0_diff2_apply]
  exact Finset.sum_congr rfl fun j _ => by rw [c0_diff1_feat]

theorem c0_cheb_apply (b : Fin 64) (n : Fin 512) (q : Fin 195) :
    val_main_v83 (F := Ideal) x0 x1 x2 x3 x4 (ix2 (⟨b.val * 512 + n.val, by omega⟩ : Fin 32768) q)
      = chebR (supR (cur2 x2)) (featc0 (cur2 x0) (cur3 x1) (cur2 x2) (cur2 x3) (cur1 x4))
          ⟨q.val % 3, by omega⟩ ⟨q.val / 3, by omega⟩ b n := by
  rw [val_main_v83_apply, val_main_v82_apply, val_main_v81_apply]
  have e1 : idx_main_v83 (ix2 (⟨b.val * 512 + n.val, by omega⟩ : Fin 32768) q)
      = ix4 b n (⟨q.val / 3, by omega⟩ : Fin 65) (⟨q.val % 3, by omega⟩ : Fin 3) := by
    funext a
    refine Fin.ext ?_
    match a with
    | ⟨0, _⟩ => show ((b.val * 512 + n.val) * 195 + q.val) / 99840 = b.val; omega
    | ⟨1, _⟩ => show ((b.val * 512 + n.val) * 195 + q.val) / 195 % 512 = n.val; omega
    | ⟨2, _⟩ => show ((b.val * 512 + n.val) * 195 + q.val) / 3 % 65 = q.val / 3; omega
    | ⟨3, _⟩ => show ((b.val * 512 + n.val) * 195 + q.val) % 3 = q.val % 3; omega
  have e2 : idx_main_v82 (ix4 b n (⟨q.val / 3, by omega⟩ : Fin 65) (⟨q.val % 3, by omega⟩ : Fin 3))
      = ix4 (⟨q.val % 3, by omega⟩ : Fin 3) n (⟨q.val / 3, by omega⟩ : Fin 65) b :=
    funext fun a => Fin.ext (by match a with | ⟨0, _⟩ => rfl | ⟨1, _⟩ => rfl | ⟨2, _⟩ => rfl | ⟨3, _⟩ => rfl)
  have e3 : idx_main_v81 (ix4 (⟨q.val % 3, by omega⟩ : Fin 3) n (⟨q.val / 3, by omega⟩ : Fin 65) b)
      = ix3 (⟨q.val % 3, by omega⟩ : Fin 3) n (⟨(⟨q.val / 3, by omega⟩ : Fin 65).val * 64 + b.val, by omega⟩ : Fin 4160) := by
    funext a
    refine Fin.ext ?_
    match a with
    | ⟨0, _⟩ => show (((q.val % 3 * 512 + n.val) * 65 + q.val / 3) * 64 + b.val) / 2129920 = q.val % 3; omega
    | ⟨1, _⟩ =>
      show (((q.val % 3 * 512 + n.val) * 65 + q.val / 3) * 64 + b.val) / 4160 % 512 = n.val
      have h : (((q.val % 3 * 512 + n.val) * 65 + q.val / 3) * 64 + b.val) / 4160 = q.val % 3 * 512 + n.val := by omega
      rw [h]; omega
    | ⟨2, _⟩ => show (((q.val % 3 * 512 + n.val) * 65 + q.val / 3) * 64 + b.val) % 4160 = q.val / 3 * 64 + b.val; omega
  rw [e1, e2, e3, c0_stack_apply]
  unfold chebR
  refine if_congr Iff.rfl (featc0_apply ..) (if_congr Iff.rfl (c0_diff1_feat ..) ?_)
  rw [c0_cheb2_apply, c0_diff2_feat, featc0_apply]

theorem c0_cand_apply (b : Fin 64) (n : Fin 512) (u : Fin 64) :
    val_main_v89 (F := Ideal) x0 x1 x2 x3 x4 x5 x6 (ix2 b (nu n u))
      = c0R (cur2 x0) (cur3 x1) (cur2 x2) (cur2 x3) (cur1 x4) (cur2 x5) (cur1 x6) b n u := by
  rw [val_main_v89_apply, val_main_v88_apply]
  have e : idx_main_v88 (ix2 b (nu n u)) = ix2 (⟨b.val * 512 + n.val, by omega⟩ : Fin 32768) u := by
    funext a
    refine Fin.ext ?_
    match a with
    | ⟨0, _⟩ => show (b.val * 32768 + (n.val * 64 + u.val)) / 64 = b.val * 512 + n.val; omega
    | ⟨1, _⟩ => show (b.val * 32768 + (n.val * 64 + u.val)) % 64 = u.val; omega
  rw [e, val_main_v87_apply, val_main_v84_apply, val_main_v86_apply, val_main_v85_apply]
  unfold c0R gconv65
  rw [Ideal.hostUnary_tanh_def, Ideal.addf_def]
  congr 2
  · refine Finset.sum_congr rfl fun q _ => ?_
    have el : lidx_main_v84 (ix2 (⟨b.val * 512 + n.val, by omega⟩ : Fin 32768) u) q = ix2 (⟨b.val * 512 + n.val, by omega⟩ : Fin 32768) q :=
      funext fun a => Fin.ext (by match a with | ⟨0, _⟩ => rfl | ⟨1, _⟩ => rfl)
    have er : ridx_main_v84 (ix2 (⟨b.val * 512 + n.val, by omega⟩ : Fin 32768) u) q = ix2 q u :=
      funext fun a => Fin.ext (by match a with | ⟨0, _⟩ => rfl | ⟨1, _⟩ => rfl)
    rw [el, er, c0_cheb_apply]
    rfl
  · exact congrArg x6 (funext fun a => Fin.ext (by match a with | ⟨0, _⟩ => rfl))

end Read0

theorem cell0_apply (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal)) (b : Fin 64) (n : Fin 512) (u : Fin 64) :
    val_main_v94 (F := Ideal) x0 x1 x2 x3 x4 x5 x6 (ix2 b (nu n u)) = h0R (cur2 x0) (cur3 x1) (cur2 x2) (cur2 x3) (cur1 x4) (cur2 x5) (cur1 x6) b n u := by
  rw [val_main_v94_apply, val_main_v90_apply, val_main_v93_apply, val_main_v92_apply, val_main_v91_apply,
    val_main_cst_9_apply, gate_u0_apply, state0_apply, c0_cand_apply]
  rfl

end Cert.ReferenceIdeal.RefValue

end
-- ==== Proof.Ref.Cell0.lean ====
import proofs.«105208_g19069654794669_cont_sun_m_30_30_alg».proof.Proof.Ref.ReadP
import proofs.«105208_g19069654794669_cont_sun_m_30_30_alg».proof.Proof.Spec
import proofs.«105208_g19069654794669_cont_sun_m_30_30_alg».proof.Proof.Ref.Support
import proofs.«105208_g19069654794669_cont_sun_m_30_30_alg».proof.Proof.Ref.Gates0
import proofs.«105208_g19069654794669_cont_sun_m_30_30_alg».proof.Proof.Ref.Ops
import proofs.«105208_g19069654794669_cont_sun_m_30_30_alg».proof.Proof.Ref.Cell0State

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec
open Cert.ReferenceIdeal.ValueP Idealize.ShloMosaic.StableHlo Idealize.ShloMosaic.TcCoe

abbrev written3 : List (Ref sig .tc) :=
  [main_v61, main_v62, main_v63, main_v64, main_v65, main_v66, main_v67, main_v68, main_v69, main_v70, main_v71, main_v72,
   main_v73, main_cst_8, main_v74, main_v75, main_v76, main_v77, main_v78, main_v79, main_v80, main_v81, main_v82, main_v83,
   main_v84, main_v85, main_v86, main_v87, main_v88, main_v89, main_v90, main_cst_9, main_v91, main_v92, main_v93, main_v94]

theorem ops3_writes :
    (ops3 : List (HloOp τ sig (Elt Ideal))).Forall fun op => op.writes ⊆ (written3.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, nary_writes, Finset.singleton_subset_iff,
      List.mem_toFinset]; exact List.mem_map_of_mem (by decide))

theorem keep3 (V : Valuation τ sig (Elt Ideal)) (r : Ref sig .tc) (h : r ∉ written3) : after (ops3 (F := Ideal)) V r = V r :=
  after_of_writes_sub ops3 V ops3_writes h

theorem nary3_result3 {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

macro "after_results3" : tactic =>
  `(tactic| (simp only [after_cons, after_nil]
             repeat (first
               | rw [nullary_result] | rw [unary_result] | rw [binary_result]
               | rw [reshape_result] | rw [nary3_result3]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

set_option maxRecDepth 8192 in
set_option maxHeartbeats 4000000 in

theorem run3 (V : Valuation τ sig (Elt Ideal)) (h30 : V main_v30 = val_main_v30 (F := Ideal) (V main_arg2))
    (h32 : V main_v32 = val_main_v32 (F := Ideal) (V main_arg1)) (h60 : V main_v60 = val_main_v60 (F := Ideal) (V main_arg0) (V main_arg1) (V main_arg2) (V main_arg3) (V main_arg4)) :
    after (ops3 (F := Ideal)) V main_v94 = val_main_v94 (F := Ideal) (V main_arg0) (V main_arg1) (V main_arg2) (V main_arg3) (V main_arg4) (V main_arg5) (V main_arg6) := by
  after_results3
  rw [h30, h32, h60]
  rfl

end Cert.ReferenceIdeal.RefValue

end
-- ==== Proof.Ref.Gates1.lean ====
import proofs.«105208_g19069654794669_cont_sun_m_30_30_alg».proof.Proof.Ref.ReadP
import proofs.«105208_g19069654794669_cont_sun_m_30_30_alg».proof.Proof.Spec
import proofs.«105208_g19069654794669_cont_sun_m_30_30_alg».proof.Proof.Ref.Support
import proofs.«105208_g19069654794669_cont_sun_m_30_30_alg».proof.Proof.Ref.Cell0

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec
open Cert.ReferenceIdeal.ValueP Idealize.ShloMosaic.StableHlo Idealize.ShloMosaic.TcCoe

section Read

variable (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal)) (x7 : (⟨S384x128, .f32⟩ : BufTy).Contents (Elt Ideal)) (x8 : (⟨S128, .f32⟩ : BufTy).Contents (Elt Ideal))

def featCol (f : Fin 128) (b : Fin 64) : Fin 8192 := ⟨f.val * 64 + b.val, by omega⟩

def batRow (b : Fin 64) (n : Fin 512) : Fin 32768 := ⟨b.val * 512 + n.val, by omega⟩

theorem idx_feat (b : Fin 64) (n : Fin 512) (f : Fin 128) :
    idx_main_v100 (idx_main_v101 (ix2 n (featCol f b))) = ix3 b n f :=
  funext fun a => Fin.ext (by
    match a with
    | ⟨0, _⟩ => show (n.val * 8192 + (f.val * 64 + b.val)) % 64 = b.val; omega
    | ⟨1, _⟩ => show (n.val * 8192 + (f.val * 64 + b.val)) / 8192 = n.val; omega
    | ⟨2, _⟩ => show (n.val * 8192 + (f.val * 64 + b.val)) / 64 % 128 = f.val; omega)

theorem idx_row (b : Fin 64) (n : Fin 512) (u : Fin 64) :
    idx_main_v97 (ix3 b n u) = ix2 b (nu n u) :=
  funext fun a => Fin.ext (by
    match a with
    | ⟨0, _⟩ => show ((b.val * 512 + n.val) * 64 + u.val) / 32768 = b.val; omega
    | ⟨1, _⟩ => show ((b.val * 512 + n.val) * 64 + u.val) % 32768 = n.val * 64 + u.val; omega)

theorem idx_state (b : Fin 64) (n : Fin 512) (u : Fin 64) :
    idx_main_v95 (idx_main_v96 (idx_main_v98 (ix3 b n u))) = ix3 (1 : Fin 2) b (nu n u) :=
  funext fun a => Fin.ext (by
    match a with
    | ⟨0, _⟩ => rfl
    | ⟨1, _⟩ => show (((b.val * 512 + n.val) * 64 + u.val) / 32768 * 32768 + ((b.val * 512 + n.val) * 64 + u.val) % 32768) / 32768 % 64 = b.val; omega
    | ⟨2, _⟩ => show (((b.val * 512 + n.val) * 64 + u.val) / 32768 * 32768 + ((b.val * 512 + n.val) * 64 + u.val) % 32768) % 32768 = n.val * 64 + u.val; omega)

theorem feat1_read (b : Fin 64) (n : Fin 512) (f : Fin 128) :
    val_main_v101 (F := Ideal) x0 x1 x2 x3 x4 x5 x6 (ix2 n (featCol f b))
      = feat1 (cur2 x0) (cur3 x1) (cur2 x2) (cur2 x3) (cur1 x4) (cur2 x5) (cur1 x6) f b n := by
  rw [val_main_v101_apply, val_main_v100_apply, idx_feat]
  unfold val_main_v99 feat1
  by_cases h : f.val < 64
  · rw [dif_pos h]
    refine (concatenate_pair_apply_left (t := S64x512x128) (s₁ := S64x512x64) (s₂ := S64x512x64) 2 _ _ _ _ (by rfl) (ix3 b n (⟨f.val, h⟩ : Fin 64)) ?_).trans ?_
    · intro c
      match c with
      | ⟨0, _⟩ => rfl
      | ⟨1, _⟩ => rfl
      | ⟨2, _⟩ => rfl
    · rw [val_main_v97_apply, idx_row, cell0_apply]
  · rw [dif_neg h]
    have h' : f.val - 64 < 64 := by omega
    refine (concatenate_pair_apply_right (t := S64x512x128) (s₁ := S64x512x64) (s₂ := S64x512x64) 2 _ _ _ _ (by rfl) (by rfl) (ix3 b n (⟨f.val - 64, h'⟩ : Fin 64)) ?_ ?_).trans ?_
    · intro c hc
      match c, hc with
      | ⟨0, _⟩, _ => rfl
      | ⟨1, _⟩, _ => rfl
      | ⟨2, _⟩, hc => exact absurd (Fin.ext rfl) hc
    · show f.val - 64 + 64 = f.val
      omega
    · rw [val_main_v98_apply, val_main_v96_apply, val_main_v95_apply, idx_state]
      rfl

theorem diff1_read (b : Fin 64) (n : Fin 512) (f : Fin 128) :
    val_main_v102 (F := Ideal) x0 x1 x2 x3 x4 x5 x6 (ix2 n (featCol f b))
      = ∑ j : Fin 512, supR (cur2 x2) n j * feat1 (cur2 x0) (cur3 x1) (cur2 x2) (cur2 x3) (cur1 x4) (cur2 x5) (cur1 x6) f b j := by
  rw [val_main_v102_apply]
  refine Finset.sum_congr rfl fun k _ => ?_
  have el : lidx_main_v102 (ix2 n (featCol f b)) k = ix2 n k :=
    funext fun a => Fin.ext (by match a with | ⟨0, _⟩ => rfl | ⟨1, _⟩ => rfl)
  have er : ridx_main_v102 (ix2 n (featCol f b)) k = ix2 k (featCol f b) :=
    funext fun a => Fin.ext (by match a with | ⟨0, _⟩ => rfl | ⟨1, _⟩ => rfl)
  rw [el, er, support_apply, feat1_read]

theorem diff2_read (b : Fin 64) (n : Fin 512) (f : Fin 128) :
    val_main_v103 (F := Ideal) x0 x1 x2 x3 x4 x5 x6 (ix2 n (featCol f b))
      = ∑ j : Fin 512, supR (cur2 x2) n j * ∑ j' : Fin 512, supR (cur2 x2) j j' * feat1 (cur2 x0) (cur3 x1) (cur2 x2) (cur2 x3) (cur1 x4) (cur2 x5) (cur1 x6) f b j' := by
  rw [val_main_v103_apply]
  refine Finset.sum_congr rfl fun k _ => ?_
  have el : lidx_main_v103 (ix2 n (featCol f b)) k = ix2 n k :=
    funext fun a => Fin.ext (by match a with | ⟨0, _⟩ => rfl | ⟨1, _⟩ => rfl)
  have er : ridx_main_v103 (ix2 n (featCol f b)) k = ix2 k (featCol f b) :=
    funext fun a => Fin.ext (by match a with | ⟨0, _⟩ => rfl | ⟨1, _⟩ => rfl)
  rw [el, er, support_apply, diff1_read]

theorem cheb2_read (b : Fin 64) (n : Fin 512) (f : Fin 128) :
    val_main_v106 (F := Ideal) x0 x1 x2 x3 x4 x5 x6 (ix2 n (featCol f b))
      = c2 * (∑ j : Fin 512, supR (cur2 x2) n j * ∑ j' : Fin 512, supR (cur2 x2) j j' * feat1 (cur2 x0) (cur3 x1) (cur2 x2) (cur2 x3) (cur1 x4) (cur2 x5) (cur1 x6) f b j')
        - feat1 (cur2 x0) (cur3 x1) (cur2 x2) (cur2 x3) (cur1 x4) (cur2 x5) (cur1 x6) f b n := by
  rw [val_main_v106_apply, val_main_v105_apply, val_main_v104_apply, val_main_cst_10_apply, diff2_read, feat1_read]
  rfl

theorem idx_stack (b : Fin 64) (n : Fin 512) (k : Fin 384) :
    idx_main_v111 (idx_main_v112 (idx_main_v113 (ix2 (batRow b n) k)))
      = ix3 (⟨k.val % 3, by omega⟩ : Fin 3) n (featCol ⟨k.val / 3, by omega⟩ b) :=
  funext fun a => Fin.ext (by
    match a with
    | ⟨0, _⟩ =>
      show ((((((b.val * 512 + n.val) * 384 + k.val) % 3) * 512 + ((b.val * 512 + n.val) * 384 + k.val) / 384 % 512) * 128 + ((b.val * 512 + n.val) * 384 + k.val) / 3 % 128) * 64 + ((b.val * 512 + n.val) * 384 + k.val) / 196608) / 4194304 = k.val % 3
      have h0 : ((b.val * 512 + n.val) * 384 + k.val) % 3 = k.val % 3 := by omega
      have h1 : ((b.val * 512 + n.val) * 384 + k.val) / 384 % 512 = n.val := by omega
      have h2 : ((b.val * 512 + n.val) * 384 + k.val) / 3 % 128 = k.val / 3 := by omega
      have h3 : ((b.val * 512 + n.val) * 384 + k.val) / 196608 = b.val := by omega
      rw [h0, h1, h2, h3]; clear h0 h1 h2 h3
      have hq : k.val / 3 < 128 := by omega
      have hr : k.val % 3 < 3 := by omega
      have hn : n.val < 512 := n.isLt
      have hb : b.val < 64 := b.isLt
      generalize k.val / 3 = e at hq ⊢
      generalize k.val % 3 = r at hr ⊢
      omega
    | ⟨1, _⟩ =>
      show ((((((b.val * 512 + n.val) * 384 + k.val) % 3) * 512 + ((b.val * 512 + n.val) * 384 + k.val) / 384 % 512) * 128 + ((b.val * 512 + n.val) * 384 + k.val) / 3 % 128) * 64 + ((b.val * 512 + n.val) * 384 + k.val) / 196608) / 8192 % 512 = n.val
      have h0 : ((b.val * 512 + n.val) * 384 + k.val) % 3 = k.val % 3 := by omega
      have h1 : ((b.val * 512 + n.val) * 384 + k.val) / 384 % 512 = n.val := by omega
      have h2 : ((b.val * 512 + n.val) * 384 + k.val) / 3 % 128 = k.val / 3 := by omega
      have h3 : ((b.val * 512 + n.val) * 384 + k.val) / 196608 = b.val := by omega
      rw [h0, h1, h2, h3]; clear h0 h1 h2 h3
      have hq : k.val / 3 < 128 := by omega
      have hr : k.val % 3 < 3 := by omega
      have hn : n.val < 512 := n.isLt
      have hb : b.val < 64 := b.isLt
      generalize k.val / 3 = e at hq ⊢
      generalize k.val % 3 = r at hr ⊢
      omega
    | ⟨2, _⟩ =>
      show ((((((b.val * 512 + n.val) * 384 + k.val) % 3) * 512 + ((b.val * 512 + n.val) * 384 + k.val) / 384 % 512) * 128 + ((b.val * 512 + n.val) * 384 + k.val) / 3 % 128) * 64 + ((b.val * 512 + n.val) * 384 + k.val) / 196608) % 8192 = k.val / 3 * 64 + b.val
      have h0 : ((b.val * 512 + n.val) * 384 + k.val) % 3 = k.val % 3 := by omega
      have h1 : ((b.val * 512 + n.val) * 384 + k.val) / 384 % 512 = n.val := by omega
      have h2 : ((b.val * 512 + n.val) * 384 + k.val) / 3 % 128 = k.val / 3 := by omega
      have h3 : ((b.val * 512 + n.val) * 384 + k.val) / 196608 = b.val := by omega
      rw [h0, h1, h2, h3]; clear h0 h1 h2 h3
      have hq : k.val / 3 < 128 := by omega
      have hr : k.val % 3 < 3 := by omega
      have hn : n.val < 512 := n.isLt
      have hb : b.val < 64 := b.isLt
      generalize k.val / 3 = e at hq ⊢
      generalize k.val % 3 = r at hr ⊢
      omega)

theorem idx_unit (n : Fin 512) (m : Fin 8192) : idx_main_v107 (ix3 (0 : Fin 1) n m) = ix2 n m :=
  funext fun a => Fin.ext (by match a with | ⟨0, _⟩ => rfl | ⟨1, _⟩ => rfl)

theorem stack_read (b : Fin 64) (n : Fin 512) (k : Fin 384) :
    val_main_v113 (F := Ideal) x0 x1 x2 x3 x4 x5 x6 (ix2 (batRow b n) k)
      = chebR (supR (cur2 x2)) (feat1 (cur2 x0) (cur3 x1) (cur2 x2) (cur2 x3) (cur1 x4) (cur2 x5) (cur1 x6)) ⟨k.val % 3, by omega⟩ ⟨k.val / 3, by omega⟩ b n := by
  rw [val_main_v113_apply, val_main_v112_apply, val_main_v111_apply, idx_stack]
  unfold val_main_v110 chebR
  have hk : k.val % 3 = 0 ∨ k.val % 3 = 1 ∨ k.val % 3 = 2 := by omega
  rcases hk with hk | hk | hk
  · have e0 : (⟨k.val % 3, by omega⟩ : Fin 3) = 0 := Fin.ext hk
    rw [if_pos e0]
    refine (concatenate_apply_piece (t := S3x512x8192) 0 _ _ _ 0 (by show (0 : ℕ) < 3; omega) S1x512x8192 _ rfl (by rfl) 0 rfl
      (ix3 (0 : Fin 1) n (featCol ⟨k.val / 3, by omega⟩ b)) ?_ ?_).trans ?_
    · intro c hc
      match c, hc with
      | ⟨0, _⟩, hc => exact absurd (Fin.ext rfl) hc
      | ⟨1, _⟩, _ => rfl
      | ⟨2, _⟩, _ => rfl
    · show 0 + 0 = k.val % 3
      omega
    · rw [val_main_v107_apply, idx_unit, feat1_read]
  · have e0 : ¬ ((⟨k.val % 3, by omega⟩ : Fin 3) = 0) := by
      rw [Fin.ext_iff]; show ¬ (k.val % 3 = 0); omega
    have e1 : (⟨k.val % 3, by omega⟩ : Fin 3) = 1 := Fin.ext hk
    rw [if_neg e0, if_pos e1]
    refine (concatenate_apply_piece (t := S3x512x8192) 0 _ _ _ 1 (by show (1 : ℕ) < 3; omega) S1x512x8192 _ rfl (by rfl) 1 rfl
      (ix3 (0 : Fin 1) n (featCol ⟨k.val / 3, by omega⟩ b)) ?_ ?_).trans ?_
    · intro c hc
      match c, hc with
      | ⟨0, _⟩, hc => exact absurd (Fin.ext rfl) hc
      | ⟨1, _⟩, _ => rfl
      | ⟨2, _⟩, _ => rfl
    · show 1 + 0 = k.val % 3
      omega
    · rw [val_main_v108_apply]
      exact (congrArg _ (idx_unit n _)).trans (diff1_read x0 x1 x2 x3 x4 x5 x6 b n _)
  · have e0 : ¬ ((⟨k.val % 3, by omega⟩ : Fin 3) = 0) := by
      rw [Fin.ext_iff]; show ¬ (k.val % 3 = 0); omega
    have e1 : ¬ ((⟨k.val % 3, by omega⟩ : Fin 3) = 1) := by
      rw [Fin.ext_iff]; show ¬ (k.val % 3 = 1); omega
    rw [if_neg e0, if_neg e1]
    refine (concatenate_apply_piece (t := S3x512x8192) 0 _ _ _ 2 (by show (2 : ℕ) < 3; omega) S1x512x8192 _ rfl (by rfl) 2 rfl
      (ix3 (0 : Fin 1) n (featCol ⟨k.val / 3, by omega⟩ b)) ?_ ?_).trans ?_
    · intro c hc
      match c, hc with
      | ⟨0, _⟩, hc => exact absurd (Fin.ext rfl) hc
      | ⟨1, _⟩, _ => rfl
      | ⟨2, _⟩, _ => rfl
    · show 2 + 0 = k.val % 3
      omega
    · rw [val_main_v109_apply]
      exact (congrArg _ (idx_unit n _)).trans (cheb2_read x0 x1 x2 x3 x4 x5 x6 b n _)

theorem gconv_read (b : Fin 64) (n : Fin 512) (o : Fin 128) :
    val_main_v117 (F := Ideal) x0 x1 x2 x3 x4 x5 x6 x7 x8 (ix2 (batRow b n) o)
      = gconv128 (supR (cur2 x2)) (feat1 (cur2 x0) (cur3 x1) (cur2 x2) (cur2 x3) (cur1 x4) (cur2 x5) (cur1 x6)) (cur2 x7) (cur1 x8) b n o := by
  rw [val_main_v117_apply, val_main_v114_apply, val_main_v116_apply, val_main_v115_apply, Ideal.addf_def]
  unfold gconv128
  congr 1
  · refine Finset.sum_congr rfl fun k _ => ?_
    have el : lidx_main_v114 (ix2 (batRow b n) o) k = ix2 (batRow b n) k :=
      funext fun a => Fin.ext (by match a with | ⟨0, _⟩ => rfl | ⟨1, _⟩ => rfl)
    have er : ridx_main_v114 (ix2 (batRow b n) o) k = ix2 k o :=
      funext fun a => Fin.ext (by match a with | ⟨0, _⟩ => rfl | ⟨1, _⟩ => rfl)
    rw [el, er, stack_read]
    rfl
  · have e : idx_main_v115 (idx_main_v116 (ix2 (batRow b n) o)) = ix1 o :=
      funext fun a => Fin.ext (by match a with | ⟨0, _⟩ => rfl)
    rw [e]
    rfl

end Read

theorem gates1_apply (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal)) (x7 : (⟨S384x128, .f32⟩ : BufTy).Contents (Elt Ideal)) (x8 : (⟨S128, .f32⟩ : BufTy).Contents (Elt Ideal)) (b : Fin 64) (n : Fin 512) (o : Fin 128) :
    val_main_v124 (F := Ideal) x0 x1 x2 x3 x4 x5 x6 x7 x8 (ix2 b (⟨n.val * 128 + o.val, by omega⟩ : Fin 65536)) = val1R (cur2 x0) (cur3 x1) (cur2 x2) (cur2 x3) (cur1 x4) (cur2 x5) (cur1 x6) (cur2 x7) (cur1 x8) b n o := by
  rw [val_main_v124_apply, val_main_v123_apply, val_main_cst_12_apply, val_main_v122_apply, val_main_v121_apply,
    val_main_cst_11_apply, val_main_v120_apply, val_main_v119_apply, val_main_v118_apply]
  have e : idx_main_v118 (ix2 b (⟨n.val * 128 + o.val, by omega⟩ : Fin 65536)) = ix2 (batRow b n) o :=
    funext fun a => Fin.ext (by
      match a with
      | ⟨0, _⟩ => show (b.val * 65536 + (n.val * 128 + o.val)) / 128 = b.val * 512 + n.val; omega
      | ⟨1, _⟩ => show (b.val * 65536 + (n.val * 128 + o.val)) % 128 = o.val; omega)
  rw [e, gconv_read]
  rfl

theorem nary3_result4 {τ : Topo} {sig : RefSig} {Val : EltTy → Type} {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

abbrev written4 : List (Ref sig .tc) := [main_v95, main_v96, main_v97, main_v98, main_v99, main_v100, main_v101, main_v102, main_v103, main_cst_10, main_v104, main_v105, main_v106, main_v107, main_v108, main_v109, main_v110, main_v111, main_v112, main_v113, main_v114, main_v115, main_v116, main_v117, main_v118, main_v119, main_v120, main_cst_11, main_v121, main_v122, main_cst_12, main_v123, main_v124]

set_option maxRecDepth 8192 in
theorem ops4_writes : (ops4 (F := Ideal) : List (HloOp τ sig (Elt Ideal))).Forall fun op => op.writes ⊆ (written4.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [nullary_writes, unary_writes, binary_writes, reshape_writes, nary_writes, Finset.singleton_subset_iff, List.mem_toFinset]
     exact List.mem_map_of_mem (by decide))

theorem keep4 (V : Valuation τ sig (Elt Ideal)) (r : Ref sig .tc) (h : r ∉ written4) : after (ops4 (F := Ideal)) V r = V r :=
  after_of_writes_sub (ops4 (F := Ideal)) V ops4_writes h

abbrev ops4a {F : FTy → Type} [FloatOps F] : List (HloOp τ sig (Elt F)) :=
  [ unary main_arg1 main_v95 ((extractStridedSlice S1x64x32768 ![1, 0, 0] · slices_S2x64x32768_S1x64x32768_1_0_0) : (⟨S2x64x32768, .f32⟩ : BufTy).Contents (Elt F) → (⟨S1x64x32768, .f32⟩ : BufTy).Contents (Elt F)),
    reshape main_v95 main_v96 rfl shapeCasts_S1x64x32768_S64x32768,
    reshape main_v94 main_v97 rfl shapeCasts_S64x32768_S64x512x64,
    reshape main_v96 main_v98 rfl shapeCasts_S64x32768_S64x512x64,
    binary main_v97 main_v98 main_v99 ((fun a b => concatenate S64x512x128 2 [⟨S64x512x64, a⟩, ⟨S64x512x64, b⟩] concatenates_S64x512x64_S64x512x64_S64x512x128_d2) : (⟨S64x512x64, .f32⟩ : BufTy).Contents (Elt F) → (⟨S64x512x64, .f32⟩ : BufTy).Contents (Elt F) → (⟨S64x512x128, .f32⟩ : BufTy).Contents (Elt F)),
    unary main_v99 main_v100 ((transpose S512x128x64 [1, 2, 0] · transposes_S64x512x128_S512x128x64_1_2_0) : (⟨S64x512x128, .f32⟩ : BufTy).Contents (Elt F) → (⟨S512x128x64, .f32⟩ : BufTy).Contents (Elt F)),
    reshape main_v100 main_v101 rfl shapeCasts_S512x128x64_S512x8192 ]

abbrev ops4b {F : FTy → Type} [FloatOps F] : List (HloOp τ sig (Elt F)) :=
  [ binary main_v30 main_v101 main_v102 ((fun l r => Host.dotGeneral dot_S512x512_S512x8192_S512x8192_1_0_0_1_n_n none l r) : (⟨S512x512, .f32⟩ : BufTy).Contents (Elt F) → (⟨S512x8192, .f32⟩ : BufTy).Contents (Elt F) → (⟨S512x8192, .f32⟩ : BufTy).Contents (Elt F)),
    binary main_v30 main_v102 main_v103 ((fun l r => Host.dotGeneral dot_S512x512_S512x8192_S512x8192_1_0_0_1_n_n none l r) : (⟨S512x512, .f32⟩ : BufTy).Contents (Elt F) → (⟨S512x8192, .f32⟩ : BufTy).Contents (Elt F) → (⟨S512x8192, .f32⟩ : BufTy).Contents (Elt F)),
    nullary main_cst_10 (constant S_ .f32 0x40000000#32),
    unary main_cst_10 main_v104 (broadcastInDim S512x8192 ![] bcast_S_S512x8192 : (⟨S_, .f32⟩ : BufTy).Contents (Elt F) → (⟨S512x8192, .f32⟩ : BufTy).Contents (Elt F)),
    binary main_v104 main_v103 main_v105 (mulf : (⟨S512x8192, .f32⟩ : BufTy).Contents (Elt F) → (⟨S512x8192, .f32⟩ : BufTy).Contents (Elt F) → (⟨S512x8192, .f32⟩ : BufTy).Contents (Elt F)),
    binary main_v105 main_v101 main_v106 (subf : (⟨S512x8192, .f32⟩ : BufTy).Contents (Elt F) → (⟨S512x8192, .f32⟩ : BufTy).Contents (Elt F) → (⟨S512x8192, .f32⟩ : BufTy).Contents (Elt F)),
    unary main_v101 main_v107 (broadcastInDim S1x512x8192 ![1, 2] bcast_S512x8192_S1x512x8192_1_2 : (⟨S512x8192, .f32⟩ : BufTy).Contents (Elt F) → (⟨S1x512x8192, .f32⟩ : BufTy).Contents (Elt F)),
    unary main_v102 main_v108 (broadcastInDim S1x512x8192 ![1, 2] bcast_S512x8192_S1x512x8192_1_2 : (⟨S512x8192, .f32⟩ : BufTy).Contents (Elt F) → (⟨S1x512x8192, .f32⟩ : BufTy).Contents (Elt F)),
    unary main_v106 main_v109 (broadcastInDim S1x512x8192 ![1, 2] bcast_S512x8192_S1x512x8192_1_2 : (⟨S512x8192, .f32⟩ : BufTy).Contents (Elt F) → (⟨S1x512x8192, .f32⟩ : BufTy).Contents (Elt F)) ]

abbrev ops4c {F : FTy → Type} [FloatOps F] : List (HloOp τ sig (Elt F)) :=
  [ nary ![main_v107, main_v108, main_v109] main_v110 (fun u => concatenate S3x512x8192 0 [⟨S1x512x8192, u 0⟩, ⟨S1x512x8192, u 1⟩, ⟨S1x512x8192, u 2⟩] concatenates_S1x512x8192_S1x512x8192_S1x512x8192_S3x512x8192_d0),
    reshape main_v110 main_v111 rfl shapeCasts_S3x512x8192_S3x512x128x64,
    unary main_v111 main_v112 ((transpose S64x512x128x3 [3, 1, 2, 0] · transposes_S3x512x128x64_S64x512x128x3_3_1_2_0) : (⟨S3x512x128x64, .f32⟩ : BufTy).Contents (Elt F) → (⟨S64x512x128x3, .f32⟩ : BufTy).Contents (Elt F)),
    reshape main_v112 main_v113 rfl shapeCasts_S64x512x128x3_S32768x384,
    binary main_v113 main_arg7 main_v114 ((fun l r => Host.dotGeneral dot_S32768x384_S384x128_S32768x128_1_0_0_1_n_n none l r) : (⟨S32768x384, .f32⟩ : BufTy).Contents (Elt F) → (⟨S384x128, .f32⟩ : BufTy).Contents (Elt F) → (⟨S32768x128, .f32⟩ : BufTy).Contents (Elt F)),
    unary main_arg8 main_v115 (broadcastInDim S1x128 ![1] bcast_S128_S1x128_1 : (⟨S128, .f32⟩ : BufTy).Contents (Elt F) → (⟨S1x128, .f32⟩ : BufTy).Contents (Elt F)),
    unary main_v115 main_v116 (broadcastInDim S32768x128 ![0, 1] bcast_S1x128_S32768x128_0_1 : (⟨S1x128, .f32⟩ : BufTy).Contents (Elt F) → (⟨S32768x128, .f32⟩ : BufTy).Contents (Elt F)),
    binary main_v114 main_v116 main_v117 (addf : (⟨S32768x128, .f32⟩ : BufTy).Contents (Elt F) → (⟨S32768x128, .f32⟩ : BufTy).Contents (Elt F) → (⟨S32768x128, .f32⟩ : BufTy).Contents (Elt F)),
    reshape main_v117 main_v118 rfl shapeCasts_S32768x128_S64x65536,
    unary main_v118 main_v119 (Host.negf : (⟨S64x65536, .f32⟩ : BufTy).Contents (Elt F) → (⟨S64x65536, .f32⟩ : BufTy).Contents (Elt F)),
    unary main_v119 main_v120 (Host.exp : (⟨S64x65536, .f32⟩ : BufTy).Contents (Elt F) → (⟨S64x65536, .f32⟩ : BufTy).Contents (Elt F)),
    nullary main_cst_11 (constant S_ .f32 0x3F800000#32),
    unary main_cst_11 main_v121 (broadcastInDim S64x65536 ![] bcast_S_S64x65536 : (⟨S_, .f32⟩ : BufTy).Contents (Elt F) → (⟨S64x65536, .f32⟩ : BufTy).Contents (Elt F)),
    binary main_v121 main_v120 main_v122 (addf : (⟨S64x65536, .f32⟩ : BufTy).Contents (Elt F) → (⟨S64x65536, .f32⟩ : BufTy).Contents (Elt F) → (⟨S64x65536, .f32⟩ : BufTy).Contents (Elt F)),
    nullary main_cst_12 (constant S_ .f32 0x3F800000#32),
    unary main_cst_12 main_v123 (broadcastInDim S64x65536 ![] bcast_S_S64x65536 : (⟨S_, .f32⟩ : BufTy).Contents (Elt F) → (⟨S64x65536, .f32⟩ : BufTy).Contents (Elt F)),
    binary main_v123 main_v122 main_v124 (Host.divf : (⟨S64x65536, .f32⟩ : BufTy).Contents (Elt F) → (⟨S64x65536, .f32⟩ : BufTy).Contents (Elt F) → (⟨S64x65536, .f32⟩ : BufTy).Contents (Elt F)) ]

set_option maxRecDepth 8192 in
theorem ops4_eq {F : FTy → Type} [FloatOps F] : (ops4 (F := F) : List (HloOp τ sig (Elt F))) = ops4a ++ (ops4b ++ ops4c) := rfl

theorem after_append4 {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

set_option maxRecDepth 8192 in
set_option maxHeartbeats 1000000 in

theorem run4a (V : Valuation τ sig (Elt Ideal))
    (h94 : V main_v94 = val_main_v94 (F := Ideal) (V main_arg0) (V main_arg1) (V main_arg2) (V main_arg3) (V main_arg4) (V main_arg5) (V main_arg6)) :
    after (ops4a (F := Ideal)) V main_v101 = val_main_v101 (F := Ideal) (V main_arg0) (V main_arg1) (V main_arg2) (V main_arg3) (V main_arg4) (V main_arg5) (V main_arg6)
    ∧ after (ops4a (F := Ideal)) V main_v96 = val_main_v96 (F := Ideal) (V main_arg1)
    ∧ after (ops4a (F := Ideal)) V main_v30 = V main_v30 ∧ after (ops4a (F := Ideal)) V main_arg7 = V main_arg7 ∧ after (ops4a (F := Ideal)) V main_arg8 = V main_arg8 := by
  refine ⟨?_, ?_, ?_, ?_, ?_⟩
  · after_results
    rw [h94]
    rfl
  · after_results
    rfl
  · after_results
  · after_results
  · after_results

set_option maxRecDepth 8192 in
set_option maxHeartbeats 1000000 in

theorem run4b (W : Valuation τ sig (Elt Ideal)) (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal))
    (h30 : W main_v30 = val_main_v30 (F := Ideal) x2)
    (h101 : W main_v101 = val_main_v101 (F := Ideal) x0 x1 x2 x3 x4 x5 x6) :
    after (ops4b (F := Ideal)) W main_v107 = val_main_v107 (F := Ideal) x0 x1 x2 x3 x4 x5 x6
    ∧ after (ops4b (F := Ideal)) W main_v108 = val_main_v108 (F := Ideal) x0 x1 x2 x3 x4 x5 x6
    ∧ after (ops4b (F := Ideal)) W main_v109 = val_main_v109 (F := Ideal) x0 x1 x2 x3 x4 x5 x6
    ∧ after (ops4b (F := Ideal)) W main_v96 = W main_v96 ∧ after (ops4b (F := Ideal)) W main_arg7 = W main_arg7 ∧ after (ops4b (F := Ideal)) W main_arg8 = W main_arg8 := by
  refine ⟨?_, ?_, ?_, ?_, ?_, ?_⟩
  · after_results
    rw [h101]
    rfl
  · after_results
    rw [h30, h101]
    rfl
  · after_results
    rw [h30, h101]
    rfl
  · after_results
  · after_results
  · after_results

set_option maxRecDepth 8192 in
set_option maxHeartbeats 1000000 in

theorem run4c (W : Valuation τ sig (Elt Ideal)) (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal))
    (h107 : W main_v107 = val_main_v107 (F := Ideal) x0 x1 x2 x3 x4 x5 x6)
    (h108 : W main_v108 = val_main_v108 (F := Ideal) x0 x1 x2 x3 x4 x5 x6)
    (h109 : W main_v109 = val_main_v109 (F := Ideal) x0 x1 x2 x3 x4 x5 x6) :
    after (ops4c (F := Ideal)) W main_v124 = val_main_v124 (F := Ideal) x0 x1 x2 x3 x4 x5 x6 (W main_arg7) (W main_arg8)
    ∧ after (ops4c (F := Ideal)) W main_v96 = W main_v96 := by
  refine ⟨?_, ?_⟩
  · simp only [after_cons, after_nil]
    repeat (first
      | rw [nullary_result] | rw [unary_result] | rw [binary_result] | rw [reshape_result] | rw [nary3_result4]
      | (rw [nullary_result_ne]; rotate_left; decide)
      | (rw [unary_result_ne]; rotate_left; decide)
      | (rw [binary_result_ne]; rotate_left; decide)
      | (rw [reshape_result_ne]; rotate_left; decide)
      | (rw [nary_result_ne]; rotate_left; decide))
    rw [h107, h108, h109]
    rfl
  · after_results

theorem run4 (V : Valuation τ sig (Elt Ideal)) (h30 : V main_v30 = val_main_v30 (F := Ideal) (V main_arg2))
    (h94 : V main_v94 = val_main_v94 (F := Ideal) (V main_arg0) (V main_arg1) (V main_arg2) (V main_arg3) (V main_arg4) (V main_arg5) (V main_arg6)) :
    after (ops4 (F := Ideal)) V main_v124 = val_main_v124 (F := Ideal) (V main_arg0) (V main_arg1) (V main_arg2) (V main_arg3) (V main_arg4) (V main_arg5) (V main_arg6) (V main_arg7) (V main_arg8)
    ∧ after (ops4 (F := Ideal)) V main_v96 = val_main_v96 (F := Ideal) (V main_arg1) := by
  obtain ⟨a101, a96, a30, a7, a8⟩ := run4a V h94
  obtain ⟨b107, b108, b109, b96, b7, b8⟩ := run4b (after (ops4a (F := Ideal)) V) (V main_arg0) (V main_arg1) (V main_arg2) (V main_arg3) (V main_arg4) (V main_arg5) (V main_arg6) (a30.trans h30) a101
  obtain ⟨c124, c96⟩ := run4c (after (ops4b (F := Ideal)) (after (ops4a (F := Ideal)) V)) (V main_arg0) (V main_arg1) (V main_arg2) (V main_arg3) (V main_arg4) (V main_arg5) (V main_arg6) b107 b108 b109
  rw [ops4_eq, after_append4, after_append4]
  refine ⟨?_, ?_⟩
  · rw [c124, b7, b8, a7, a8]
  · rw [c96, b96, a96]

end Cert.ReferenceIdeal.RefValue

end
-- ==== Proof.Ref.Cell1.lean ====
import proofs.«105208_g19069654794669_cont_sun_m_30_30_alg».proof.Proof.Ref.ReadP
import proofs.«105208_g19069654794669_cont_sun_m_30_30_alg».proof.Proof.Spec
import proofs.«105208_g19069654794669_cont_sun_m_30_30_alg».proof.Proof.Ref.Support
import proofs.«105208_g19069654794669_cont_sun_m_30_30_alg».proof.Proof.Ref.Cell0
import proofs.«105208_g19069654794669_cont_sun_m_30_30_alg».proof.Proof.Ref.Gates1
import proofs.«105208_g19069654794669_cont_sun_m_30_30_alg».proof.Proof.Ref.Ops

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec
open Cert.ReferenceIdeal.ValueP Idealize.ShloMosaic.StableHlo Idealize.ShloMosaic.TcCoe Idealize.SL.Sem

section Read
variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal)) (x5 : (⟨S195x64, .f32⟩ : BufTy).Contents (Elt Ideal))
  (x6 : (⟨S64, .f32⟩ : BufTy).Contents (Elt Ideal)) (x7 : (⟨S384x128, .f32⟩ : BufTy).Contents (Elt Ideal))
  (x8 : (⟨S128, .f32⟩ : BufTy).Contents (Elt Ideal)) (x9 : (⟨S384x64, .f32⟩ : BufTy).Contents (Elt Ideal))
  (x10 : (⟨S64, .f32⟩ : BufTy).Contents (Elt Ideal))

theorem state1_apply5 (b : Fin 64) (q : Fin 32768) :
    val_main_v96 (F := Ideal) x1 (ix2 b q) = cur3 x1 1 b q := by
  rw [val_main_v96_apply, val_main_v95_apply]
  unfold cur3
  congr 1
  funext a
  refine Fin.ext ?_
  match a with
  | ⟨0, _⟩ => rfl
  | ⟨1, _⟩ => show (b.val * 32768 + q.val) / 32768 % 64 = b.val; omega
  | ⟨2, _⟩ => show (b.val * 32768 + q.val) % 32768 = q.val; omega

theorem gate_r_apply5 (b : Fin 64) (n : Fin 512) (u : Fin 64) :
    val_main_v127 (F := Ideal) x0 x1 x2 x3 x4 x5 x6 x7 x8 (ix2 b (nu n u))
      = r1R (cur2 x0) (cur3 x1) (cur2 x2) (cur2 x3) (cur1 x4) (cur2 x5) (cur1 x6) (cur2 x7) (cur1 x8) b n u := by
  rw [val_main_v127_apply, val_main_v126_apply, val_main_v125_apply]
  have e : idx_main_v125 (idx_main_v126 (idx_main_v127 (ix2 b (nu n u))))
      = ix2 b (⟨n.val * 128 + (go 0 u).val, by have := (go 0 u).isLt; omega⟩ : Fin 65536) := by
    funext a
    refine Fin.ext ?_
    match a with
    | ⟨0, _⟩ =>
      show (((b.val * 32768 + (n.val * 64 + u.val)) / 32768 * 512 + (b.val * 32768 + (n.val * 64 + u.val)) / 64 % 512) * 128
        + (b.val * 32768 + (n.val * 64 + u.val)) % 64) / 65536 = b.val
      omega
    | ⟨1, _⟩ =>
      show (((b.val * 32768 + (n.val * 64 + u.val)) / 32768 * 512 + (b.val * 32768 + (n.val * 64 + u.val)) / 64 % 512) * 128
        + (b.val * 32768 + (n.val * 64 + u.val)) % 64) % 65536 = n.val * 128 + (64 * 0 + u.val)
      omega
  rw [e, gates1_apply]
  rfl

theorem gate_u_apply5 (b : Fin 64) (n : Fin 512) (u : Fin 64) :
    val_main_v129 (F := Ideal) x0 x1 x2 x3 x4 x5 x6 x7 x8 (ix2 b (nu n u))
      = u1R (cur2 x0) (cur3 x1) (cur2 x2) (cur2 x3) (cur1 x4) (cur2 x5) (cur1 x6) (cur2 x7) (cur1 x8) b n u := by
  rw [val_main_v129_apply, val_main_v128_apply, val_main_v125_apply]
  have e : idx_main_v125 (idx_main_v128 (idx_main_v129 (ix2 b (nu n u))))
      = ix2 b (⟨n.val * 128 + (go 1 u).val, by have := (go 1 u).isLt; omega⟩ : Fin 65536) := by
    funext a
    refine Fin.ext ?_
    match a with
    | ⟨0, _⟩ =>
      show (((b.val * 32768 + (n.val * 64 + u.val)) / 32768 * 512 + (b.val * 32768 + (n.val * 64 + u.val)) / 64 % 512) * 128
        + (64 + (b.val * 32768 + (n.val * 64 + u.val)) % 64)) / 65536 = b.val
      omega
    | ⟨1, _⟩ =>
      show (((b.val * 32768 + (n.val * 64 + u.val)) / 32768 * 512 + (b.val * 32768 + (n.val * 64 + u.val)) / 64 % 512) * 128
        + (64 + (b.val * 32768 + (n.val * 64 + u.val)) % 64)) % 65536 = n.val * 128 + (64 * 1 + u.val)
      omega
  rw [e, gates1_apply]
  rfl

theorem feat_apply5 (n : Fin 512) (f : Fin 128) (b : Fin 64) :
    val_main_v135 (F := Ideal) x0 x1 x2 x3 x4 x5 x6 x7 x8 (ix2 n (⟨f.val * 64 + b.val, by omega⟩ : Fin 8192))
      = featc1 (cur2 x0) (cur3 x1) (cur2 x2) (cur2 x3) (cur1 x4) (cur2 x5) (cur1 x6) (cur2 x7) (cur1 x8) f b n := by
  rw [val_main_v135_apply, val_main_v134_apply]
  have e : idx_main_v134 (idx_main_v135 (ix2 n (⟨f.val * 64 + b.val, by omega⟩ : Fin 8192))) = ix3 b n f := by
    funext a
    refine Fin.ext ?_
    match a with
    | ⟨0, _⟩ => show (n.val * 8192 + (f.val * 64 + b.val)) % 64 = b.val; omega
    | ⟨1, _⟩ => show (n.val * 8192 + (f.val * 64 + b.val)) / 8192 = n.val; omega
    | ⟨2, _⟩ => show (n.val * 8192 + (f.val * 64 + b.val)) / 64 % 128 = f.val; omega
  rw [e]
  unfold val_main_v133 featc1
  by_cases hf : f.val < 64
  · rw [dif_pos hf]
    refine (concatenate_pair_apply_left (s₁ := S64x512x64) (s₂ := S64x512x64) (2 : Fin S64x512x128.rank) _ _ _ (ix3 b n f) rfl (ix3 b n (⟨f.val, hf⟩ : Fin 64))
      (fun c => ?_)).trans ?_
    · match c with
      | ⟨0, _⟩ => rfl
      | ⟨1, _⟩ => rfl
      | ⟨2, _⟩ => rfl
    · rw [val_main_v131_apply]
      have e2 : idx_main_v131 (ix3 b n (⟨f.val, hf⟩ : Fin 64)) = ix2 b (nu n ⟨f.val, hf⟩) := by
        funext a
        refine Fin.ext ?_
        match a with
        | ⟨0, _⟩ => show ((b.val * 512 + n.val) * 64 + f.val) / 32768 = b.val; omega
        | ⟨1, _⟩ => show ((b.val * 512 + n.val) * 64 + f.val) % 32768 = n.val * 64 + f.val; omega
      rw [e2, cell0_apply]
  · rw [dif_neg hf]
    refine (concatenate_pair_apply_right (s₁ := S64x512x64) (s₂ := S64x512x64) (2 : Fin S64x512x128.rank) _ _ _ (ix3 b n f) rfl rfl
      (ix3 b n (⟨f.val - 64, by omega⟩ : Fin 64)) (fun c hc => ?_) ?_).trans ?_
    · match c with
      | ⟨0, _⟩ => rfl
      | ⟨1, _⟩ => rfl
      | ⟨2, _⟩ => exact absurd rfl hc
    · show f.val - 64 + 64 = f.val; omega
    · rw [val_main_v132_apply]
      have e3 : idx_main_v132 (ix3 b n (⟨f.val - 64, by omega⟩ : Fin 64)) = ix2 b (nu n ⟨f.val - 64, by omega⟩) := by
        funext a
        refine Fin.ext ?_
        match a with
        | ⟨0, _⟩ => show ((b.val * 512 + n.val) * 64 + (f.val - 64)) / 32768 = b.val; omega
        | ⟨1, _⟩ => show ((b.val * 512 + n.val) * 64 + (f.val - 64)) % 32768 = n.val * 64 + (f.val - 64); omega
      rw [e3, val_main_v130_apply, gate_r_apply5, state1_apply5]
      rfl

theorem diff1_apply5 (n : Fin 512) (c : Fin 8192) :
    val_main_v136 (F := Ideal) x0 x1 x2 x3 x4 x5 x6 x7 x8 (ix2 n c)
      = ∑ j : Fin 512, supR (cur2 x2) n j * val_main_v135 (F := Ideal) x0 x1 x2 x3 x4 x5 x6 x7 x8 (ix2 j c) := by
  rw [val_main_v136_apply]
  refine Finset.sum_congr rfl fun j _ => ?_
  have el : lidx_main_v136 (ix2 n c) j = ix2 n j :=
    funext fun a => Fin.ext (by match a with | ⟨0, _⟩ => rfl | ⟨1, _⟩ => rfl)
  have er : ridx_main_v136 (ix2 n c) j = ix2 j c :=
    funext fun a => Fin.ext (by match a with | ⟨0, _⟩ => rfl | ⟨1, _⟩ => rfl)
  rw [el, er, support_apply]

theorem diff2_apply5 (n : Fin 512) (c : Fin 8192) :
    val_main_v137 (F := Ideal) x0 x1 x2 x3 x4 x5 x6 x7 x8 (ix2 n c)
      = ∑ j : Fin 512, supR (cur2 x2) n j * val_main_v136 (F := Ideal) x0 x1 x2 x3 x4 x5 x6 x7 x8 (ix2 j c) := by
  rw [val_main_v137_apply]
  refine Finset.sum_congr rfl fun j _ => ?_
  have el : lidx_main_v137 (ix2 n c) j = ix2 n j :=
    funext fun a => Fin.ext (by match a with | ⟨0, _⟩ => rfl | ⟨1, _⟩ => rfl)
  have er : ridx_main_v137 (ix2 n c) j = ix2 j c :=
    funext fun a => Fin.ext (by match a with | ⟨0, _⟩ => rfl | ⟨1, _⟩ => rfl)
  rw [el, er, support_apply]

theorem cheb2_apply5 (n : Fin 512) (c : Fin 8192) :
    val_main_v140 (F := Ideal) x0 x1 x2 x3 x4 x5 x6 x7 x8 (ix2 n c)
      = c2 * val_main_v137 (F := Ideal) x0 x1 x2 x3 x4 x5 x6 x7 x8 (ix2 n c)
        - val_main_v135 (F := Ideal) x0 x1 x2 x3 x4 x5 x6 x7 x8 (ix2 n c) := by
  rw [val_main_v140_apply, val_main_v139_apply, val_main_v138_apply, val_main_cst_13_apply]
  rfl

theorem stack_apply5 (t : Fin 3) (n : Fin 512) (c : Fin 8192) :
    val_main_v144 (F := Ideal) x0 x1 x2 x3 x4 x5 x6 x7 x8 (ix3 t n c)
      = if t = 0 then val_main_v135 (F := Ideal) x0 x1 x2 x3 x4 x5 x6 x7 x8 (ix2 n c)
        else if t = 1 then val_main_v136 (F := Ideal) x0 x1 x2 x3 x4 x5 x6 x7 x8 (ix2 n c)
        else val_main_v140 (F := Ideal) x0 x1 x2 x3 x4 x5 x6 x7 x8 (ix2 n c) := by
  unfold val_main_v144
  have hi : ∀ d : Fin S1x512x8192.rank, d.cast (rfl : S1x512x8192.rank = S3x512x8192.rank) ≠ (0 : Fin S3x512x8192.rank) →
      ((ix3 (0 : Fin 1) n c : S1x512x8192.Idx) d).val = ((ix3 t n c : S3x512x8192.Idx) (d.cast rfl)).val := by
    intro d hd
    match d with
    | ⟨0, _⟩ => exact absurd rfl hd
    | ⟨1, _⟩ => rfl
    | ⟨2, _⟩ => rfl
  match t with
  | ⟨0, _⟩ =>
    rw [if_pos (show (⟨0, by omega⟩ : Fin 3) = 0 from Fin.ext rfl)]
    refine (concatenate_apply_piece (0 : Fin S3x512x8192.rank) _ _ (ix3 (⟨0, by omega⟩ : Fin 3) n c) 0 (by simp) S1x512x8192 _ rfl rfl 0 rfl
      (ix3 (0 : Fin 1) n c) hi rfl).trans ?_
    rw [val_main_v141_apply]
    exact congrArg _ (funext fun a => Fin.ext (by match a with | ⟨0, _⟩ => rfl | ⟨1, _⟩ => rfl))
  | ⟨1, _⟩ =>
    rw [if_neg (by simp [Fin.ext_iff]), if_pos (show (⟨1, by omega⟩ : Fin 3) = 1 from Fin.ext rfl)]
    refine (concatenate_apply_piece (0 : Fin S3x512x8192.rank) _ _ (ix3 (⟨1, by omega⟩ : Fin 3) n c) 1 (by simp) S1x512x8192 _ rfl rfl 1 rfl
      (ix3 (0 : Fin 1) n c) hi rfl).trans ?_
    rw [val_main_v142_apply]
    exact congrArg _ (funext fun a => Fin.ext (by match a with | ⟨0, _⟩ => rfl | ⟨1, _⟩ => rfl))
  | ⟨2, _⟩ =>
    rw [if_neg (by simp [Fin.ext_iff]), if_neg (by simp [Fin.ext_iff])]
    refine (concatenate_apply_piece (0 : Fin S3x512x8192.rank) _ _ (ix3 (⟨2, by omega⟩ : Fin 3) n c) 2 (by simp) S1x512x8192 _ rfl rfl 2 rfl
      (ix3 (0 : Fin 1) n c) hi rfl).trans ?_
    rw [val_main_v143_apply]
    exact congrArg _ (funext fun a => Fin.ext (by match a with | ⟨0, _⟩ => rfl | ⟨1, _⟩ => rfl))

theorem diff1_feat5 (n : Fin 512) (f : Fin 128) (b : Fin 64) :
    val_main_v136 (F := Ideal) x0 x1 x2 x3 x4 x5 x6 x7 x8 (ix2 n (⟨f.val * 64 + b.val, by omega⟩ : Fin 8192))
      = ∑ j : Fin 512, supR (cur2 x2) n j
          * featc1 (cur2 x0) (cur3 x1) (cur2 x2) (cur2 x3) (cur1 x4) (cur2 x5) (cur1 x6) (cur2 x7) (cur1 x8) f b j := by
  rw [diff1_apply5]
  exact Finset.sum_congr rfl fun j _ => by rw [feat_apply5]

theorem diff2_feat5 (n : Fin 512) (f : Fin 128) (b : Fin 64) :
    val_main_v137 (F := Ideal) x0 x1 x2 x3 x4 x5 x6 x7 x8 (ix2 n (⟨f.val * 64 + b.val, by omega⟩ : Fin 8192))
      = ∑ j : Fin 512, supR (cur2 x2) n j * ∑ j' : Fin 512, supR (cur2 x2) j j'
          * featc1 (cur2 x0) (cur3 x1) (cur2 x2) (cur2 x3) (cur1 x4) (cur2 x5) (cur1 x6) (cur2 x7) (cur1 x8) f b j' := by
  rw [diff2_apply5]
  exact Finset.sum_congr rfl fun j _ => by rw [diff1_feat5]

theorem cheb_apply5 (b : Fin 64) (n : Fin 512) (q : Fin 384) :
    val_main_v147 (F := Ideal) x0 x1 x2 x3 x4 x5 x6 x7 x8 (ix2 (⟨b.val * 512 + n.val, by omega⟩ : Fin 32768) q)
      = chebR (supR (cur2 x2))
          (featc1 (cur2 x0) (cur3 x1) (cur2 x2) (cur2 x3) (cur1 x4) (cur2 x5) (cur1 x6) (cur2 x7) (cur1 x8))
          ⟨q.val % 3, by omega⟩ ⟨q.val / 3, by omega⟩ b n := by
  rw [val_main_v147_apply, val_main_v146_apply, val_main_v145_apply]
  have e1 : idx_main_v147 (ix2 (⟨b.val * 512 + n.val, by omega⟩ : Fin 32768) q)
      = ix4 b n (⟨q.val / 3, by omega⟩ : Fin 128) (⟨q.val % 3, by omega⟩ : Fin 3) := by
    funext a
    refine Fin.ext ?_
    match a with
    | ⟨0, _⟩ => show ((b.val * 512 + n.val) * 384 + q.val) / 196608 = b.val; omega
    | ⟨1, _⟩ => show ((b.val * 512 + n.val) * 384 + q.val) / 384 % 512 = n.val; omega
    | ⟨2, _⟩ => show ((b.val * 512 + n.val) * 384 + q.val) / 3 % 128 = q.val / 3; omega
    | ⟨3, _⟩ => show ((b.val * 512 + n.val) * 384 + q.val) % 3 = q.val % 3; omega
  have e2 : idx_main_v146 (ix4 b n (⟨q.val / 3, by omega⟩ : Fin 128) (⟨q.val % 3, by omega⟩ : Fin 3))
      = ix4 (⟨q.val % 3, by omega⟩ : Fin 3) n (⟨q.val / 3, by omega⟩ : Fin 128) b :=
    funext fun a => Fin.ext (by match a with | ⟨0, _⟩ => rfl | ⟨1, _⟩ => rfl | ⟨2, _⟩ => rfl | ⟨3, _⟩ => rfl)
  have e3 : idx_main_v145 (ix4 (⟨q.val % 3, by omega⟩ : Fin 3) n (⟨q.val / 3, by omega⟩ : Fin 128) b)
      = ix3 (⟨q.val % 3, by omega⟩ : Fin 3) n (⟨(⟨q.val / 3, by omega⟩ : Fin 128).val * 64 + b.val, by omega⟩ : Fin 8192) := by
    funext a
    refine Fin.ext ?_
    match a with
    | ⟨0, _⟩ => show (((q.val % 3 * 512 + n.val) * 128 + q.val / 3) * 64 + b.val) / 4194304 = q.val % 3; omega
    | ⟨1, _⟩ =>
      show (((q.val % 3 * 512 + n.val) * 128 + q.val / 3) * 64 + b.val) / 8192 % 512 = n.val
      have h : (((q.val % 3 * 512 + n.val) * 128 + q.val / 3) * 64 + b.val) / 8192 = q.val % 3 * 512 + n.val := by omega
      rw [h]; omega
    | ⟨2, _⟩ => show (((q.val % 3 * 512 + n.val) * 128 + q.val / 3) * 64 + b.val) % 8192 = q.val / 3 * 64 + b.val; omega
  rw [e1, e2, e3, stack_apply5]
  unfold chebR
  refine if_congr Iff.rfl (feat_apply5 ..) (if_congr Iff.rfl (diff1_feat5 ..) ?_)
  rw [cheb2_apply5, diff2_feat5, feat_apply5]

theorem cand_apply5 (b : Fin 64) (n : Fin 512) (u : Fin 64) :
    val_main_v153 (F := Ideal) x0 x1 x2 x3 x4 x5 x6 x7 x8 x9 x10 (ix2 b (nu n u))
      = c1R (cur2 x0) (cur3 x1) (cur2 x2) (cur2 x3) (cur1 x4) (cur2 x5) (cur1 x6) (cur2 x7) (cur1 x8) (cur2 x9) (cur1 x10) b n u := by
  rw [val_main_v153_apply, val_main_v152_apply]
  have e : idx_main_v152 (ix2 b (nu n u)) = ix2 (⟨b.val * 512 + n.val, by omega⟩ : Fin 32768) u := by
    funext a
    refine Fin.ext ?_
    match a with
    | ⟨0, _⟩ => show (b.val * 32768 + (n.val * 64 + u.val)) / 64 = b.val * 512 + n.val; omega
    | ⟨1, _⟩ => show (b.val * 32768 + (n.val * 64 + u.val)) % 64 = u.val; omega
  rw [e, val_main_v151_apply, val_main_v148_apply, val_main_v150_apply, val_main_v149_apply]
  unfold c1R gconv128
  rw [Ideal.hostUnary_tanh_def, Ideal.addf_def]
  congr 2
  · refine Finset.sum_congr rfl fun q _ => ?_
    have el : lidx_main_v148 (ix2 (⟨b.val * 512 + n.val, by omega⟩ : Fin 32768) u) q = ix2 (⟨b.val * 512 + n.val, by omega⟩ : Fin 32768) q :=
      funext fun a => Fin.ext (by match a with | ⟨0, _⟩ => rfl | ⟨1, _⟩ => rfl)
    have er : ridx_main_v148 (ix2 (⟨b.val * 512 + n.val, by omega⟩ : Fin 32768) u) q = ix2 q u :=
      funext fun a => Fin.ext (by match a with | ⟨0, _⟩ => rfl | ⟨1, _⟩ => rfl)
    rw [el, er, cheb_apply5]
    rfl
  · exact congrArg x10 (funext fun a => Fin.ext (by match a with | ⟨0, _⟩ => rfl))

end Read

theorem cell1_apply (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal)) (x7 : (⟨S384x128, .f32⟩ : BufTy).Contents (Elt Ideal)) (x8 : (⟨S128, .f32⟩ : BufTy).Contents (Elt Ideal)) (x9 : (⟨S384x64, .f32⟩ : BufTy).Contents (Elt Ideal)) (x10 : (⟨S64, .f32⟩ : BufTy).Contents (Elt Ideal)) (b : Fin 64) (n : Fin 512) (u : Fin 64) :
    val_main_v158 (F := Ideal) x0 x1 x2 x3 x4 x5 x6 x7 x8 x9 x10 (ix2 b (nu n u)) = h1R (cur2 x0) (cur3 x1) (cur2 x2) (cur2 x3) (cur1 x4) (cur2 x5) (cur1 x6) (cur2 x7) (cur1 x8) (cur2 x9) (cur1 x10) b n u := by
  rw [val_main_v158_apply, val_main_v154_apply, val_main_v157_apply, val_main_v156_apply, val_main_v155_apply,
    val_main_cst_14_apply, gate_u_apply5, state1_apply5, cand_apply5]
  rfl

abbrev written5 : List (Ref sig .tc) :=
  [main_v125, main_v126, main_v127, main_v128, main_v129, main_v130, main_v131, main_v132, main_v133, main_v134,
   main_v135, main_v136, main_v137, main_cst_13, main_v138, main_v139, main_v140, main_v141, main_v142, main_v143,
   main_v144, main_v145, main_v146, main_v147, main_v148, main_v149, main_v150, main_v151, main_v152, main_v153,
   main_v154, main_cst_14, main_v155, main_v156, main_v157, main_v158]

theorem ops5_writes :
    (ops5 : List (HloOp τ sig (Elt Ideal))).Forall fun op => op.writes ⊆ (written5.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_, ?_, ?_, ?_, ?_⟩ <;>
  · simp only [nullary_writes, unary_writes, binary_writes, reshape_writes, nary_writes, Finset.singleton_subset_iff,
      List.mem_toFinset]
    exact List.mem_map_of_mem (by decide)

theorem keep5 (V : Valuation τ sig (Elt Ideal)) (r : Ref sig .tc) (h : r ∉ written5) :
    after (ops5 (F := Ideal)) V r = V r :=
  after_of_writes_sub ops5 V ops5_writes h

theorem nary3_result5 {Val : EltTy → Type} {x a b y : Ref sig .tc}
    (f : ((k : Fin 3) → ((![x, a, b] : Fin 3 → Ref sig .tc) k).ty.Contents Val) → y.ty.Contents Val) (hxs hy)
    (W : Valuation τ sig Val) :
    (nary (τ := τ) ![x, a, b] y f hxs hy).result W (Proc.devRef .tc y)
      = f (Fin.cons (W (Proc.devRef .tc x)) (Fin.cons (W (Proc.devRef .tc a)) (Fin.cons (W (Proc.devRef .tc b)) (fun i => i.elim0)))) := by
  rw [nary_result]; congr 1; funext k; fin_cases k <;> rfl

macro "results5" : tactic =>
  `(tactic| (simp only [after_cons, after_nil]
             repeat (first
               | rw [nullary_result] | rw [unary_result] | rw [binary_result] | rw [reshape_result] | rw [nary3_result5]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

theorem after_app5 {Val : EltTy → Type} (l₁ l₂ : List (HloOp τ sig Val)) (V : Valuation τ sig Val) :
    after (l₁ ++ l₂) V = after l₂ (after l₁ V) := by
  induction l₁ generalizing V with
  | nil => rfl
  | cons op l ih => exact ih _

abbrev ops5a : List (HloOp τ sig (Elt Ideal)) := (ops5 (F := Ideal)).take 11
abbrev ops5b : List (HloOp τ sig (Elt Ideal)) := ((ops5 (F := Ideal)).drop 11).take 13
abbrev ops5c : List (HloOp τ sig (Elt Ideal)) := ((ops5 (F := Ideal)).drop 11).drop 13

theorem ops5_cut : (ops5 (F := Ideal)) = ops5a ++ (ops5b ++ ops5c) := by
  unfold ops5a ops5b ops5c
  rw [List.take_append_drop, List.take_append_drop]

section Parts
variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal)) (x5 : (⟨S195x64, .f32⟩ : BufTy).Contents (Elt Ideal))
  (x6 : (⟨S64, .f32⟩ : BufTy).Contents (Elt Ideal)) (x7 : (⟨S384x128, .f32⟩ : BufTy).Contents (Elt Ideal))
  (x8 : (⟨S128, .f32⟩ : BufTy).Contents (Elt Ideal)) (x9 : (⟨S384x64, .f32⟩ : BufTy).Contents (Elt Ideal))
  (x10 : (⟨S64, .f32⟩ : BufTy).Contents (Elt Ideal))

theorem run5a_135 (W : Valuation τ sig (Elt Ideal)) (h94 : W main_v94 = val_main_v94 (F := Ideal) x0 x1 x2 x3 x4 x5 x6)
    (h96 : W main_v96 = val_main_v96 (F := Ideal) x1) (h124 : W main_v124 = val_main_v124 (F := Ideal) x0 x1 x2 x3 x4 x5 x6 x7 x8) :
    after ops5a W main_v135 = val_main_v135 (F := Ideal) x0 x1 x2 x3 x4 x5 x6 x7 x8 := by
  simp only [ops5a, ops5, List.take_succ_cons, List.take_zero]
  results5
  rw [h94, h96, h124]
  rfl

theorem run5a_129 (W : Valuation τ sig (Elt Ideal)) (h124 : W main_v124 = val_main_v124 (F := Ideal) x0 x1 x2 x3 x4 x5 x6 x7 x8) :
    after ops5a W main_v129 = val_main_v129 (F := Ideal) x0 x1 x2 x3 x4 x5 x6 x7 x8 := by
  simp only [ops5a, ops5, List.take_succ_cons, List.take_zero]
  results5
  rw [h124]
  rfl
end Parts

section Parts2
variable (x0 : (⟨S64x512, .f32⟩ : BufTy).Contents (Elt Ideal)) (x1 : (⟨S2x64x32768, .f32⟩ : BufTy).Contents (Elt Ideal))
  (x2 : (⟨S512x512, .f32⟩ : BufTy).Contents (Elt Ideal)) (x3 : (⟨S195x128, .f32⟩ : BufTy).Contents (Elt Ideal))
  (x4 : (⟨S128, .f32⟩ : BufTy).Contents (Elt Ideal)) (x5 : (⟨S195x64, .f32⟩ : BufTy).Contents (Elt Ideal))
  (x6 : (⟨S64, .f32⟩ : BufTy).Contents (Elt Ideal)) (x7 : (⟨S384x128, .f32⟩ : BufTy).Contents (Elt Ideal))
  (x8 : (⟨S128, .f32⟩ : BufTy).Contents (Elt Ideal)) (x9 : (⟨S384x64, .f32⟩ : BufTy).Contents (Elt Ideal))
  (x10 : (⟨S64, .f32⟩ : BufTy).Contents (Elt Ideal))

theorem run5b_147 (W : Valuation τ sig (Elt Ideal)) (h30 : W main_v30 = val_main_v30 (F := Ideal) x2)
    (h135 : W main_v135 = val_main_v135 (F := Ideal) x0 x1 x2 x3 x4 x5 x6 x7 x8) :
    after ops5b W main_v147 = val_main_v147 (F := Ideal) x0 x1 x2 x3 x4 x5 x6 x7 x8 := by
  simp only [ops5b, ops5, List.drop_succ_cons, List.drop_zero, List.take_succ_cons, List.take_zero]
  results5
  rw [h30, h135]
  rfl

theorem run5c_158 (W : Valuation τ sig (Elt Ideal)) (h147 : W main_v147 = val_main_v147 (F := Ideal) x0 x1 x2 x3 x4 x5 x6 x7 x8)
    (h9 : W main_arg9 = x9) (h10 : W main_arg10 = x10)
    (h129 : W main_v129 = val_main_v129 (F := Ideal) x0 x1 x2 x3 x4 x5 x6 x7 x8) (h96 : W main_v96 = val_main_v96 (F := Ideal) x1) :
    after ops5c W main_v158 = val_main_v158 (F := Ideal) x0 x1 x2 x3 x4 x5 x6 x7 x8 x9 x10 := by
  simp only [ops5c, ops5, List.drop_succ_cons, List.drop_zero]
  results5
  rw [h147, h9, h10, h129, h96]
  rfl
end Parts2

theorem keep5_part (l : List (HloOp τ sig (Elt Ideal))) (hl : ∀ op ∈ l, op ∈ (ops5 (F := Ideal))) (W : Valuation τ sig (Elt Ideal))
    (r : Ref sig .tc) (h : r ∉ written5) : after l W r = W r :=
  after_of_writes_sub l W
    (List.forall_iff_forall_mem.2 fun op hop => List.forall_iff_forall_mem.1 ops5_writes op (hl op hop)) h

theorem mem_ops5a {op : HloOp τ sig (Elt Ideal)} (h : op ∈ ops5a) : op ∈ (ops5 (F := Ideal)) := List.mem_of_mem_take h
theorem mem_ops5b {op : HloOp τ sig (Elt Ideal)} (h : op ∈ ops5b) : op ∈ (ops5 (F := Ideal)) :=
  List.mem_of_mem_drop (List.mem_of_mem_take h)

theorem run5b_129 (W : Valuation τ sig (Elt Ideal)) : after ops5b W main_v129 = W main_v129 := by
  simp only [ops5b, ops5, List.drop_succ_cons, List.drop_zero, List.take_succ_cons, List.take_zero]
  results5

theorem run5 (V : Valuation τ sig (Elt Ideal)) (h30 : V main_v30 = val_main_v30 (F := Ideal) (V main_arg2))
    (h94 : V main_v94 = val_main_v94 (F := Ideal) (V main_arg0) (V main_arg1) (V main_arg2) (V main_arg3) (V main_arg4) (V main_arg5) (V main_arg6)) (h96 : V main_v96 = val_main_v96 (F := Ideal) (V main_arg1))
    (h124 : V main_v124 = val_main_v124 (F := Ideal) (V main_arg0) (V main_arg1) (V main_arg2) (V main_arg3) (V main_arg4) (V main_arg5) (V main_arg6) (V main_arg7) (V main_arg8)) :
    after (ops5 (F := Ideal)) V main_v158 = val_main_v158 (F := Ideal) (V main_arg0) (V main_arg1) (V main_arg2) (V main_arg3) (V main_arg4) (V main_arg5) (V main_arg6) (V main_arg7) (V main_arg8) (V main_arg9) (V main_arg10) := by
  rw [ops5_cut, after_app5, after_app5]
  have ka : ∀ r : Ref sig .tc, r ∉ written5 → after ops5a V r = V r := fun r h => keep5_part _ (fun _ => mem_ops5a) V r h
  have kb : ∀ (W : Valuation τ sig (Elt Ideal)) (r : Ref sig .tc), r ∉ written5 → after ops5b W r = W r :=
    fun W r h => keep5_part _ (fun _ => mem_ops5b) W r h
  refine run5c_158 _ _ _ _ _ _ _ _ _ _ _ _ ?_ ?_ ?_ ?_ ?_
  · refine run5b_147 _ _ _ _ _ _ _ _ _ _ ?_ ?_
    · rw [ka _ (by decide)]; exact h30
    · exact run5a_135 _ _ _ _ _ _ _ _ _ V h94 h96 h124
  · rw [kb _ _ (by decide), ka _ (by decide)]
  · rw [kb _ _ (by decide), ka _ (by decide)]
  · rw [run5b_129]; exact run5a_129 _ _ _ _ _ _ _ _ _ V h124
  · rw [kb _ _ (by decide), ka _ (by decide)]; exact h96

end Cert.ReferenceIdeal.RefValue

end
-- ==== Proof.Ref.Final.lean ====
import proofs.«105208_g19069654794669_cont_sun_m_30_30_alg».proof.Proof.Ref.ReadP
import proofs.«105208_g19069654794669_cont_sun_m_30_30_alg».proof.Proof.Spec
import proofs.«105208_g19069654794669_cont_sun_m_30_30_alg».proof.Proof.Ref.Cell0
import proofs.«105208_g19069654794669_cont_sun_m_30_30_alg».proof.Proof.Ref.Cell1
import proofs.«105208_g19069654794669_cont_sun_m_30_30_alg».proof.Proof.Ref.Ops

noncomputable section

open scoped BigOperators

namespace Cert.ReferenceIdeal.RefValue

open Cert.ReferenceIdeal Cert.ReferenceIdeal.Gen Cert.ReferenceIdeal.ReadP Idealize.ShloMosaic Idealize.ShloMosaic.ValueIdx Cert.Spec
open Cert.ReferenceIdeal.ValueP Idealize.ShloMosaic.StableHlo Idealize.ShloMosaic.TcCoe

def bn6 (b : Fin 64) (n : Fin 512) : Fin 32768 := ⟨b.val * 512 + n.val, by omega⟩

theorem state1_rows_apply6 (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal)) (x7 : (⟨S384x128, .f32⟩ : BufTy).Contents (Elt Ideal)) (x8 : (⟨S128, .f32⟩ : BufTy).Contents (Elt Ideal)) (x9 : (⟨S384x64, .f32⟩ : BufTy).Contents (Elt Ideal)) (x10 : (⟨S64, .f32⟩ : BufTy).Contents (Elt Ideal)) (b : Fin 64) (n : Fin 512) (u : Fin 64) :
    val_main_v159 (F := Ideal) x0 x1 x2 x3 x4 x5 x6 x7 x8 x9 x10 (ix2 (bn6 b n) u) = h1R (cur2 x0) (cur3 x1) (cur2 x2) (cur2 x3) (cur1 x4) (cur2 x5) (cur1 x6) (cur2 x7) (cur1 x8) (cur2 x9) (cur1 x10) b n u := by
  rw [val_main_v159_apply]
  have e : idx_main_v159 (ix2 (bn6 b n) u) = ix2 b (nu n u) := funext fun a => Fin.ext (by
    have hb := b.isLt; have hn := n.isLt; have hu := u.isLt
    match a with
    | ⟨0, _⟩ => show (((b.val * 512 + n.val) * 64 + u.val) / 32768 : ℕ) = b.val; omega
    | ⟨1, _⟩ => show (((b.val * 512 + n.val) * 64 + u.val) % 32768 : ℕ) = n.val * 64 + u.val; omega)
  rw [e, cell1_apply]

theorem out_apply (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal)) (x7 : (⟨S384x128, .f32⟩ : BufTy).Contents (Elt Ideal)) (x8 : (⟨S128, .f32⟩ : BufTy).Contents (Elt Ideal)) (x9 : (⟨S384x64, .f32⟩ : BufTy).Contents (Elt Ideal)) (x10 : (⟨S64, .f32⟩ : BufTy).Contents (Elt Ideal)) (x11 : (⟨S64x1, .f32⟩ : BufTy).Contents (Elt Ideal)) (x12 : (⟨S1, .f32⟩ : BufTy).Contents (Elt Ideal)) (b : Fin 64) (n : Fin 512) :
    val_main_v164 (F := Ideal) x0 x1 x2 x3 x4 x5 x6 x7 x8 x9 x10 x11 x12 (ix2 b n) = outR (cur2 x0) (cur3 x1) (cur2 x2) (cur2 x3) (cur1 x4) (cur2 x5) (cur1 x6) (cur2 x7) (cur1 x8) (cur2 x9) (cur1 x10) (cur2 x11) (cur1 x12) b n := by
  rw [val_main_v164_apply, val_main_v163_apply, val_main_v160_apply, val_main_v162_apply, val_main_v161_apply]
  have el : ∀ k : Fin 64, lidx_main_v160 (idx_main_v164 (ix2 b n)) k = ix2 (bn6 b n) k := fun k => funext fun a => Fin.ext (by
    match a with
    | ⟨0, _⟩ => show ((b.val * 512 + n.val) / 1 : ℕ) = b.val * 512 + n.val; omega
    | ⟨1, _⟩ => rfl)
  have er : ∀ k : Fin 64, ridx_main_v160 (idx_main_v164 (ix2 b n)) k = ix2 k (0 : Fin 1) := fun k => funext fun a => Fin.ext (by
    match a with
    | ⟨0, _⟩ => rfl
    | ⟨1, _⟩ => rfl)
  have eb : idx_main_v161 (idx_main_v162 (idx_main_v164 (ix2 b n))) = ix1 (0 : Fin 1) := funext fun a => Fin.ext (by
    match a with
    | ⟨0, _⟩ => rfl)
  have hs : ∀ k : Fin 64, val_main_v159 (F := Ideal) x0 x1 x2 x3 x4 x5 x6 x7 x8 x9 x10 (lidx_main_v160 (idx_main_v164 (ix2 b n)) k) * x11 (ridx_main_v160 (idx_main_v164 (ix2 b n)) k)
      = h1R (cur2 x0) (cur3 x1) (cur2 x2) (cur2 x3) (cur1 x4) (cur2 x5) (cur1 x6) (cur2 x7) (cur1 x8) (cur2 x9) (cur1 x10) b n k * cur2 x11 k 0 := fun k => by
    rw [el, er, state1_rows_apply6]; rfl
  rw [Finset.sum_congr rfl (fun k _ => hs k), eb]
  rfl

theorem nu_nodeOf_unitOf6 (q : Fin 32768) : nu (nodeOf q) (unitOf q) = q :=
  Fin.ext (by show q.val / 64 * 64 + q.val % 64 = q.val; omega)

theorem hid_apply (x0 : (⟨S64x512, .f32⟩ : BufTy).Contents (Elt Ideal)) (x1 : (⟨S2x64x32768, .f32⟩ : BufTy).Contents (Elt Ideal)) (x2 : (⟨S512x512, .f32⟩ : BufTy).Contents (Elt Ideal)) (x3 : (⟨S195x128, .f32⟩ : BufTy).Contents (Elt Ideal)) (x4 : (⟨S128, .f32⟩ : BufTy).Contents (Elt Ideal)) (x5 : (⟨S195x64, .f32⟩ : BufTy).Contents (Elt Ideal)) (x6 : (⟨S64, .f32⟩ : BufTy).Contents (Elt Ideal)) (x7 : (⟨S384x128, .f32⟩ : BufTy).Contents (Elt Ideal)) (x8 : (⟨S128, .f32⟩ : BufTy).Contents (Elt Ideal)) (x9 : (⟨S384x64, .f32⟩ : BufTy).Contents (Elt Ideal)) (x10 : (⟨S64, .f32⟩ : BufTy).Contents (Elt Ideal)) (L : Fin 2) (b : Fin 64) (q : Fin 32768) :
    val_main_v167 (F := Ideal) x0 x1 x2 x3 x4 x5 x6 x7 x8 x9 x10 (ix3 L b q) = hidR (cur2 x0) (cur3 x1) (cur2 x2) (cur2 x3) (cur1 x4) (cur2 x5) (cur1 x6) (cur2 x7) (cur1 x8) (cur2 x9) (cur1 x10) L b q := by
  have e5 : idx_main_v165 (ix3 (0 : Fin 1) b q) = ix2 b (nu (nodeOf q) (unitOf q)) := by
    rw [nu_nodeOf_unitOf6]
    exact funext fun a => Fin.ext (by
      match a with
      | ⟨0, _⟩ => rfl
      | ⟨1, _⟩ => rfl)
  have e6 : idx_main_v166 (ix3 (0 : Fin 1) b q) = ix2 b (nu (nodeOf q) (unitOf q)) := by
    rw [nu_nodeOf_unitOf6]
    exact funext fun a => Fin.ext (by
      match a with
      | ⟨0, _⟩ => rfl
      | ⟨1, _⟩ => rfl)
  unfold val_main_v167 hidR
  match L with
  | ⟨0, h0⟩ =>
    rw [if_pos (show (⟨0, h0⟩ : Fin 2) = 0 from rfl)]
    refine (concatenate_pair_apply_left (0 : Fin S2x64x32768.rank) _ _ concatenates_S1x64x32768_S1x64x32768_S2x64x32768_d0
      (ix3 (⟨0, h0⟩ : Fin 2) b q) rfl (ix3 (0 : Fin 1) b q) (fun c => by
        match c with
        | ⟨0, _⟩ => rfl
        | ⟨1, _⟩ => rfl
        | ⟨2, _⟩ => rfl)).trans ?_
    rw [val_main_v165_apply, e5, cell0_apply]
  | ⟨1, h1⟩ =>
    rw [if_neg (show ¬ (⟨1, h1⟩ : Fin 2) = 0 from fun h => Nat.one_ne_zero (congrArg Fin.val h))]
    refine (concatenate_pair_apply_right (0 : Fin S2x64x32768.rank) _ _ concatenates_S1x64x32768_S1x64x32768_S2x64x32768_d0
      (ix3 (⟨1, h1⟩ : Fin 2) b q) rfl rfl (ix3 (0 : Fin 1) b q) (fun c hc => by
        match c with
        | ⟨0, _⟩ => exact absurd rfl hc
        | ⟨1, _⟩ => rfl
        | ⟨2, _⟩ => rfl) rfl).trans ?_
    rw [val_main_v166_apply, e6, cell1_apply]

theorem run6 (V : Valuation τ sig (Elt Ideal)) (h94 : V main_v94 = val_main_v94 (F := Ideal) (V main_arg0) (V main_arg1) (V main_arg2) (V main_arg3) (V main_arg4) (V main_arg5) (V main_arg6))
    (h158 : V main_v158 = val_main_v158 (F := Ideal) (V main_arg0) (V main_arg1) (V main_arg2) (V main_arg3) (V main_arg4) (V main_arg5) (V main_arg6) (V main_arg7) (V main_arg8) (V main_arg9) (V main_arg10)) :
    after (ops6 (F := Ideal)) V main_v164 = val_main_v164 (F := Ideal) (V main_arg0) (V main_arg1) (V main_arg2) (V main_arg3) (V main_arg4) (V main_arg5) (V main_arg6) (V main_arg7) (V main_arg8) (V main_arg9) (V main_arg10) (V main_arg11) (V main_arg12)
    ∧ after (ops6 (F := Ideal)) V main_v167 = val_main_v167 (F := Ideal) (V main_arg0) (V main_arg1) (V main_arg2) (V main_arg3) (V main_arg4) (V main_arg5) (V main_arg6) (V main_arg7) (V main_arg8) (V main_arg9) (V main_arg10) := by
  constructor
  · after_results
    rw [h158]
    rfl
  · after_results
    rw [h94, h158]
    rfl

abbrev written6 : List (Ref sig .tc) :=
  [main_v159, main_v160, main_v161, main_v162, main_v163, main_v164, main_v165, main_v166, main_v167]

theorem ops6_writes : (ops6 : List (HloOp τ sig (Elt Ideal))).Forall fun op => op.writes ⊆ (written6.map (Proc.devRef (τ := τ) .tc)).toFinset := by
  simp only [List.Forall]
  refine ⟨?_, ?_, ?_, ?_, ?_, ?_, ?_, ?_, ?_⟩ <;>
    (simp only [StableHlo.unary_writes, StableHlo.binary_writes, StableHlo.reshape_writes, Finset.singleton_subset_iff, List.mem_toFinset]
     exact List.mem_map_of_mem (by decide))

theorem keep6 (V : Valuation τ sig (Elt Ideal)) (r : Ref sig .tc) (h : r ∉ written6) : after (ops6 (F := Ideal)) V r = V r :=
  StableHlo.after_of_writes_sub ops6 _ ops6_writes h

end Cert.ReferenceIdeal.RefValue

end
-- ==== Proof.Ref.Run.lean ====
import proofs.«105208_g19069654794669_cont_sun_m_30_30_alg».proof.Proof.Ref.Ops
import proofs.«105208_g19069654794669_cont_sun_m_30_30_alg».proof.Proof.Ref.ReadP
import proofs.«105208_g19069654794669_cont_sun_m_30_30_alg».proof.Proof.Ref.Support
import proofs.«105208_g19069654794669_cont_sun_m_30_30_alg».proof.Proof.Ref.Gates0
import proofs.«105208_g19069654794669_cont_sun_m_30_30_alg».proof.Proof.Ref.Cell0
import proofs.«105208_g19069654794669_cont_sun_m_30_30_alg».proof.Proof.Ref.Gates1
import proofs.«105208_g19069654794669_cont_sun_m_30_30_alg».proof.Proof.Ref.Cell1
import proofs.«105208_g19069654794669_cont_sun_m_30_30_alg».proof.Proof.Ref.Final
import proofs.«105208_g19069654794669_cont_sun_m_30_30_alg».proof.Defs
import proofs.«105208_g19069654794669_cont_sun_m_30_30_alg».proof.Proof.Gen.Pre_finite_inputs
import Idealize.ShloMosaic.Lib.StableHlo.Run

noncomputable section

namespace Cert.ReferenceIdeal.RefValue

open Cert.ReferenceIdeal Cert.ReferenceIdeal.Gen Cert.ReferenceIdeal.ValueP Cert.ReferenceIdeal.ReadP Idealize.ShloMosaic Idealize.ShloMosaic.TcCoe Idealize.SL.Sem Idealize.ShloMosaic.StableHlo

theorem after_two {Val : EltTy → Type} : ∀ (l₁ l₂ : List (HloOp τ sig Val)) (V : Valuation τ sig Val),
    after (l₁ ++ l₂) V = after l₂ (after l₁ V)
  | [], _, _ => rfl
  | op :: l₁, l₂, V => after_two l₁ l₂ (op.result V)

theorem ops_sub : (ops : List (HloOp τ sig (Elt Ideal))).Forall fun op => op.bufs ⊆ tcRefs τ sig :=
  List.forall_iff_forall_mem.2 fun op h => by
    rcases List.mem_append.1 h with h | h
    · exact List.forall_iff_forall_mem.1 ops1_sub op h
    rcases List.mem_append.1 h with h | h
    · exact List.forall_iff_forall_mem.1 ops2_sub op h
    rcases List.mem_append.1 h with h | h
    · exact List.forall_iff_forall_mem.1 ops3_sub op h
    rcases List.mem_append.1 h with h | h
    · exact List.forall_iff_forall_mem.1 ops4_sub op h
    rcases List.mem_append.1 h with h | h
    · exact List.forall_iff_forall_mem.1 ops5_sub op h
    · exact List.forall_iff_forall_mem.1 ops6_sub op h

theorem ops1_fresh : ∀ op ∈ (ops1 : List (HloOp τ sig (Elt Ideal))), op.fresh = ∅ := by
  intro _ h; (repeat (cases h with | head => rfl | tail _ h => ?_)); exact nomatch h
theorem ops2_fresh : ∀ op ∈ (ops2 : List (HloOp τ sig (Elt Ideal))), op.fresh = ∅ := by
  intro _ h; (repeat (cases h with | head => rfl | tail _ h => ?_)); exact nomatch h
theorem ops3_fresh : ∀ op ∈ (ops3 : List (HloOp τ sig (Elt Ideal))), op.fresh = ∅ := by
  intro _ h; (repeat (cases h with | head => rfl | tail _ h => ?_)); exact nomatch h
theorem ops4_fresh : ∀ op ∈ (ops4 : List (HloOp τ sig (Elt Ideal))), op.fresh = ∅ := by
  intro _ h; (repeat (cases h with | head => rfl | tail _ h => ?_)); exact nomatch h
theorem ops5_fresh : ∀ op ∈ (ops5 : List (HloOp τ sig (Elt Ideal))), op.fresh = ∅ := by
  intro _ h; (repeat (cases h with | head => rfl | tail _ h => ?_)); exact nomatch h
theorem ops6_fresh : ∀ op ∈ (ops6 : List (HloOp τ sig (Elt Ideal))), op.fresh = ∅ := by
  intro _ h; (repeat (cases h with | head => rfl | tail _ h => ?_)); exact nomatch h

theorem ops_fresh : ∀ op ∈ (ops : List (HloOp τ sig (Elt Ideal))), op.fresh = ∅ := fun op h => by
  rcases List.mem_append.1 h with h | h
  · exact ops1_fresh op h
  rcases List.mem_append.1 h with h | h
  · exact ops2_fresh op h
  rcases List.mem_append.1 h with h | h
  · exact ops3_fresh op h
  rcases List.mem_append.1 h with h | h
  · exact ops4_fresh op h
  rcases List.mem_append.1 h with h | h
  · exact ops5_fresh op h
  · exact ops6_fresh op h

abbrev mainArgs : List (Ref sig .tc) :=
  [main_arg0, main_arg1, main_arg2, main_arg3, main_arg4, main_arg5, main_arg6, main_arg7, main_arg8, main_arg9, main_arg10, main_arg11, main_arg12]

theorem args_unwritten : ∀ r ∈ mainArgs,
    r ∉ written1 ∧ r ∉ written2 ∧ r ∉ written3 ∧ r ∉ written4 ∧ r ∉ written5 ∧ r ∉ written6 := by
  decide

theorem after_ops (V0 : Valuation τ sig (Elt Ideal)) :
    after (ops (F := Ideal)) V0 main_v164 = val_main_v164 (F := Ideal) (V0 main_arg0) (V0 main_arg1) (V0 main_arg2) (V0 main_arg3) (V0 main_arg4) (V0 main_arg5) (V0 main_arg6) (V0 main_arg7) (V0 main_arg8) (V0 main_arg9) (V0 main_arg10) (V0 main_arg11) (V0 main_arg12)
    ∧ after (ops (F := Ideal)) V0 main_v167 = val_main_v167 (F := Ideal) (V0 main_arg0) (V0 main_arg1) (V0 main_arg2) (V0 main_arg3) (V0 main_arg4) (V0 main_arg5) (V0 main_arg6) (V0 main_arg7) (V0 main_arg8) (V0 main_arg9) (V0 main_arg10)
    ∧ ∀ r ∈ mainArgs, after (ops (F := Ideal)) V0 r = V0 r := by

  obtain ⟨V1, e1⟩ : ∃ V, V = after (ops1 (F := Ideal)) V0 := ⟨_, rfl⟩
  obtain ⟨V2, e2⟩ : ∃ V, V = after (ops2 (F := Ideal)) V1 := ⟨_, rfl⟩
  obtain ⟨V3, e3⟩ : ∃ V, V = after (ops3 (F := Ideal)) V2 := ⟨_, rfl⟩
  obtain ⟨V4, e4⟩ : ∃ V, V = after (ops4 (F := Ideal)) V3 := ⟨_, rfl⟩
  obtain ⟨V5, e5⟩ : ∃ V, V = after (ops5 (F := Ideal)) V4 := ⟨_, rfl⟩
  obtain ⟨V6, e6⟩ : ∃ V, V = after (ops6 (F := Ideal)) V5 := ⟨_, rfl⟩
  have eT : after (ops (F := Ideal)) V0 = V6 := by
    show after (ops1 ++ (ops2 ++ (ops3 ++ (ops4 ++ (ops5 ++ ops6))))) V0 = V6
    rw [after_two, after_two, after_two, after_two, after_two, ← e1, ← e2, ← e3, ← e4, ← e5, ← e6]

  have k1 : ∀ r : Ref sig .tc, r ∉ written1 → V1 r = V0 r := fun r h => by rw [e1]; exact keep1 V0 r h
  have k2 : ∀ r : Ref sig .tc, r ∉ written2 → V2 r = V1 r := fun r h => by rw [e2]; exact keep2 V1 r h
  have k3 : ∀ r : Ref sig .tc, r ∉ written3 → V3 r = V2 r := fun r h => by rw [e3]; exact keep3 V2 r h
  have k4 : ∀ r : Ref sig .tc, r ∉ written4 → V4 r = V3 r := fun r h => by rw [e4]; exact keep4 V3 r h
  have k5 : ∀ r : Ref sig .tc, r ∉ written5 → V5 r = V4 r := fun r h => by rw [e5]; exact keep5 V4 r h
  have k6 : ∀ r : Ref sig .tc, r ∉ written6 → V6 r = V5 r := fun r h => by rw [e6]; exact keep6 V5 r h

  have A1 : ∀ r ∈ mainArgs, V1 r = V0 r := fun r hr => k1 r (args_unwritten r hr).1
  have A2 : ∀ r ∈ mainArgs, V2 r = V0 r := fun r hr => (k2 r (args_unwritten r hr).2.1).trans (A1 r hr)
  have A3 : ∀ r ∈ mainArgs, V3 r = V0 r := fun r hr => (k3 r (args_unwritten r hr).2.2.1).trans (A2 r hr)
  have A4 : ∀ r ∈ mainArgs, V4 r = V0 r := fun r hr => (k4 r (args_unwritten r hr).2.2.2.1).trans (A3 r hr)
  have A5 : ∀ r ∈ mainArgs, V5 r = V0 r := fun r hr => (k5 r (args_unwritten r hr).2.2.2.2.1).trans (A4 r hr)
  have A6 : ∀ r ∈ mainArgs, V6 r = V0 r := fun r hr => (k6 r (args_unwritten r hr).2.2.2.2.2).trans (A5 r hr)

  have s30_1 : V1 main_v30 = val_main_v30 (F := Ideal) (V0 main_arg2) := by rw [e1]; exact run1 V0
  have s30_2 : V2 main_v30 = val_main_v30 (F := Ideal) (V0 main_arg2) := (k2 main_v30 (by decide)).trans s30_1
  have s30_3 : V3 main_v30 = val_main_v30 (F := Ideal) (V0 main_arg2) := (k3 main_v30 (by decide)).trans s30_2
  have s30_4 : V4 main_v30 = val_main_v30 (F := Ideal) (V0 main_arg2) := (k4 main_v30 (by decide)).trans s30_3

  have r2 := run2 V1 (by rw [A1 main_arg2 (by decide)]; exact s30_1)
  rw [← e2, A1 main_arg0 (by decide), A1 main_arg1 (by decide), A1 main_arg2 (by decide), A1 main_arg3 (by decide), A1 main_arg4 (by decide)] at r2

  have r3 := run3 V2 (by rw [A2 main_arg2 (by decide)]; exact s30_2) (by rw [A2 main_arg1 (by decide)]; exact r2.2)
    (by rw [A2 main_arg0 (by decide), A2 main_arg1 (by decide), A2 main_arg2 (by decide), A2 main_arg3 (by decide), A2 main_arg4 (by decide)]; exact r2.1)
  rw [← e3, A2 main_arg0 (by decide), A2 main_arg1 (by decide), A2 main_arg2 (by decide), A2 main_arg3 (by decide), A2 main_arg4 (by decide), A2 main_arg5 (by decide), A2 main_arg6 (by decide)] at r3
  have s94_4 : V4 main_v94 = val_main_v94 (F := Ideal) (V0 main_arg0) (V0 main_arg1) (V0 main_arg2) (V0 main_arg3) (V0 main_arg4) (V0 main_arg5) (V0 main_arg6) := (k4 main_v94 (by decide)).trans r3
  have s94_5 : V5 main_v94 = val_main_v94 (F := Ideal) (V0 main_arg0) (V0 main_arg1) (V0 main_arg2) (V0 main_arg3) (V0 main_arg4) (V0 main_arg5) (V0 main_arg6) := (k5 main_v94 (by decide)).trans s94_4

  have r4 := run4 V3 (by rw [A3 main_arg2 (by decide)]; exact s30_3) (by rw [A3 main_arg0 (by decide), A3 main_arg1 (by decide), A3 main_arg2 (by decide), A3 main_arg3 (by decide), A3 main_arg4 (by decide), A3 main_arg5 (by decide), A3 main_arg6 (by decide)]; exact r3)
  rw [← e4, A3 main_arg0 (by decide), A3 main_arg1 (by decide), A3 main_arg2 (by decide), A3 main_arg3 (by decide), A3 main_arg4 (by decide), A3 main_arg5 (by decide), A3 main_arg6 (by decide), A3 main_arg7 (by decide), A3 main_arg8 (by decide)] at r4

  have r5 := run5 V4 (by rw [A4 main_arg2 (by decide)]; exact s30_4) (by rw [A4 main_arg0 (by decide), A4 main_arg1 (by decide), A4 main_arg2 (by decide), A4 main_arg3 (by decide), A4 main_arg4 (by decide), A4 main_arg5 (by decide), A4 main_arg6 (by decide)]; exact s94_4)
    (by rw [A4 main_arg1 (by decide)]; exact r4.2) (by rw [A4 main_arg0 (by decide), A4 main_arg1 (by decide), A4 main_arg2 (by decide), A4 main_arg3 (by decide), A4 main_arg4 (by decide), A4 main_arg5 (by decide), A4 main_arg6 (by decide), A4 main_arg7 (by decide), A4 main_arg8 (by decide)]; exact r4.1)
  rw [← e5, A4 main_arg0 (by decide), A4 main_arg1 (by decide), A4 main_arg2 (by decide), A4 main_arg3 (by decide), A4 main_arg4 (by decide), A4 main_arg5 (by decide), A4 main_arg6 (by decide), A4 main_arg7 (by decide), A4 main_arg8 (by decide), A4 main_arg9 (by decide), A4 main_arg10 (by decide)] at r5

  have r6 := run6 V5 (by rw [A5 main_arg0 (by decide), A5 main_arg1 (by decide), A5 main_arg2 (by decide), A5 main_arg3 (by decide), A5 main_arg4 (by decide), A5 main_arg5 (by decide), A5 main_arg6 (by decide)]; exact s94_5) (by rw [A5 main_arg0 (by decide), A5 main_arg1 (by decide), A5 main_arg2 (by decide), A5 main_arg3 (by decide), A5 main_arg4 (by decide), A5 main_arg5 (by decide), A5 main_arg6 (by decide), A5 main_arg7 (by decide), A5 main_arg8 (by decide), A5 main_arg9 (by decide), A5 main_arg10 (by decide)]; exact r5)
  rw [← e6, A5 main_arg0 (by decide), A5 main_arg1 (by decide), A5 main_arg2 (by decide), A5 main_arg3 (by decide), A5 main_arg4 (by decide), A5 main_arg5 (by decide), A5 main_arg6 (by decide), A5 main_arg7 (by decide), A5 main_arg8 (by decide), A5 main_arg9 (by decide), A5 main_arg10 (by decide), A5 main_arg11 (by decide), A5 main_arg12 (by decide)] at r6
  rw [eT]
  exact ⟨r6.1, r6.2, A6⟩

theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v164) = val_main_v164 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_v167) = val_main_v167 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c =>
      ⟨(h c main_v164).trans (after_ops (launchContents m c)).1,
      (h c main_v167).trans (after_ops (launchContents m c)).2.1,
      (h c main_arg0).trans ((after_ops (launchContents m c)).2.2 main_arg0 (by decide)),
      (h c main_arg1).trans ((after_ops (launchContents m c)).2.2 main_arg1 (by decide)),
      (h c main_arg2).trans ((after_ops (launchContents m c)).2.2 main_arg2 (by decide)),
      (h c main_arg3).trans ((after_ops (launchContents m c)).2.2 main_arg3 (by decide)),
      (h c main_arg4).trans ((after_ops (launchContents m c)).2.2 main_arg4 (by decide)),
      (h c main_arg5).trans ((after_ops (launchContents m c)).2.2 main_arg5 (by decide)),
      (h c main_arg6).trans ((after_ops (launchContents m c)).2.2 main_arg6 (by decide)),
      (h c main_arg7).trans ((after_ops (launchContents m c)).2.2 main_arg7 (by decide)),
      (h c main_arg8).trans ((after_ops (launchContents m c)).2.2 main_arg8 (by decide)),
      (h c main_arg9).trans ((after_ops (launchContents m c)).2.2 main_arg9 (by decide)),
      (h c main_arg10).trans ((after_ops (launchContents m c)).2.2 main_arg10 (by decide)),
      (h c main_arg11).trans ((after_ops (launchContents m c)).2.2 main_arg11 (by decide)),
      (h c main_arg12).trans ((after_ops (launchContents m c)).2.2 main_arg12 (by decide))⟩)
    (run_seq scopedRefs_eq scopedSems_eq defs main (fun _ => ops) main_eq (fun _ => ops_sub) m ρ (fun _ => ops_fresh))

theorem frame_ri : Cert.frame_ReferenceIdeal :=
  fun m ρ _ => (θ_run Cert.ReferenceIdeal.defs _ _).mono (fun _ h c => (h c).2.2) (ref_run m ρ)

end Cert.ReferenceIdeal.RefValue

end
-- ==== Proof.KI.HostVals.lean ====
import proofs.«105208_g19069654794669_cont_sun_m_30_30_alg».proof.Proof.Spec
import proofs.«105208_g19069654794669_cont_sun_m_30_30_alg».proof.Proof.Gen.KernelIdeal.Launch
import proofs.«105208_g19069654794669_cont_sun_m_30_30_alg».proof.Proof.Gen.KernelIdeal.Regions
import Idealize.ShloMosaic.Lib.StableHlo.Run

import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Idealize.ShloMosaic.StableHlo Idealize.ShloMosaic.TcCoe Cert.Spec

variable (V : Valuation τ sig (Elt Ideal))

section Nary3
variable {τ' : Topo} {sig' : RefSig} {Val : EltTy → Type}

theorem nary3_result {x a b y : Ref sig' .tc}
    (f : ((k : Fin 3) → ((![x, a, b] : Fin 3 → Ref sig' .tc) k).ty.Contents Val) → y.ty.Contents Val) (hxs hy)
    (F : Valuation τ' sig' Val) :
    (nary (τ := τ') ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
end Nary3

theorem host0_v1 (k : Fin 3) (f : Fin 65) (o : Fin 128) :
    after (hostOps0 (F := Ideal)) V main_v1 (ix3 k f o) = V main_arg3 (ix2 (fk65 f k) o) := by
  dsimp only [hostOps0]
  after_results
  refine (transpose_apply _ _ _ _ (ix3 f k o) (fun b => ?_)).trans ?_
  · match b with
    | ⟨0, _⟩ => rfl
    | ⟨1, _⟩ => rfl
    | ⟨2, _⟩ => rfl
  · refine shapeCast_apply _ _ _ (ix2 (fk65 f k) o) ?_
    show (S195x128.rowMajor (ix2 (fk65 f k) o)).val = (S65x3x128.rowMajor (ix3 f k o)).val
    rw [Shape.rowMajor_val_two, Shape.rowMajor_val_three]
    rfl
theorem host0_v3 (k : Fin 3) (f : Fin 65) (o : Fin 64) :
    after (hostOps0 (F := Ideal)) V main_v3 (ix3 k f o) = V main_arg5 (ix2 (fk65 f k) o) := by
  dsimp only [hostOps0]
  after_results
  refine (transpose_apply _ _ _ _ (ix3 f k o) (fun b => ?_)).trans ?_
  · match b with
    | ⟨0, _⟩ => rfl
    | ⟨1, _⟩ => rfl
    | ⟨2, _⟩ => rfl
  · refine shapeCast_apply _ _ _ (ix2 (fk65 f k) o) ?_
    show (S195x64.rowMajor (ix2 (fk65 f k) o)).val = (S65x3x64.rowMajor (ix3 f k o)).val
    rw [Shape.rowMajor_val_two, Shape.rowMajor_val_three]
    rfl
theorem host0_v5 (k : Fin 3) (f : Fin 128) (o : Fin 128) :
    after (hostOps0 (F := Ideal)) V main_v5 (ix3 k f o) = V main_arg7 (ix2 (fk128 f k) o) := by
  dsimp only [hostOps0]
  after_results
  refine (transpose_apply _ _ _ _ (ix3 f k o) (fun b => ?_)).trans ?_
  · match b with
    | ⟨0, _⟩ => rfl
    | ⟨1, _⟩ => rfl
    | ⟨2, _⟩ => rfl
  · refine shapeCast_apply _ _ _ (ix2 (fk128 f k) o) ?_
    show (S384x128.rowMajor (ix2 (fk128 f k) o)).val = (S128x3x128.rowMajor (ix3 f k o)).val
    rw [Shape.rowMajor_val_two, Shape.rowMajor_val_three]
    rfl
theorem host0_v7 (k : Fin 3) (f : Fin 128) (o : Fin 64) :
    after (hostOps0 (F := Ideal)) V main_v7 (ix3 k f o) = V main_arg9 (ix2 (fk128 f k) o) := by
  dsimp only [hostOps0]
  after_results
  refine (transpose_apply _ _ _ _ (ix3 f k o) (fun b => ?_)).trans ?_
  · match b with
    | ⟨0, _⟩ => rfl
    | ⟨1, _⟩ => rfl
    | ⟨2, _⟩ => rfl
  · refine shapeCast_apply _ _ _ (ix2 (fk128 f k) o) ?_
    show (S384x64.rowMajor (ix2 (fk128 f k) o)).val = (S128x3x64.rowMajor (ix3 f k o)).val
    rw [Shape.rowMajor_val_two, Shape.rowMajor_val_three]
    rfl
theorem host0_v8 (o : Fin 128) : after (hostOps0 (F := Ideal)) V main_v8 (ix2 (0 : Fin 1) o) = V main_arg4 (ix1 o) := by
  dsimp only [hostOps0]
  after_results
  refine shapeCast_apply _ _ _ (ix1 o) ?_
  show (S128.rowMajor (ix1 o)).val = (S1x128.rowMajor (ix2 (0 : Fin 1) o)).val
  rw [Shape.rowMajor_val_one, Shape.rowMajor_val_two]
  show o.val = 0 * 128 + o.val
  omega
theorem host0_v9 (o : Fin 64) : after (hostOps0 (F := Ideal)) V main_v9 (ix2 (0 : Fin 1) o) = V main_arg6 (ix1 o) := by
  dsimp only [hostOps0]
  after_results
  refine shapeCast_apply _ _ _ (ix1 o) ?_
  show (S64.rowMajor (ix1 o)).val = (S1x64.rowMajor (ix2 (0 : Fin 1) o)).val
  rw [Shape.rowMajor_val_one, Shape.rowMajor_val_two]
  show o.val = 0 * 64 + o.val
  omega
theorem host0_v10 (o : Fin 128) : after (hostOps0 (F := Ideal)) V main_v10 (ix2 (0 : Fin 1) o) = V main_arg8 (ix1 o) := by
  dsimp only [hostOps0]
  after_results
  refine shapeCast_apply _ _ _ (ix1 o) ?_
  show (S128.rowMajor (ix1 o)).val = (S1x128.rowMajor (ix2 (0 : Fin 1) o)).val
  rw [Shape.rowMajor_val_one, Shape.rowMajor_val_two]
  show o.val = 0 * 128 + o.val
  omega
theorem host0_v11 (o : Fin 64) : after (hostOps0 (F := Ideal)) V main_v11 (ix2 (0 : Fin 1) o) = V main_arg10 (ix1 o) := by
  dsimp only [hostOps0]
  after_results
  refine shapeCast_apply _ _ _ (ix1 o) ?_
  show (S64.rowMajor (ix1 o)).val = (S1x64.rowMajor (ix2 (0 : Fin 1) o)).val
  rw [Shape.rowMajor_val_one, Shape.rowMajor_val_two]
  show o.val = 0 * 64 + o.val
  omega

theorem bcast_term_apply (x : S64x512.Idx → Elt Ideal .f32) (b : Fin 64) (n : Fin 512) :
    broadcastInDim S1x64x512 ![1, 2] bcast_S64x512_S1x64x512_1_2 x (ix3 (0 : Fin 1) b n) = x (ix2 b n) := by
  refine broadcastInDim_apply _ _ _ _ (ix2 b n) (fun a => ?_)
  match a with
  | ⟨0, _⟩ => rfl
  | ⟨1, _⟩ => rfl

theorem host1_v17 (k : Fin 3) (p : Fin 32) (β : Fin 2) (n : Fin 512) :
    after (hostOps1 (F := Ideal)) V main_v17 (ix4 k p β n)
      = if k.val = 0 then V main_arg0 (ix2 (bat p β) n) else if k.val = 1 then V main_v12_1 (ix2 (bat p β) n) else V main_v12_2 (ix2 (bat p β) n) := by
  dsimp only [hostOps1]
  simp only [after_cons, after_nil]
  repeat (first
    | rw [reshape_result] | rw [nary3_result] | rw [unary_result]
    | (rw [reshape_result_ne]; rotate_left; decide)
    | (rw [unary_result_ne]; rotate_left; decide)
    | (rw [nary_result_ne]; rotate_left; decide))
  refine (shapeCast_apply _ _ _ (ix3 k (bat p β) n) ?_).trans ?_
  · show (S3x64x512.rowMajor (ix3 k (bat p β) n)).val = (S3x32x2x512.rowMajor (ix4 k p β n)).val
    rw [Shape.rowMajor_val_three, Shape.rowMajor_val_four]
    show (k.val * 64 + (2 * p.val + β.val)) * 512 + n.val = ((k.val * 32 + p.val) * 2 + β.val) * 512 + n.val
    omega
  · have hi : ∀ (k' : Fin 3) (b : Fin S1x64x512.rank), b.cast (rfl : S1x64x512.rank = S3x64x512.rank) ≠ (0 : Fin S3x64x512.rank) →
        ((ix3 (0 : Fin 1) (bat p β) n : S1x64x512.Idx) b).val = ((ix3 k' (bat p β) n : S3x64x512.Idx) (b.cast rfl)).val := by
      intro k' b hb
      match b with
      | ⟨0, _⟩ => exact absurd rfl hb
      | ⟨1, _⟩ => rfl
      | ⟨2, _⟩ => rfl
    match k with
    | ⟨0, _⟩ =>
      refine (concatenate_apply_piece (0 : Fin S3x64x512.rank) _ _ _ 0 (by show (0 : ℕ) < 3; omega) S1x64x512 _ rfl rfl 0 rfl
        (ix3 (0 : Fin 1) (bat p β) n) (hi _) rfl).trans ?_
      exact bcast_term_apply _ _ _
    | ⟨1, _⟩ =>
      refine (concatenate_apply_piece (0 : Fin S3x64x512.rank) _ _ _ 1 (by show (1 : ℕ) < 3; omega) S1x64x512 _ rfl rfl 1 rfl
        (ix3 (0 : Fin 1) (bat p β) n) (hi _) rfl).trans ?_
      exact bcast_term_apply _ _ _
    | ⟨2, _⟩ =>
      refine (concatenate_apply_piece (0 : Fin S3x64x512.rank) _ _ _ 2 (by show (2 : ℕ) < 3; omega) S1x64x512 _ rfl rfl 2 rfl
        (ix3 (0 : Fin 1) (bat p β) n) (hi _) rfl).trans ?_
      exact bcast_term_apply _ _ _

theorem host1_v18 (L : Fin 2) (b : Fin 64) (n : Fin 512) (u : Fin 64) :
    after (hostOps1 (F := Ideal)) V main_v18 (ix4 L b n u) = V main_arg1 (ix3 L b (nu n u)) := by
  dsimp only [hostOps1]
  after_results
  refine shapeCast_apply _ _ _ (ix3 L b (nu n u)) ?_
  show (S2x64x32768.rowMajor (ix3 L b (nu n u))).val = (S2x64x512x64.rowMajor (ix4 L b n u)).val
  rw [Shape.rowMajor_val_three, Shape.rowMajor_val_four]
  show (L.val * 64 + b.val) * 32768 + (n.val * 64 + u.val) = ((L.val * 64 + b.val) * 512 + n.val) * 64 + u.val
  omega
theorem host1_v19 : after (hostOps1 (F := Ideal)) V main_v19 (ix2 (0 : Fin 1) (0 : Fin 1)) = V main_arg12 (ix1 (0 : Fin 1)) := by
  dsimp only [hostOps1]
  after_results
  refine shapeCast_apply _ _ _ (ix1 (0 : Fin 1)) ?_
  show (S1.rowMajor (ix1 (0 : Fin 1))).val = (S1x1.rowMajor (ix2 (0 : Fin 1) (0 : Fin 1))).val
  rw [Shape.rowMajor_val_one, Shape.rowMajor_val_two]
  rfl

theorem host2_v21 (b : Fin 64) (n : Fin 512) :
    after (hostOps2 (F := Ideal)) V main_v21 (ix2 b n) = V main_v20_0 (ix3 (pairOf b) (slotOf b) n) := by
  dsimp only [hostOps2]
  after_results
  refine shapeCast_apply _ _ _ (ix3 (pairOf b) (slotOf b) n) ?_
  show (S32x2x512.rowMajor (ix3 (pairOf b) (slotOf b) n)).val = (S64x512.rowMajor (ix2 b n)).val
  rw [Shape.rowMajor_val_three, Shape.rowMajor_val_two]
  show (b.val / 2 * 2 + b.val % 2) * 512 + n.val = b.val * 512 + n.val
  omega
theorem host2_v22 (L : Fin 2) (b : Fin 64) (q : Fin 32768) :
    after (hostOps2 (F := Ideal)) V main_v22 (ix3 L b q) = V main_v20_1 (ix4 L b (nodeOf q) (unitOf q)) := by
  dsimp only [hostOps2]
  after_results
  refine shapeCast_apply _ _ _ (ix4 L b (nodeOf q) (unitOf q)) ?_
  show (S2x64x512x64.rowMajor (ix4 L b (nodeOf q) (unitOf q))).val = (S2x64x32768.rowMajor (ix3 L b q)).val
  rw [Shape.rowMajor_val_four, Shape.rowMajor_val_three]
  show ((L.val * 64 + b.val) * 512 + q.val / 64) * 64 + q.val % 64 = (L.val * 64 + b.val) * 32768 + q.val
  omega

end Cert.KernelIdeal.Hand

end
-- ==== Proof.KI.Val0Math.lean ====
import proofs.«105208_g19069654794669_cont_sun_m_30_30_alg».proof.Proof.Spec
import proofs.«105208_g19069654794669_cont_sun_m_30_30_alg».proof.Proof.KI.Frame0
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Spec

theorem sup_zeros2 : (![0, 0] : Fin 2 → Nat) = fun _ => 0 := funext fun a => by fin_cases a <;> rfl

theorem left0_11_eq (x0 : Vec Ideal S512x512 .f32) : left0_11 (F := Ideal) x0 = k0_pay1 x0 := by
  unfold left0_11
  rw [View.ld_unit_zero (S := S512x512) sup_zeros2 inb_S512x512_S512x512_0_0 x0]
  exact View.canon_unit_zero (S := S512x512) sup_zeros2 inb_S512x512_S512x512_0_0 _

def supSym (v0 : Vec Ideal S512x512 .f32) : FVec Ideal S512x512 .f32 :=
  maximumf v0 (transpose S512x512 [1, 0] v0 transposes_S512x512_p1_0_S512x512)

theorem supSym_apply (v0 : Vec Ideal S512x512 .f32) (i j : Fin 512) : supSym v0 (ix2 i j) = sym (cur2 v0) i j := by
  show max (v0 (ix2 i j)) (transpose S512x512 [1, 0] v0 transposes_S512x512_p1_0_S512x512 (ix2 i j)) = max (v0 (ix2 i j)) (v0 (ix2 j i))
  exact congrArg (max (v0 (ix2 i j))) (transpose_apply [1, 0] v0 transposes_S512x512_p1_0_S512x512 (ix2 i j) (ix2 j i)
    (fun b => match b with | ⟨0, _⟩ => rfl | ⟨1, _⟩ => rfl))

theorem supRowSum_apply (V : FVec Ideal S512x512 .f32) (hφ : FKind.Formats .f32) (hacc : (0x00000000#32 : BitVec 32) = FKind.add.neutral .f32 hφ)
    (i : Fin 512) :
    multiReduction (F := Ideal) .add [1] S512 V 0x00000000#32 reduces_S512x512_S512 hφ hacc (ix1 i) = ∑ k : Fin 512, V (ix2 i k) :=
  (Ideal.multiReduction_add_single V _ reduces_S512x512_S512 hφ hacc (ix1 i)).trans
    (Finset.sum_congr rfl fun k _ => congrArg V (funext fun c => Fin.ext (match c with | ⟨0, _⟩ => rfl | ⟨1, _⟩ => rfl)))

theorem supColSum_apply (V : FVec Ideal S512x512 .f32) (hφ : FKind.Formats .f32) (hacc : (0x00000000#32 : BitVec 32) = FKind.add.neutral .f32 hφ)
    (j : Fin 512) :
    multiReduction (F := Ideal) .add [0] S512 V 0x00000000#32 reduces_S512x512_S512_2 hφ hacc (ix1 j) = ∑ k : Fin 512, V (ix2 k j) :=
  (Ideal.multiReduction_add_single V _ reduces_S512x512_S512_2 hφ hacc (ix1 j)).trans
    (Finset.sum_congr rfl fun k _ => congrArg V (funext fun c => Fin.ext (match c with | ⟨0, _⟩ => rfl | ⟨1, _⟩ => rfl)))

theorem supToCol_apply (w : FVec Ideal S512 .f32) (i : Fin 512) (z : Fin 1) :
    shapeCast S512x1 w shapeCasts_S512_S512x1 (ix2 i z) = w (ix1 i) :=
  shapeCast_apply w shapeCasts_S512_S512x1 (ix2 i z) (ix1 i) (by
    rw [Shape.rowMajor_val_one, Shape.rowMajor_val_two]
    have hz : z.val = 0 := by omega
    show i.val = i.val * 1 + z.val
    omega)

theorem supToRow_apply (w : FVec Ideal S512 .f32) (z : Fin 1) (j : Fin 512) :
    shapeCast S1x512 w shapeCasts_S512_S1x512 (ix2 z j) = w (ix1 j) :=
  shapeCast_apply w shapeCasts_S512_S1x512 (ix2 z j) (ix1 j) (by
    rw [Shape.rowMajor_val_one, Shape.rowMajor_val_two]
    have hz : z.val = 0 := by omega
    show j.val = z.val * 512 + j.val
    omega)

theorem supColBcast_apply (w : FVec Ideal S512x1 .f32) (i j : Fin 512) :
    broadcastTo S512x512 w broadcasts_S512x1_S512x512 (ix2 i j) = w (ix2 i 0) :=
  broadcastTo_apply w broadcasts_S512x1_S512x512 (ix2 i j) (ix2 i 0) (fun a => match a with | ⟨0, _⟩ => rfl | ⟨1, _⟩ => rfl)

theorem supRowBcast_apply (w : FVec Ideal S1x512 .f32) (i j : Fin 512) :
    broadcastTo S512x512 w broadcasts_S1x512_S512x512 (ix2 i j) = w (ix2 0 j) :=
  broadcastTo_apply w broadcasts_S1x512_S512x512 (ix2 i j) (ix2 0 j) (fun a => match a with | ⟨0, _⟩ => rfl | ⟨1, _⟩ => rfl)

def supInv {s : Shape} (d : FVec Ideal s .f32) : FVec Ideal s .f32 :=
  select (cmpf .ogt d (broadcast s (Scalar.ofBits .f32 0x00000000#32)))
    (divf (broadcast s (Scalar.ofBits .f32 0x3F800000#32)) (sqrt d)) (broadcast s (Scalar.ofBits .f32 0x00000000#32))

theorem supInv_apply {s : Shape} (d : FVec Ideal s .f32) (y : s.Idx) : supInv d y = invs (d y) := rfl

def supRow (v0 : Vec Ideal S512x512 .f32) : FVec Ideal S512x1 .f32 :=
  shapeCast S512x1 (multiReduction .add [1] S512 (supSym v0) 0x00000000#32 reduces_S512x512_S512 (.inl rfl) rfl) shapeCasts_S512_S512x1
def supCol (v0 : Vec Ideal S512x512 .f32) : FVec Ideal S1x512 .f32 :=
  shapeCast S1x512 (multiReduction .add [0] S512 (supSym v0) 0x00000000#32 reduces_S512x512_S512_2 (.inl rfl) rfl) shapeCasts_S512_S1x512

theorem supRow_apply (v0 : Vec Ideal S512x512 .f32) (i : Fin 512) : supRow v0 (ix2 i 0) = ∑ j' : Fin 512, sym (cur2 v0) i j' :=
  (supToCol_apply _ i 0).trans ((supRowSum_apply (supSym v0) _ _ i).trans (Finset.sum_congr rfl fun k _ => supSym_apply v0 i k))

theorem supCol_apply (v0 : Vec Ideal S512x512 .f32) (j : Fin 512) : supCol v0 (ix2 0 j) = ∑ i' : Fin 512, sym (cur2 v0) i' j :=
  (supToRow_apply _ 0 j).trans ((supColSum_apply (supSym v0) _ _ j).trans (Finset.sum_congr rfl fun k _ => supSym_apply v0 k j))

theorem pay1_eq (v0 : Vec Ideal S512x512 .f32) :
    k0_pay1 (F := Ideal) v0 =
      mulf (subf (broadcast S512x512 (Scalar.ofBits .f32 0x00000000#32))
          (mulf (broadcastTo S512x512 (supInv (supRow v0)) broadcasts_S512x1_S512x512) (supSym v0)))
        (broadcastTo S512x512 (supInv (supCol v0)) broadcasts_S1x512_S512x512) := rfl

theorem pay1_apply (v0 : Vec Ideal S512x512 .f32) (i j : Fin 512) : k0_pay1 (F := Ideal) v0 (ix2 i j) = supK (cur2 v0) i j := by
  rw [pay1_eq]
  show (c0 - broadcastTo S512x512 (supInv (supRow v0)) broadcasts_S512x1_S512x512 (ix2 i j) * supSym v0 (ix2 i j))
      * broadcastTo S512x512 (supInv (supCol v0)) broadcasts_S1x512_S512x512 (ix2 i j) = _
  rw [supColBcast_apply, supRowBcast_apply, supInv_apply, supInv_apply, supRow_apply, supCol_apply, supSym_apply]
  rfl

theorem sup_val (x0 : Vec Ideal S512x512 .f32) (i j : Fin 512) : left0_11 (F := Ideal) x0 (ix2 i j) = supK (cur2 x0) i j := by
  rw [left0_11_eq]; exact pay1_apply x0 i j

abbrev supDot := dot_S64x512_S512x512_S64x512_1_0_0_1_n_n

def supContr : supDot.contr.Idx ≃ Fin 512 := contrEquiv1 supDot 512 rfl rfl

theorem supDot_lhs (b : Fin 64) (n : Fin 512) (q : Fin 512) : supDot.lhsIdx (ix2 b n) (supContr.symm q) = ix2 b q := by
  funext c
  refine Fin.ext ?_
  match c with
  | ⟨0, _⟩ => rfl
  | ⟨1, _⟩ =>
    refine (DotDims.lhsIdx_val_of_single supDot (cl := 1) rfl (ix2 b n) (supContr.symm q)).trans ?_
    exact contrEquiv1_symm_val supDot 512 rfl rfl q

theorem supDot_rhs (b : Fin 64) (n : Fin 512) (q : Fin 512) : supDot.rhsIdx (ix2 b n) (supContr.symm q) = ix2 q n := by
  funext c
  refine Fin.ext ?_
  match c with
  | ⟨0, _⟩ =>
    refine (DotDims.rhsIdx_val_of_single supDot (cr := 0) rfl (ix2 b n) (supContr.symm q)).trans ?_
    exact contrEquiv1_symm_val supDot 512 rfl rfl q
  | ⟨1, _⟩ => rfl

theorem supMm_apply (L : FVec Ideal S64x512 .f32) (R : FVec Ideal S512x512 .f32) (b : Fin 64) (n : Fin 512) :
    matmul supDot none L R (constant S64x512 .f32 0x00000000#32) (ix2 b n) = ∑ q : Fin 512, L (ix2 b q) * R (ix2 q n) := by
  refine (Ideal.matmul_constant_zero_apply supDot none L R (ix2 b n)).trans ?_
  refine (Equiv.sum_comp supContr.symm _).symm.trans ?_
  exact Finset.sum_congr rfl fun q _ => by rw [supDot_lhs, supDot_rhs]

theorem left0_12_eq (x0 : Vec Ideal S512x512 .f32) (x1 : Vec Ideal S64x512 .f32) : left0_12 (F := Ideal) x0 x1 = k0_pay2 x0 x1 := by
  unfold left0_12
  rw [View.ld_unit_zero (S := S512x512) sup_zeros2 inb_S512x512_S512x512_0_0 x0,
    View.ld_unit_zero (S := S64x512) sup_zeros2 inb_S64x512_S64x512_0_0 x1]
  exact View.canon_unit_zero (S := S64x512) sup_zeros2 inb_S64x512_S64x512_0_0 _

theorem left0_13_eq (x0 : Vec Ideal S512x512 .f32) (x1 : Vec Ideal S64x512 .f32) : left0_13 (F := Ideal) x0 x1 = k0_pay3 x0 x1 := by
  unfold left0_13
  rw [View.ld_unit_zero (S := S512x512) sup_zeros2 inb_S512x512_S512x512_0_0 x0,
    View.ld_unit_zero (S := S64x512) sup_zeros2 inb_S64x512_S64x512_0_0 x1]
  exact View.canon_unit_zero (S := S64x512) sup_zeros2 inb_S64x512_S64x512_0_0 _

theorem pay2_apply (v0 : Vec Ideal S512x512 .f32) (v28 : Vec Ideal S64x512 .f32) (b : Fin 64) (n : Fin 512) :
    k0_pay2 (F := Ideal) v0 v28 (ix2 b n) = a1K (cur2 v28) (cur2 v0) b n := by
  show matmul supDot none v28 (k0_pay1 v0) (constant S64x512 .f32 0x00000000#32) (ix2 b n) = _
  refine (supMm_apply v28 (k0_pay1 v0) b n).trans ?_
  exact Finset.sum_congr rfl fun q _ => congrArg (v28 (ix2 b q) * ·) (pay1_apply v0 q n)

theorem pay3_apply (v0 : Vec Ideal S512x512 .f32) (v28 : Vec Ideal S64x512 .f32) (b : Fin 64) (n : Fin 512) :
    k0_pay3 (F := Ideal) v0 v28 (ix2 b n) = a2K (cur2 v28) (cur2 v0) b n := by
  show c2 * matmul supDot none (k0_pay2 v0 v28) (k0_pay1 v0) (constant S64x512 .f32 0x00000000#32) (ix2 b n) - v28 (ix2 b n) = _
  rw [supMm_apply (k0_pay2 v0 v28) (k0_pay1 v0) b n]
  refine congrArg (fun s => c2 * s - v28 (ix2 b n)) ?_
  exact Finset.sum_congr rfl fun q _ => by rw [pay2_apply, pay1_apply]

theorem a1_val (x0 : Vec Ideal S512x512 .f32) (x1 : Vec Ideal S64x512 .f32) (b : Fin 64) (n : Fin 512) :
    left0_12 (F := Ideal) x0 x1 (ix2 b n) = a1K (cur2 x1) (cur2 x0) b n := by
  rw [left0_12_eq]; exact pay2_apply x0 x1 b n

theorem a2_val (x0 : Vec Ideal S512x512 .f32) (x1 : Vec Ideal S64x512 .f32) (b : Fin 64) (n : Fin 512) :
    left0_13 (F := Ideal) x0 x1 (ix2 b n) = a2K (cur2 x1) (cur2 x0) b n := by
  rw [left0_13_eq]; exact pay3_apply x0 x1 b n

end Cert.KernelIdeal.Hand

end
-- ==== Proof.KI.Val0W0.lean ====
import proofs.«105208_g19069654794669_cont_sun_m_30_30_alg».proof.Proof.Spec
import proofs.«105208_g19069654794669_cont_sun_m_30_30_alg».proof.Proof.KI.Frame0
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Spec

private theorem canon_cons_unit {Val : EltTy → Type} [∀ e, Nonempty (Val e)] {S : Shape} {e : EltTy}
    (off size : Fin S.rank → ℕ) (inb : ∀ a, off a + size a ≤ S.size a)
    (w : (Rect.unit off size inb).shape.Idx → Val e) (L : List (View.Piece Val S e)) (y : S.Idx) :
    View.canon ((⟨Rect.unit off size inb, w⟩ : View.Piece Val S e) :: L) y =
      if h : ∀ a, off a ≤ (y a : ℕ) ∧ (y a : ℕ) < off a + size a then
        w (fun a => ⟨(y a : ℕ) - off a, by have := h a; show (y a : ℕ) - off a < size a; omega⟩)
      else View.canon L y := by
  split_ifs with h
  · have e : (Rect.unit off size inb).emb (fun a => ⟨(y a : ℕ) - off a, by have := h a; show (y a : ℕ) - off a < size a; omega⟩) = y := by
      funext a; apply Fin.ext; have := h a; simp only [Rect.emb_apply, Rect.off_unit, Rect.stride_unit]; omega
    conv_lhs => rw [← e]
    exact View.canon_cons_emb _ w L _
  · exact View.canon_cons_of_not_mem _ L (by rw [Rect.mem_set_unit]; exact h)

private theorem canon_cons_unit2 {Val : EltTy → Type} [∀ e, Nonempty (Val e)] {n0 n1 : ℕ} {e : EltTy} (o0 o1 s0 s1 : ℕ)
    (inb : ∀ a, (![o0, o1] : Fin 2 → ℕ) a + (![s0, s1] : Fin 2 → ℕ) a ≤ (⟨2, ![n0, n1]⟩ : Shape).size a)
    (w : (⟨2, ![s0, s1]⟩ : Shape).Idx → Val e) (L : List (View.Piece Val ⟨2, ![n0, n1]⟩ e)) (a : Fin n0) (b : Fin n1) :
    View.canon ((⟨Rect.unit (s := ⟨2, ![n0, n1]⟩) ![o0, o1] ![s0, s1] inb, w⟩ : View.Piece Val ⟨2, ![n0, n1]⟩ e) :: L) (ix2 a b) =
      if h : (o0 ≤ a.val ∧ a.val < o0 + s0) ∧ (o1 ≤ b.val ∧ b.val < o1 + s1) then
        w (ix2 ⟨a.val - o0, by omega⟩ ⟨b.val - o1, by omega⟩)
      else View.canon L (ix2 a b) := by
  rw [canon_cons_unit]
  split_ifs with h h' h'
  · congr 1; funext d; match d with | ⟨0, _⟩ => rfl | ⟨1, _⟩ => rfl
  · exact absurd ⟨h 0, h 1⟩ h'
  · exact absurd (fun d => match d with | ⟨0, _⟩ => h'.1 | ⟨1, _⟩ => h'.2) h
  · rfl

private theorem canon_cons_unit3 {Val : EltTy → Type} [∀ e, Nonempty (Val e)] {n0 n1 n2 : ℕ} {e : EltTy} (o0 o1 o2 s0 s1 s2 : ℕ)
    (inb : ∀ a, (![o0, o1, o2] : Fin 3 → ℕ) a + (![s0, s1, s2] : Fin 3 → ℕ) a ≤ (⟨3, ![n0, n1, n2]⟩ : Shape).size a)
    (w : (⟨3, ![s0, s1, s2]⟩ : Shape).Idx → Val e) (L : List (View.Piece Val ⟨3, ![n0, n1, n2]⟩ e)) (a : Fin n0) (b : Fin n1) (c : Fin n2) :
    View.canon ((⟨Rect.unit (s := ⟨3, ![n0, n1, n2]⟩) ![o0, o1, o2] ![s0, s1, s2] inb, w⟩ : View.Piece Val ⟨3, ![n0, n1, n2]⟩ e) :: L) (ix3 a b c) =
      if h : (o0 ≤ a.val ∧ a.val < o0 + s0) ∧ (o1 ≤ b.val ∧ b.val < o1 + s1) ∧ (o2 ≤ c.val ∧ c.val < o2 + s2) then
        w (ix3 ⟨a.val - o0, by omega⟩ ⟨b.val - o1, by omega⟩ ⟨c.val - o2, by omega⟩)
      else View.canon L (ix3 a b c) := by
  rw [canon_cons_unit]
  split_ifs with h h' h'
  · congr 1; funext d; match d with | ⟨0, _⟩ => rfl | ⟨1, _⟩ => rfl | ⟨2, _⟩ => rfl
  · exact absurd ⟨h 0, h 1, h 2⟩ h'
  · exact absurd (fun d => match d with | ⟨0, _⟩ => h'.1 | ⟨1, _⟩ => h'.2.1 | ⟨2, _⟩ => h'.2.2) h
  · rfl

private theorem castRow {α : Type} (v : S1x1x64.Idx → α) (h1 : S1x1x64.ShapeCasts S64) (h2 : S64.ShapeCasts S1x64) (j : S1x64.Idx) :
    shapeCast S1x64 (shapeCast S64 v h1) h2 j = v (ix3 0 0 (j 1)) := by
  rw [shapeCast_apply (shapeCast S64 v h1) h2 j (ix1 (j 1)) (by
    rw [Shape.rowMajor_val_one, Shape.rowMajor_val_two]; have := (j 0).isLt; simp at this ⊢; omega)]
  exact shapeCast_apply v h1 _ _ (by rw [Shape.rowMajor_val_three, Shape.rowMajor_val_one]; simp)

set_option maxHeartbeats 1600000 in

theorem waRu0_val (x2 : Vec Ideal S3x65x128 .f32) (W : Fin 195 → Fin 128 → R)
    (hW : ∀ (k : Fin 3) (f : Fin 65) (o : Fin 128), x2 (ix3 k f o) = W (fk65 f k) o) (r : Fin 6) (q : Fin 256) :
    left0_14 (F := Ideal) x2 (ix2 r q) = waRu0 W r q := by
  have hW' : ∀ I : S3x65x128.Idx, x2 I = W (fk65 (I 1) (I 0)) (I 2) := fun I => by
    conv_lhs => rw [eq_ix3 I]
    exact hW _ _ _
  have hr := r.isLt
  have hq := q.isLt
  have hqb : (qb q).val = q.val % 128 / 64 := rfl
  unfold left0_14 waRu0
  try simp only [Fin.ext_iff]
  rw [canon_cons_unit2, canon_cons_unit2, canon_cons_unit2, canon_cons_unit2, canon_cons_unit2, canon_cons_unit2, canon_cons_unit2, canon_cons_unit2, canon_cons_unit2, canon_cons_unit2, canon_cons_unit2, canon_cons_unit2, canon_cons_unit2]
  rcases (by omega : r.val = 0 ∨ r.val = 1 ∨ r.val = 2 ∨ r.val = 3 ∨ r.val = 4 ∨ r.val = 5) with hr0 | hr0 | hr0 | hr0 | hr0 | hr0 <;>
  rcases (by omega : q.val < 64 ∨ (64 ≤ q.val ∧ q.val < 128) ∨ (128 ≤ q.val ∧ q.val < 192) ∨ 192 ≤ q.val) with hq0 | hq0 | hq0 | hq0 <;>
  (repeat (first | rw [dif_pos (by omega)] | rw [dif_neg (by omega)] | rw [if_pos (by omega)] | rw [if_neg (by omega)])
   first
     | (simp only [k0_pay12, k0_pay13, k0_pay14, k0_pay15, k0_pay16, k0_pay46, k0_pay47, k0_pay48, k0_pay49, k0_pay50, k0_pay80, k0_pay81, k0_pay82, k0_pay83, castRow]
        dsimp only [View.ld]
        rw [hW']
        congr 1 <;> (apply Fin.ext; simp [fk65, go, qg, qo]; omega))
     | rfl)

set_option maxHeartbeats 1600000 in

theorem whRu0_val (x2 : Vec Ideal S3x65x128 .f32) (W : Fin 195 → Fin 128 → R)
    (hW : ∀ (k : Fin 3) (f : Fin 65) (o : Fin 128), x2 (ix3 k f o) = W (fk65 f k) o) (k : Fin 3) (l : Fin 128) (q : Fin 256) :
    left0_15 (F := Ideal) x2 (ix3 k l q) = whRu0 W k l q := by
  have hW' : ∀ I : S3x65x128.Idx, x2 I = W (fk65 (I 1) (I 0)) (I 2) := fun I => by
    conv_lhs => rw [eq_ix3 I]
    exact hW _ _ _
  have hk := k.isLt
  have hl := l.isLt
  have hq := q.isLt
  have hhi : (hi l).val = l.val / 64 := rfl
  have hqb : (qb q).val = q.val % 128 / 64 := rfl
  have hiq : hi l = qb q ↔ (hi l).val = (qb q).val := Fin.ext_iff
  unfold left0_15 whRu0
  try simp only [Fin.ext_iff]
  rw [canon_cons_unit3, canon_cons_unit3, canon_cons_unit3, canon_cons_unit3, canon_cons_unit3, canon_cons_unit3, canon_cons_unit3, canon_cons_unit3, canon_cons_unit3, canon_cons_unit3, canon_cons_unit3, canon_cons_unit3, canon_cons_unit3]
  rcases (by omega : k.val = 0 ∨ k.val = 1 ∨ k.val = 2) with hk0 | hk0 | hk0 <;>
  rcases (by omega : l.val < 64 ∨ 64 ≤ l.val) with hl0 | hl0 <;>
  rcases (by omega : q.val < 64 ∨ (64 ≤ q.val ∧ q.val < 128) ∨ (128 ≤ q.val ∧ q.val < 192) ∨ 192 ≤ q.val) with hq0 | hq0 | hq0 | hq0 <;>
  (repeat (first | rw [dif_pos (by omega)] | rw [dif_neg (by omega)] | rw [if_pos (by omega)] | rw [if_neg (by omega)])
   first
     | (simp only [k0_pay19, k0_pay20, k0_pay21, k0_pay22, k0_pay23, k0_pay24, k0_pay53, k0_pay54, k0_pay55, k0_pay56, k0_pay57, k0_pay58, k0_pay86, k0_pay87, k0_pay88, k0_pay89, k0_pay90, k0_pay91, shapeCast_shapeCast]
        dsimp only [View.ld]
        rw [hW']
        congr 1 <;> (apply Fin.ext; simp [fk65, f1, lo, go, qg, qo]; omega))
     | rfl)

theorem bRu0_val (x6 : Vec Ideal S1x128 .f32) (bias : Fin 128 → R)
    (hb : ∀ o : Fin 128, x6 (ix2 (0 : Fin 1) o) = bias o) (q : Fin 256) :
    left0_16 (F := Ideal) x6 (ix2 (0 : Fin 1) q) = bRu0 bias q := by
  have hW' : ∀ I : S1x128.Idx, x6 I = bias (I 1) := fun I => by
    conv_lhs => rw [eq_ix2 I]
    have h0 : I 0 = (0 : Fin 1) := Fin.ext (by have h : (I 0).val < 1 := (I 0).isLt; show (I 0).val = 0; omega)
    rw [h0]
    exact hb _
  have hq := q.isLt
  unfold left0_16 bRu0
  try simp only [Fin.ext_iff]
  rw [canon_cons_unit2, canon_cons_unit2, canon_cons_unit2, canon_cons_unit2]
  rcases (by omega : q.val < 64 ∨ (64 ≤ q.val ∧ q.val < 128) ∨ (128 ≤ q.val ∧ q.val < 192) ∨ 192 ≤ q.val) with hq0 | hq0 | hq0 | hq0 <;>
  (repeat (first | rw [dif_pos (by omega)] | rw [dif_neg (by omega)] | rw [if_pos (by omega)] | rw [if_neg (by omega)])
   first
     | (simp only [k0_pay113, k0_pay114, k0_pay115, k0_pay116, k0_pay117, shapeCast_shapeCast]
        dsimp only [View.ld]
        rw [hW']
        congr 1; (apply Fin.ext; simp [go, qg, qo]; omega))
     | rfl)

set_option maxHeartbeats 800000 in

theorem waC0_val (x3 : Vec Ideal S3x65x64 .f32) (W : Fin 195 → Fin 64 → R)
    (hW : ∀ (k : Fin 3) (f : Fin 65) (o : Fin 64), x3 (ix3 k f o) = W (fk65 f k) o) (r : Fin 6) (l : Fin 128) :
    left0_17 (F := Ideal) x3 (ix2 r l) = waC0 W r l := by
  have hW' : ∀ I : S3x65x64.Idx, x3 I = W (fk65 (I 1) (I 0)) (I 2) := fun I => by
    conv_lhs => rw [eq_ix3 I]
    exact hW _ _ _
  have hr := r.isLt
  have hl := l.isLt
  have hhi : (hi l).val = l.val / 64 := rfl
  unfold left0_17 waC0
  try simp only [Fin.ext_iff]
  rw [canon_cons_unit2, canon_cons_unit2, canon_cons_unit2, canon_cons_unit2, canon_cons_unit2, canon_cons_unit2, canon_cons_unit2]
  rcases (by omega : r.val = 0 ∨ r.val = 1 ∨ r.val = 2 ∨ r.val = 3 ∨ r.val = 4 ∨ r.val = 5) with hr0 | hr0 | hr0 | hr0 | hr0 | hr0 <;>
  rcases (by omega : l.val < 64 ∨ 64 ≤ l.val) with hl0 | hl0 <;>
  (repeat (first | rw [dif_pos (by omega)] | rw [dif_neg (by omega)] | rw [if_pos (by omega)] | rw [if_neg (by omega)])
   first
     | (simp only [k0_pay17, k0_pay18, k0_pay51, k0_pay52, k0_pay84, k0_pay85, castRow]
        dsimp only [View.ld]
        rw [hW']
        congr 1 <;> (apply Fin.ext; simp [fk65, lo]; omega))
     | rfl)

set_option maxHeartbeats 800000 in

theorem whC0_val (x3 : Vec Ideal S3x65x64 .f32) (W : Fin 195 → Fin 64 → R)
    (hW : ∀ (k : Fin 3) (f : Fin 65) (o : Fin 64), x3 (ix3 k f o) = W (fk65 f k) o) (k : Fin 3) (l l' : Fin 128) :
    left0_18 (F := Ideal) x3 (ix3 k l l') = whC0 W k l l' := by
  have hW' : ∀ I : S3x65x64.Idx, x3 I = W (fk65 (I 1) (I 0)) (I 2) := fun I => by
    conv_lhs => rw [eq_ix3 I]
    exact hW _ _ _
  have hk := k.isLt
  have hl := l.isLt
  have hl' := l'.isLt
  have hhi : (hi l).val = l.val / 64 := rfl
  have hhi' : (hi l').val = l'.val / 64 := rfl
  have hiq : hi l = hi l' ↔ (hi l).val = (hi l').val := Fin.ext_iff
  unfold left0_18 whC0
  try simp only [Fin.ext_iff]
  rw [canon_cons_unit3, canon_cons_unit3, canon_cons_unit3, canon_cons_unit3, canon_cons_unit3, canon_cons_unit3, canon_cons_unit3]
  rcases (by omega : k.val = 0 ∨ k.val = 1 ∨ k.val = 2) with hk0 | hk0 | hk0 <;>
  rcases (by omega : l.val < 64 ∨ 64 ≤ l.val) with hl0 | hl0 <;>
  rcases (by omega : l'.val < 64 ∨ 64 ≤ l'.val) with hm0 | hm0 <;>
  (repeat (first | rw [dif_pos (by omega)] | rw [dif_neg (by omega)] | rw [if_pos (by omega)] | rw [if_neg (by omega)])
   first
     | (simp only [k0_pay25, k0_pay26, k0_pay27, k0_pay59, k0_pay60, k0_pay61, k0_pay92, k0_pay93, k0_pay94, shapeCast_shapeCast]
        dsimp only [View.ld]
        rw [hW']
        congr 1 <;> (apply Fin.ext; simp [fk65, f1, lo]; omega))
     | rfl)

theorem bC0_val (x7 : Vec Ideal S1x64 .f32) (bias : Fin 64 → R)
    (hb : ∀ o : Fin 64, x7 (ix2 (0 : Fin 1) o) = bias o) (l : Fin 128) :
    left0_19 (F := Ideal) x7 (ix2 (0 : Fin 1) l) = bC0 bias l := by
  have hW' : ∀ I : S1x64.Idx, x7 I = bias (I 1) := fun I => by
    conv_lhs => rw [eq_ix2 I]
    have h0 : I 0 = (0 : Fin 1) := Fin.ext (by have h : (I 0).val < 1 := (I 0).isLt; show (I 0).val = 0; omega)
    rw [h0]
    exact hb _
  have hl := l.isLt
  unfold left0_19 bC0
  try simp only [Fin.ext_iff]
  rw [canon_cons_unit2, canon_cons_unit2]
  rcases (by omega : l.val < 64 ∨ 64 ≤ l.val) with hl0 | hl0 <;>
  (repeat (first | rw [dif_pos (by omega)] | rw [dif_neg (by omega)] | rw [if_pos (by omega)] | rw [if_neg (by omega)])
   first
     | (simp only [k0_pay118, k0_pay119, shapeCast_shapeCast]
        dsimp only [View.ld]
        rw [hW']
        congr 1; (apply Fin.ext; simp [lo]; omega))
     | rfl)

end Cert.KernelIdeal.Hand

end
-- ==== Proof.KI.CanonAt.lean ====
import Idealize.ShloMosaic.Lib.ValueIdx
import Idealize.ShloMosaic.Lib.Pipeline.FrameBody

noncomputable section

namespace Cert.KernelIdeal.Hand

open Idealize.ShloMosaic Idealize.ShloMosaic.ValueIdx

section CanonAt
variable {Val : EltTy → Type} [∀ e, Nonempty (Val e)] {S : Shape} {e : EltTy}

theorem canon_cons_unit_hit {off size : Fin S.rank → ℕ} (inb : ∀ a, off a + size a ≤ S.size a)
    (w : (Rect.unit off size inb).shape.Idx → Val e) (L : List (View.Piece Val S e)) (y : S.Idx)
    (x : (Rect.unit off size inb).shape.Idx) (hx : ∀ a, (y a).val = off a + (x a).val) :
    View.canon ((⟨Rect.unit off size inb, w⟩ : View.Piece Val S e) :: L) y = w x := by
  have hy : (Rect.unit off size inb).emb x = y := funext fun a => Fin.ext (by
    show off a + 1 * (x a).val = (y a).val
    rw [hx a, Nat.one_mul])
  exact (congrArg (View.canon ((⟨Rect.unit off size inb, w⟩ : View.Piece Val S e) :: L)) hy.symm).trans
    (View.canon_cons_emb (Rect.unit off size inb) w L x)

theorem canon_cons_unit_miss {off size : Fin S.rank → ℕ} (inb : ∀ a, off a + size a ≤ S.size a)
    (w : (Rect.unit off size inb).shape.Idx → Val e) (L : List (View.Piece Val S e)) (y : S.Idx)
    (a : Fin S.rank) (ha : (y a).val < off a ∨ off a + size a ≤ (y a).val) :
    View.canon ((⟨Rect.unit off size inb, w⟩ : View.Piece Val S e) :: L) y = View.canon L y :=
  View.canon_cons_of_not_mem _ L (by
    show y ∉ (Rect.unit off size inb).set
    rw [Rect.mem_set_unit]
    intro hall
    have := hall a
    omega)

end CanonAt

section Rank2
variable {Val : EltTy → Type} [∀ e, Nonempty (Val e)] {e : EltTy} {n0 n1 o0 o1 z0 z1 : ℕ}

theorem canon2_hit (inb : ∀ a, (![o0, o1] : Fin 2 → ℕ) a + (![z0, z1] : Fin 2 → ℕ) a ≤ (⟨2, ![n0, n1]⟩ : Shape).size a)
    (w : (⟨2, ![z0, z1]⟩ : Shape).Idx → Val e) (L : List (View.Piece Val (⟨2, ![n0, n1]⟩ : Shape) e))
    (i : Fin n0) (j : Fin n1) (i' : Fin z0) (j' : Fin z1) (h0 : i.val = o0 + i'.val) (h1 : j.val = o1 + j'.val) :
    View.canon ((⟨Rect.unit (s := (⟨2, ![n0, n1]⟩ : Shape)) ![o0, o1] ![z0, z1] inb, w⟩ :
      View.Piece Val (⟨2, ![n0, n1]⟩ : Shape) e) :: L) (ix2 i j) = w (ix2 i' j') :=
  canon_cons_unit_hit inb w L (ix2 i j) (ix2 i' j') fun a => match a with
    | ⟨0, _⟩ => h0
    | ⟨1, _⟩ => h1

theorem canon2_miss1 (inb : ∀ a, (![o0, o1] : Fin 2 → ℕ) a + (![z0, z1] : Fin 2 → ℕ) a ≤ (⟨2, ![n0, n1]⟩ : Shape).size a)
    (w : (⟨2, ![z0, z1]⟩ : Shape).Idx → Val e) (L : List (View.Piece Val (⟨2, ![n0, n1]⟩ : Shape) e))
    (i : Fin n0) (j : Fin n1) (h : j.val < o1 ∨ o1 + z1 ≤ j.val) :
    View.canon ((⟨Rect.unit (s := (⟨2, ![n0, n1]⟩ : Shape)) ![o0, o1] ![z0, z1] inb, w⟩ :
      View.Piece Val (⟨2, ![n0, n1]⟩ : Shape) e) :: L) (ix2 i j) = View.canon L (ix2 i j) :=
  canon_cons_unit_miss inb w L (ix2 i j) (1 : Fin 2) h

theorem ld2_apply (inb : ∀ a, (![o0, o1] : Fin 2 → ℕ) a + (![z0, z1] : Fin 2 → ℕ) a ≤ (⟨2, ![n0, n1]⟩ : Shape).size a)
    (X : (⟨2, ![n0, n1]⟩ : Shape).Idx → Val e) (i' : Fin z0) (j' : Fin z1) (i : Fin n0) (j : Fin n1)
    (h0 : i.val = o0 + i'.val) (h1 : j.val = o1 + j'.val) :
    View.ld X (Rect.unit (s := (⟨2, ![n0, n1]⟩ : Shape)) ![o0, o1] ![z0, z1] inb) (ix2 i' j') = X (ix2 i j) :=
  congrArg X (funext fun a => Fin.ext (match a with
    | ⟨0, _⟩ => (show o0 + 1 * i'.val = i.val by omega)
    | ⟨1, _⟩ => (show o1 + 1 * j'.val = j.val by omega)))

end Rank2

section Rank3
variable {Val : EltTy → Type} [∀ e, Nonempty (Val e)] {e : EltTy} {n0 n1 n2 o0 o1 o2 z0 z1 z2 : ℕ}

theorem canon3_hit
    (inb : ∀ a, (![o0, o1, o2] : Fin 3 → ℕ) a + (![z0, z1, z2] : Fin 3 → ℕ) a ≤ (⟨3, ![n0, n1, n2]⟩ : Shape).size a)
    (w : (⟨3, ![z0, z1, z2]⟩ : Shape).Idx → Val e) (L : List (View.Piece Val (⟨3, ![n0, n1, n2]⟩ : Shape) e))
    (i : Fin n0) (j : Fin n1) (k : Fin n2) (i' : Fin z0) (j' : Fin z1) (k' : Fin z2)
    (h0 : i.val = o0 + i'.val) (h1 : j.val = o1 + j'.val) (h2 : k.val = o2 + k'.val) :
    View.canon ((⟨Rect.unit (s := (⟨3, ![n0, n1, n2]⟩ : Shape)) ![o0, o1, o2] ![z0, z1, z2] inb, w⟩ :
      View.Piece Val (⟨3, ![n0, n1, n2]⟩ : Shape) e) :: L) (ix3 i j k) = w (ix3 i' j' k') :=
  canon_cons_unit_hit inb w L (ix3 i j k) (ix3 i' j' k') fun a => match a with
    | ⟨0, _⟩ => h0
    | ⟨1, _⟩ => h1
    | ⟨2, _⟩ => h2

theorem canon3_miss0
    (inb : ∀ a, (![o0, o1, o2] : Fin 3 → ℕ) a + (![z0, z1, z2] : Fin 3 → ℕ) a ≤ (⟨3, ![n0, n1, n2]⟩ : Shape).size a)
    (w : (⟨3, ![z0, z1, z2]⟩ : Shape).Idx → Val e) (L : List (View.Piece Val (⟨3, ![n0, n1, n2]⟩ : Shape) e))
    (i : Fin n0) (j : Fin n1) (k : Fin n2) (h : i.val < o0 ∨ o0 + z0 ≤ i.val) :
    View.canon ((⟨Rect.unit (s := (⟨3, ![n0, n1, n2]⟩ : Shape)) ![o0, o1, o2] ![z0, z1, z2] inb, w⟩ :
      View.Piece Val (⟨3, ![n0, n1, n2]⟩ : Shape) e) :: L) (ix3 i j k) = View.canon L (ix3 i j k) :=
  canon_cons_unit_miss inb w L (ix3 i j k) (0 : Fin 3) h

theorem canon3_miss1
    (inb : ∀ a, (![o0, o1, o2] : Fin 3 → ℕ) a + (![z0, z1, z2] : Fin 3 → ℕ) a ≤ (⟨3, ![n0, n1, n2]⟩ : Shape).size a)
    (w : (⟨3, ![z0, z1, z2]⟩ : Shape).Idx → Val e) (L : List (View.Piece Val (⟨3, ![n0, n1, n2]⟩ : Shape) e))
    (i : Fin n0) (j : Fin n1) (k : Fin n2) (h : j.val < o1 ∨ o1 + z1 ≤ j.val) :
    View.canon ((⟨Rect.unit (s := (⟨3, ![n0, n1, n2]⟩ : Shape)) ![o0, o1, o2] ![z0, z1, z2] inb, w⟩ :
      View.Piece Val (⟨3, ![n0, n1, n2]⟩ : Shape) e) :: L) (ix3 i j k) = View.canon L (ix3 i j k) :=
  canon_cons_unit_miss inb w L (ix3 i j k) (1 : Fin 3) h

theorem canon3_miss2
    (inb : ∀ a, (![o0, o1, o2] : Fin 3 → ℕ) a + (![z0, z1, z2] : Fin 3 → ℕ) a ≤ (⟨3, ![n0, n1, n2]⟩ : Shape).size a)
    (w : (⟨3, ![z0, z1, z2]⟩ : Shape).Idx → Val e) (L : List (View.Piece Val (⟨3, ![n0, n1, n2]⟩ : Shape) e))
    (i : Fin n0) (j : Fin n1) (k : Fin n2) (h : k.val < o2 ∨ o2 + z2 ≤ k.val) :
    View.canon ((⟨Rect.unit (s := (⟨3, ![n0, n1, n2]⟩ : Shape)) ![o0, o1, o2] ![z0, z1, z2] inb, w⟩ :
      View.Piece Val (⟨3, ![n0, n1, n2]⟩ : Shape) e) :: L) (ix3 i j k) = View.canon L (ix3 i j k) :=
  canon_cons_unit_miss inb w L (ix3 i j k) (2 : Fin 3) h

theorem ld3_apply
    (inb : ∀ a, (![o0, o1, o2] : Fin 3 → ℕ) a + (![z0, z1, z2] : Fin 3 → ℕ) a ≤ (⟨3, ![n0, n1, n2]⟩ : Shape).size a)
    (X : (⟨3, ![n0, n1, n2]⟩ : Shape).Idx → Val e) (i' : Fin z0) (j' : Fin z1) (k' : Fin z2)
    (i : Fin n0) (j : Fin n1) (k : Fin n2)
    (h0 : i.val = o0 + i'.val) (h1 : j.val = o1 + j'.val) (h2 : k.val = o2 + k'.val) :
    View.ld X (Rect.unit (s := (⟨3, ![n0, n1, n2]⟩ : Shape)) ![o0, o1, o2] ![z0, z1, z2] inb) (ix3 i' j' k') = X (ix3 i j k) :=
  congrArg X (funext fun a => Fin.ext (match a with
    | ⟨0, _⟩ => (show o0 + 1 * i'.val = i.val by omega)
    | ⟨1, _⟩ => (show o1 + 1 * j'.val = j.val by omega)
    | ⟨2, _⟩ => (show o2 + 1 * k'.val = k.val by omega)))

end Rank3

theorem zero_off2 : (![0, 0] : Fin 2 → Nat) = fun _ => 0 := funext fun a => by
  match a with
  | ⟨0, _⟩ => rfl
  | ⟨1, _⟩ => rfl

theorem zero_off3 : (![0, 0, 0] : Fin 3 → Nat) = fun _ => 0 := funext fun a => by
  match a with
  | ⟨0, _⟩ => rfl
  | ⟨1, _⟩ => rfl
  | ⟨2, _⟩ => rfl

end Cert.KernelIdeal.Hand

end
-- ==== Proof.KI.Val0W1.lean ====
import proofs.«105208_g19069654794669_cont_sun_m_30_30_alg».proof.Proof.Spec
import proofs.«105208_g19069654794669_cont_sun_m_30_30_alg».proof.Proof.KI.Frame0
import proofs.«105208_g19069654794669_cont_sun_m_30_30_alg».proof.Proof.KI.CanonAt
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Spec

section Quad
variable {κ : ℕ}
  (i1 : ∀ a, (![κ, 64, 192] : Fin 3 → ℕ) a + S1x64x64.size a ≤ S3x128x256.size a)
  (i2 : ∀ a, (![κ, 64, 64] : Fin 3 → ℕ) a + S1x64x64.size a ≤ S3x128x256.size a)
  (i3 : ∀ a, (![κ, 0, 128] : Fin 3 → ℕ) a + S1x64x64.size a ≤ S3x128x256.size a)
  (i4 : ∀ a, (![κ, 0, 0] : Fin 3 → ℕ) a + S1x64x64.size a ≤ S3x128x256.size a)
  (w1 w2 w3 w4 : Vec Ideal S1x64x64 .f32) (L : List (View.Piece (Elt Ideal) S3x128x256 .f32))

theorem canon_quad_other (k : Fin 3) (l : Fin 128) (q : Fin 256) (hk : k.val ≠ κ) :
    View.canon ((⟨Rect.unit (s := S3x128x256) ![κ, 64, 192] S1x64x64.size i1, w1⟩ : View.Piece (Elt Ideal) S3x128x256 .f32)
      :: ⟨Rect.unit (s := S3x128x256) ![κ, 64, 64] S1x64x64.size i2, w2⟩
      :: ⟨Rect.unit (s := S3x128x256) ![κ, 0, 128] S1x64x64.size i3, w3⟩
      :: ⟨Rect.unit (s := S3x128x256) ![κ, 0, 0] S1x64x64.size i4, w4⟩ :: L) (ix3 k l q) = View.canon L (ix3 k l q) :=
  (canon3_miss0 i1 w1 _ k l q (by omega)).trans <| (canon3_miss0 i2 w2 _ k l q (by omega)).trans <|
    (canon3_miss0 i3 w3 _ k l q (by omega)).trans (canon3_miss0 i4 w4 L k l q (by omega))

end Quad

section QuadSame
variable {κ : ℕ}
  (i1 : ∀ a, (![κ, 64, 192] : Fin 3 → ℕ) a + S1x64x64.size a ≤ S3x128x256.size a)
  (i2 : ∀ a, (![κ, 64, 64] : Fin 3 → ℕ) a + S1x64x64.size a ≤ S3x128x256.size a)
  (i3 : ∀ a, (![κ, 0, 128] : Fin 3 → ℕ) a + S1x64x64.size a ≤ S3x128x256.size a)
  (i4 : ∀ a, (![κ, 0, 0] : Fin 3 → ℕ) a + S1x64x64.size a ≤ S3x128x256.size a)
  (w1 w2 w3 w4 : Vec Ideal S1x64x64 .f32) (L : List (View.Piece (Elt Ideal) S3x128x256 .f32))

theorem canon_quad_same (G : Fin 128 → Fin 128 → R) (row : Fin 64 → Fin 128) (k : Fin 3) (hk : k.val = κ)
    (h1 : ∀ a b : Fin 64, w1 (ix3 (0 : Fin 1) a b) = G (row a) (go 1 b))
    (h2 : ∀ a b : Fin 64, w2 (ix3 (0 : Fin 1) a b) = G (row a) (go 0 b))
    (h3 : ∀ a b : Fin 64, w3 (ix3 (0 : Fin 1) a b) = G (row a) (go 1 b))
    (h4 : ∀ a b : Fin 64, w4 (ix3 (0 : Fin 1) a b) = G (row a) (go 0 b))
    (l : Fin 128) (q : Fin 256) :
    View.canon ((⟨Rect.unit (s := S3x128x256) ![κ, 64, 192] S1x64x64.size i1, w1⟩ : View.Piece (Elt Ideal) S3x128x256 .f32)
      :: ⟨Rect.unit (s := S3x128x256) ![κ, 64, 64] S1x64x64.size i2, w2⟩
      :: ⟨Rect.unit (s := S3x128x256) ![κ, 0, 128] S1x64x64.size i3, w3⟩
      :: ⟨Rect.unit (s := S3x128x256) ![κ, 0, 0] S1x64x64.size i4, w4⟩ :: L) (ix3 k l q)
      = if hi l = qb q then G (row (lo l)) (go (qg q) (qo q)) else View.canon L (ix3 k l q) := by
  have hl := l.isLt
  have hq := q.isLt
  have hne : ∀ (_ : l.val / 64 ≠ q.val % 128 / 64), ¬ hi l = qb q := fun hd hc => hd (congrArg Fin.val hc)
  by_cases hlo : l.val < 64
  ·
    refine (canon3_miss1 i1 w1 _ k l q (by omega)).trans ?_
    refine (canon3_miss1 i2 w2 _ k l q (by omega)).trans ?_
    by_cases hq3 : 128 ≤ q.val ∧ q.val < 192
    · refine (canon3_hit i3 w3 _ k l q 0 ⟨l.val, hlo⟩ ⟨q.val - 128, by omega⟩ hk (by show l.val = 0 + l.val; omega)
        (by show q.val = 128 + (q.val - 128); omega)).trans ?_
      rw [if_pos (Fin.ext (show l.val / 64 = q.val % 128 / 64 by omega))]
      exact (h3 _ _).trans (congrArg₂ G (congrArg row (Fin.ext (show l.val = l.val % 64 by omega)))
        (Fin.ext (show 64 * 1 + (q.val - 128) = 64 * (q.val / 128) + q.val % 64 by omega)))
    · refine (canon3_miss2 i3 w3 _ k l q (by omega)).trans ?_
      by_cases hq4 : q.val < 64
      · refine (canon3_hit i4 w4 _ k l q 0 ⟨l.val, hlo⟩ ⟨q.val, hq4⟩ hk (by show l.val = 0 + l.val; omega)
          (by show q.val = 0 + q.val; omega)).trans ?_
        rw [if_pos (Fin.ext (show l.val / 64 = q.val % 128 / 64 by omega))]
        exact (h4 _ _).trans (congrArg₂ G (congrArg row (Fin.ext (show l.val = l.val % 64 by omega)))
          (Fin.ext (show 64 * 0 + q.val = 64 * (q.val / 128) + q.val % 64 by omega)))
      · refine (canon3_miss2 i4 w4 _ k l q (by omega)).trans ?_
        rw [if_neg (hne (by omega))]
  ·
    by_cases hq1 : 192 ≤ q.val
    · refine (canon3_hit i1 w1 _ k l q 0 ⟨l.val - 64, by omega⟩ ⟨q.val - 192, by omega⟩ hk
        (by show l.val = 64 + (l.val - 64); omega) (by show q.val = 192 + (q.val - 192); omega)).trans ?_
      rw [if_pos (Fin.ext (show l.val / 64 = q.val % 128 / 64 by omega))]
      exact (h1 _ _).trans (congrArg₂ G (congrArg row (Fin.ext (show l.val - 64 = l.val % 64 by omega)))
        (Fin.ext (show 64 * 1 + (q.val - 192) = 64 * (q.val / 128) + q.val % 64 by omega)))
    · refine (canon3_miss2 i1 w1 _ k l q (by omega)).trans ?_
      by_cases hq2 : 64 ≤ q.val ∧ q.val < 128
      · refine (canon3_hit i2 w2 _ k l q 0 ⟨l.val - 64, by omega⟩ ⟨q.val - 64, by omega⟩ hk
          (by show l.val = 64 + (l.val - 64); omega) (by show q.val = 64 + (q.val - 64); omega)).trans ?_
        rw [if_pos (Fin.ext (show l.val / 64 = q.val % 128 / 64 by omega))]
        exact (h2 _ _).trans (congrArg₂ G (congrArg row (Fin.ext (show l.val - 64 = l.val % 64 by omega)))
          (Fin.ext (show 64 * 0 + (q.val - 64) = 64 * (q.val / 128) + q.val % 64 by omega)))
      · refine (canon3_miss2 i2 w2 _ k l q (by omega)).trans ?_
        refine (canon3_miss1 i3 w3 _ k l q (by omega)).trans ?_
        refine (canon3_miss1 i4 w4 _ k l q (by omega)).trans ?_
        rw [if_neg (hne (by omega))]

end QuadSame

theorem fL_val (a : Fin 64) : (fL a).val = 0 + a.val := (Nat.zero_add _).symm
theorem fH_val (a : Fin 64) : (fH a).val = 64 + a.val := rfl

theorem go_zero_val (b : Fin 64) : (go 0 b).val = 0 + b.val := by show 64 * 0 + b.val = 0 + b.val; omega
theorem go_one_val (b : Fin 64) : (go 1 b).val = 64 + b.val := by show 64 * 1 + b.val = 64 + b.val; omega

theorem gates_block {o0 o1 o2 : ℕ}
    (inb : ∀ a, (![o0, o1, o2] : Fin 3 → ℕ) a + S1x64x64.size a ≤ S3x128x128.size a)
    (x4 : Vec Ideal S3x128x128 .f32) (W : Fin 384 → Fin 128 → R)
    (hW : ∀ (k : Fin 3) (f : Fin 128) (o : Fin 128), x4 (ix3 k f o) = W (fk128 f k) o)
    (k : Fin 3) (row col : Fin 64 → Fin 128) (hk : k.val = o0) (hrow : ∀ a, (row a).val = o1 + a.val)
    (hcol : ∀ b, (col b).val = o2 + b.val) (a b : Fin 64) :
    shapeCast S1x64x64 (shapeCast S64x64 (View.ld x4 (Rect.unit (s := S3x128x128) ![o0, o1, o2] S1x64x64.size inb))
      shapeCasts_S1x64x64_S64x64) shapeCasts_S64x64_S1x64x64 (ix3 (0 : Fin 1) a b) = W (fk128 (row a) k) (col b) :=
  (congrFun (shapeCast_shapeCast _ _ _) _).trans
    ((ld3_apply inb x4 0 a b k (row a) (col b) hk (hrow a) (hcol b)).trans (hW k (row a) (col b)))

section Pair
variable {κ : ℕ}
  (i1 : ∀ a, (![κ, 64, 64] : Fin 3 → ℕ) a + S1x64x64.size a ≤ S3x128x128.size a)
  (i2 : ∀ a, (![κ, 0, 0] : Fin 3 → ℕ) a + S1x64x64.size a ≤ S3x128x128.size a)
  (w1 w2 : Vec Ideal S1x64x64 .f32) (L : List (View.Piece (Elt Ideal) S3x128x128 .f32))

theorem canon_pair_other (k : Fin 3) (l l' : Fin 128) (hk : k.val ≠ κ) :
    View.canon ((⟨Rect.unit (s := S3x128x128) ![κ, 64, 64] S1x64x64.size i1, w1⟩ : View.Piece (Elt Ideal) S3x128x128 .f32)
      :: ⟨Rect.unit (s := S3x128x128) ![κ, 0, 0] S1x64x64.size i2, w2⟩ :: L) (ix3 k l l') = View.canon L (ix3 k l l') :=
  (canon3_miss0 i1 w1 _ k l l' (by omega)).trans (canon3_miss0 i2 w2 L k l l' (by omega))

theorem canon_pair_same (G : Fin 128 → Fin 64 → R) (row : Fin 64 → Fin 128) (k : Fin 3) (hk : k.val = κ)
    (h1 : ∀ a b : Fin 64, w1 (ix3 (0 : Fin 1) a b) = G (row a) b)
    (h2 : ∀ a b : Fin 64, w2 (ix3 (0 : Fin 1) a b) = G (row a) b) (l l' : Fin 128) :
    View.canon ((⟨Rect.unit (s := S3x128x128) ![κ, 64, 64] S1x64x64.size i1, w1⟩ : View.Piece (Elt Ideal) S3x128x128 .f32)
      :: ⟨Rect.unit (s := S3x128x128) ![κ, 0, 0] S1x64x64.size i2, w2⟩ :: L) (ix3 k l l')
      = if hi l = hi l' then G (row (lo l)) (lo l') else View.canon L (ix3 k l l') := by
  have hl := l.isLt
  have hl' := l'.isLt
  have hne : ∀ (_ : l.val / 64 ≠ l'.val / 64), ¬ hi l = hi l' := fun hd hc => hd (congrArg Fin.val hc)
  by_cases hhi : 64 ≤ l.val ∧ 64 ≤ l'.val
  · refine (canon3_hit i1 w1 _ k l l' 0 ⟨l.val - 64, by omega⟩ ⟨l'.val - 64, by omega⟩ hk
      (by show l.val = 64 + (l.val - 64); omega) (by show l'.val = 64 + (l'.val - 64); omega)).trans ?_
    rw [if_pos (Fin.ext (show l.val / 64 = l'.val / 64 by omega))]
    exact (h1 _ _).trans (congrArg₂ G (congrArg row (Fin.ext (show l.val - 64 = l.val % 64 by omega)))
      (Fin.ext (show l'.val - 64 = l'.val % 64 by omega)))
  · refine (canon_cons_unit_miss i1 w1 _ (ix3 k l l') (if l.val < 64 then (1 : Fin 3) else (2 : Fin 3)) ?_).trans ?_
    · by_cases hlo : l.val < 64
      · rw [if_pos hlo]; left; show l.val < 64; exact hlo
      · rw [if_neg hlo]; left; show l'.val < 64; omega
    by_cases hlo : l.val < 64 ∧ l'.val < 64
    · refine (canon3_hit i2 w2 _ k l l' 0 ⟨l.val, hlo.1⟩ ⟨l'.val, hlo.2⟩ hk
        (by show l.val = 0 + l.val; omega) (by show l'.val = 0 + l'.val; omega)).trans ?_
      rw [if_pos (Fin.ext (show l.val / 64 = l'.val / 64 by omega))]
      exact (h2 _ _).trans (congrArg₂ G (congrArg row (Fin.ext (show l.val = l.val % 64 by omega)))
        (Fin.ext (show l'.val = l'.val % 64 by omega)))
    · refine (canon_cons_unit_miss i2 w2 _ (ix3 k l l') (if l.val < 64 then (2 : Fin 3) else (1 : Fin 3)) ?_).trans ?_
      · by_cases hl64 : l.val < 64
        · rw [if_pos hl64]; right; show 0 + 64 ≤ l'.val; omega
        · rw [if_neg hl64]; right; show 0 + 64 ≤ l.val; omega
      rw [if_neg (hne (by omega))]

end Pair

theorem cand_block {o0 o1 : ℕ}
    (inb : ∀ a, (![o0, o1, 0] : Fin 3 → ℕ) a + S1x64x64.size a ≤ S3x128x64.size a)
    (x5 : Vec Ideal S3x128x64 .f32) (W : Fin 384 → Fin 64 → R)
    (hW : ∀ (k : Fin 3) (f : Fin 128) (o : Fin 64), x5 (ix3 k f o) = W (fk128 f k) o)
    (k : Fin 3) (row : Fin 64 → Fin 128) (hk : k.val = o0) (hrow : ∀ a, (row a).val = o1 + a.val) (a b : Fin 64) :
    shapeCast S1x64x64 (shapeCast S64x64 (View.ld x5 (Rect.unit (s := S3x128x64) ![o0, o1, 0] S1x64x64.size inb))
      shapeCasts_S1x64x64_S64x64) shapeCasts_S64x64_S1x64x64 (ix3 (0 : Fin 1) a b) = W (fk128 (row a) k) b :=
  (congrFun (shapeCast_shapeCast _ _ _) _).trans
    ((ld3_apply inb x5 0 a b k (row a) b hk (hrow a) (Nat.zero_add _).symm).trans (hW k (row a) b))

theorem bias_block {n o1 : ℕ}
    (inb : ∀ a, (![0, o1] : Fin 2 → ℕ) a + S1x64.size a ≤ (⟨2, ![1, n]⟩ : Shape).size a)
    (x : Vec Ideal (⟨2, ![1, n]⟩ : Shape) .f32) (bias : Fin n → R) (hb : ∀ o : Fin n, x (ix2 (0 : Fin 1) o) = bias o)
    (col : Fin 64 → Fin n) (hcol : ∀ b, (col b).val = o1 + b.val) (b : Fin 64) :
    shapeCast S1x64 (shapeCast S64 (View.ld x (Rect.unit (s := (⟨2, ![1, n]⟩ : Shape)) ![0, o1] S1x64.size inb))
      shapeCasts_S1x64_S64) shapeCasts_S64_S1x64 (ix2 (0 : Fin 1) b) = bias (col b) :=
  (congrFun (shapeCast_shapeCast _ _ _) _).trans
    ((ld2_apply inb x 0 b 0 (col b) rfl (hcol b)).trans (hb (col b)))

theorem wgRu1_val (x4 : Vec Ideal S3x128x128 .f32) (W : Fin 384 → Fin 128 → R)
    (hW : ∀ (k : Fin 3) (f : Fin 128) (o : Fin 128), x4 (ix3 k f o) = W (fk128 f k) o) (k : Fin 3) (l : Fin 128) (q : Fin 256) :
    left0_20 (F := Ideal) x4 (ix3 k l q) = wgRu1 W k l q := by
  have hk := k.isLt
  unfold left0_20 wgRu1

  have zf : View.canon [(⟨box_S3x128x256_S3x128x256_0_0_0, k0_pay8 (F := Ideal)⟩ : View.Piece (Elt Ideal) S3x128x256 .f32)]
      (ix3 k l q) = c0 :=
    (congrFun (View.canon_unit_zero (Val := Elt Ideal) (S := S3x128x256) (e := .f32) zero_off3
      inb_S3x128x256_S3x128x256_0_0_0 (k0_pay8 (F := Ideal))) (ix3 k l q)).trans rfl
  rcases (show k.val = 2 ∨ k.val = 1 ∨ k.val = 0 by omega) with hk2 | hk1 | hk0
  · refine (canon_quad_same _ _ _ _ _ _ _ _ _ (fun f o => W (fk128 f k) o) fL k hk2
      (gates_block _ x4 W hW k fL (go 1) hk2 fL_val go_one_val)
      (gates_block _ x4 W hW k fL (go 0) hk2 fL_val go_zero_val)
      (gates_block _ x4 W hW k fL (go 1) hk2 fL_val go_one_val)
      (gates_block _ x4 W hW k fL (go 0) hk2 fL_val go_zero_val) l q).trans ?_
    refine ite_congr rfl (fun _ => rfl) (fun _ => ?_)
    refine (canon_quad_other _ _ _ _ _ _ _ _ _ k l q (by omega)).trans ?_
    refine (canon_quad_other _ _ _ _ _ _ _ _ _ k l q (by omega)).trans ?_
    exact zf
  · refine (canon_quad_other _ _ _ _ _ _ _ _ _ k l q (by omega)).trans ?_
    refine (canon_quad_same _ _ _ _ _ _ _ _ _ (fun f o => W (fk128 f k) o) fL k hk1
      (gates_block _ x4 W hW k fL (go 1) hk1 fL_val go_one_val)
      (gates_block _ x4 W hW k fL (go 0) hk1 fL_val go_zero_val)
      (gates_block _ x4 W hW k fL (go 1) hk1 fL_val go_one_val)
      (gates_block _ x4 W hW k fL (go 0) hk1 fL_val go_zero_val) l q).trans ?_
    refine ite_congr rfl (fun _ => rfl) (fun _ => ?_)
    refine (canon_quad_other _ _ _ _ _ _ _ _ _ k l q (by omega)).trans ?_
    exact zf
  · refine (canon_quad_other _ _ _ _ _ _ _ _ _ k l q (by omega)).trans ?_
    refine (canon_quad_other _ _ _ _ _ _ _ _ _ k l q (by omega)).trans ?_
    refine (canon_quad_same _ _ _ _ _ _ _ _ _ (fun f o => W (fk128 f k) o) fL k hk0
      (gates_block _ x4 W hW k fL (go 1) hk0 fL_val go_one_val)
      (gates_block _ x4 W hW k fL (go 0) hk0 fL_val go_zero_val)
      (gates_block _ x4 W hW k fL (go 1) hk0 fL_val go_one_val)
      (gates_block _ x4 W hW k fL (go 0) hk0 fL_val go_zero_val) l q).trans ?_
    refine ite_congr rfl (fun _ => rfl) (fun _ => ?_)
    exact zf

theorem wkRu1_val (x4 : Vec Ideal S3x128x128 .f32) (W : Fin 384 → Fin 128 → R)
    (hW : ∀ (k : Fin 3) (f : Fin 128) (o : Fin 128), x4 (ix3 k f o) = W (fk128 f k) o) (k : Fin 3) (l : Fin 128) (q : Fin 256) :
    left0_21 (F := Ideal) x4 (ix3 k l q) = wkRu1 W k l q := by
  have hk := k.isLt
  unfold left0_21 wkRu1

  have zf : View.canon [(⟨box_S3x128x256_S3x128x256_0_0_0, k0_pay9 (F := Ideal)⟩ : View.Piece (Elt Ideal) S3x128x256 .f32)]
      (ix3 k l q) = c0 :=
    (congrFun (View.canon_unit_zero (Val := Elt Ideal) (S := S3x128x256) (e := .f32) zero_off3
      inb_S3x128x256_S3x128x256_0_0_0 (k0_pay9 (F := Ideal))) (ix3 k l q)).trans rfl
  rcases (show k.val = 2 ∨ k.val = 1 ∨ k.val = 0 by omega) with hk2 | hk1 | hk0
  · refine (canon_quad_same _ _ _ _ _ _ _ _ _ (fun f o => W (fk128 f k) o) fH k hk2
      (gates_block _ x4 W hW k fH (go 1) hk2 fH_val go_one_val)
      (gates_block _ x4 W hW k fH (go 0) hk2 fH_val go_zero_val)
      (gates_block _ x4 W hW k fH (go 1) hk2 fH_val go_one_val)
      (gates_block _ x4 W hW k fH (go 0) hk2 fH_val go_zero_val) l q).trans ?_
    refine ite_congr rfl (fun _ => rfl) (fun _ => ?_)
    refine (canon_quad_other _ _ _ _ _ _ _ _ _ k l q (by omega)).trans ?_
    refine (canon_quad_other _ _ _ _ _ _ _ _ _ k l q (by omega)).trans ?_
    exact zf
  · refine (canon_quad_other _ _ _ _ _ _ _ _ _ k l q (by omega)).trans ?_
    refine (canon_quad_same _ _ _ _ _ _ _ _ _ (fun f o => W (fk128 f k) o) fH k hk1
      (gates_block _ x4 W hW k fH (go 1) hk1 fH_val go_one_val)
      (gates_block _ x4 W hW k fH (go 0) hk1 fH_val go_zero_val)
      (gates_block _ x4 W hW k fH (go 1) hk1 fH_val go_one_val)
      (gates_block _ x4 W hW k fH (go 0) hk1 fH_val go_zero_val) l q).trans ?_
    refine ite_congr rfl (fun _ => rfl) (fun _ => ?_)
    refine (canon_quad_other _ _ _ _ _ _ _ _ _ k l q (by omega)).trans ?_
    exact zf
  · refine (canon_quad_other _ _ _ _ _ _ _ _ _ k l q (by omega)).trans ?_
    refine (canon_quad_other _ _ _ _ _ _ _ _ _ k l q (by omega)).trans ?_
    refine (canon_quad_same _ _ _ _ _ _ _ _ _ (fun f o => W (fk128 f k) o) fH k hk0
      (gates_block _ x4 W hW k fH (go 1) hk0 fH_val go_one_val)
      (gates_block _ x4 W hW k fH (go 0) hk0 fH_val go_zero_val)
      (gates_block _ x4 W hW k fH (go 1) hk0 fH_val go_one_val)
      (gates_block _ x4 W hW k fH (go 0) hk0 fH_val go_zero_val) l q).trans ?_
    refine ite_congr rfl (fun _ => rfl) (fun _ => ?_)
    exact zf

theorem bRu1_val (x8 : Vec Ideal S1x128 .f32) (bias : Fin 128 → R) (hb : ∀ o : Fin 128, x8 (ix2 (0 : Fin 1) o) = bias o) (q : Fin 256) :
    left0_22 (F := Ideal) x8 (ix2 (0 : Fin 1) q) = bRu1 bias q := by
  have hq := q.isLt
  unfold left0_22 bRu1
  by_cases h1 : 192 ≤ q.val
  ·
    refine (canon2_hit _ _ _ (0 : Fin 1) q 0 ⟨q.val - 192, by omega⟩ rfl (by show q.val = 192 + (q.val - 192); omega)).trans ?_
    exact (bias_block _ x8 bias hb (go 1) go_one_val _).trans
      (congrArg bias (Fin.ext (show 64 * 1 + (q.val - 192) = 64 * (q.val / 128) + q.val % 64 by omega)))
  · refine (canon2_miss1 _ _ _ (0 : Fin 1) q (by omega)).trans ?_
    by_cases h2 : 128 ≤ q.val
    ·
      refine (canon2_hit _ _ _ (0 : Fin 1) q 0 ⟨q.val - 128, by omega⟩ rfl (by show q.val = 128 + (q.val - 128); omega)).trans ?_
      exact (bias_block _ x8 bias hb (go 1) go_one_val _).trans
        (congrArg bias (Fin.ext (show 64 * 1 + (q.val - 128) = 64 * (q.val / 128) + q.val % 64 by omega)))
    · refine (canon2_miss1 _ _ _ (0 : Fin 1) q (by omega)).trans ?_
      by_cases h3 : 64 ≤ q.val
      ·
        refine (canon2_hit _ _ _ (0 : Fin 1) q 0 ⟨q.val - 64, by omega⟩ rfl (by show q.val = 64 + (q.val - 64); omega)).trans ?_
        exact (bias_block _ x8 bias hb (go 0) go_zero_val _).trans
          (congrArg bias (Fin.ext (show 64 * 0 + (q.val - 64) = 64 * (q.val / 128) + q.val % 64 by omega)))
      ·
        refine (canon2_miss1 _ _ _ (0 : Fin 1) q (by omega)).trans ?_
        refine (canon2_hit _ _ _ (0 : Fin 1) q 0 ⟨q.val, by omega⟩ rfl (by show q.val = 0 + q.val; omega)).trans ?_
        exact (bias_block _ x8 bias hb (go 0) go_zero_val _).trans
          (congrArg bias (Fin.ext (show 64 * 0 + q.val = 64 * (q.val / 128) + q.val % 64 by omega)))

theorem wgC1_val (x5 : Vec Ideal S3x128x64 .f32) (W : Fin 384 → Fin 64 → R)
    (hW : ∀ (k : Fin 3) (f : Fin 128) (o : Fin 64), x5 (ix3 k f o) = W (fk128 f k) o) (k : Fin 3) (l l' : Fin 128) :
    left0_23 (F := Ideal) x5 (ix3 k l l') = wgC1 W k l l' := by
  have hk := k.isLt
  unfold left0_23 wgC1

  have zf : View.canon [(⟨box_S3x128x128_S3x128x128_0_0_0, k0_pay10 (F := Ideal)⟩ : View.Piece (Elt Ideal) S3x128x128 .f32)]
      (ix3 k l l') = c0 :=
    (congrFun (View.canon_unit_zero (Val := Elt Ideal) (S := S3x128x128) (e := .f32) zero_off3
      inb_S3x128x128_S3x128x128_0_0_0 (k0_pay10 (F := Ideal))) (ix3 k l l')).trans rfl
  rcases (show k.val = 2 ∨ k.val = 1 ∨ k.val = 0 by omega) with hk2 | hk1 | hk0
  · refine (canon_pair_same _ _ _ _ _ (fun f o => W (fk128 f k) o) fL k hk2
      (cand_block _ x5 W hW k fL hk2 fL_val) (cand_block _ x5 W hW k fL hk2 fL_val) l l').trans ?_
    refine ite_congr rfl (fun _ => rfl) (fun _ => ?_)
    refine (canon_pair_other _ _ _ _ _ k l l' (by omega)).trans ?_
    refine (canon_pair_other _ _ _ _ _ k l l' (by omega)).trans ?_
    exact zf
  · refine (canon_pair_other _ _ _ _ _ k l l' (by omega)).trans ?_
    refine (canon_pair_same _ _ _ _ _ (fun f o => W (fk128 f k) o) fL k hk1
      (cand_block _ x5 W hW k fL hk1 fL_val) (cand_block _ x5 W hW k fL hk1 fL_val) l l').trans ?_
    refine ite_congr rfl (fun _ => rfl) (fun _ => ?_)
    refine (canon_pair_other _ _ _ _ _ k l l' (by omega)).trans ?_
    exact zf
  · refine (canon_pair_other _ _ _ _ _ k l l' (by omega)).trans ?_
    refine (canon_pair_other _ _ _ _ _ k l l' (by omega)).trans ?_
    refine (canon_pair_same _ _ _ _ _ (fun f o => W (fk128 f k) o) fL k hk0
      (cand_block _ x5 W hW k fL hk0 fL_val) (cand_block _ x5 W hW k fL hk0 fL_val) l l').trans ?_
    refine ite_congr rfl (fun _ => rfl) (fun _ => ?_)
    exact zf

theorem wkC1_val (x5 : Vec Ideal S3x128x64 .f32) (W : Fin 384 → Fin 64 → R)
    (hW : ∀ (k : Fin 3) (f : Fin 128) (o : Fin 64), x5 (ix3 k f o) = W (fk128 f k) o) (k : Fin 3) (l l' : Fin 128) :
    left0_24 (F := Ideal) x5 (ix3 k l l') = wkC1 W k l l' := by
  have hk := k.isLt
  unfold left0_24 wkC1

  have zf : View.canon [(⟨box_S3x128x128_S3x128x128_0_0_0, k0_pay11 (F := Ideal)⟩ : View.Piece (Elt Ideal) S3x128x128 .f32)]
      (ix3 k l l') = c0 :=
    (congrFun (View.canon_unit_zero (Val := Elt Ideal) (S := S3x128x128) (e := .f32) zero_off3
      inb_S3x128x128_S3x128x128_0_0_0 (k0_pay11 (F := Ideal))) (ix3 k l l')).trans rfl
  rcases (show k.val = 2 ∨ k.val = 1 ∨ k.val = 0 by omega) with hk2 | hk1 | hk0
  · refine (canon_pair_same _ _ _ _ _ (fun f o => W (fk128 f k) o) fH k hk2
      (cand_block _ x5 W hW k fH hk2 fH_val) (cand_block _ x5 W hW k fH hk2 fH_val) l l').trans ?_
    refine ite_congr rfl (fun _ => rfl) (fun _ => ?_)
    refine (canon_pair_other _ _ _ _ _ k l l' (by omega)).trans ?_
    refine (canon_pair_other _ _ _ _ _ k l l' (by omega)).trans ?_
    exact zf
  · refine (canon_pair_other _ _ _ _ _ k l l' (by omega)).trans ?_
    refine (canon_pair_same _ _ _ _ _ (fun f o => W (fk128 f k) o) fH k hk1
      (cand_block _ x5 W hW k fH hk1 fH_val) (cand_block _ x5 W hW k fH hk1 fH_val) l l').trans ?_
    refine ite_congr rfl (fun _ => rfl) (fun _ => ?_)
    refine (canon_pair_other _ _ _ _ _ k l l' (by omega)).trans ?_
    exact zf
  · refine (canon_pair_other _ _ _ _ _ k l l' (by omega)).trans ?_
    refine (canon_pair_other _ _ _ _ _ k l l' (by omega)).trans ?_
    refine (canon_pair_same _ _ _ _ _ (fun f o => W (fk128 f k) o) fH k hk0
      (cand_block _ x5 W hW k fH hk0 fH_val) (cand_block _ x5 W hW k fH hk0 fH_val) l l').trans ?_
    refine ite_congr rfl (fun _ => rfl) (fun _ => ?_)
    exact zf

theorem bC1_val (x9 : Vec Ideal S1x64 .f32) (bias : Fin 64 → R) (hb : ∀ o : Fin 64, x9 (ix2 (0 : Fin 1) o) = bias o) (l : Fin 128) :
    left0_25 (F := Ideal) x9 (ix2 (0 : Fin 1) l) = bC1 bias l := by
  have hl := l.isLt
  unfold left0_25 bC1
  by_cases h1 : 64 ≤ l.val
  ·
    refine (canon2_hit _ _ _ (0 : Fin 1) l 0 ⟨l.val - 64, by omega⟩ rfl (by show l.val = 64 + (l.val - 64); omega)).trans ?_
    exact (bias_block _ x9 bias hb (fun b => b) (fun b => (Nat.zero_add _).symm) _).trans
      (congrArg bias (Fin.ext (show l.val - 64 = l.val % 64 by omega)))
  ·
    refine (canon2_miss1 _ _ _ (0 : Fin 1) l (by omega)).trans ?_
    refine (canon2_hit _ _ _ (0 : Fin 1) l 0 ⟨l.val, by omega⟩ rfl (by show l.val = 0 + l.val; omega)).trans ?_
    exact (bias_block _ x9 bias hb (fun b => b) (fun b => (Nat.zero_add _).symm) _).trans
      (congrArg bias (Fin.ext (show l.val = l.val % 64 by omega)))

theorem wpp_val (x10 : Vec Ideal S64x1 .f32) (Wp : Fin 64 → Fin 1 → R) (hW : ∀ u : Fin 64, x10 (ix2 u (0 : Fin 1)) = Wp u 0) (l : Fin 128) (j : Fin 2) :
    left0_26 (F := Ideal) x10 (ix2 l j) = wpp Wp l j := by
  have hl := l.isLt
  have hj := j.isLt
  have hld : ∀ u : Fin 64, View.ld x10 box_S64x1_S64x1_0_0 (ix2 u (0 : Fin 1)) = Wp u 0 := fun u =>
    (congrFun (View.ld_unit_zero (S := S64x1) zero_off2 inb_S64x1_S64x1_0_0 x10) (ix2 u (0 : Fin 1))).trans (hW u)
  unfold left0_26 wpp
  by_cases h1 : 64 ≤ l.val ∧ j.val = 1
  ·
    refine (canon_cons_unit_hit _ _ _ _ (ix2 ⟨l.val - 64, by omega⟩ (0 : Fin 1)) ?_).trans ?_
    · intro a
      match a with
      | ⟨0, _⟩ => show l.val = 64 + (l.val - 64); omega
      | ⟨1, _⟩ => show j.val = 1 + 0; omega
    · rw [if_pos (Fin.ext (show l.val / 64 = j.val by omega))]
      exact (hld _).trans (congrArg (fun u => Wp u 0) (Fin.ext (show l.val - 64 = l.val % 64 by omega)))
  · refine (canon_cons_unit_miss _ _ _ _ (if l.val < 64 then 0 else 1) ?_).trans ?_
    · by_cases hl64 : l.val < 64
      · rw [if_pos hl64]; left; show l.val < 64; exact hl64
      · rw [if_neg hl64]; left; show j.val < 1; omega
    by_cases h2 : l.val < 64 ∧ j.val = 0
    ·
      refine (canon_cons_unit_hit _ _ _ _ (ix2 ⟨l.val, by omega⟩ (0 : Fin 1)) ?_).trans ?_
      · intro a
        match a with
        | ⟨0, _⟩ => show l.val = 0 + l.val; omega
        | ⟨1, _⟩ => show j.val = 0 + 0; omega
      · rw [if_pos (Fin.ext (show l.val / 64 = j.val by omega))]
        exact (hld _).trans (congrArg (fun u => Wp u 0) (Fin.ext (show l.val = l.val % 64 by omega)))
    ·
      refine (canon_cons_unit_miss _ _ _ _ (if l.val < 64 then 1 else 0) ?_).trans ?_
      · by_cases hl64 : l.val < 64
        · rw [if_pos hl64]; right; show 0 + 1 ≤ j.val; omega
        · rw [if_neg hl64]; right; show 0 + 64 ≤ l.val; omega
      rw [if_neg (fun hc : hi l = j => by
        have : l.val / 64 = j.val := congrArg Fin.val hc
        omega)]
      refine (congrFun (View.canon_unit_zero (Val := Elt Ideal) (S := S128x2) (e := .f32) zero_off2 inb_S128x2_S128x2_0_0
        (k0_pay127 (F := Ideal))) (ix2 l j)).trans ?_
      rfl

end Cert.KernelIdeal.Hand

end
-- ==== Proof.KI.Val1Cell0.lean ====
import proofs.«105208_g19069654794669_cont_sun_m_30_30_alg».proof.Proof.Spec
import proofs.«105208_g19069654794669_cont_sun_m_30_30_alg».proof.Proof.KI.Frame1
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Spec

private theorem off2_zero : (![0, 0] : Fin 2 → Nat) = fun _ => 0 := funext fun a => by fin_cases a <;> rfl

private theorem ld_at {S : Shape} {e : EltTy} (X : S.Idx → Elt Ideal e) (r : Rect S) (x : r.shape.Idx) (k : S.Idx)
    (hk : ∀ a, (k a).val = r.off a + r.stride a * (x a).val) : View.ld X r x = X k :=
  congrArg X (funext fun a => Fin.ext (hk a).symm)

private theorem mm_at {m k n : ℕ} {φ₁ φ₂ : FTy} (d : DotDims ⟨2, ![m, k]⟩ ⟨2, ![k, n]⟩ ⟨2, ![m, n]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (A : FVec Ideal ⟨2, ![m, k]⟩ φ₁) (B : FVec Ideal ⟨2, ![k, n]⟩ φ₂) (a : Fin m) (b : Fin n) :
    FloatOps.matmul d prec A B (constant (F := Ideal) ⟨2, ![m, n]⟩ .f32 0x00000000#32) (ix2 a b) = ∑ c : Fin k, A (ix2 a c) * B (ix2 c b) := by
  obtain ⟨lc, rc, ln, rn, lb, rb, w⟩ := d
  dsimp only at h1 h2 h3 h4 h5 h6
  subst h1 h2 h3 h4 h5 h6
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have hc := contrEquiv1_symm_val (⟨[1], [0], [0], [1], [], [], w⟩ : DotDims ⟨2, ![m, k]⟩ ⟨2, ![k, n]⟩ ⟨2, ![m, n]⟩) k rfl rfl c
  have hl : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact hc
  have hr : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact hc
    | ⟨1, _⟩ => simp [DotDims.rhsIdx]; rfl
  rw [hl, hr]

private theorem cast_11ab_ab {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

private theorem cast_ab_11ab {α : Type} {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp only [Nat.zero_mul, Nat.zero_add])

private theorem lane_hi_lo (l : Fin 128) : lane (hi l) (lo l) = l := Fin.ext (by show 64 * (l.val / 64) + l.val % 64 = l.val; omega)

theorem ld_sup (x0 : Vec Ideal S512x512 .f32) : View.ld x0 rSup = x0 := View.ld_unit_zero (S := S512x512) off2_zero _ x0

theorem ld_col (x1 : Vec Ideal S3x1x2x512 .f32) (β : Fin 2) (n : Fin 512) :
    View.ld x1 rCol0 (ix4 (0 : Fin 1) (0 : Fin 1) β n) = x1 (ix4 (0 : Fin 3) (0 : Fin 1) β n)
    ∧ View.ld x1 rCol1 (ix4 (0 : Fin 1) (0 : Fin 1) β n) = x1 (ix4 (1 : Fin 3) (0 : Fin 1) β n)
    ∧ View.ld x1 rCol2 (ix4 (0 : Fin 1) (0 : Fin 1) β n) = x1 (ix4 (2 : Fin 3) (0 : Fin 1) β n) := by
  refine ⟨ld_at x1 rCol0 _ _ fun a => ?_, ld_at x1 rCol1 _ _ fun a => ?_, ld_at x1 rCol2 _ _ fun a => ?_⟩ <;>
    (match a with
      | ⟨0, _⟩ => rfl
      | ⟨1, _⟩ => rfl
      | ⟨2, _⟩ => (show β.val = 0 + 1 * β.val; omega)
      | ⟨3, _⟩ => (show n.val = 0 + 1 * n.val; omega))

theorem ld_hid (x2 : Vec Ideal S2x2x512x64 .f32) (n : Fin 512) (u : Fin 64) :
    View.ld x2 rHid00 (ix4 (0 : Fin 1) (0 : Fin 1) n u) = x2 (ix4 (0 : Fin 2) (0 : Fin 2) n u)
    ∧ View.ld x2 rHid01 (ix4 (0 : Fin 1) (0 : Fin 1) n u) = x2 (ix4 (0 : Fin 2) (1 : Fin 2) n u)
    ∧ View.ld x2 rHid10 (ix4 (0 : Fin 1) (0 : Fin 1) n u) = x2 (ix4 (1 : Fin 2) (0 : Fin 2) n u)
    ∧ View.ld x2 rHid11 (ix4 (0 : Fin 1) (0 : Fin 1) n u) = x2 (ix4 (1 : Fin 2) (1 : Fin 2) n u) := by
  refine ⟨ld_at x2 rHid00 _ _ fun a => ?_, ld_at x2 rHid01 _ _ fun a => ?_, ld_at x2 rHid10 _ _ fun a => ?_, ld_at x2 rHid11 _ _ fun a => ?_⟩ <;>
    (match a with
      | ⟨0, _⟩ => rfl
      | ⟨1, _⟩ => rfl
      | ⟨2, _⟩ => (show n.val = 0 + 1 * n.val; omega)
      | ⟨3, _⟩ => (show u.val = 0 + 1 * u.val; omega))

private theorem halves_at (a b : Vec Ideal S1x1x512x64 .f32) (n : Fin 512) (l : Fin 128) :
    concatenate S512x128 1 [⟨S512x64, shapeCast S512x64 a shapeCasts_S1x1x512x64_S512x64⟩,
        ⟨S512x64, shapeCast S512x64 b shapeCasts_S1x1x512x64_S512x64⟩] concatenates_S512x64_S512x64_S512x128_d1 (ix2 n l)
      = if (hi l).val = 0 then a (ix4 (0 : Fin 1) (0 : Fin 1) n (lo l)) else b (ix4 (0 : Fin 1) (0 : Fin 1) n (lo l)) := by
  by_cases hl : l.val < 64
  · have h0 : (hi l).val = 0 := by show l.val / 64 = 0; omega
    rw [if_pos h0]
    refine (concatenate_pair_apply_left (t := S512x128) (s₁ := S512x64) (s₂ := S512x64) _ _ _ _ (ix2 n l) rfl (ix2 n (lo l)) fun c => ?_).trans (cast_11ab_ab a _ n (lo l))
    match c with
    | ⟨0, _⟩ => rfl
    | ⟨1, _⟩ => (show l.val % 64 = l.val; omega)
  · have h0 : ¬ (hi l).val = 0 := by show ¬ l.val / 64 = 0; omega
    rw [if_neg h0]
    refine (concatenate_pair_apply_right (t := S512x128) (s₁ := S512x64) (s₂ := S512x64) _ _ _ _ (ix2 n l) rfl rfl (ix2 n (lo l)) (fun c hc => ?_) ?_).trans (cast_11ab_ab b _ n (lo l))
    · match c, hc with
      | ⟨0, _⟩, _ => rfl
      | ⟨1, _⟩, hc => exact absurd rfl hc
    · show l.val % 64 + 64 = l.val; omega

theorem st0_at (x2 : Vec Ideal S2x2x512x64 .f32) (n : Fin 512) (l : Fin 128) :
    st0 (F := Ideal) x2 (ix2 n l) = x2 (ix4 (0 : Fin 2) (hi l) n (lo l)) := by
  unfold st0 k1_pay7
  refine (halves_at _ _ n l).trans ?_
  by_cases h0 : (hi l).val = 0
  · rw [if_pos h0, (ld_hid x2 n (lo l)).1, show hi l = (0 : Fin 2) from Fin.ext h0]
  · have h1 : hi l = (1 : Fin 2) := Fin.ext (by have := (hi l).isLt; show (hi l).val = 1; omega)
    rw [if_neg h0, (ld_hid x2 n (lo l)).2.1, h1]

theorem st1_at (x2 : Vec Ideal S2x2x512x64 .f32) (n : Fin 512) (l : Fin 128) :
    st1 (F := Ideal) x2 (ix2 n l) = x2 (ix4 (1 : Fin 2) (hi l) n (lo l)) := by
  unfold st1 k1_pay20
  refine (halves_at _ _ n l).trans ?_
  by_cases h0 : (hi l).val = 0
  · rw [if_pos h0, (ld_hid x2 n (lo l)).2.2.1, show hi l = (0 : Fin 2) from Fin.ext h0]
  · have h1 : hi l = (1 : Fin 2) := Fin.ext (by have := (hi l).isLt; show (hi l).val = 1; omega)
    rw [if_neg h0, (ld_hid x2 n (lo l)).2.2.2, h1]

theorem st1_val (Hs : Fin 2 → Fin 64 → Fin 32768 → R) (x2 : Vec Ideal S2x2x512x64 .f32) (p : Fin 32)
    (hH : ∀ (L β : Fin 2) (n : Fin 512) (u : Fin 64), x2 (ix4 L β n u) = stK Hs L p n (lane β u)) (n : Fin 512) (l : Fin 128) :
    st1 (F := Ideal) x2 (ix2 n l) = stK Hs 1 p n l := by
  rw [st1_at, hH, lane_hi_lo]

theorem st0_val (Hs : Fin 2 → Fin 64 → Fin 32768 → R) (x2 : Vec Ideal S2x2x512x64 .f32) (p : Fin 32)
    (hH : ∀ (L β : Fin 2) (n : Fin 512) (u : Fin 64), x2 (ix4 L β n u) = stK Hs L p n (lane β u)) (n : Fin 512) (l : Fin 128) :
    st0 (F := Ideal) x2 (ix2 n l) = stK Hs 0 p n l := by
  rw [st0_at, hH, lane_hi_lo]

theorem supp_val (Adj : Fin 512 → Fin 512 → R) (x0 : Vec Ideal S512x512 .f32) (hS : ∀ i j : Fin 512, x0 (ix2 i j) = supK Adj i j) (i j : Fin 512) :
    supp (F := Ideal) x0 (ix2 i j) = supK Adj i j := by
  unfold supp k1_pay5
  rw [shapeCast_self, ld_sup]
  exact hS i j

theorem cols_at (x1 : Vec Ideal S3x1x2x512 .f32) (n : Fin 512) (k : Fin 3) (β : Fin 2) :
    cols (F := Ideal) x1 (ix2 n (⟨2 * k.val + β.val, by omega⟩ : Fin 6)) = x1 (ix4 k (0 : Fin 1) β n) := by
  unfold cols k1_pay6
  refine (transpose_ix2_apply _ _ n _).trans ?_
  match k with
  | ⟨0, _⟩ =>
    refine (concatenate_apply_piece (t := S6x512) _ _ _ _ 0 (by show (0 : ℕ) < 3; omega) S2x512 _ rfl rfl 0 (by rfl) (ix2 β n) (fun b hb => ?_) ?_).trans
      ((cast_11ab_ab _ _ β n).trans (ld_col x1 β n).1)
    · match b, hb with
      | ⟨0, _⟩, hb => exact absurd rfl hb
      | ⟨1, _⟩, _ => rfl
    · show 0 + β.val = 2 * 0 + β.val; omega
  | ⟨1, _⟩ =>
    refine (concatenate_apply_piece (t := S6x512) _ _ _ _ 1 (by show (1 : ℕ) < 3; omega) S2x512 _ rfl rfl 2 (by rfl) (ix2 β n) (fun b hb => ?_) ?_).trans
      ((cast_11ab_ab _ _ β n).trans (ld_col x1 β n).2.1)
    · match b, hb with
      | ⟨0, _⟩, hb => exact absurd rfl hb
      | ⟨1, _⟩, _ => rfl
    · show 2 + β.val = 2 * 1 + β.val; omega
  | ⟨2, _⟩ =>
    refine (concatenate_apply_piece (t := S6x512) _ _ _ _ 2 (by show (2 : ℕ) < 3; omega) S2x512 _ rfl rfl 4 (by rfl) (ix2 β n) (fun b hb => ?_) ?_).trans
      ((cast_11ab_ab _ _ β n).trans (ld_col x1 β n).2.2)
    · match b, hb with
      | ⟨0, _⟩, hb => exact absurd rfl hb
      | ⟨1, _⟩, _ => rfl
    · show 4 + β.val = 2 * 2 + β.val; omega

theorem cols_val (X : Fin 64 → Fin 512 → R) (Adj : Fin 512 → Fin 512 → R) (x1 : Vec Ideal S3x1x2x512 .f32) (p : Fin 32)
    (hA : ∀ (k : Fin 3) (β : Fin 2) (n : Fin 512), x1 (ix4 k (0 : Fin 1) β n) = acolK X Adj p n ⟨2 * k.val + β.val, by omega⟩)
    (n : Fin 512) (r : Fin 6) : cols (F := Ideal) x1 (ix2 n r) = acolK X Adj p n r := by
  have e : r = (⟨2 * (⟨r.val / 2, by omega⟩ : Fin 3).val + (⟨r.val % 2, by omega⟩ : Fin 2).val, by
      show 2 * (r.val / 2) + r.val % 2 < 6; omega⟩ : Fin 6) :=
    Fin.ext (by show r.val = 2 * (r.val / 2) + r.val % 2; omega)
  exact (congrArg (fun r' => cols (F := Ideal) x1 (ix2 n r')) e).trans
    (((cols_at x1 n ⟨r.val / 2, by omega⟩ ⟨r.val % 2, by omega⟩).trans (hA ⟨r.val / 2, by omega⟩ ⟨r.val % 2, by omega⟩ n)).trans
      (congrArg (acolK X Adj p n) e.symm))

theorem ld_wa0 (x3 : Vec Ideal S6x256 .f32) : View.ld x3 rWa0 = x3 := View.ld_unit_zero (S := S6x256) off2_zero _ x3
theorem ld_b256 (x5 : Vec Ideal S1x256 .f32) : View.ld x5 rB256 = x5 := View.ld_unit_zero (S := S1x256) off2_zero _ x5
theorem ld_wac0 (x6 : Vec Ideal S6x128 .f32) : View.ld x6 rWac0 = x6 := View.ld_unit_zero (S := S6x128) off2_zero _ x6
theorem ld_b128 (x8 : Vec Ideal S1x128 .f32) : View.ld x8 rB128 = x8 := View.ld_unit_zero (S := S1x128) off2_zero _ x8

theorem ld_gate (x4 : Vec Ideal S3x128x256 .f32) (l : Fin 128) (q : Fin 256) :
    View.ld x4 rGate0 (ix3 (0 : Fin 1) l q) = x4 (ix3 (0 : Fin 3) l q)
    ∧ View.ld x4 rGate1 (ix3 (0 : Fin 1) l q) = x4 (ix3 (1 : Fin 3) l q)
    ∧ View.ld x4 rGate2 (ix3 (0 : Fin 1) l q) = x4 (ix3 (2 : Fin 3) l q) := by
  refine ⟨ld_at x4 rGate0 _ _ fun a => ?_, ld_at x4 rGate1 _ _ fun a => ?_, ld_at x4 rGate2 _ _ fun a => ?_⟩ <;>
    (match a with
      | ⟨0, _⟩ => rfl
      | ⟨1, _⟩ => (show l.val = 0 + 1 * l.val; omega)
      | ⟨2, _⟩ => (show q.val = 0 + 1 * q.val; omega))

theorem ld_cand (x7 : Vec Ideal S3x128x128 .f32) (l l' : Fin 128) :
    View.ld x7 rCand0 (ix3 (0 : Fin 1) l l') = x7 (ix3 (0 : Fin 3) l l')
    ∧ View.ld x7 rCand1 (ix3 (0 : Fin 1) l l') = x7 (ix3 (1 : Fin 3) l l')
    ∧ View.ld x7 rCand2 (ix3 (0 : Fin 1) l l') = x7 (ix3 (2 : Fin 3) l l') := by
  refine ⟨ld_at x7 rCand0 _ _ fun a => ?_, ld_at x7 rCand1 _ _ fun a => ?_, ld_at x7 rCand2 _ _ fun a => ?_⟩ <;>
    (match a with
      | ⟨0, _⟩ => rfl
      | ⟨1, _⟩ => (show l.val = 0 + 1 * l.val; omega)
      | ⟨2, _⟩ => (show l'.val = 0 + 1 * l'.val; omega))

section Cell0
variable (X : Fin 64 → Fin 512 → R) (Hs : Fin 2 → Fin 64 → Fin 32768 → R) (Adj : Fin 512 → Fin 512 → R)
  (Wru0 : Fin 195 → Fin 128 → R) (bru0 : Fin 128 → R) (Wc0 : Fin 195 → Fin 64 → R) (bc0 : Fin 64 → R)
  (x0 : Vec Ideal S512x512 .f32) (x1 : Vec Ideal S3x1x2x512 .f32) (x2 : Vec Ideal S2x2x512x64 .f32) (x3 : Vec Ideal S6x256 .f32)
  (x4 : Vec Ideal S3x128x256 .f32) (x5 : Vec Ideal S1x256 .f32) (x6 : Vec Ideal S6x128 .f32) (x7 : Vec Ideal S3x128x128 .f32)
  (x8 : Vec Ideal S1x128 .f32) (p : Fin 32)
  (hS : ∀ i j : Fin 512, x0 (ix2 i j) = supK Adj i j)
  (hA : ∀ (k : Fin 3) (β : Fin 2) (n : Fin 512), x1 (ix4 k (0 : Fin 1) β n) = acolK X Adj p n ⟨2 * k.val + β.val, by omega⟩)
  (hH : ∀ (L β : Fin 2) (n : Fin 512) (u : Fin 64), x2 (ix4 L β n u) = stK Hs L p n (lane β u))
  (hwa : ∀ (r : Fin 6) (q : Fin 256), x3 (ix2 r q) = waRu0 Wru0 r q)
  (hwh : ∀ (k : Fin 3) (l : Fin 128) (q : Fin 256), x4 (ix3 k l q) = whRu0 Wru0 k l q)
  (hb : ∀ q : Fin 256, x5 (ix2 (0 : Fin 1) q) = bRu0 bru0 q)
  (hwac : ∀ (r : Fin 6) (l : Fin 128), x6 (ix2 r l) = waC0 Wc0 r l)
  (hwhc : ∀ (k : Fin 3) (l l' : Fin 128), x7 (ix3 k l l') = whC0 Wc0 k l l')
  (hbc : ∀ l : Fin 128, x8 (ix2 (0 : Fin 1) l) = bC0 bc0 l)

include hA hH hwa hwh hb in

theorem gate0a_val (n : Fin 512) (q : Fin 256) :
    gate0a (F := Ideal) x1 x2 x3 x4 x5 (ix2 n q)
      = (bRu0 bru0 q + mm (acolK X Adj p) (waRu0 Wru0) n q) + mm (stK Hs 0 p) (whRu0 Wru0 0) n q := by
  unfold gate0a k1_pay8
  refine (addf_apply _ _ _).trans (congrArg₂ (· + ·) ((addf_apply _ _ _).trans (congrArg₂ (· + ·) ?_ ?_)) ?_)
  · refine (broadcastTo_1b_ab_apply _ _ n q).trans ?_
    rw [shapeCast_self, ld_b256]
    exact hb q
  · refine (mm_at _ rfl rfl rfl rfl rfl rfl _ _ _ n q).trans ?_
    exact Finset.sum_congr rfl fun c _ => congrArg₂ (· * ·) (cols_val X Adj x1 p hA n c)
      (by rw [shapeCast_self, ld_wa0]; exact hwa c q)
  · refine (mm_at _ rfl rfl rfl rfl rfl rfl _ _ _ n q).trans ?_
    exact Finset.sum_congr rfl fun c _ => congrArg₂ (· * ·) (st0_val Hs x2 p hH n c)
      ((shapeCast_1ab_ab_apply _ _ c q).trans (((ld_gate x4 c q).1).trans (hwh 0 c q)))

include hS hH in

theorem st0d1_val (n : Fin 512) (l : Fin 128) :
    st0d1 (F := Ideal) x0 x2 (ix2 n l) = diff (supK Adj) (stK Hs 0 p) n l := by
  unfold st0d1 k1_pay9
  refine (mm_at _ rfl rfl rfl rfl rfl rfl _ _ _ n l).trans ?_
  exact Finset.sum_congr rfl fun c _ => congrArg₂ (· * ·) (supp_val Adj x0 hS n c) (st0_val Hs x2 p hH c l)

include hS hA hH hwa hwh hb in

theorem gates0_val (n : Fin 512) (q : Fin 256) :
    k1_pay10 (F := Ideal) (supp x0) (st0 x2) (gate0a x1 x2 x3 x4 x5) (st0d1 x0 x2) (View.ld x4 rGate1) (View.ld x4 rGate2) (ix2 n q)
      = Ideal.logistic (ruK X Hs Adj Wru0 bru0 p n q) := by
  unfold k1_pay10
  show Ideal.logistic _ = _
  refine congrArg Ideal.logistic ?_
  refine (addf_apply _ _ _).trans (congrArg₂ (· + ·) ((addf_apply _ _ _).trans (congrArg₂ (· + ·)
    (gate0a_val X Hs Adj Wru0 bru0 x1 x2 x3 x4 x5 p hA hH hwa hwh hb n q) ?_)) ?_)
  · refine (mm_at _ rfl rfl rfl rfl rfl rfl _ _ _ n q).trans ?_
    exact Finset.sum_congr rfl fun c _ => congrArg₂ (· * ·) (st0d1_val Hs Adj x0 x2 p hS hH n c)
      ((shapeCast_1ab_ab_apply _ _ c q).trans (((ld_gate x4 c q).2.1).trans (hwh 1 c q)))
  · refine (mm_at _ rfl rfl rfl rfl rfl rfl _ _ _ n q).trans ?_
    refine Finset.sum_congr rfl fun c _ => congrArg₂ (· * ·) ?_
      ((shapeCast_1ab_ab_apply _ _ c q).trans (((ld_gate x4 c q).2.2).trans (hwh 2 c q)))
    refine (subf_apply _ _ _).trans (congrArg₂ (· - ·) ((mulf_apply _ _ _).trans (congrArg₂ (· * ·) rfl ?_)) (st0_val Hs x2 p hH n c))
    refine (mm_at _ rfl rfl rfl rfl rfl rfl _ _ _ n c).trans ?_
    exact Finset.sum_congr rfl fun j _ => congrArg₂ (· * ·) (supp_val Adj x0 hS n j) (st0d1_val Hs Adj x0 x2 p hS hH j c)

include hS hA hH hwa hwh hb in

theorem upd0_val (n : Fin 512) (l : Fin 128) :
    upd0 (F := Ideal) x0 x1 x2 x3 x4 x5 (ix2 n l) = uK X Hs Adj Wru0 bru0 p n l := by
  unfold upd0 k1_pay11
  refine (extractStridedSlice_apply _ _ _ (ix2 n l) (ix2 n (highQ l)) fun a => ?_).trans
    (gates0_val X Hs Adj Wru0 bru0 x0 x1 x2 x3 x4 x5 p hS hA hH hwa hwh hb n (highQ l))
  match a with
  | ⟨0, _⟩ => (show n.val = 0 + n.val; omega)
  | ⟨1, _⟩ => rfl

include hS hA hH hwa hwh hb in

theorem rst0_val (n : Fin 512) (l : Fin 128) :
    rst0 (F := Ideal) x0 x1 x2 x3 x4 x5 (ix2 n l) = rhK X Hs Adj Wru0 bru0 p n l := by
  unfold rst0 k1_pay12
  refine (mulf_apply _ _ _).trans (congrArg₂ (· * ·) ?_ (st0_val Hs x2 p hH n l))
  refine (extractStridedSlice_apply _ _ _ (ix2 n l) (ix2 n (lowQ l)) fun a => ?_).trans
    (gates0_val X Hs Adj Wru0 bru0 x0 x1 x2 x3 x4 x5 p hS hA hH hwa hwh hb n (lowQ l))
  match a with
  | ⟨0, _⟩ => (show n.val = 0 + n.val; omega)
  | ⟨1, _⟩ => (show l.val = 0 + l.val; omega)

include hS hA hH hwa hwh hb in

theorem rst0d1_val (n : Fin 512) (l : Fin 128) :
    k1_pay13 (F := Ideal) (supp x0) (st0 x2) (gate0a x1 x2 x3 x4 x5) (st0d1 x0 x2) (View.ld x4 rGate1) (View.ld x4 rGate2) (ix2 n l)
      = diff (supK Adj) (rhK X Hs Adj Wru0 bru0 p) n l := by
  unfold k1_pay13
  refine (mm_at _ rfl rfl rfl rfl rfl rfl _ _ _ n l).trans ?_
  exact Finset.sum_congr rfl fun c _ => congrArg₂ (· * ·) (supp_val Adj x0 hS n c)
    (rst0_val X Hs Adj Wru0 bru0 x0 x1 x2 x3 x4 x5 p hS hA hH hwa hwh hb c l)

include hS hA hH hwa hwh hb in

theorem rst0d2_val (n : Fin 512) (l : Fin 128) :
    rst0d2 (F := Ideal) x0 x1 x2 x3 x4 x5 (ix2 n l) = diff (supK Adj) (diff (supK Adj) (rhK X Hs Adj Wru0 bru0 p)) n l := by
  unfold rst0d2 k1_pay15
  refine (mm_at _ rfl rfl rfl rfl rfl rfl _ _ _ n l).trans ?_
  exact Finset.sum_congr rfl fun c _ => congrArg₂ (· * ·) (supp_val Adj x0 hS n c)
    (rst0d1_val X Hs Adj Wru0 bru0 x0 x1 x2 x3 x4 x5 p hS hA hH hwa hwh hb c l)

include hS hA hH hwa hwh hb hwac hwhc hbc in

theorem cand0a_val (n : Fin 512) (l : Fin 128) :
    cand0a (F := Ideal) x0 x1 x2 x3 x4 x5 x6 x7 x8 (ix2 n l)
      = ((bC0 bc0 l + mm (acolK X Adj p) (waC0 Wc0) n l) + mm (rhK X Hs Adj Wru0 bru0 p) (whC0 Wc0 0) n l)
        + mm (diff (supK Adj) (rhK X Hs Adj Wru0 bru0 p)) (whC0 Wc0 1) n l := by
  unfold cand0a k1_pay14
  refine (addf_apply _ _ _).trans (congrArg₂ (· + ·) ((addf_apply _ _ _).trans (congrArg₂ (· + ·)
    ((addf_apply _ _ _).trans (congrArg₂ (· + ·) ?_ ?_)) ?_)) ?_)
  · refine (broadcastTo_1b_ab_apply _ _ n l).trans ?_
    rw [shapeCast_self, ld_b128]
    exact hbc l
  · refine (mm_at _ rfl rfl rfl rfl rfl rfl _ _ _ n l).trans ?_
    exact Finset.sum_congr rfl fun c _ => congrArg₂ (· * ·) (cols_val X Adj x1 p hA n c)
      (by rw [shapeCast_self, ld_wac0]; exact hwac c l)
  · refine (mm_at _ rfl rfl rfl rfl rfl rfl _ _ _ n l).trans ?_
    exact Finset.sum_congr rfl fun c _ => congrArg₂ (· * ·)
      (rst0_val X Hs Adj Wru0 bru0 x0 x1 x2 x3 x4 x5 p hS hA hH hwa hwh hb n c)
      ((shapeCast_1ab_ab_apply _ _ c l).trans (((ld_cand x7 c l).1).trans (hwhc 0 c l)))
  · refine (mm_at _ rfl rfl rfl rfl rfl rfl _ _ _ n l).trans ?_
    exact Finset.sum_congr rfl fun c _ => congrArg₂ (· * ·)
      (rst0d1_val X Hs Adj Wru0 bru0 x0 x1 x2 x3 x4 x5 p hS hA hH hwa hwh hb n c)
      ((shapeCast_1ab_ab_apply _ _ c l).trans (((ld_cand x7 c l).2.1).trans (hwhc 1 c l)))

include hS hA hH hwa hwh hb hwac hwhc hbc in

theorem new0_eq (n : Fin 512) (l : Fin 128) :
    new0 (F := Ideal) x0 x1 x2 x3 x4 x5 x6 x7 x8 (ix2 n l) = h0K X Hs Adj Wru0 bru0 Wc0 bc0 p n l := by
  unfold new0 k1_pay17
  have hu := upd0_val X Hs Adj Wru0 bru0 x0 x1 x2 x3 x4 x5 p hS hA hH hwa hwh hb n l
  refine (addf_apply _ _ _).trans (congrArg₂ (· + ·)
    ((mulf_apply _ _ _).trans (congrArg₂ (· * ·) hu (st0_val Hs x2 p hH n l)))
    ((mulf_apply _ _ _).trans (congrArg₂ (· * ·) ((subf_apply _ _ _).trans (congrArg₂ (· - ·) rfl hu)) ?_)))
  show Ideal.tanh _ = _
  refine congrArg Ideal.tanh ?_
  refine (addf_apply _ _ _).trans (congrArg₂ (· + ·)
    (cand0a_val X Hs Adj Wru0 bru0 Wc0 bc0 x0 x1 x2 x3 x4 x5 x6 x7 x8 p hS hA hH hwa hwh hb hwac hwhc hbc n l) ?_)
  refine (mm_at _ rfl rfl rfl rfl rfl rfl _ _ _ n l).trans ?_
  refine Finset.sum_congr rfl fun c _ => congrArg₂ (· * ·) ?_
    ((shapeCast_1ab_ab_apply _ _ c l).trans (((ld_cand x7 c l).2.2).trans (hwhc 2 c l)))
  exact (subf_apply _ _ _).trans (congrArg₂ (· - ·)
    ((mulf_apply _ _ _).trans (congrArg₂ (· * ·) rfl
      (rst0d2_val X Hs Adj Wru0 bru0 x0 x1 x2 x3 x4 x5 p hS hA hH hwa hwh hb n c)))
    (rst0_val X Hs Adj Wru0 bru0 x0 x1 x2 x3 x4 x5 p hS hA hH hwa hwh hb n c))

include hS hA hH hwa hwh hb hwac hwhc hbc in

theorem hid0_eq (n : Fin 512) (u : Fin 64) :
    k1_pay18 (F := Ideal) (st0 x2) (upd0 x0 x1 x2 x3 x4 x5) (rst0 x0 x1 x2 x3 x4 x5) (cand0a x0 x1 x2 x3 x4 x5 x6 x7 x8) (rst0d2 x0 x1 x2 x3 x4 x5) (k1_pay16 (F := Ideal)) (View.ld x7 rCand2) (ix4 (0 : Fin 1) (0 : Fin 1) n u)
        = h0K X Hs Adj Wru0 bru0 Wc0 bc0 p n (lane 0 u)
    ∧ k1_pay19 (F := Ideal) (st0 x2) (upd0 x0 x1 x2 x3 x4 x5) (rst0 x0 x1 x2 x3 x4 x5) (cand0a x0 x1 x2 x3 x4 x5 x6 x7 x8) (rst0d2 x0 x1 x2 x3 x4 x5) (k1_pay16 (F := Ideal)) (View.ld x7 rCand2) (ix4 (0 : Fin 1) (0 : Fin 1) n u)
        = h0K X Hs Adj Wru0 bru0 Wc0 bc0 p n (lane 1 u) := by
  constructor
  · unfold k1_pay18
    refine (cast_ab_11ab _ _ 0 0 n u).trans ?_
    refine (extractStridedSlice_apply _ _ _ (ix2 n u) (ix2 n (lane 0 u)) fun a => ?_).trans
      (new0_eq X Hs Adj Wru0 bru0 Wc0 bc0 x0 x1 x2 x3 x4 x5 x6 x7 x8 p hS hA hH hwa hwh hb hwac hwhc hbc n (lane 0 u))
    match a with
    | ⟨0, _⟩ => (show n.val = 0 + n.val; omega)
    | ⟨1, _⟩ => (show 64 * 0 + u.val = 0 + u.val; omega)
  · unfold k1_pay19
    refine (cast_ab_11ab _ _ 0 0 n u).trans ?_
    refine (extractStridedSlice_apply _ _ _ (ix2 n u) (ix2 n (lane 1 u)) fun a => ?_).trans
      (new0_eq X Hs Adj Wru0 bru0 Wc0 bc0 x0 x1 x2 x3 x4 x5 x6 x7 x8 p hS hA hH hwa hwh hb hwac hwhc hbc n (lane 1 u))
    match a with
    | ⟨0, _⟩ => (show n.val = 0 + n.val; omega)
    | ⟨1, _⟩ => (show 64 * 1 + u.val = 64 + u.val; omega)

end Cell0

theorem new0_val (X : Fin 64 → Fin 512 → R) (Hs : Fin 2 → Fin 64 → Fin 32768 → R) (Adj : Fin 512 → Fin 512 → R)
    (Wru0 : Fin 195 → Fin 128 → R) (bru0 : Fin 128 → R) (Wc0 : Fin 195 → Fin 64 → R) (bc0 : Fin 64 → R)
    (x0 : Vec Ideal S512x512 .f32) (x1 : Vec Ideal S3x1x2x512 .f32) (x2 : Vec Ideal S2x2x512x64 .f32) (x3 : Vec Ideal S6x256 .f32) (x4 : Vec Ideal S3x128x256 .f32) (x5 : Vec Ideal S1x256 .f32) (x6 : Vec Ideal S6x128 .f32) (x7 : Vec Ideal S3x128x128 .f32) (x8 : Vec Ideal S1x128 .f32) (p : Fin 32)
    (hS : ∀ i j : Fin 512, x0 (ix2 i j) = supK Adj i j)
    (hA : ∀ (k : Fin 3) (β : Fin 2) (n : Fin 512), x1 (ix4 k (0 : Fin 1) β n) = acolK X Adj p n ⟨2 * k.val + β.val, by omega⟩)
    (hH : ∀ (L β : Fin 2) (n : Fin 512) (u : Fin 64), x2 (ix4 L β n u) = stK Hs L p n (lane β u))
    (hwa : ∀ (r : Fin 6) (q : Fin 256), x3 (ix2 r q) = waRu0 Wru0 r q)
    (hwh : ∀ (k : Fin 3) (l : Fin 128) (q : Fin 256), x4 (ix3 k l q) = whRu0 Wru0 k l q)
    (hb : ∀ q : Fin 256, x5 (ix2 (0 : Fin 1) q) = bRu0 bru0 q)
    (hwac : ∀ (r : Fin 6) (l : Fin 128), x6 (ix2 r l) = waC0 Wc0 r l)
    (hwhc : ∀ (k : Fin 3) (l l' : Fin 128), x7 (ix3 k l l') = whC0 Wc0 k l l')
    (hbc : ∀ l : Fin 128, x8 (ix2 (0 : Fin 1) l) = bC0 bc0 l) (n : Fin 512) (l : Fin 128) :
    new0 (F := Ideal) x0 x1 x2 x3 x4 x5 x6 x7 x8 (ix2 n l) = h0K X Hs Adj Wru0 bru0 Wc0 bc0 p n l :=
  new0_eq X Hs Adj Wru0 bru0 Wc0 bc0 x0 x1 x2 x3 x4 x5 x6 x7 x8 p hS hA hH hwa hwh hb hwac hwhc hbc n l

theorem hid0_val (X : Fin 64 → Fin 512 → R) (Hs : Fin 2 → Fin 64 → Fin 32768 → R) (Adj : Fin 512 → Fin 512 → R)
    (Wru0 : Fin 195 → Fin 128 → R) (bru0 : Fin 128 → R) (Wc0 : Fin 195 → Fin 64 → R) (bc0 : Fin 64 → R)
    (x0 : Vec Ideal S512x512 .f32) (x1 : Vec Ideal S3x1x2x512 .f32) (x2 : Vec Ideal S2x2x512x64 .f32) (x3 : Vec Ideal S6x256 .f32) (x4 : Vec Ideal S3x128x256 .f32) (x5 : Vec Ideal S1x256 .f32) (x6 : Vec Ideal S6x128 .f32) (x7 : Vec Ideal S3x128x128 .f32) (x8 : Vec Ideal S1x128 .f32) (p : Fin 32)
    (hS : ∀ i j : Fin 512, x0 (ix2 i j) = supK Adj i j)
    (hA : ∀ (k : Fin 3) (β : Fin 2) (n : Fin 512), x1 (ix4 k (0 : Fin 1) β n) = acolK X Adj p n ⟨2 * k.val + β.val, by omega⟩)
    (hH : ∀ (L β : Fin 2) (n : Fin 512) (u : Fin 64), x2 (ix4 L β n u) = stK Hs L p n (lane β u))
    (hwa : ∀ (r : Fin 6) (q : Fin 256), x3 (ix2 r q) = waRu0 Wru0 r q)
    (hwh : ∀ (k : Fin 3) (l : Fin 128) (q : Fin 256), x4 (ix3 k l q) = whRu0 Wru0 k l q)
    (hb : ∀ q : Fin 256, x5 (ix2 (0 : Fin 1) q) = bRu0 bru0 q)
    (hwac : ∀ (r : Fin 6) (l : Fin 128), x6 (ix2 r l) = waC0 Wc0 r l)
    (hwhc : ∀ (k : Fin 3) (l l' : Fin 128), x7 (ix3 k l l') = whC0 Wc0 k l l')
    (hbc : ∀ l : Fin 128, x8 (ix2 (0 : Fin 1) l) = bC0 bc0 l) (n : Fin 512) (u : Fin 64) :
    k1_pay18 (F := Ideal) (st0 x2) (upd0 x0 x1 x2 x3 x4 x5) (rst0 x0 x1 x2 x3 x4 x5) (cand0a x0 x1 x2 x3 x4 x5 x6 x7 x8) (rst0d2 x0 x1 x2 x3 x4 x5) (k1_pay16 (F := Ideal)) (View.ld x7 rCand2) (ix4 (0 : Fin 1) (0 : Fin 1) n u)
        = h0K X Hs Adj Wru0 bru0 Wc0 bc0 p n (lane 0 u)
    ∧ k1_pay19 (F := Ideal) (st0 x2) (upd0 x0 x1 x2 x3 x4 x5) (rst0 x0 x1 x2 x3 x4 x5) (cand0a x0 x1 x2 x3 x4 x5 x6 x7 x8) (rst0d2 x0 x1 x2 x3 x4 x5) (k1_pay16 (F := Ideal)) (View.ld x7 rCand2) (ix4 (0 : Fin 1) (0 : Fin 1) n u)
        = h0K X Hs Adj Wru0 bru0 Wc0 bc0 p n (lane 1 u) :=
  hid0_eq X Hs Adj Wru0 bru0 Wc0 bc0 x0 x1 x2 x3 x4 x5 x6 x7 x8 p hS hA hH hwa hwh hb hwac hwhc hbc n u

end Cert.KernelIdeal.Hand

end
-- ==== Proof.KI.Val1Cell1.lean ====
import proofs.«105208_g19069654794669_cont_sun_m_30_30_alg».proof.Proof.Spec
import proofs.«105208_g19069654794669_cont_sun_m_30_30_alg».proof.Proof.KI.Frame1
import proofs.«105208_g19069654794669_cont_sun_m_30_30_alg».proof.Proof.KI.Val1Cell0
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Cert.Spec

namespace Cell1

abbrev Dg := dot_S512x128_S128x256_S512x256_1_0_0_1_n_n

theorem Dg_l0 (j : S512x256.Idx) (k : Dg.contr.Idx) : (Dg.lhsIdx j k 0 : ℕ) = j 0 := by
  simp [DotDims.lhsIdx, Dg, dot_S512x128_S128x256_S512x256_1_0_0_1_n_n]; rfl
theorem Dg_l1 (j : S512x256.Idx) (k : Dg.contr.Idx) : (Dg.lhsIdx j k 1 : ℕ) = k ⟨0, by decide⟩ := by
  simp [DotDims.lhsIdx, Dg, dot_S512x128_S128x256_S512x256_1_0_0_1_n_n]; rfl
theorem Dg_r0 (j : S512x256.Idx) (k : Dg.contr.Idx) : (Dg.rhsIdx j k 0 : ℕ) = k ⟨0, by decide⟩ := by
  simp [DotDims.rhsIdx, Dg, dot_S512x128_S128x256_S512x256_1_0_0_1_n_n]; rfl
theorem Dg_r1 (j : S512x256.Idx) (k : Dg.contr.Idx) : (Dg.rhsIdx j k 1 : ℕ) = j 1 := by
  simp [DotDims.rhsIdx, Dg, dot_S512x128_S128x256_S512x256_1_0_0_1_n_n]; rfl

theorem gateProd_apply (A : FVec Ideal S512x128 .f32) (B : FVec Ideal S128x256 .f32) (n : Fin 512) (q : Fin 256) :
    matmul Dg none A B (constant (F := Ideal) S512x256 .f32 0x00000000#32) (ix2 n q) = ∑ l : Fin 128, A (ix2 n l) * B (ix2 l q) := by
  refine (Ideal.matmul_constant_zero_apply Dg none A B (ix2 n q)).trans ?_
  rw [← Equiv.sum_comp (contrEquiv1 Dg 128 rfl rfl).symm]
  refine Finset.sum_congr rfl fun l _ => ?_
  congr 2
  · apply Shape.idx_ext₂
    · rw [Dg_l0]
    · rw [Dg_l1]; exact contrEquiv1_symm_val Dg 128 rfl rfl l
  · apply Shape.idx_ext₂
    · rw [Dg_r0]; exact contrEquiv1_symm_val Dg 128 rfl rfl l
    · rw [Dg_r1]

abbrev Dc := dot_S512x128_S128x128_S512x128_1_0_0_1_n_n

theorem Dc_l0 (j : S512x128.Idx) (k : Dc.contr.Idx) : (Dc.lhsIdx j k 0 : ℕ) = j 0 := by
  simp [DotDims.lhsIdx, Dc, dot_S512x128_S128x128_S512x128_1_0_0_1_n_n]; rfl
theorem Dc_l1 (j : S512x128.Idx) (k : Dc.contr.Idx) : (Dc.lhsIdx j k 1 : ℕ) = k ⟨0, by decide⟩ := by
  simp [DotDims.lhsIdx, Dc, dot_S512x128_S128x128_S512x128_1_0_0_1_n_n]; rfl
theorem Dc_r0 (j : S512x128.Idx) (k : Dc.contr.Idx) : (Dc.rhsIdx j k 0 : ℕ) = k ⟨0, by decide⟩ := by
  simp [DotDims.rhsIdx, Dc, dot_S512x128_S128x128_S512x128_1_0_0_1_n_n]; rfl
theorem Dc_r1 (j : S512x128.Idx) (k : Dc.contr.Idx) : (Dc.rhsIdx j k 1 : ℕ) = j 1 := by
  simp [DotDims.rhsIdx, Dc, dot_S512x128_S128x128_S512x128_1_0_0_1_n_n]; rfl

theorem candProd_apply (A : FVec Ideal S512x128 .f32) (B : FVec Ideal S128x128 .f32) (n : Fin 512) (q : Fin 128) :
    matmul Dc none A B (constant (F := Ideal) S512x128 .f32 0x00000000#32) (ix2 n q) = ∑ l : Fin 128, A (ix2 n l) * B (ix2 l q) := by
  refine (Ideal.matmul_constant_zero_apply Dc none A B (ix2 n q)).trans ?_
  rw [← Equiv.sum_comp (contrEquiv1 Dc 128 rfl rfl).symm]
  refine Finset.sum_congr rfl fun l _ => ?_
  congr 2
  · apply Shape.idx_ext₂
    · rw [Dc_l0]
    · rw [Dc_l1]; exact contrEquiv1_symm_val Dc 128 rfl rfl l
  · apply Shape.idx_ext₂
    · rw [Dc_r0]; exact contrEquiv1_symm_val Dc 128 rfl rfl l
    · rw [Dc_r1]

abbrev Ds := dot_S512x512_S512x128_S512x128_1_0_0_1_n_n

theorem Ds_l0 (j : S512x128.Idx) (k : Ds.contr.Idx) : (Ds.lhsIdx j k 0 : ℕ) = j 0 := by
  simp [DotDims.lhsIdx, Ds, dot_S512x512_S512x128_S512x128_1_0_0_1_n_n]; rfl
theorem Ds_l1 (j : S512x128.Idx) (k : Ds.contr.Idx) : (Ds.lhsIdx j k 1 : ℕ) = k ⟨0, by decide⟩ := by
  simp [DotDims.lhsIdx, Ds, dot_S512x512_S512x128_S512x128_1_0_0_1_n_n]; rfl
theorem Ds_r0 (j : S512x128.Idx) (k : Ds.contr.Idx) : (Ds.rhsIdx j k 0 : ℕ) = k ⟨0, by decide⟩ := by
  simp [DotDims.rhsIdx, Ds, dot_S512x512_S512x128_S512x128_1_0_0_1_n_n]; rfl
theorem Ds_r1 (j : S512x128.Idx) (k : Ds.contr.Idx) : (Ds.rhsIdx j k 1 : ℕ) = j 1 := by
  simp [DotDims.rhsIdx, Ds, dot_S512x512_S512x128_S512x128_1_0_0_1_n_n]; rfl

theorem diffProd_apply (A : FVec Ideal S512x512 .f32) (B : FVec Ideal S512x128 .f32) (n : Fin 512) (q : Fin 128) :
    matmul Ds none A B (constant (F := Ideal) S512x128 .f32 0x00000000#32) (ix2 n q) = ∑ l : Fin 512, A (ix2 n l) * B (ix2 l q) := by
  refine (Ideal.matmul_constant_zero_apply Ds none A B (ix2 n q)).trans ?_
  rw [← Equiv.sum_comp (contrEquiv1 Ds 512 rfl rfl).symm]
  refine Finset.sum_congr rfl fun l _ => ?_
  congr 2
  · apply Shape.idx_ext₂
    · rw [Ds_l0]
    · rw [Ds_l1]; exact contrEquiv1_symm_val Ds 512 rfl rfl l
  · apply Shape.idx_ext₂
    · rw [Ds_r0]; exact contrEquiv1_symm_val Ds 512 rfl rfl l
    · rw [Ds_r1]

abbrev Dw := dot_S512x512_S512x256_S512x256_1_0_0_1_n_n

theorem Dw_l0 (j : S512x256.Idx) (k : Dw.contr.Idx) : (Dw.lhsIdx j k 0 : ℕ) = j 0 := by
  simp [DotDims.lhsIdx, Dw, dot_S512x512_S512x256_S512x256_1_0_0_1_n_n]; rfl
theorem Dw_l1 (j : S512x256.Idx) (k : Dw.contr.Idx) : (Dw.lhsIdx j k 1 : ℕ) = k ⟨0, by decide⟩ := by
  simp [DotDims.lhsIdx, Dw, dot_S512x512_S512x256_S512x256_1_0_0_1_n_n]; rfl
theorem Dw_r0 (j : S512x256.Idx) (k : Dw.contr.Idx) : (Dw.rhsIdx j k 0 : ℕ) = k ⟨0, by decide⟩ := by
  simp [DotDims.rhsIdx, Dw, dot_S512x512_S512x256_S512x256_1_0_0_1_n_n]; rfl
theorem Dw_r1 (j : S512x256.Idx) (k : Dw.contr.Idx) : (Dw.rhsIdx j k 1 : ℕ) = j 1 := by
  simp [DotDims.rhsIdx, Dw, dot_S512x512_S512x256_S512x256_1_0_0_1_n_n]; rfl

theorem diffPairProd_apply (A : FVec Ideal S512x512 .f32) (B : FVec Ideal S512x256 .f32) (n : Fin 512) (q : Fin 256) :
    matmul Dw none A B (constant (F := Ideal) S512x256 .f32 0x00000000#32) (ix2 n q) = ∑ l : Fin 512, A (ix2 n l) * B (ix2 l q) := by
  refine (Ideal.matmul_constant_zero_apply Dw none A B (ix2 n q)).trans ?_
  rw [← Equiv.sum_comp (contrEquiv1 Dw 512 rfl rfl).symm]
  refine Finset.sum_congr rfl fun l _ => ?_
  congr 2
  · apply Shape.idx_ext₂
    · rw [Dw_l0]
    · rw [Dw_l1]; exact contrEquiv1_symm_val Dw 512 rfl rfl l
  · apply Shape.idx_ext₂
    · rw [Dw_r0]; exact contrEquiv1_symm_val Dw 512 rfl rfl l
    · rw [Dw_r1]

abbrev Dp := dot_S512x128_S128x2_S512x2_1_0_0_1_n_n

theorem Dp_l0 (j : S512x2.Idx) (k : Dp.contr.Idx) : (Dp.lhsIdx j k 0 : ℕ) = j 0 := by
  simp [DotDims.lhsIdx, Dp, dot_S512x128_S128x2_S512x2_1_0_0_1_n_n]; rfl
theorem Dp_l1 (j : S512x2.Idx) (k : Dp.contr.Idx) : (Dp.lhsIdx j k 1 : ℕ) = k ⟨0, by decide⟩ := by
  simp [DotDims.lhsIdx, Dp, dot_S512x128_S128x2_S512x2_1_0_0_1_n_n]; rfl
theorem Dp_r0 (j : S512x2.Idx) (k : Dp.contr.Idx) : (Dp.rhsIdx j k 0 : ℕ) = k ⟨0, by decide⟩ := by
  simp [DotDims.rhsIdx, Dp, dot_S512x128_S128x2_S512x2_1_0_0_1_n_n]; rfl
theorem Dp_r1 (j : S512x2.Idx) (k : Dp.contr.Idx) : (Dp.rhsIdx j k 1 : ℕ) = j 1 := by
  simp [DotDims.rhsIdx, Dp, dot_S512x128_S128x2_S512x2_1_0_0_1_n_n]; rfl

theorem projProd_apply (A : FVec Ideal S512x128 .f32) (B : FVec Ideal S128x2 .f32) (n : Fin 512) (q : Fin 2) :
    matmul Dp none A B (constant (F := Ideal) S512x2 .f32 0x00000000#32) (ix2 n q) = ∑ l : Fin 128, A (ix2 n l) * B (ix2 l q) := by
  refine (Ideal.matmul_constant_zero_apply Dp none A B (ix2 n q)).trans ?_
  rw [← Equiv.sum_comp (contrEquiv1 Dp 128 rfl rfl).symm]
  refine Finset.sum_congr rfl fun l _ => ?_
  congr 2
  · apply Shape.idx_ext₂
    · rw [Dp_l0]
    · rw [Dp_l1]; exact contrEquiv1_symm_val Dp 128 rfl rfl l
  · apply Shape.idx_ext₂
    · rw [Dp_r0]; exact contrEquiv1_symm_val Dp 128 rfl rfl l
    · rw [Dp_r1]

theorem zeros2 : (![0, 0] : Fin 2 → Nat) = fun _ => 0 := funext fun a => by fin_cases a <;> rfl

-- A slab of the first axis, flattened to a matrix, reads the array at that slab.
theorem gateSlab {κ : ℕ} (inb : ∀ a, (![κ, 0, 0] : Fin 3 → ℕ) a + S1x128x256.size a ≤ S3x128x256.size a)
    (x : Vec Ideal S3x128x256 .f32) (k : Fin 3) (hk : k.val = κ) (l : Fin 128) (q : Fin 256) :
    shapeCast S128x256 (View.ld x (Rect.unit (s := S3x128x256) ![κ, 0, 0] S1x128x256.size inb)) shapeCasts_S1x128x256_S128x256 (ix2 l q)
      = x (ix3 k l q) := by
  refine (shapeCast_apply (View.ld x _) shapeCasts_S1x128x256_S128x256 (ix2 l q) (ix3 0 l q) ?_).trans ?_
  · rw [Shape.rowMajor_val_three, Shape.rowMajor_val_two]
    show (0 * 128 + l.val) * 256 + q.val = l.val * 256 + q.val
    omega
  · refine congrArg x (funext fun a => Fin.ext ?_)
    match a with
    | ⟨0, _⟩ => show κ + 1 * 0 = k.val; omega
    | ⟨1, _⟩ => show 0 + 1 * l.val = l.val; omega
    | ⟨2, _⟩ => show 0 + 1 * q.val = q.val; omega

theorem candSlab {κ : ℕ} (inb : ∀ a, (![κ, 0, 0] : Fin 3 → ℕ) a + S1x128x128.size a ≤ S3x128x128.size a)
    (x : Vec Ideal S3x128x128 .f32) (k : Fin 3) (hk : k.val = κ) (l l' : Fin 128) :
    shapeCast S128x128 (View.ld x (Rect.unit (s := S3x128x128) ![κ, 0, 0] S1x128x128.size inb)) shapeCasts_S1x128x128_S128x128 (ix2 l l')
      = x (ix3 k l l') := by
  refine (shapeCast_apply (View.ld x _) shapeCasts_S1x128x128_S128x128 (ix2 l l') (ix3 0 l l') ?_).trans ?_
  · rw [Shape.rowMajor_val_three, Shape.rowMajor_val_two]
    show (0 * 128 + l.val) * 128 + l'.val = l.val * 128 + l'.val
    omega
  · refine congrArg x (funext fun a => Fin.ext ?_)
    match a with
    | ⟨0, _⟩ => show κ + 1 * 0 = k.val; omega
    | ⟨1, _⟩ => show 0 + 1 * l.val = l.val; omega
    | ⟨2, _⟩ => show 0 + 1 * l'.val = l'.val; omega

theorem biasRow256 (x : Vec Ideal S1x256 .f32) (n : Fin 512) (q : Fin 256) :
    broadcastTo S512x256 (shapeCast S1x256 (View.ld x rB256) shapeCasts_S1x256_S1x256) broadcasts_S1x256_S512x256 (ix2 n q)
      = x (ix2 0 q) := by
  refine (broadcastTo_apply _ broadcasts_S1x256_S512x256 (ix2 n q) (ix2 0 q) ?_).trans ?_
  · intro a
    match a with
    | ⟨0, _⟩ => rfl
    | ⟨1, _⟩ => rfl
  · exact (congrFun (shapeCast_self (s := S1x256) (View.ld x rB256) shapeCasts_S1x256_S1x256) (ix2 0 q)).trans
      (congrFun (View.ld_unit_zero (S := S1x256) zeros2 _ x) (ix2 0 q))

theorem biasRow128 (x : Vec Ideal S1x128 .f32) (n : Fin 512) (l : Fin 128) :
    broadcastTo S512x128 (shapeCast S1x128 (View.ld x rB128) shapeCasts_S1x128_S1x128) broadcasts_S1x128_S512x128 (ix2 n l)
      = x (ix2 0 l) := by
  refine (broadcastTo_apply _ broadcasts_S1x128_S512x128 (ix2 n l) (ix2 0 l) ?_).trans ?_
  · intro a
    match a with
    | ⟨0, _⟩ => rfl
    | ⟨1, _⟩ => rfl
  · exact (congrFun (shapeCast_self (s := S1x128) (View.ld x rB128) shapeCasts_S1x128_S1x128) (ix2 0 l)).trans
      (congrFun (View.ld_unit_zero (S := S1x128) zeros2 _ x) (ix2 0 l))

theorem projLoad (x : Vec Ideal S128x2 .f32) (l : Fin 128) (j : Fin 2) :
    shapeCast S128x2 (View.ld x rWp) shapeCasts_S128x2_S128x2 (ix2 l j) = x (ix2 l j) := by
  exact (congrFun (shapeCast_self (s := S128x2) (View.ld x rWp) shapeCasts_S128x2_S128x2) (ix2 l j)).trans
    (congrFun (View.ld_unit_zero (S := S128x2) zeros2 _ x) (ix2 l j))

theorem projBias (x : Vec Ideal S1x1 .f32) (n : Fin 512) (j : Fin 2) :
    broadcastTo S512x2 (shapeCast S1x1 (View.ld x rBp) shapeCasts_S1x1_S1x1) broadcasts_S1x1_S512x2 (ix2 n j)
      = x (ix2 0 0) := by
  refine (broadcastTo_apply _ broadcasts_S1x1_S512x2 (ix2 n j) (ix2 0 0) ?_).trans ?_
  · intro a
    match a with
    | ⟨0, _⟩ => rfl
    | ⟨1, _⟩ => rfl
  · exact (congrFun (shapeCast_self (s := S1x1) (View.ld x rBp) shapeCasts_S1x1_S1x1) (ix2 0 0)).trans
      (congrFun (View.ld_unit_zero (S := S1x1) zeros2 _ x) (ix2 0 0))

theorem gateProd_mm (A : FVec Ideal S512x128 .f32) (W : FVec Ideal S128x256 .f32) (M : Fin 512 → Fin 128 → R)
    (V : Fin 128 → Fin 256 → R) (hA : ∀ n l, A (ix2 n l) = M n l) (hW : ∀ l q, W (ix2 l q) = V l q) (n : Fin 512) (q : Fin 256) :
    matmul Dg none A W (constant (F := Ideal) S512x256 .f32 0x00000000#32) (ix2 n q) = mm M V n q := by
  refine (gateProd_apply A W n q).trans ?_
  exact Finset.sum_congr rfl fun l _ => by rw [hA, hW]

theorem candProd_mm (A : FVec Ideal S512x128 .f32) (W : FVec Ideal S128x128 .f32) (M : Fin 512 → Fin 128 → R)
    (V : Fin 128 → Fin 128 → R) (hA : ∀ n l, A (ix2 n l) = M n l) (hW : ∀ l q, W (ix2 l q) = V l q) (n : Fin 512) (q : Fin 128) :
    matmul Dc none A W (constant (F := Ideal) S512x128 .f32 0x00000000#32) (ix2 n q) = mm M V n q := by
  refine (candProd_apply A W n q).trans ?_
  exact Finset.sum_congr rfl fun l _ => by rw [hA, hW]

theorem diffProd_diff (S : FVec Ideal S512x512 .f32) (A : FVec Ideal S512x128 .f32) (Sf : Fin 512 → Fin 512 → R)
    (M : Fin 512 → Fin 128 → R) (hS : ∀ i j, S (ix2 i j) = Sf i j) (hA : ∀ n l, A (ix2 n l) = M n l) (n : Fin 512) (l : Fin 128) :
    matmul Ds none S A (constant (F := Ideal) S512x128 .f32 0x00000000#32) (ix2 n l) = diff Sf M n l := by
  refine (diffProd_apply S A n l).trans ?_
  exact Finset.sum_congr rfl fun j _ => by rw [hS, hA]

theorem pair_low (G K : FVec Ideal S512x128 .f32) (n : Fin 512) (l : Fin 128) :
    k1_pay23 G K (ix2 n (lowQ l)) = G (ix2 n l) := by
  unfold k1_pay23
  exact concatenate_pair_apply_left (1 : Fin 2) G K concatenates_S512x128_S512x128_S512x256_d1 (ix2 n (lowQ l)) rfl (ix2 n l)
    (fun b => match b with | ⟨0, _⟩ => rfl | ⟨1, _⟩ => rfl)

theorem pair_high (G K : FVec Ideal S512x128 .f32) (n : Fin 512) (l : Fin 128) :
    k1_pay23 G K (ix2 n (highQ l)) = K (ix2 n l) := by
  unfold k1_pay23
  refine concatenate_pair_apply_right (1 : Fin 2) G K concatenates_S512x128_S512x128_S512x256_d1 (ix2 n (highQ l)) rfl rfl (ix2 n l) ?_ ?_
  · intro b hb
    match b, hb with
    | ⟨0, _⟩, _ => rfl
    | ⟨1, _⟩, hb => exact absurd rfl hb
  · show l.val + 128 = 128 + l.val; omega

theorem lowHalf_apply (V : FVec Ideal S512x256 .f32) (n : Fin 512) (l : Fin 128) :
    extractStridedSlice S512x128 ![0, 0] V slices_S512x256_o0_0_S512x128 (ix2 n l) = V (ix2 n (lowQ l)) := by
  refine extractStridedSlice_apply _ V _ (ix2 n l) (ix2 n (lowQ l)) ?_
  intro a
  match a with
  | ⟨0, _⟩ => show n.val = 0 + n.val; omega
  | ⟨1, _⟩ => show l.val = 0 + l.val; omega

theorem highHalf_apply (V : FVec Ideal S512x256 .f32) (n : Fin 512) (l : Fin 128) :
    extractStridedSlice S512x128 ![0, 128] V slices_S512x256_o0_128_S512x128 (ix2 n l) = V (ix2 n (highQ l)) := by
  refine extractStridedSlice_apply _ V _ (ix2 n l) (ix2 n (highQ l)) ?_
  intro a
  match a with
  | ⟨0, _⟩ => show n.val = 0 + n.val; omega
  | ⟨1, _⟩ => show 128 + l.val = 128 + l.val; rfl

section Diffusions
variable (S : FVec Ideal S512x512 .f32) (G K : FVec Ideal S512x128 .f32) (Sf : Fin 512 → Fin 512 → R)
  (Gf Kf : Fin 512 → Fin 128 → R) (hS : ∀ i j, S (ix2 i j) = Sf i j) (hG : ∀ n l, G (ix2 n l) = Gf n l)
  (hK : ∀ n l, K (ix2 n l) = Kf n l)
include hS hG hK

theorem pairDiff_low (n : Fin 512) (l : Fin 128) : k1_pay24 S G K (ix2 n (lowQ l)) = diff Sf Gf n l := by
  unfold k1_pay24
  refine (diffPairProd_apply S (k1_pay23 G K) n (lowQ l)).trans ?_
  exact Finset.sum_congr rfl fun j _ => by rw [hS, pair_low, hG]

theorem pairDiff_high (n : Fin 512) (l : Fin 128) : k1_pay24 S G K (ix2 n (highQ l)) = diff Sf Kf n l := by
  unfold k1_pay24
  refine (diffPairProd_apply S (k1_pay23 G K) n (highQ l)).trans ?_
  exact Finset.sum_congr rfl fun j _ => by rw [hS, pair_high, hK]

theorem pairCheb_low (n : Fin 512) (l : Fin 128) : k1_pay26 S G K (ix2 n (lowQ l)) = cheb2 Sf Gf n l := by
  have e : matmul Dw none S (k1_pay24 S G K) (constant (F := Ideal) S512x256 .f32 0x00000000#32) (ix2 n (lowQ l))
      = diff Sf (diff Sf Gf) n l := by
    refine (diffPairProd_apply S (k1_pay24 S G K) n (lowQ l)).trans ?_
    exact Finset.sum_congr rfl fun j _ => by rw [hS, pairDiff_low S G K Sf Gf Kf hS hG hK]
  exact congrArg₂ (fun a b => c2 * a - b) e ((pair_low G K n l).trans (hG n l))

theorem pairCheb_high (n : Fin 512) (l : Fin 128) : k1_pay26 S G K (ix2 n (highQ l)) = cheb2 Sf Kf n l := by
  have e : matmul Dw none S (k1_pay24 S G K) (constant (F := Ideal) S512x256 .f32 0x00000000#32) (ix2 n (highQ l))
      = diff Sf (diff Sf Kf) n l := by
    refine (diffPairProd_apply S (k1_pay24 S G K) n (highQ l)).trans ?_
    exact Finset.sum_congr rfl fun j _ => by rw [hS, pairDiff_high S G K Sf Gf Kf hS hG hK]
  exact congrArg₂ (fun a b => c2 * a - b) e ((pair_high G K n l).trans (hK n l))

theorem inDiff_val (n : Fin 512) (l : Fin 128) : k1_pay25 S G K (ix2 n l) = diff Sf Gf n l := by
  unfold k1_pay25
  exact (lowHalf_apply _ n l).trans (pairDiff_low S G K Sf Gf Kf hS hG hK n l)

theorem inCheb_val (n : Fin 512) (l : Fin 128) : k1_pay27 S G K (ix2 n l) = cheb2 Sf Gf n l := by
  unfold k1_pay27
  exact (lowHalf_apply _ n l).trans (pairCheb_low S G K Sf Gf Kf hS hG hK n l)

theorem stDiff_val (n : Fin 512) (l : Fin 128) :
    extractStridedSlice S512x128 ![0, 128] (k1_pay24 S G K) slices_S512x256_o0_128_S512x128 (ix2 n l) = diff Sf Kf n l :=
  (highHalf_apply _ n l).trans (pairDiff_high S G K Sf Gf Kf hS hG hK n l)

theorem stCheb_val (n : Fin 512) (l : Fin 128) :
    extractStridedSlice S512x128 ![0, 128] (k1_pay26 S G K) slices_S512x256_o0_128_S512x128 (ix2 n l) = cheb2 Sf Kf n l :=
  (highHalf_apply _ n l).trans (pairCheb_high S G K Sf Gf Kf hS hG hK n l)

end Diffusions

section Gates
variable (S : FVec Ideal S512x512 .f32) (G K : FVec Ideal S512x128 .f32) (P B : FVec Ideal S512x256 .f32)
  (wk0 wg1 wk1 wg2 wk2 : Vec Ideal S1x128x256 .f32)
  (Sf : Fin 512 → Fin 512 → R) (Gf Kf : Fin 512 → Fin 128 → R) (Wru1 : Fin 384 → Fin 128 → R) (bru1 : Fin 128 → R)
  (hS : ∀ i j, S (ix2 i j) = Sf i j) (hG : ∀ n l, G (ix2 n l) = Gf n l) (hK : ∀ n l, K (ix2 n l) = Kf n l)
  (hP : ∀ n q, P (ix2 n q) = mm Gf (wgRu1 Wru1 0) n q) (hB : ∀ n q, B (ix2 n q) = bRu1 bru1 q)
  (hwk0 : ∀ l q, shapeCast S128x256 wk0 shapeCasts_S1x128x256_S128x256 (ix2 l q) = wkRu1 Wru1 0 l q)
  (hwg1 : ∀ l q, shapeCast S128x256 wg1 shapeCasts_S1x128x256_S128x256 (ix2 l q) = wgRu1 Wru1 1 l q)
  (hwk1 : ∀ l q, shapeCast S128x256 wk1 shapeCasts_S1x128x256_S128x256 (ix2 l q) = wkRu1 Wru1 1 l q)
  (hwg2 : ∀ l q, shapeCast S128x256 wg2 shapeCasts_S1x128x256_S128x256 (ix2 l q) = wgRu1 Wru1 2 l q)
  (hwk2 : ∀ l q, shapeCast S128x256 wk2 shapeCasts_S1x128x256_S128x256 (ix2 l q) = wkRu1 Wru1 2 l q)
include hS hG hK hP hB hwk0 hwg1 hwk1 hwg2 hwk2

theorem gates1_abs (n : Fin 512) (q : Fin 256) :
    k1_pay28 S G K P B wk0 wg1 wk1 wg2 wk2 (ix2 n q) = Ideal.logistic (ru1K Sf Gf Kf Wru1 bru1 n q) := by
  have e95 := gateProd_mm K _ Kf (wkRu1 Wru1 0) hK hwk0 n q
  have e103 := gateProd_mm (k1_pay25 S G K) _ (diff Sf Gf) (wgRu1 Wru1 1) (inDiff_val S G K Sf Gf Kf hS hG hK) hwg1 n q
  have e106 := gateProd_mm _ _ (diff Sf Kf) (wkRu1 Wru1 1) (stDiff_val S G K Sf Gf Kf hS hG hK) hwk1 n q
  have e117 := gateProd_mm (k1_pay27 S G K) _ (cheb2 Sf Gf) (wgRu1 Wru1 2) (inCheb_val S G K Sf Gf Kf hS hG hK) hwg2 n q
  have e120 := gateProd_mm _ _ (cheb2 Sf Kf) (wkRu1 Wru1 2) (stCheb_val S G K Sf Gf Kf hS hG hK) hwk2 n q
  exact congrArg Ideal.logistic
    (congrArg₂ (· + ·) (congrArg₂ (· + ·) (congrArg₂ (· + ·) (congrArg₂ (· + ·) (hB n q) (hP n q)) e95)
      (congrArg₂ (· + ·) e103 e106)) (congrArg₂ (· + ·) e117 e120))

theorem upd1_abs (n : Fin 512) (l : Fin 128) :
    k1_pay29 S G K P B wk0 wg1 wk1 wg2 wk2 (ix2 n l) = u1K Sf Gf Kf Wru1 bru1 n l := by
  unfold k1_pay29
  exact (highHalf_apply _ n l).trans
    (gates1_abs S G K P B wk0 wg1 wk1 wg2 wk2 Sf Gf Kf Wru1 bru1 hS hG hK hP hB hwk0 hwg1 hwk1 hwg2 hwk2 n (highQ l))

theorem rst1_abs (n : Fin 512) (l : Fin 128) :
    k1_pay30 S G K P B wk0 wg1 wk1 wg2 wk2 (ix2 n l) = rh1K Sf Gf Kf Wru1 bru1 n l := by
  unfold k1_pay30
  exact congrArg₂ (· * ·) ((lowHalf_apply _ n l).trans
    (gates1_abs S G K P B wk0 wg1 wk1 wg2 wk2 Sf Gf Kf Wru1 bru1 hS hG hK hP hB hwk0 hwg1 hwk1 hwg2 hwk2 n (lowQ l))) (hK n l)

end Gates

section Cand
variable (S : FVec Ideal S512x512 .f32) (G G1 G2 Rh : FVec Ideal S512x128 .f32) (bc : Vec Ideal S1x128 .f32)
  (wg0 wg1 wg2 wk0 wk1 wk2 : Vec Ideal S1x128x128 .f32)
  (Sf : Fin 512 → Fin 512 → R) (Gf Kf : Fin 512 → Fin 128 → R) (Wru1 : Fin 384 → Fin 128 → R) (bru1 : Fin 128 → R)
  (Wc1 : Fin 384 → Fin 64 → R) (bc1 : Fin 64 → R)
  (hS : ∀ i j, S (ix2 i j) = Sf i j) (hG : ∀ n l, G (ix2 n l) = Gf n l)
  (hG1 : ∀ n l, G1 (ix2 n l) = diff Sf Gf n l) (hG2 : ∀ n l, G2 (ix2 n l) = cheb2 Sf Gf n l)
  (hRh : ∀ n l, Rh (ix2 n l) = rh1K Sf Gf Kf Wru1 bru1 n l)
  (hbc : ∀ n l, broadcastTo S512x128 (shapeCast S1x128 bc shapeCasts_S1x128_S1x128) broadcasts_S1x128_S512x128 (ix2 n l) = bC1 bc1 l)
  (hwg0 : ∀ l l', shapeCast S128x128 wg0 shapeCasts_S1x128x128_S128x128 (ix2 l l') = wgC1 Wc1 0 l l')
  (hwg1 : ∀ l l', shapeCast S128x128 wg1 shapeCasts_S1x128x128_S128x128 (ix2 l l') = wgC1 Wc1 1 l l')
  (hwg2 : ∀ l l', shapeCast S128x128 wg2 shapeCasts_S1x128x128_S128x128 (ix2 l l') = wgC1 Wc1 2 l l')
  (hwk0 : ∀ l l', shapeCast S128x128 wk0 shapeCasts_S1x128x128_S128x128 (ix2 l l') = wkC1 Wc1 0 l l')
  (hwk1 : ∀ l l', shapeCast S128x128 wk1 shapeCasts_S1x128x128_S128x128 (ix2 l l') = wkC1 Wc1 1 l l')
  (hwk2 : ∀ l l', shapeCast S128x128 wk2 shapeCasts_S1x128x128_S128x128 (ix2 l l') = wkC1 Wc1 2 l l')
include hS hG hG1 hG2 hRh hbc hwg0 hwg1 hwg2 hwk0 hwk1 hwk2

theorem cand1_abs (n : Fin 512) (l : Fin 128) :
    k1_pay31 S G G1 G2 Rh bc wg0 wg1 wg2 wk0 wk1 wk2 (ix2 n l) = c1K Sf Gf Kf Wru1 bru1 Wc1 bc1 n l := by
  have e131 := candProd_mm G _ Gf (wgC1 Wc1 0) hG hwg0 n l
  have e136 := candProd_mm G1 _ (diff Sf Gf) (wgC1 Wc1 1) hG1 hwg1 n l
  have e140 := candProd_mm G2 _ (cheb2 Sf Gf) (wgC1 Wc1 2) hG2 hwg2 n l
  have e144 := candProd_mm Rh _ (rh1K Sf Gf Kf Wru1 bru1) (wkC1 Wc1 0) hRh hwk0 n l
  have h146 : ∀ n l, matmul Ds none S Rh (constant (F := Ideal) S512x128 .f32 0x00000000#32) (ix2 n l)
      = diff Sf (rh1K Sf Gf Kf Wru1 bru1) n l := diffProd_diff S Rh Sf _ hS hRh
  have e149 := candProd_mm _ _ (diff Sf (rh1K Sf Gf Kf Wru1 bru1)) (wkC1 Wc1 1) h146 hwk1 n l
  have h154 : ∀ n l, subf (mulf (broadcast S512x128 (Scalar.ofBits (F := Ideal) .f32 0x40000000#32))
        (matmul Ds none S (matmul Ds none S Rh (constant (F := Ideal) S512x128 .f32 0x00000000#32))
          (constant (F := Ideal) S512x128 .f32 0x00000000#32))) Rh (ix2 n l)
      = cheb2 Sf (rh1K Sf Gf Kf Wru1 bru1) n l := fun n l =>
    congrArg₂ (fun a b => c2 * a - b) (diffProd_diff S _ Sf _ hS h146 n l) (hRh n l)
  have e157 := candProd_mm _ _ (cheb2 Sf (rh1K Sf Gf Kf Wru1 bru1)) (wkC1 Wc1 2) h154 hwk2 n l
  exact congrArg Ideal.tanh
    (congrArg₂ (· + ·) (congrArg₂ (· + ·) (congrArg₂ (· + ·) (congrArg₂ (· + ·) (congrArg₂ (· + ·)
      (congrArg₂ (· + ·) (hbc n l) e131) e136) e140) e144) e149) e157)

end Cand

theorem mix_abs (K U C : FVec Ideal S512x128 .f32) (Sf : Fin 512 → Fin 512 → R) (Gf Kf : Fin 512 → Fin 128 → R)
    (Wru1 : Fin 384 → Fin 128 → R) (bru1 : Fin 128 → R) (Wc1 : Fin 384 → Fin 64 → R) (bc1 : Fin 64 → R)
    (hK : ∀ n l, K (ix2 n l) = Kf n l) (hU : ∀ n l, U (ix2 n l) = u1K Sf Gf Kf Wru1 bru1 n l)
    (hC : ∀ n l, C (ix2 n l) = c1K Sf Gf Kf Wru1 bru1 Wc1 bc1 n l) (n : Fin 512) (l : Fin 128) :
    k1_pay1 K U C (ix2 n l) = h1Kof Sf Gf Kf Wru1 bru1 Wc1 bc1 n l := by
  have e : k1_pay1 K U C (ix2 n l) = U (ix2 n l) * K (ix2 n l) + (c1 - U (ix2 n l)) * C (ix2 n l) := rfl
  rw [e, hU, hK, hC]
  rfl

theorem hidLow_apply (V : FVec Ideal S512x128 .f32) (n : Fin 512) (u : Fin 64) :
    shapeCast S1x1x512x64 (extractStridedSlice S512x64 ![0, 0] V slices_S512x128_o0_0_S512x64) shapeCasts_S512x64_S1x1x512x64
      (ix4 (0 : Fin 1) (0 : Fin 1) n u) = V (ix2 n (lane 0 u)) := by
  refine (shapeCast_apply _ shapeCasts_S512x64_S1x1x512x64 (ix4 (0 : Fin 1) (0 : Fin 1) n u) (ix2 n u) ?_).trans ?_
  · rw [Shape.rowMajor_val_two, Shape.rowMajor_val_four]
    show n.val * 64 + u.val = ((0 * 1 + 0) * 512 + n.val) * 64 + u.val
    omega
  · refine extractStridedSlice_apply _ V _ (ix2 n u) (ix2 n (lane 0 u)) ?_
    intro a
    match a with
    | ⟨0, _⟩ => show n.val = 0 + n.val; omega
    | ⟨1, _⟩ => show 64 * 0 + u.val = 0 + u.val; omega

theorem hidHigh_apply (V : FVec Ideal S512x128 .f32) (n : Fin 512) (u : Fin 64) :
    shapeCast S1x1x512x64 (extractStridedSlice S512x64 ![0, 64] V slices_S512x128_o0_64_S512x64) shapeCasts_S512x64_S1x1x512x64
      (ix4 (0 : Fin 1) (0 : Fin 1) n u) = V (ix2 n (lane 1 u)) := by
  refine (shapeCast_apply _ shapeCasts_S512x64_S1x1x512x64 (ix4 (0 : Fin 1) (0 : Fin 1) n u) (ix2 n u) ?_).trans ?_
  · rw [Shape.rowMajor_val_two, Shape.rowMajor_val_four]
    show n.val * 64 + u.val = ((0 * 1 + 0) * 512 + n.val) * 64 + u.val
    omega
  · refine extractStridedSlice_apply _ V _ (ix2 n u) (ix2 n (lane 1 u)) ?_
    intro a
    match a with
    | ⟨0, _⟩ => show n.val = 0 + n.val; omega
    | ⟨1, _⟩ => show 64 * 1 + u.val = 64 + u.val; omega

theorem proj_abs (K U C : FVec Ideal S512x128 .f32) (wp : Vec Ideal S128x2 .f32) (b : Vec Ideal S1x1 .f32)
    (Hf : Fin 512 → Fin 128 → R) (Wf : Fin 128 → Fin 2 → R) (β : R)
    (hH : ∀ n l, k1_pay1 K U C (ix2 n l) = Hf n l)
    (hW : ∀ l j, shapeCast S128x2 wp shapeCasts_S128x2_S128x2 (ix2 l j) = Wf l j)
    (hb : ∀ n j, broadcastTo S512x2 (shapeCast S1x1 b shapeCasts_S1x1_S1x1) broadcasts_S1x1_S512x2 (ix2 n j) = β)
    (j : Fin 2) (n : Fin 512) :
    k1_pay4 K U C wp b (ix3 (0 : Fin 1) j n) = mm Hf Wf n j + β := by
  unfold k1_pay4
  refine (shapeCast_apply _ shapeCasts_S2x512_S1x2x512 (ix3 (0 : Fin 1) j n) (ix2 j n) ?_).trans ?_
  · rw [Shape.rowMajor_val_two, Shape.rowMajor_val_three]
    show j.val * 512 + n.val = (0 * 2 + j.val) * 512 + n.val
    omega
  refine (transpose_apply [1, 0] _ transposes_S512x2_p1_0_S2x512 (ix2 j n) (ix2 n j) ?_).trans ?_
  · intro b
    match b with
    | ⟨0, _⟩ => rfl
    | ⟨1, _⟩ => rfl
  refine congrArg₂ (· + ·) ?_ (hb n j)
  refine (projProd_apply _ _ n j).trans ?_
  exact Finset.sum_congr rfl fun l _ => by rw [hH, hW]

section Cell
variable (X : Fin 64 → Fin 512 → R) (Hs : Fin 2 → Fin 64 → Fin 32768 → R) (Adj : Fin 512 → Fin 512 → R)
    (Wru0 : Fin 195 → Fin 128 → R) (bru0 : Fin 128 → R) (Wc0 : Fin 195 → Fin 64 → R) (bc0 : Fin 64 → R)
    (Wru1 : Fin 384 → Fin 128 → R) (bru1 : Fin 128 → R) (Wc1 : Fin 384 → Fin 64 → R) (bc1 : Fin 64 → R)
    (x0 : Vec Ideal S512x512 .f32) (x1 : Vec Ideal S3x1x2x512 .f32) (x2 : Vec Ideal S2x2x512x64 .f32) (x3 : Vec Ideal S6x256 .f32) (x4 : Vec Ideal S3x128x256 .f32) (x5 : Vec Ideal S1x256 .f32) (x6 : Vec Ideal S6x128 .f32) (x7 : Vec Ideal S3x128x128 .f32) (x8 : Vec Ideal S1x128 .f32) (x9 : Vec Ideal S3x128x256 .f32) (x10 : Vec Ideal S3x128x256 .f32) (x11 : Vec Ideal S1x256 .f32) (x12 : Vec Ideal S3x128x128 .f32) (x13 : Vec Ideal S3x128x128 .f32) (x14 : Vec Ideal S1x128 .f32) (p : Fin 32)
    (hS : ∀ i j : Fin 512, x0 (ix2 i j) = supK Adj i j)
    (hA : ∀ (k : Fin 3) (β : Fin 2) (n : Fin 512), x1 (ix4 k (0 : Fin 1) β n) = acolK X Adj p n ⟨2 * k.val + β.val, by omega⟩)
    (hH : ∀ (L β : Fin 2) (n : Fin 512) (u : Fin 64), x2 (ix4 L β n u) = stK Hs L p n (lane β u))
    (hwa : ∀ (r : Fin 6) (q : Fin 256), x3 (ix2 r q) = waRu0 Wru0 r q)
    (hwh : ∀ (k : Fin 3) (l : Fin 128) (q : Fin 256), x4 (ix3 k l q) = whRu0 Wru0 k l q)
    (hb : ∀ q : Fin 256, x5 (ix2 (0 : Fin 1) q) = bRu0 bru0 q)
    (hwac : ∀ (r : Fin 6) (l : Fin 128), x6 (ix2 r l) = waC0 Wc0 r l)
    (hwhc : ∀ (k : Fin 3) (l l' : Fin 128), x7 (ix3 k l l') = whC0 Wc0 k l l')
    (hbc : ∀ l : Fin 128, x8 (ix2 (0 : Fin 1) l) = bC0 bc0 l)
    (hwg : ∀ (k : Fin 3) (l : Fin 128) (q : Fin 256), x9 (ix3 k l q) = wgRu1 Wru1 k l q)
    (hwk : ∀ (k : Fin 3) (l : Fin 128) (q : Fin 256), x10 (ix3 k l q) = wkRu1 Wru1 k l q)
    (hb1 : ∀ q : Fin 256, x11 (ix2 (0 : Fin 1) q) = bRu1 bru1 q)
    (hwgc : ∀ (k : Fin 3) (l l' : Fin 128), x12 (ix3 k l l') = wgC1 Wc1 k l l')
    (hwkc : ∀ (k : Fin 3) (l l' : Fin 128), x13 (ix3 k l l') = wkC1 Wc1 k l l')
    (hbc1 : ∀ l : Fin 128, x14 (ix2 (0 : Fin 1) l) = bC1 bc1 l)
include hS hA hH hwa hwh hb hwac hwhc hbc hwg hwk hb1 hwgc hwkc hbc1

theorem gate1a_val (n : Fin 512) (q : Fin 256) :
    gate1a (F := Ideal) x0 x1 x2 x3 x4 x5 x6 x7 x8 x9 (ix2 n q) = mm (h0K X Hs Adj Wru0 bru0 Wc0 bc0 p) (wgRu1 Wru1 0) n q :=
  gateProd_mm (new0 (F := Ideal) x0 x1 x2 x3 x4 x5 x6 x7 x8) _ _ _ (new0_val X Hs Adj Wru0 bru0 Wc0 bc0 x0 x1 x2 x3 x4 x5 x6 x7 x8 p hS hA hH hwa hwh hb hwac hwhc hbc)
    (fun l q => (gateSlab inb_S3x128x256_S1x128x256_0_0_0 x9 0 rfl l q).trans (hwg 0 l q)) n q

theorem bias1_val (n : Fin 512) (q : Fin 256) : bias1 (F := Ideal) x11 (ix2 n q) = bRu1 bru1 q :=
  (biasRow256 x11 n q).trans (hb1 q)

theorem in1d1_val (n : Fin 512) (l : Fin 128) :
    in1d1 (F := Ideal) x0 x1 x2 x3 x4 x5 x6 x7 x8 (ix2 n l) = diff (supK Adj) (h0K X Hs Adj Wru0 bru0 Wc0 bc0 p) n l :=
  inDiff_val (supp x0) (new0 x0 x1 x2 x3 x4 x5 x6 x7 x8) (st1 x2) (supK Adj) (h0K X Hs Adj Wru0 bru0 Wc0 bc0 p) (stK Hs 1 p) (supp_val Adj x0 hS) (new0_val X Hs Adj Wru0 bru0 Wc0 bc0 x0 x1 x2 x3 x4 x5 x6 x7 x8 p hS hA hH hwa hwh hb hwac hwhc hbc) (st1_val Hs x2 p hH) n l

theorem in1d2_val (n : Fin 512) (l : Fin 128) :
    in1d2 (F := Ideal) x0 x1 x2 x3 x4 x5 x6 x7 x8 (ix2 n l) = cheb2 (supK Adj) (h0K X Hs Adj Wru0 bru0 Wc0 bc0 p) n l :=
  inCheb_val (supp x0) (new0 x0 x1 x2 x3 x4 x5 x6 x7 x8) (st1 x2) (supK Adj) (h0K X Hs Adj Wru0 bru0 Wc0 bc0 p) (stK Hs 1 p) (supp_val Adj x0 hS) (new0_val X Hs Adj Wru0 bru0 Wc0 bc0 x0 x1 x2 x3 x4 x5 x6 x7 x8 p hS hA hH hwa hwh hb hwac hwhc hbc) (st1_val Hs x2 p hH) n l

theorem upd1_val (n : Fin 512) (l : Fin 128) :
    upd1 (F := Ideal) x0 x1 x2 x3 x4 x5 x6 x7 x8 x9 x10 x11 (ix2 n l) = u1K (supK Adj) (h0K X Hs Adj Wru0 bru0 Wc0 bc0 p) (stK Hs 1 p) Wru1 bru1 n l :=
  upd1_abs (supp x0) (new0 x0 x1 x2 x3 x4 x5 x6 x7 x8) (st1 x2) (gate1a x0 x1 x2 x3 x4 x5 x6 x7 x8 x9) (bias1 x11) (View.ld x10 rGate0) (View.ld x9 rGate1) (View.ld x10 rGate1) (View.ld x9 rGate2) (View.ld x10 rGate2)
    (supK Adj) (h0K X Hs Adj Wru0 bru0 Wc0 bc0 p) (stK Hs 1 p) Wru1 bru1 (supp_val Adj x0 hS) (new0_val X Hs Adj Wru0 bru0 Wc0 bc0 x0 x1 x2 x3 x4 x5 x6 x7 x8 p hS hA hH hwa hwh hb hwac hwhc hbc) (st1_val Hs x2 p hH)
    (gate1a_val X Hs Adj Wru0 bru0 Wc0 bc0 Wru1 bru1 Wc1 bc1 x0 x1 x2 x3 x4 x5 x6 x7 x8 x9 x10 x11 x12 x13 x14 p hS hA hH hwa hwh hb hwac hwhc hbc hwg hwk hb1 hwgc hwkc hbc1) (bias1_val X Hs Adj Wru0 bru0 Wc0 bc0 Wru1 bru1 Wc1 bc1 x0 x1 x2 x3 x4 x5 x6 x7 x8 x9 x10 x11 x12 x13 x14 p hS hA hH hwa hwh hb hwac hwhc hbc hwg hwk hb1 hwgc hwkc hbc1)
    (fun l q => (gateSlab inb_S3x128x256_S1x128x256_0_0_0 x10 0 rfl l q).trans (hwk 0 l q)) (fun l q => (gateSlab inb_S3x128x256_S1x128x256_1_0_0 x9 1 rfl l q).trans (hwg 1 l q))
    (fun l q => (gateSlab inb_S3x128x256_S1x128x256_1_0_0 x10 1 rfl l q).trans (hwk 1 l q)) (fun l q => (gateSlab inb_S3x128x256_S1x128x256_2_0_0 x9 2 rfl l q).trans (hwg 2 l q))
    (fun l q => (gateSlab inb_S3x128x256_S1x128x256_2_0_0 x10 2 rfl l q).trans (hwk 2 l q)) n l

theorem rst1_val (n : Fin 512) (l : Fin 128) :
    rst1 (F := Ideal) x0 x1 x2 x3 x4 x5 x6 x7 x8 x9 x10 x11 (ix2 n l) = rh1K (supK Adj) (h0K X Hs Adj Wru0 bru0 Wc0 bc0 p) (stK Hs 1 p) Wru1 bru1 n l :=
  rst1_abs (supp x0) (new0 x0 x1 x2 x3 x4 x5 x6 x7 x8) (st1 x2) (gate1a x0 x1 x2 x3 x4 x5 x6 x7 x8 x9) (bias1 x11) (View.ld x10 rGate0) (View.ld x9 rGate1) (View.ld x10 rGate1) (View.ld x9 rGate2) (View.ld x10 rGate2)
    (supK Adj) (h0K X Hs Adj Wru0 bru0 Wc0 bc0 p) (stK Hs 1 p) Wru1 bru1 (supp_val Adj x0 hS) (new0_val X Hs Adj Wru0 bru0 Wc0 bc0 x0 x1 x2 x3 x4 x5 x6 x7 x8 p hS hA hH hwa hwh hb hwac hwhc hbc) (st1_val Hs x2 p hH)
    (gate1a_val X Hs Adj Wru0 bru0 Wc0 bc0 Wru1 bru1 Wc1 bc1 x0 x1 x2 x3 x4 x5 x6 x7 x8 x9 x10 x11 x12 x13 x14 p hS hA hH hwa hwh hb hwac hwhc hbc hwg hwk hb1 hwgc hwkc hbc1) (bias1_val X Hs Adj Wru0 bru0 Wc0 bc0 Wru1 bru1 Wc1 bc1 x0 x1 x2 x3 x4 x5 x6 x7 x8 x9 x10 x11 x12 x13 x14 p hS hA hH hwa hwh hb hwac hwhc hbc hwg hwk hb1 hwgc hwkc hbc1)
    (fun l q => (gateSlab inb_S3x128x256_S1x128x256_0_0_0 x10 0 rfl l q).trans (hwk 0 l q)) (fun l q => (gateSlab inb_S3x128x256_S1x128x256_1_0_0 x9 1 rfl l q).trans (hwg 1 l q))
    (fun l q => (gateSlab inb_S3x128x256_S1x128x256_1_0_0 x10 1 rfl l q).trans (hwk 1 l q)) (fun l q => (gateSlab inb_S3x128x256_S1x128x256_2_0_0 x9 2 rfl l q).trans (hwg 2 l q))
    (fun l q => (gateSlab inb_S3x128x256_S1x128x256_2_0_0 x10 2 rfl l q).trans (hwk 2 l q)) n l

theorem cand1_val (n : Fin 512) (l : Fin 128) :
    cand1 (F := Ideal) x0 x1 x2 x3 x4 x5 x6 x7 x8 x9 x10 x11 x12 x13 x14 (ix2 n l) = c1K (supK Adj) (h0K X Hs Adj Wru0 bru0 Wc0 bc0 p) (stK Hs 1 p) Wru1 bru1 Wc1 bc1 n l :=
  cand1_abs (supp x0) (new0 x0 x1 x2 x3 x4 x5 x6 x7 x8) (in1d1 x0 x1 x2 x3 x4 x5 x6 x7 x8) (in1d2 x0 x1 x2 x3 x4 x5 x6 x7 x8) (rst1 x0 x1 x2 x3 x4 x5 x6 x7 x8 x9 x10 x11) (View.ld x14 rB128)
    (View.ld x12 rCand0) (View.ld x12 rCand1) (View.ld x12 rCand2) (View.ld x13 rCand0) (View.ld x13 rCand1) (View.ld x13 rCand2)
    (supK Adj) (h0K X Hs Adj Wru0 bru0 Wc0 bc0 p) (stK Hs 1 p) Wru1 bru1 Wc1 bc1 (supp_val Adj x0 hS) (new0_val X Hs Adj Wru0 bru0 Wc0 bc0 x0 x1 x2 x3 x4 x5 x6 x7 x8 p hS hA hH hwa hwh hb hwac hwhc hbc)
    (in1d1_val X Hs Adj Wru0 bru0 Wc0 bc0 Wru1 bru1 Wc1 bc1 x0 x1 x2 x3 x4 x5 x6 x7 x8 x9 x10 x11 x12 x13 x14 p hS hA hH hwa hwh hb hwac hwhc hbc hwg hwk hb1 hwgc hwkc hbc1) (in1d2_val X Hs Adj Wru0 bru0 Wc0 bc0 Wru1 bru1 Wc1 bc1 x0 x1 x2 x3 x4 x5 x6 x7 x8 x9 x10 x11 x12 x13 x14 p hS hA hH hwa hwh hb hwac hwhc hbc hwg hwk hb1 hwgc hwkc hbc1) (rst1_val X Hs Adj Wru0 bru0 Wc0 bc0 Wru1 bru1 Wc1 bc1 x0 x1 x2 x3 x4 x5 x6 x7 x8 x9 x10 x11 x12 x13 x14 p hS hA hH hwa hwh hb hwac hwhc hbc hwg hwk hb1 hwgc hwkc hbc1)
    (fun n l => (biasRow128 x14 n l).trans (hbc1 l))
    (fun l l' => (candSlab inb_S3x128x128_S1x128x128_0_0_0 x12 0 rfl l l').trans (hwgc 0 l l')) (fun l l' => (candSlab inb_S3x128x128_S1x128x128_1_0_0 x12 1 rfl l l').trans (hwgc 1 l l'))
    (fun l l' => (candSlab inb_S3x128x128_S1x128x128_2_0_0 x12 2 rfl l l').trans (hwgc 2 l l')) (fun l l' => (candSlab inb_S3x128x128_S1x128x128_0_0_0 x13 0 rfl l l').trans (hwkc 0 l l'))
    (fun l l' => (candSlab inb_S3x128x128_S1x128x128_1_0_0 x13 1 rfl l l').trans (hwkc 1 l l')) (fun l l' => (candSlab inb_S3x128x128_S1x128x128_2_0_0 x13 2 rfl l l').trans (hwkc 2 l l')) n l

theorem new1_val (n : Fin 512) (l : Fin 128) :
    k1_pay1 (F := Ideal) (st1 x2) (upd1 x0 x1 x2 x3 x4 x5 x6 x7 x8 x9 x10 x11) (cand1 x0 x1 x2 x3 x4 x5 x6 x7 x8 x9 x10 x11 x12 x13 x14) (ix2 n l)
      = h1K X Hs Adj Wru0 bru0 Wc0 bc0 Wru1 bru1 Wc1 bc1 p n l :=
  mix_abs (st1 x2) (upd1 x0 x1 x2 x3 x4 x5 x6 x7 x8 x9 x10 x11) (cand1 x0 x1 x2 x3 x4 x5 x6 x7 x8 x9 x10 x11 x12 x13 x14) (supK Adj) (h0K X Hs Adj Wru0 bru0 Wc0 bc0 p) (stK Hs 1 p) Wru1 bru1 Wc1 bc1 (st1_val Hs x2 p hH)
    (upd1_val X Hs Adj Wru0 bru0 Wc0 bc0 Wru1 bru1 Wc1 bc1 x0 x1 x2 x3 x4 x5 x6 x7 x8 x9 x10 x11 x12 x13 x14 p hS hA hH hwa hwh hb hwac hwhc hbc hwg hwk hb1 hwgc hwkc hbc1) (cand1_val X Hs Adj Wru0 bru0 Wc0 bc0 Wru1 bru1 Wc1 bc1 x0 x1 x2 x3 x4 x5 x6 x7 x8 x9 x10 x11 x12 x13 x14 p hS hA hH hwa hwh hb hwac hwhc hbc hwg hwk hb1 hwgc hwkc hbc1) n l

end Cell

end Cell1

theorem hid1_val (X : Fin 64 → Fin 512 → R) (Hs : Fin 2 → Fin 64 → Fin 32768 → R) (Adj : Fin 512 → Fin 512 → R)
    (Wru0 : Fin 195 → Fin 128 → R) (bru0 : Fin 128 → R) (Wc0 : Fin 195 → Fin 64 → R) (bc0 : Fin 64 → R)
    (Wru1 : Fin 384 → Fin 128 → R) (bru1 : Fin 128 → R) (Wc1 : Fin 384 → Fin 64 → R) (bc1 : Fin 64 → R)
    (x0 : Vec Ideal S512x512 .f32) (x1 : Vec Ideal S3x1x2x512 .f32) (x2 : Vec Ideal S2x2x512x64 .f32) (x3 : Vec Ideal S6x256 .f32) (x4 : Vec Ideal S3x128x256 .f32) (x5 : Vec Ideal S1x256 .f32) (x6 : Vec Ideal S6x128 .f32) (x7 : Vec Ideal S3x128x128 .f32) (x8 : Vec Ideal S1x128 .f32) (x9 : Vec Ideal S3x128x256 .f32) (x10 : Vec Ideal S3x128x256 .f32) (x11 : Vec Ideal S1x256 .f32) (x12 : Vec Ideal S3x128x128 .f32) (x13 : Vec Ideal S3x128x128 .f32) (x14 : Vec Ideal S1x128 .f32) (p : Fin 32)
    (hS : ∀ i j : Fin 512, x0 (ix2 i j) = supK Adj i j)
    (hA : ∀ (k : Fin 3) (β : Fin 2) (n : Fin 512), x1 (ix4 k (0 : Fin 1) β n) = acolK X Adj p n ⟨2 * k.val + β.val, by omega⟩)
    (hH : ∀ (L β : Fin 2) (n : Fin 512) (u : Fin 64), x2 (ix4 L β n u) = stK Hs L p n (lane β u))
    (hwa : ∀ (r : Fin 6) (q : Fin 256), x3 (ix2 r q) = waRu0 Wru0 r q)
    (hwh : ∀ (k : Fin 3) (l : Fin 128) (q : Fin 256), x4 (ix3 k l q) = whRu0 Wru0 k l q)
    (hb : ∀ q : Fin 256, x5 (ix2 (0 : Fin 1) q) = bRu0 bru0 q)
    (hwac : ∀ (r : Fin 6) (l : Fin 128), x6 (ix2 r l) = waC0 Wc0 r l)
    (hwhc : ∀ (k : Fin 3) (l l' : Fin 128), x7 (ix3 k l l') = whC0 Wc0 k l l')
    (hbc : ∀ l : Fin 128, x8 (ix2 (0 : Fin 1) l) = bC0 bc0 l)
    (hwg : ∀ (k : Fin 3) (l : Fin 128) (q : Fin 256), x9 (ix3 k l q) = wgRu1 Wru1 k l q)
    (hwk : ∀ (k : Fin 3) (l : Fin 128) (q : Fin 256), x10 (ix3 k l q) = wkRu1 Wru1 k l q)
    (hb1 : ∀ q : Fin 256, x11 (ix2 (0 : Fin 1) q) = bRu1 bru1 q)
    (hwgc : ∀ (k : Fin 3) (l l' : Fin 128), x12 (ix3 k l l') = wgC1 Wc1 k l l')
    (hwkc : ∀ (k : Fin 3) (l l' : Fin 128), x13 (ix3 k l l') = wkC1 Wc1 k l l')
    (hbc1 : ∀ l : Fin 128, x14 (ix2 (0 : Fin 1) l) = bC1 bc1 l) (n : Fin 512) (u : Fin 64) :
    k1_pay2 (F := Ideal) (st1 x2) (upd1 x0 x1 x2 x3 x4 x5 x6 x7 x8 x9 x10 x11) (cand1 x0 x1 x2 x3 x4 x5 x6 x7 x8 x9 x10 x11 x12 x13 x14) (ix4 (0 : Fin 1) (0 : Fin 1) n u)
        = h1K X Hs Adj Wru0 bru0 Wc0 bc0 Wru1 bru1 Wc1 bc1 p n (lane 0 u)
    ∧ k1_pay3 (F := Ideal) (st1 x2) (upd1 x0 x1 x2 x3 x4 x5 x6 x7 x8 x9 x10 x11) (cand1 x0 x1 x2 x3 x4 x5 x6 x7 x8 x9 x10 x11 x12 x13 x14) (ix4 (0 : Fin 1) (0 : Fin 1) n u)
        = h1K X Hs Adj Wru0 bru0 Wc0 bc0 Wru1 bru1 Wc1 bc1 p n (lane 1 u) :=
  ⟨(Cell1.hidLow_apply _ n u).trans (Cell1.new1_val X Hs Adj Wru0 bru0 Wc0 bc0 Wru1 bru1 Wc1 bc1 x0 x1 x2 x3 x4 x5 x6 x7 x8 x9 x10 x11 x12 x13 x14 p hS hA hH hwa hwh hb hwac hwhc hbc hwg hwk hb1 hwgc hwkc hbc1 n (lane 0 u)),
    (Cell1.hidHigh_apply _ n u).trans (Cell1.new1_val X Hs Adj Wru0 bru0 Wc0 bc0 Wru1 bru1 Wc1 bc1 x0 x1 x2 x3 x4 x5 x6 x7 x8 x9 x10 x11 x12 x13 x14 p hS hA hH hwa hwh hb hwac hwhc hbc hwg hwk hb1 hwgc hwkc hbc1 n (lane 1 u))⟩

theorem prj_val (X : Fin 64 → Fin 512 → R) (Hs : Fin 2 → Fin 64 → Fin 32768 → R) (Adj : Fin 512 → Fin 512 → R)
    (Wru0 : Fin 195 → Fin 128 → R) (bru0 : Fin 128 → R) (Wc0 : Fin 195 → Fin 64 → R) (bc0 : Fin 64 → R)
    (Wru1 : Fin 384 → Fin 128 → R) (bru1 : Fin 128 → R) (Wc1 : Fin 384 → Fin 64 → R) (bc1 : Fin 64 → R) (Wp : Fin 64 → Fin 1 → R) (bp : Fin 1 → R)
    (x0 : Vec Ideal S512x512 .f32) (x1 : Vec Ideal S3x1x2x512 .f32) (x2 : Vec Ideal S2x2x512x64 .f32) (x3 : Vec Ideal S6x256 .f32) (x4 : Vec Ideal S3x128x256 .f32) (x5 : Vec Ideal S1x256 .f32) (x6 : Vec Ideal S6x128 .f32) (x7 : Vec Ideal S3x128x128 .f32) (x8 : Vec Ideal S1x128 .f32) (x9 : Vec Ideal S3x128x256 .f32) (x10 : Vec Ideal S3x128x256 .f32) (x11 : Vec Ideal S1x256 .f32) (x12 : Vec Ideal S3x128x128 .f32) (x13 : Vec Ideal S3x128x128 .f32) (x14 : Vec Ideal S1x128 .f32) (x15 : Vec Ideal S128x2 .f32) (x16 : Vec Ideal S1x1 .f32) (p : Fin 32)
    (hS : ∀ i j : Fin 512, x0 (ix2 i j) = supK Adj i j)
    (hA : ∀ (k : Fin 3) (β : Fin 2) (n : Fin 512), x1 (ix4 k (0 : Fin 1) β n) = acolK X Adj p n ⟨2 * k.val + β.val, by omega⟩)
    (hH : ∀ (L β : Fin 2) (n : Fin 512) (u : Fin 64), x2 (ix4 L β n u) = stK Hs L p n (lane β u))
    (hwa : ∀ (r : Fin 6) (q : Fin 256), x3 (ix2 r q) = waRu0 Wru0 r q)
    (hwh : ∀ (k : Fin 3) (l : Fin 128) (q : Fin 256), x4 (ix3 k l q) = whRu0 Wru0 k l q)
    (hb : ∀ q : Fin 256, x5 (ix2 (0 : Fin 1) q) = bRu0 bru0 q)
    (hwac : ∀ (r : Fin 6) (l : Fin 128), x6 (ix2 r l) = waC0 Wc0 r l)
    (hwhc : ∀ (k : Fin 3) (l l' : Fin 128), x7 (ix3 k l l') = whC0 Wc0 k l l')
    (hbc : ∀ l : Fin 128, x8 (ix2 (0 : Fin 1) l) = bC0 bc0 l)
    (hwg : ∀ (k : Fin 3) (l : Fin 128) (q : Fin 256), x9 (ix3 k l q) = wgRu1 Wru1 k l q)
    (hwk : ∀ (k : Fin 3) (l : Fin 128) (q : Fin 256), x10 (ix3 k l q) = wkRu1 Wru1 k l q)
    (hb1 : ∀ q : Fin 256, x11 (ix2 (0 : Fin 1) q) = bRu1 bru1 q)
    (hwgc : ∀ (k : Fin 3) (l l' : Fin 128), x12 (ix3 k l l') = wgC1 Wc1 k l l')
    (hwkc : ∀ (k : Fin 3) (l l' : Fin 128), x13 (ix3 k l l') = wkC1 Wc1 k l l')
    (hbc1 : ∀ l : Fin 128, x14 (ix2 (0 : Fin 1) l) = bC1 bc1 l)
    (hwp : ∀ (l : Fin 128) (j : Fin 2), x15 (ix2 l j) = wpp Wp l j) (hbp : x16 (ix2 (0 : Fin 1) (0 : Fin 1)) = bp 0) (j : Fin 2) (n : Fin 512) :
    k1_pay4 (F := Ideal) (st1 x2) (upd1 x0 x1 x2 x3 x4 x5 x6 x7 x8 x9 x10 x11) (cand1 x0 x1 x2 x3 x4 x5 x6 x7 x8 x9 x10 x11 x12 x13 x14) (View.ld x15 rWp) (View.ld x16 rBp) (ix3 (0 : Fin 1) j n)
        = prjK X Hs Adj Wru0 bru0 Wc0 bc0 Wru1 bru1 Wc1 bc1 Wp bp p n j :=
  Cell1.proj_abs (st1 x2) (upd1 x0 x1 x2 x3 x4 x5 x6 x7 x8 x9 x10 x11) (cand1 x0 x1 x2 x3 x4 x5 x6 x7 x8 x9 x10 x11 x12 x13 x14) (View.ld x15 rWp) (View.ld x16 rBp)
    (h1K X Hs Adj Wru0 bru0 Wc0 bc0 Wru1 bru1 Wc1 bc1 p) (wpp Wp) (bp 0)
    (Cell1.new1_val X Hs Adj Wru0 bru0 Wc0 bc0 Wru1 bru1 Wc1 bc1 x0 x1 x2 x3 x4 x5 x6 x7 x8 x9 x10 x11 x12 x13 x14 p hS hA hH hwa hwh hb hwac hwhc hbc hwg hwk hb1 hwgc hwkc hbc1)
    (fun l j => (Cell1.projLoad x15 l j).trans (hwp l j)) (fun n j => (Cell1.projBias x16 n j).trans hbp) j n

end Cert.KernelIdeal.Hand

end
-- ==== Proof.KI.Blocks_R0.lean ====
import proofs.«105208_g19069654794669_cont_sun_m_30_30_alg».proof.Proof.KI.Frame0
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx
open Idealize.ShloMosaic.Pipeline (Dat Cfg Window)

variable {F : FTy → Type} [FloatOps F]

variable (V : (c : Dev nD) → (b : Ref sig .tc) → Buf (Elt F) ((c : Thread nD τ).loc b))

theorem disj0 (w : Fin cfg0.W) : ∀ t t' : Fin cfg0.N, (cfg0.win w).flush t = true → (cfg0.win w).flush t' = true → t ≠ t' →
    Disjoint ((cfg0.win w).blk t).view.set ((cfg0.win w).blk t').view.set :=
  fun t t' _ _ hne => absurd ((fin_N0 t).trans (fin_N0 t').symm) hne

theorem blk0_0 (c : Dev nD) (t : Fin cfg0.N) : iblk0 V c 0 t = V c main_arg2 := by
  funext y
  unfold iblk0
  rw [View.read_apply]
  show V c main_arg2 _ = V c main_arg2 _
  congr 1
  funext a; apply Fin.ext
  exact Window.rect_emb_val_of_index_zero win0_0 t a rfl y

theorem blk0_1 (c : Dev nD) (t : Fin cfg0.N) : iblk0 V c 1 t = V c main_arg0 := by
  funext y
  unfold iblk0
  rw [View.read_apply]
  show V c main_arg0 _ = V c main_arg0 _
  congr 1
  funext a; apply Fin.ext
  exact Window.rect_emb_val_of_index_zero win0_1 t a rfl y

theorem blk0_2 (c : Dev nD) (t : Fin cfg0.N) : iblk0 V c 2 t = V c main_v1 := by
  funext y
  unfold iblk0
  rw [View.read_apply]
  show V c main_v1 _ = V c main_v1 _
  congr 1
  funext a; apply Fin.ext
  exact Window.rect_emb_val_of_index_zero win0_2 t a rfl y

theorem blk0_3 (c : Dev nD) (t : Fin cfg0.N) : iblk0 V c 3 t = V c main_v3 := by
  funext y
  unfold iblk0
  rw [View.read_apply]
  show V c main_v3 _ = V c main_v3 _
  congr 1
  funext a; apply Fin.ext
  exact Window.rect_emb_val_of_index_zero win0_3 t a rfl y

theorem blk0_4 (c : Dev nD) (t : Fin cfg0.N) : iblk0 V c 4 t = V c main_v5 := by
  funext y
  unfold iblk0
  rw [View.read_apply]
  show V c main_v5 _ = V c main_v5 _
  congr 1
  funext a; apply Fin.ext
  exact Window.rect_emb_val_of_index_zero win0_4 t a rfl y

theorem blk0_5 (c : Dev nD) (t : Fin cfg0.N) : iblk0 V c 5 t = V c main_v7 := by
  funext y
  unfold iblk0
  rw [View.read_apply]
  show V c main_v7 _ = V c main_v7 _
  congr 1
  funext a; apply Fin.ext
  exact Window.rect_emb_val_of_index_zero win0_5 t a rfl y

theorem blk0_6 (c : Dev nD) (t : Fin cfg0.N) : iblk0 V c 6 t = V c main_v8 := by
  funext y
  unfold iblk0
  rw [View.read_apply]
  show V c main_v8 _ = V c main_v8 _
  congr 1
  funext a; apply Fin.ext
  exact Window.rect_emb_val_of_index_zero win0_6 t a rfl y

theorem blk0_7 (c : Dev nD) (t : Fin cfg0.N) : iblk0 V c 7 t = V c main_v9 := by
  funext y
  unfold iblk0
  rw [View.read_apply]
  show V c main_v9 _ = V c main_v9 _
  congr 1
  funext a; apply Fin.ext
  exact Window.rect_emb_val_of_index_zero win0_7 t a rfl y

theorem blk0_8 (c : Dev nD) (t : Fin cfg0.N) : iblk0 V c 8 t = V c main_v10 := by
  funext y
  unfold iblk0
  rw [View.read_apply]
  show V c main_v10 _ = V c main_v10 _
  congr 1
  funext a; apply Fin.ext
  exact Window.rect_emb_val_of_index_zero win0_8 t a rfl y

theorem blk0_9 (c : Dev nD) (t : Fin cfg0.N) : iblk0 V c 9 t = V c main_v11 := by
  funext y
  unfold iblk0
  rw [View.read_apply]
  show V c main_v11 _ = V c main_v11 _
  congr 1
  funext a; apply Fin.ext
  exact Window.rect_emb_val_of_index_zero win0_9 t a rfl y

theorem blk0_10 (c : Dev nD) (t : Fin cfg0.N) : iblk0 V c 10 t = V c main_arg11 := by
  funext y
  unfold iblk0
  rw [View.read_apply]
  show V c main_arg11 _ = V c main_arg11 _
  congr 1
  funext a; apply Fin.ext
  exact Window.rect_emb_val_of_index_zero win0_10 t a rfl y

theorem arr0_out_11 (c : Dev nD) : (dat0 V c).arrAt 11 cfg0.N = left0_11 (V c main_arg2) := by
  funext i
  have h := (dat0 V c).arrAt_emb_eq_flushed 11 (disj0 11) t0_0 (flush0_11 t0_0) i
  have he : ((cfg0.win 11).blk t0_0).view.emb i = i :=
    funext fun a => Fin.ext (Window.rect_emb_val_of_index_zero win0_11 t0_0 a rfl i)
  rw [he] at h
  refine h.trans ?_
  show (dat0 V c).after 11 t0_0 i = _
  dsimp only [dat0]
  rw [blk0_0]

theorem arr0_out_12 (c : Dev nD) : (dat0 V c).arrAt 12 cfg0.N = left0_12 (V c main_arg2) (V c main_arg0) := by
  funext i
  have h := (dat0 V c).arrAt_emb_eq_flushed 12 (disj0 12) t0_0 (flush0_12 t0_0) i
  have he : ((cfg0.win 12).blk t0_0).view.emb i = i :=
    funext fun a => Fin.ext (Window.rect_emb_val_of_index_zero win0_12 t0_0 a rfl i)
  rw [he] at h
  refine h.trans ?_
  show (dat0 V c).after 12 t0_0 i = _
  dsimp only [dat0]
  rw [blk0_0, blk0_1]

theorem arr0_out_13 (c : Dev nD) : (dat0 V c).arrAt 13 cfg0.N = left0_13 (V c main_arg2) (V c main_arg0) := by
  funext i
  have h := (dat0 V c).arrAt_emb_eq_flushed 13 (disj0 13) t0_0 (flush0_13 t0_0) i
  have he : ((cfg0.win 13).blk t0_0).view.emb i = i :=
    funext fun a => Fin.ext (Window.rect_emb_val_of_index_zero win0_13 t0_0 a rfl i)
  rw [he] at h
  refine h.trans ?_
  show (dat0 V c).after 13 t0_0 i = _
  dsimp only [dat0]
  rw [blk0_0, blk0_1]

theorem arr0_out_14 (c : Dev nD) : (dat0 V c).arrAt 14 cfg0.N = left0_14 (V c main_v1) := by
  funext i
  have h := (dat0 V c).arrAt_emb_eq_flushed 14 (disj0 14) t0_0 (flush0_14 t0_0) i
  have he : ((cfg0.win 14).blk t0_0).view.emb i = i :=
    funext fun a => Fin.ext (Window.rect_emb_val_of_index_zero win0_14 t0_0 a rfl i)
  rw [he] at h
  refine h.trans ?_
  show (dat0 V c).after 14 t0_0 i = _
  dsimp only [dat0]
  rw [blk0_2]

theorem arr0_out_15 (c : Dev nD) : (dat0 V c).arrAt 15 cfg0.N = left0_15 (V c main_v1) := by
  funext i
  have h := (dat0 V c).arrAt_emb_eq_flushed 15 (disj0 15) t0_0 (flush0_15 t0_0) i
  have he : ((cfg0.win 15).blk t0_0).view.emb i = i :=
    funext fun a => Fin.ext (Window.rect_emb_val_of_index_zero win0_15 t0_0 a rfl i)
  rw [he] at h
  refine h.trans ?_
  show (dat0 V c).after 15 t0_0 i = _
  dsimp only [dat0]
  rw [blk0_2]

theorem arr0_out_16 (c : Dev nD) : (dat0 V c).arrAt 16 cfg0.N = left0_16 (V c main_v8) := by
  funext i
  have h := (dat0 V c).arrAt_emb_eq_flushed 16 (disj0 16) t0_0 (flush0_16 t0_0) i
  have he : ((cfg0.win 16).blk t0_0).view.emb i = i :=
    funext fun a => Fin.ext (Window.rect_emb_val_of_index_zero win0_16 t0_0 a rfl i)
  rw [he] at h
  refine h.trans ?_
  show (dat0 V c).after 16 t0_0 i = _
  dsimp only [dat0]
  rw [blk0_6]

theorem arr0_out_17 (c : Dev nD) : (dat0 V c).arrAt 17 cfg0.N = left0_17 (V c main_v3) := by
  funext i
  have h := (dat0 V c).arrAt_emb_eq_flushed 17 (disj0 17) t0_0 (flush0_17 t0_0) i
  have he : ((cfg0.win 17).blk t0_0).view.emb i = i :=
    funext fun a => Fin.ext (Window.rect_emb_val_of_index_zero win0_17 t0_0 a rfl i)
  rw [he] at h
  refine h.trans ?_
  show (dat0 V c).after 17 t0_0 i = _
  dsimp only [dat0]
  rw [blk0_3]

theorem arr0_out_18 (c : Dev nD) : (dat0 V c).arrAt 18 cfg0.N = left0_18 (V c main_v3) := by
  funext i
  have h := (dat0 V c).arrAt_emb_eq_flushed 18 (disj0 18) t0_0 (flush0_18 t0_0) i
  have he : ((cfg0.win 18).blk t0_0).view.emb i = i :=
    funext fun a => Fin.ext (Window.rect_emb_val_of_index_zero win0_18 t0_0 a rfl i)
  rw [he] at h
  refine h.trans ?_
  show (dat0 V c).after 18 t0_0 i = _
  dsimp only [dat0]
  rw [blk0_3]

theorem arr0_out_19 (c : Dev nD) : (dat0 V c).arrAt 19 cfg0.N = left0_19 (V c main_v9) := by
  funext i
  have h := (dat0 V c).arrAt_emb_eq_flushed 19 (disj0 19) t0_0 (flush0_19 t0_0) i
  have he : ((cfg0.win 19).blk t0_0).view.emb i = i :=
    funext fun a => Fin.ext (Window.rect_emb_val_of_index_zero win0_19 t0_0 a rfl i)
  rw [he] at h
  refine h.trans ?_
  show (dat0 V c).after 19 t0_0 i = _
  dsimp only [dat0]
  rw [blk0_7]

theorem arr0_out_20 (c : Dev nD) : (dat0 V c).arrAt 20 cfg0.N = left0_20 (V c main_v5) := by
  funext i
  have h := (dat0 V c).arrAt_emb_eq_flushed 20 (disj0 20) t0_0 (flush0_20 t0_0) i
  have he : ((cfg0.win 20).blk t0_0).view.emb i = i :=
    funext fun a => Fin.ext (Window.rect_emb_val_of_index_zero win0_20 t0_0 a rfl i)
  rw [he] at h
  refine h.trans ?_
  show (dat0 V c).after 20 t0_0 i = _
  dsimp only [dat0]
  rw [blk0_4]

theorem arr0_out_21 (c : Dev nD) : (dat0 V c).arrAt 21 cfg0.N = left0_21 (V c main_v5) := by
  funext i
  have h := (dat0 V c).arrAt_emb_eq_flushed 21 (disj0 21) t0_0 (flush0_21 t0_0) i
  have he : ((cfg0.win 21).blk t0_0).view.emb i = i :=
    funext fun a => Fin.ext (Window.rect_emb_val_of_index_zero win0_21 t0_0 a rfl i)
  rw [he] at h
  refine h.trans ?_
  show (dat0 V c).after 21 t0_0 i = _
  dsimp only [dat0]
  rw [blk0_4]

theorem arr0_out_22 (c : Dev nD) : (dat0 V c).arrAt 22 cfg0.N = left0_22 (V c main_v10) := by
  funext i
  have h := (dat0 V c).arrAt_emb_eq_flushed 22 (disj0 22) t0_0 (flush0_22 t0_0) i
  have he : ((cfg0.win 22).blk t0_0).view.emb i = i :=
    funext fun a => Fin.ext (Window.rect_emb_val_of_index_zero win0_22 t0_0 a rfl i)
  rw [he] at h
  refine h.trans ?_
  show (dat0 V c).after 22 t0_0 i = _
  dsimp only [dat0]
  rw [blk0_8]

theorem arr0_out_23 (c : Dev nD) : (dat0 V c).arrAt 23 cfg0.N = left0_23 (V c main_v7) := by
  funext i
  have h := (dat0 V c).arrAt_emb_eq_flushed 23 (disj0 23) t0_0 (flush0_23 t0_0) i
  have he : ((cfg0.win 23).blk t0_0).view.emb i = i :=
    funext fun a => Fin.ext (Window.rect_emb_val_of_index_zero win0_23 t0_0 a rfl i)
  rw [he] at h
  refine h.trans ?_
  show (dat0 V c).after 23 t0_0 i = _
  dsimp only [dat0]
  rw [blk0_5]

theorem arr0_out_24 (c : Dev nD) : (dat0 V c).arrAt 24 cfg0.N = left0_24 (V c main_v7) := by
  funext i
  have h := (dat0 V c).arrAt_emb_eq_flushed 24 (disj0 24) t0_0 (flush0_24 t0_0) i
  have he : ((cfg0.win 24).blk t0_0).view.emb i = i :=
    funext fun a => Fin.ext (Window.rect_emb_val_of_index_zero win0_24 t0_0 a rfl i)
  rw [he] at h
  refine h.trans ?_
  show (dat0 V c).after 24 t0_0 i = _
  dsimp only [dat0]
  rw [blk0_5]

theorem arr0_out_25 (c : Dev nD) : (dat0 V c).arrAt 25 cfg0.N = left0_25 (V c main_v11) := by
  funext i
  have h := (dat0 V c).arrAt_emb_eq_flushed 25 (disj0 25) t0_0 (flush0_25 t0_0) i
  have he : ((cfg0.win 25).blk t0_0).view.emb i = i :=
    funext fun a => Fin.ext (Window.rect_emb_val_of_index_zero win0_25 t0_0 a rfl i)
  rw [he] at h
  refine h.trans ?_
  show (dat0 V c).after 25 t0_0 i = _
  dsimp only [dat0]
  rw [blk0_9]

theorem arr0_out_26 (c : Dev nD) : (dat0 V c).arrAt 26 cfg0.N = left0_26 (V c main_arg11) := by
  funext i
  have h := (dat0 V c).arrAt_emb_eq_flushed 26 (disj0 26) t0_0 (flush0_26 t0_0) i
  have he : ((cfg0.win 26).blk t0_0).view.emb i = i :=
    funext fun a => Fin.ext (Window.rect_emb_val_of_index_zero win0_26 t0_0 a rfl i)
  rw [he] at h
  refine h.trans ?_
  show (dat0 V c).after 26 t0_0 i = _
  dsimp only [dat0]
  rw [blk0_10]

end Cert.KernelIdeal.Hand

end
-- ==== Proof.KI.Blocks.lean ====
import proofs.«105208_g19069654794669_cont_sun_m_30_30_alg».proof.Proof.KI.Blocks_R0
import proofs.«105208_g19069654794669_cont_sun_m_30_30_alg».proof.Proof.KI.Frame1
import Idealize.ShloMosaic.Lib.Pipeline.Value
import Idealize.ShloMosaic.Lib.ValueIdx

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx
open Idealize.ShloMosaic.Pipeline (Dat Cfg Window)

variable {F : FTy → Type} [FloatOps F]

variable (V : (c : Dev nD) → (b : Ref sig .tc) → Buf (Elt F) ((c : Thread nD τ).loc b))

theorem pt_lt (t : Fin cfg1.N) : t.val < 32 := lt_of_lt_of_eq t.isLt N_1

theorem idx1_1 : ∀ t : Fin cfg1.N, win1_1.index t = ![0, t.val, 0, 0] :=
  (by decide +kernel : ∀ t : Fin grid1.N, win1_1.index t = ![0, t.val, 0, 0])

theorem idx1_2 : ∀ t : Fin cfg1.N, win1_2.index t = ![0, t.val, 0, 0] :=
  (by decide +kernel : ∀ t : Fin grid1.N, win1_2.index t = ![0, t.val, 0, 0])

theorem idx1_17 : ∀ t : Fin cfg1.N, win1_17.index t = ![t.val, 0, 0] :=
  (by decide +kernel : ∀ t : Fin grid1.N, win1_17.index t = ![t.val, 0, 0])

theorem idx1_18 : ∀ t : Fin cfg1.N, win1_18.index t = ![0, t.val, 0, 0] :=
  (by decide +kernel : ∀ t : Fin grid1.N, win1_18.index t = ![0, t.val, 0, 0])

theorem inj1_17 : ∀ t t' : Fin cfg1.N, win1_17.index t = win1_17.index t' → t = t' :=
  (by decide +kernel : ∀ t t' : Fin grid1.N, win1_17.index t = win1_17.index t' → t = t')

theorem inj1_18 : ∀ t t' : Fin cfg1.N, win1_18.index t = win1_18.index t' → t = t' :=
  (by decide +kernel : ∀ t t' : Fin grid1.N, win1_18.index t = win1_18.index t' → t = t')

theorem disj1_17 : ∀ t t' : Fin cfg1.N, (cfg1.win 17).flush t = true → (cfg1.win 17).flush t' = true → t ≠ t' →
    Disjoint ((cfg1.win 17).blk t).view.set ((cfg1.win 17).blk t').view.set :=
  fun t t' _ _ hne => (cfg1.win 17).disjoint_blk fun h => hne (inj1_17 t t' h)

theorem disj1_18 : ∀ t t' : Fin cfg1.N, (cfg1.win 18).flush t = true → (cfg1.win 18).flush t' = true → t ≠ t' →
    Disjoint ((cfg1.win 18).blk t).view.set ((cfg1.win 18).blk t').view.set :=
  fun t t' _ _ hne => (cfg1.win 18).disjoint_blk fun h => hne (inj1_18 t t' h)

theorem blk1_full_0 (c : Dev nD) (t : Fin cfg1.N) : iblk1 V c 0 t = V c main_v12_0 := by
  funext y
  unfold iblk1
  rw [View.read_apply]
  show V c main_v12_0 _ = V c main_v12_0 _
  congr 1
  funext a; apply Fin.ext
  exact Window.rect_emb_val_of_index_zero win1_0 t a (match a with | ⟨0, _⟩ => rfl | ⟨1, _⟩ => rfl) y

theorem blk1_full_3 (c : Dev nD) (t : Fin cfg1.N) : iblk1 V c 3 t = V c main_v12_3 := by
  funext y
  unfold iblk1
  rw [View.read_apply]
  show V c main_v12_3 _ = V c main_v12_3 _
  congr 1
  funext a; apply Fin.ext
  exact Window.rect_emb_val_of_index_zero win1_3 t a (match a with | ⟨0, _⟩ => rfl | ⟨1, _⟩ => rfl) y

theorem blk1_full_4 (c : Dev nD) (t : Fin cfg1.N) : iblk1 V c 4 t = V c main_v12_4 := by
  funext y
  unfold iblk1
  rw [View.read_apply]
  show V c main_v12_4 _ = V c main_v12_4 _
  congr 1
  funext a; apply Fin.ext
  exact Window.rect_emb_val_of_index_zero win1_4 t a (match a with | ⟨0, _⟩ => rfl | ⟨1, _⟩ => rfl | ⟨2, _⟩ => rfl) y

theorem blk1_full_5 (c : Dev nD) (t : Fin cfg1.N) : iblk1 V c 5 t = V c main_v12_5 := by
  funext y
  unfold iblk1
  rw [View.read_apply]
  show V c main_v12_5 _ = V c main_v12_5 _
  congr 1
  funext a; apply Fin.ext
  exact Window.rect_emb_val_of_index_zero win1_5 t a (match a with | ⟨0, _⟩ => rfl | ⟨1, _⟩ => rfl) y

theorem blk1_full_6 (c : Dev nD) (t : Fin cfg1.N) : iblk1 V c 6 t = V c main_v12_6 := by
  funext y
  unfold iblk1
  rw [View.read_apply]
  show V c main_v12_6 _ = V c main_v12_6 _
  congr 1
  funext a; apply Fin.ext
  exact Window.rect_emb_val_of_index_zero win1_6 t a (match a with | ⟨0, _⟩ => rfl | ⟨1, _⟩ => rfl) y

theorem blk1_full_7 (c : Dev nD) (t : Fin cfg1.N) : iblk1 V c 7 t = V c main_v12_7 := by
  funext y
  unfold iblk1
  rw [View.read_apply]
  show V c main_v12_7 _ = V c main_v12_7 _
  congr 1
  funext a; apply Fin.ext
  exact Window.rect_emb_val_of_index_zero win1_7 t a (match a with | ⟨0, _⟩ => rfl | ⟨1, _⟩ => rfl | ⟨2, _⟩ => rfl) y

theorem blk1_full_8 (c : Dev nD) (t : Fin cfg1.N) : iblk1 V c 8 t = V c main_v12_8 := by
  funext y
  unfold iblk1
  rw [View.read_apply]
  show V c main_v12_8 _ = V c main_v12_8 _
  congr 1
  funext a; apply Fin.ext
  exact Window.rect_emb_val_of_index_zero win1_8 t a (match a with | ⟨0, _⟩ => rfl | ⟨1, _⟩ => rfl) y

theorem blk1_full_9 (c : Dev nD) (t : Fin cfg1.N) : iblk1 V c 9 t = V c main_v12_9 := by
  funext y
  unfold iblk1
  rw [View.read_apply]
  show V c main_v12_9 _ = V c main_v12_9 _
  congr 1
  funext a; apply Fin.ext
  exact Window.rect_emb_val_of_index_zero win1_9 t a (match a with | ⟨0, _⟩ => rfl | ⟨1, _⟩ => rfl | ⟨2, _⟩ => rfl) y

theorem blk1_full_10 (c : Dev nD) (t : Fin cfg1.N) : iblk1 V c 10 t = V c main_v12_10 := by
  funext y
  unfold iblk1
  rw [View.read_apply]
  show V c main_v12_10 _ = V c main_v12_10 _
  congr 1
  funext a; apply Fin.ext
  exact Window.rect_emb_val_of_index_zero win1_10 t a (match a with | ⟨0, _⟩ => rfl | ⟨1, _⟩ => rfl | ⟨2, _⟩ => rfl) y

theorem blk1_full_11 (c : Dev nD) (t : Fin cfg1.N) : iblk1 V c 11 t = V c main_v12_11 := by
  funext y
  unfold iblk1
  rw [View.read_apply]
  show V c main_v12_11 _ = V c main_v12_11 _
  congr 1
  funext a; apply Fin.ext
  exact Window.rect_emb_val_of_index_zero win1_11 t a (match a with | ⟨0, _⟩ => rfl | ⟨1, _⟩ => rfl) y

theorem blk1_full_12 (c : Dev nD) (t : Fin cfg1.N) : iblk1 V c 12 t = V c main_v12_12 := by
  funext y
  unfold iblk1
  rw [View.read_apply]
  show V c main_v12_12 _ = V c main_v12_12 _
  congr 1
  funext a; apply Fin.ext
  exact Window.rect_emb_val_of_index_zero win1_12 t a (match a with | ⟨0, _⟩ => rfl | ⟨1, _⟩ => rfl | ⟨2, _⟩ => rfl) y

theorem blk1_full_13 (c : Dev nD) (t : Fin cfg1.N) : iblk1 V c 13 t = V c main_v12_13 := by
  funext y
  unfold iblk1
  rw [View.read_apply]
  show V c main_v12_13 _ = V c main_v12_13 _
  congr 1
  funext a; apply Fin.ext
  exact Window.rect_emb_val_of_index_zero win1_13 t a (match a with | ⟨0, _⟩ => rfl | ⟨1, _⟩ => rfl | ⟨2, _⟩ => rfl) y

theorem blk1_full_14 (c : Dev nD) (t : Fin cfg1.N) : iblk1 V c 14 t = V c main_v12_14 := by
  funext y
  unfold iblk1
  rw [View.read_apply]
  show V c main_v12_14 _ = V c main_v12_14 _
  congr 1
  funext a; apply Fin.ext
  exact Window.rect_emb_val_of_index_zero win1_14 t a (match a with | ⟨0, _⟩ => rfl | ⟨1, _⟩ => rfl) y

theorem blk1_full_15 (c : Dev nD) (t : Fin cfg1.N) : iblk1 V c 15 t = V c main_v12_15 := by
  funext y
  unfold iblk1
  rw [View.read_apply]
  show V c main_v12_15 _ = V c main_v12_15 _
  congr 1
  funext a; apply Fin.ext
  exact Window.rect_emb_val_of_index_zero win1_15 t a (match a with | ⟨0, _⟩ => rfl | ⟨1, _⟩ => rfl) y

theorem blk1_full_16 (c : Dev nD) (t : Fin cfg1.N) : iblk1 V c 16 t = V c main_v19 := by
  funext y
  unfold iblk1
  rw [View.read_apply]
  show V c main_v19 _ = V c main_v19 _
  congr 1
  funext a; apply Fin.ext
  exact Window.rect_emb_val_of_index_zero win1_16 t a (match a with | ⟨0, _⟩ => rfl | ⟨1, _⟩ => rfl) y

theorem blk1_cols (c : Dev nD) (t : Fin cfg1.N) (k : Fin 3) (β : Fin 2) (n : Fin 512) :
    iblk1 V c 1 t (ix4 k (0 : Fin 1) β n) = V c main_v17 (ix4 k ⟨t.val, pt_lt t⟩ β n) := by
  unfold iblk1
  rw [View.read_apply]
  show V c main_v17 _ = V c main_v17 _
  congr 1
  funext a; apply Fin.ext
  have hi := idx1_1 t
  match a with
  | ⟨0, _⟩ => show win1_1.index t 0 * 3 + 1 * k.val = k.val; rw [hi]; show 0 * 3 + 1 * k.val = k.val; omega
  | ⟨1, _⟩ => show win1_1.index t 1 * 1 + 1 * 0 = t.val; rw [hi]; show t.val * 1 + 1 * 0 = t.val; omega
  | ⟨2, _⟩ => show win1_1.index t 2 * 2 + 1 * β.val = β.val; rw [hi]; show 0 * 2 + 1 * β.val = β.val; omega
  | ⟨3, _⟩ => show win1_1.index t 3 * 512 + 1 * n.val = n.val; rw [hi]; show 0 * 512 + 1 * n.val = n.val; omega

theorem blk1_hid (c : Dev nD) (t : Fin cfg1.N) (L β : Fin 2) (n : Fin 512) (u : Fin 64) :
    iblk1 V c 2 t (ix4 L β n u) = V c main_v18 (ix4 L ⟨2 * t.val + β.val, by have := pt_lt t; have := β.isLt; omega⟩ n u) := by
  unfold iblk1
  rw [View.read_apply]
  show V c main_v18 _ = V c main_v18 _
  congr 1
  funext a; apply Fin.ext
  have hi := idx1_2 t
  match a with
  | ⟨0, _⟩ => show win1_2.index t 0 * 2 + 1 * L.val = L.val; rw [hi]; show 0 * 2 + 1 * L.val = L.val; omega
  | ⟨1, _⟩ => show win1_2.index t 1 * 2 + 1 * β.val = 2 * t.val + β.val; rw [hi]; show t.val * 2 + 1 * β.val = 2 * t.val + β.val; omega
  | ⟨2, _⟩ => show win1_2.index t 2 * 512 + 1 * n.val = n.val; rw [hi]; show 0 * 512 + 1 * n.val = n.val; omega
  | ⟨3, _⟩ => show win1_2.index t 3 * 64 + 1 * u.val = u.val; rw [hi]; show 0 * 64 + 1 * u.val = u.val; omega

theorem arr1_out17 (c : Dev nD) (p : Fin 32) (j : Fin 2) (n : Fin 512) :
    (dat1 V c).arrAt 17 cfg1.N (ix3 p j n) = (dat1 V c).after 17 ⟨p.val, lt_of_lt_of_eq p.isLt N_1.symm⟩ (ix3 (0 : Fin 1) j n) := by
  have h := (dat1 V c).arrAt_emb_eq_flushed 17 disj1_17 ⟨p.val, lt_of_lt_of_eq p.isLt N_1.symm⟩ (flush1_17 _) (ix3 (0 : Fin 1) j n)
  have he : ((cfg1.win 17).blk ⟨p.val, lt_of_lt_of_eq p.isLt N_1.symm⟩).view.emb (ix3 (0 : Fin 1) j n) = ix3 p j n := by
    funext a; apply Fin.ext
    have hi := idx1_17 ⟨p.val, lt_of_lt_of_eq p.isLt N_1.symm⟩
    match a with
    | ⟨0, _⟩ => show win1_17.index _ 0 * 1 + 1 * 0 = p.val; rw [hi]; show p.val * 1 + 1 * 0 = p.val; omega
    | ⟨1, _⟩ => show win1_17.index _ 1 * 2 + 1 * j.val = j.val; rw [hi]; show 0 * 2 + 1 * j.val = j.val; omega
    | ⟨2, _⟩ => show win1_17.index _ 2 * 512 + 1 * n.val = n.val; rw [hi]; show 0 * 512 + 1 * n.val = n.val; omega
  rw [he] at h
  exact h

theorem arr1_out18_pt (c : Dev nD) (L : Fin 2) (p : Fin 32) (β : Fin 2) (n : Fin 512) (u : Fin 64) :
    (dat1 V c).arrAt 18 cfg1.N (ix4 L ⟨2 * p.val + β.val, by have := p.isLt; have := β.isLt; omega⟩ n u)
      = (dat1 V c).after 18 ⟨p.val, lt_of_lt_of_eq p.isLt N_1.symm⟩ (ix4 L β n u) := by
  have h := (dat1 V c).arrAt_emb_eq_flushed 18 disj1_18 ⟨p.val, lt_of_lt_of_eq p.isLt N_1.symm⟩ (flush1_18 _) (ix4 L β n u)
  have he : ((cfg1.win 18).blk ⟨p.val, lt_of_lt_of_eq p.isLt N_1.symm⟩).view.emb (ix4 L β n u)
      = ix4 L ⟨2 * p.val + β.val, by have := p.isLt; have := β.isLt; omega⟩ n u := by
    funext a; apply Fin.ext
    have hi := idx1_18 ⟨p.val, lt_of_lt_of_eq p.isLt N_1.symm⟩
    match a with
    | ⟨0, _⟩ => show win1_18.index _ 0 * 2 + 1 * L.val = L.val; rw [hi]; show 0 * 2 + 1 * L.val = L.val; omega
    | ⟨1, _⟩ => show win1_18.index _ 1 * 2 + 1 * β.val = 2 * p.val + β.val; rw [hi]; show p.val * 2 + 1 * β.val = 2 * p.val + β.val; omega
    | ⟨2, _⟩ => show win1_18.index _ 2 * 512 + 1 * n.val = n.val; rw [hi]; show 0 * 512 + 1 * n.val = n.val; omega
    | ⟨3, _⟩ => show win1_18.index _ 3 * 64 + 1 * u.val = u.val; rw [hi]; show 0 * 64 + 1 * u.val = u.val; omega
  rw [he] at h
  exact h

theorem arr1_out18 (c : Dev nD) (L : Fin 2) (b : Fin 64) (n : Fin 512) (u : Fin 64) :
    (dat1 V c).arrAt 18 cfg1.N (ix4 L b n u)
      = (dat1 V c).after 18 ⟨b.val / 2, lt_of_lt_of_eq (by have := b.isLt; omega) N_1.symm⟩ (ix4 L ⟨b.val % 2, Nat.mod_lt _ (by decide)⟩ n u) := by
  have hb : b = ⟨2 * (⟨b.val / 2, by have := b.isLt; omega⟩ : Fin 32).val + (⟨b.val % 2, Nat.mod_lt _ (by decide)⟩ : Fin 2).val, by have := b.isLt; omega⟩ :=
    Fin.ext (by show b.val = 2 * (b.val / 2) + b.val % 2; omega)
  have h := arr1_out18_pt V c L ⟨b.val / 2, by have := b.isLt; omega⟩ ⟨b.val % 2, Nat.mod_lt _ (by decide)⟩ n u
  rw [← hb] at h
  exact h

end Cert.KernelIdeal.Hand

end
-- ==== Proof.KI.BlockHyps.lean ====
import proofs.«105208_g19069654794669_cont_sun_m_30_30_alg».proof.Proof.Spec
import proofs.«105208_g19069654794669_cont_sun_m_30_30_alg».proof.Proof.KI.Run
import proofs.«105208_g19069654794669_cont_sun_m_30_30_alg».proof.Proof.KI.HostVals
import proofs.«105208_g19069654794669_cont_sun_m_30_30_alg».proof.Proof.KI.Val0Math
import proofs.«105208_g19069654794669_cont_sun_m_30_30_alg».proof.Proof.KI.Val0W0
import proofs.«105208_g19069654794669_cont_sun_m_30_30_alg».proof.Proof.KI.Val0W1
import proofs.«105208_g19069654794669_cont_sun_m_30_30_alg».proof.Proof.KI.Blocks
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Idealize.ShloMosaic.StableHlo Idealize.ShloMosaic.TcCoe Cert.Spec

variable (m : (ℓ : Loc nD τ sig) → Buf (Elt Ideal) ℓ) (ρ : Dev nD → PrngReg)

theorem W3_keep (c : Dev nD) (r : Ref sig .tc) (hr : r ∉ hostOps1_W) :
    W3 (F := Ideal) m ρ c (Proc.devRef .tc r) = W2 m ρ c (Proc.devRef .tc r) :=
  StableHlo.after_of_writes_sub hostOps1 _ hostOps1_writes hr

theorem W1_keep (c : Dev nD) (r : Ref sig .tc) (hr : r ∉ hostOps0_W) :
    W1 (F := Ideal) m ρ c (Proc.devRef .tc r) = m ((c.tc : Thread nD τ).loc r) :=
  StableHlo.after_of_writes_sub hostOps0 _ hostOps0_writes hr

theorem blk_hS (c : Dev nD) (p : Fin 32) (t : Fin cfg1.N) (ht : t.val = p.val) (i j : Fin 512) :
    iblk1 (V3 m ρ) c 0 t (ix2 i j) = supK (cur2 (a := 512) (b := 512) (m ((c.tc : Thread nD τ).loc main_arg2))) i j := by
  have e1 : iblk1 (V3 m ρ) c 0 t = W3 m ρ c (Proc.devRef .tc main_v12_0) := blk1_full_0 (V3 m ρ) c t
  have e2 : W3 m ρ c (Proc.devRef .tc main_v12_0) = W2 m ρ c (Proc.devRef .tc main_v12_0) := W3_keep m ρ c main_v12_0 (by decide)
  have e3 : W2 m ρ c (Proc.devRef .tc main_v12_0) = left0_11 (V1 m ρ c main_arg2) := (W2_arr m ρ c 11).trans (arr0_out_11 (V1 m ρ) c)
  have e4 : V1 m ρ c main_arg2 = m ((c.tc : Thread nD τ).loc main_arg2) := W1_keep m ρ c main_arg2 (by decide)
  rw [e1, e2, e3, e4]
  exact sup_val _ i j

theorem blk_hwa (c : Dev nD) (p : Fin 32) (t : Fin cfg1.N) (ht : t.val = p.val) (r : Fin 6) (q : Fin 256) :
    iblk1 (V3 m ρ) c 3 t (ix2 r q) = waRu0 (cur2 (a := 195) (b := 128) (m ((c.tc : Thread nD τ).loc main_arg3))) r q := by
  have e1 : iblk1 (V3 m ρ) c 3 t = W3 m ρ c (Proc.devRef .tc main_v12_3) := blk1_full_3 (V3 m ρ) c t
  have e2 : W3 m ρ c (Proc.devRef .tc main_v12_3) = W2 m ρ c (Proc.devRef .tc main_v12_3) := W3_keep m ρ c main_v12_3 (by decide)
  have e3 : W2 m ρ c (Proc.devRef .tc main_v12_3) = left0_14 (V1 m ρ c main_v1) := (W2_arr m ρ c 14).trans (arr0_out_14 (V1 m ρ) c)
  rw [e1, e2, e3]
  exact waRu0_val _ _ (fun k f o => host0_v1 (W0 m ρ c) k f o) r q

theorem blk_hwh (c : Dev nD) (p : Fin 32) (t : Fin cfg1.N) (ht : t.val = p.val) (k : Fin 3) (l : Fin 128) (q : Fin 256) :
    iblk1 (V3 m ρ) c 4 t (ix3 k l q) = whRu0 (cur2 (a := 195) (b := 128) (m ((c.tc : Thread nD τ).loc main_arg3))) k l q := by
  have e1 : iblk1 (V3 m ρ) c 4 t = W3 m ρ c (Proc.devRef .tc main_v12_4) := blk1_full_4 (V3 m ρ) c t
  have e2 : W3 m ρ c (Proc.devRef .tc main_v12_4) = W2 m ρ c (Proc.devRef .tc main_v12_4) := W3_keep m ρ c main_v12_4 (by decide)
  have e3 : W2 m ρ c (Proc.devRef .tc main_v12_4) = left0_15 (V1 m ρ c main_v1) := (W2_arr m ρ c 15).trans (arr0_out_15 (V1 m ρ) c)
  rw [e1, e2, e3]
  exact whRu0_val _ _ (fun k f o => host0_v1 (W0 m ρ c) k f o) k l q

theorem blk_hb (c : Dev nD) (p : Fin 32) (t : Fin cfg1.N) (ht : t.val = p.val) (q : Fin 256) :
    iblk1 (V3 m ρ) c 5 t (ix2 (0 : Fin 1) q) = bRu0 (cur1 (a := 128) (m ((c.tc : Thread nD τ).loc main_arg4))) q := by
  have e1 : iblk1 (V3 m ρ) c 5 t = W3 m ρ c (Proc.devRef .tc main_v12_5) := blk1_full_5 (V3 m ρ) c t
  have e2 : W3 m ρ c (Proc.devRef .tc main_v12_5) = W2 m ρ c (Proc.devRef .tc main_v12_5) := W3_keep m ρ c main_v12_5 (by decide)
  have e3 : W2 m ρ c (Proc.devRef .tc main_v12_5) = left0_16 (V1 m ρ c main_v8) := (W2_arr m ρ c 16).trans (arr0_out_16 (V1 m ρ) c)
  rw [e1, e2, e3]
  exact bRu0_val _ _ (fun o => host0_v8 (W0 m ρ c) o) q

theorem blk_hwac (c : Dev nD) (p : Fin 32) (t : Fin cfg1.N) (ht : t.val = p.val) (r : Fin 6) (l : Fin 128) :
    iblk1 (V3 m ρ) c 6 t (ix2 r l) = waC0 (cur2 (a := 195) (b := 64) (m ((c.tc : Thread nD τ).loc main_arg5))) r l := by
  have e1 : iblk1 (V3 m ρ) c 6 t = W3 m ρ c (Proc.devRef .tc main_v12_6) := blk1_full_6 (V3 m ρ) c t
  have e2 : W3 m ρ c (Proc.devRef .tc main_v12_6) = W2 m ρ c (Proc.devRef .tc main_v12_6) := W3_keep m ρ c main_v12_6 (by decide)
  have e3 : W2 m ρ c (Proc.devRef .tc main_v12_6) = left0_17 (V1 m ρ c main_v3) := (W2_arr m ρ c 17).trans (arr0_out_17 (V1 m ρ) c)
  rw [e1, e2, e3]
  exact waC0_val _ _ (fun k f o => host0_v3 (W0 m ρ c) k f o) r l

theorem blk_hwhc (c : Dev nD) (p : Fin 32) (t : Fin cfg1.N) (ht : t.val = p.val) (k : Fin 3) (l l' : Fin 128) :
    iblk1 (V3 m ρ) c 7 t (ix3 k l l') = whC0 (cur2 (a := 195) (b := 64) (m ((c.tc : Thread nD τ).loc main_arg5))) k l l' := by
  have e1 : iblk1 (V3 m ρ) c 7 t = W3 m ρ c (Proc.devRef .tc main_v12_7) := blk1_full_7 (V3 m ρ) c t
  have e2 : W3 m ρ c (Proc.devRef .tc main_v12_7) = W2 m ρ c (Proc.devRef .tc main_v12_7) := W3_keep m ρ c main_v12_7 (by decide)
  have e3 : W2 m ρ c (Proc.devRef .tc main_v12_7) = left0_18 (V1 m ρ c main_v3) := (W2_arr m ρ c 18).trans (arr0_out_18 (V1 m ρ) c)
  rw [e1, e2, e3]
  exact whC0_val _ _ (fun k f o => host0_v3 (W0 m ρ c) k f o) k l l'

theorem blk_hbc (c : Dev nD) (p : Fin 32) (t : Fin cfg1.N) (ht : t.val = p.val) (l : Fin 128) :
    iblk1 (V3 m ρ) c 8 t (ix2 (0 : Fin 1) l) = bC0 (cur1 (a := 64) (m ((c.tc : Thread nD τ).loc main_arg6))) l := by
  have e1 : iblk1 (V3 m ρ) c 8 t = W3 m ρ c (Proc.devRef .tc main_v12_8) := blk1_full_8 (V3 m ρ) c t
  have e2 : W3 m ρ c (Proc.devRef .tc main_v12_8) = W2 m ρ c (Proc.devRef .tc main_v12_8) := W3_keep m ρ c main_v12_8 (by decide)
  have e3 : W2 m ρ c (Proc.devRef .tc main_v12_8) = left0_19 (V1 m ρ c main_v9) := (W2_arr m ρ c 19).trans (arr0_out_19 (V1 m ρ) c)
  rw [e1, e2, e3]
  exact bC0_val _ _ (fun o => host0_v9 (W0 m ρ c) o) l

theorem blk_hwg (c : Dev nD) (p : Fin 32) (t : Fin cfg1.N) (ht : t.val = p.val) (k : Fin 3) (l : Fin 128) (q : Fin 256) :
    iblk1 (V3 m ρ) c 9 t (ix3 k l q) = wgRu1 (cur2 (a := 384) (b := 128) (m ((c.tc : Thread nD τ).loc main_arg7))) k l q := by
  have e1 : iblk1 (V3 m ρ) c 9 t = W3 m ρ c (Proc.devRef .tc main_v12_9) := blk1_full_9 (V3 m ρ) c t
  have e2 : W3 m ρ c (Proc.devRef .tc main_v12_9) = W2 m ρ c (Proc.devRef .tc main_v12_9) := W3_keep m ρ c main_v12_9 (by decide)
  have e3 : W2 m ρ c (Proc.devRef .tc main_v12_9) = left0_20 (V1 m ρ c main_v5) := (W2_arr m ρ c 20).trans (arr0_out_20 (V1 m ρ) c)
  rw [e1, e2, e3]
  exact wgRu1_val _ _ (fun k f o => host0_v5 (W0 m ρ c) k f o) k l q

theorem blk_hwk (c : Dev nD) (p : Fin 32) (t : Fin cfg1.N) (ht : t.val = p.val) (k : Fin 3) (l : Fin 128) (q : Fin 256) :
    iblk1 (V3 m ρ) c 10 t (ix3 k l q) = wkRu1 (cur2 (a := 384) (b := 128) (m ((c.tc : Thread nD τ).loc main_arg7))) k l q := by
  have e1 : iblk1 (V3 m ρ) c 10 t = W3 m ρ c (Proc.devRef .tc main_v12_10) := blk1_full_10 (V3 m ρ) c t
  have e2 : W3 m ρ c (Proc.devRef .tc main_v12_10) = W2 m ρ c (Proc.devRef .tc main_v12_10) := W3_keep m ρ c main_v12_10 (by decide)
  have e3 : W2 m ρ c (Proc.devRef .tc main_v12_10) = left0_21 (V1 m ρ c main_v5) := (W2_arr m ρ c 21).trans (arr0_out_21 (V1 m ρ) c)
  rw [e1, e2, e3]
  exact wkRu1_val _ _ (fun k f o => host0_v5 (W0 m ρ c) k f o) k l q

theorem blk_hb1 (c : Dev nD) (p : Fin 32) (t : Fin cfg1.N) (ht : t.val = p.val) (q : Fin 256) :
    iblk1 (V3 m ρ) c 11 t (ix2 (0 : Fin 1) q) = bRu1 (cur1 (a := 128) (m ((c.tc : Thread nD τ).loc main_arg8))) q := by
  have e1 : iblk1 (V3 m ρ) c 11 t = W3 m ρ c (Proc.devRef .tc main_v12_11) := blk1_full_11 (V3 m ρ) c t
  have e2 : W3 m ρ c (Proc.devRef .tc main_v12_11) = W2 m ρ c (Proc.devRef .tc main_v12_11) := W3_keep m ρ c main_v12_11 (by decide)
  have e3 : W2 m ρ c (Proc.devRef .tc main_v12_11) = left0_22 (V1 m ρ c main_v10) := (W2_arr m ρ c 22).trans (arr0_out_22 (V1 m ρ) c)
  rw [e1, e2, e3]
  exact bRu1_val _ _ (fun o => host0_v10 (W0 m ρ c) o) q

theorem blk_hwgc (c : Dev nD) (p : Fin 32) (t : Fin cfg1.N) (ht : t.val = p.val) (k : Fin 3) (l l' : Fin 128) :
    iblk1 (V3 m ρ) c 12 t (ix3 k l l') = wgC1 (cur2 (a := 384) (b := 64) (m ((c.tc : Thread nD τ).loc main_arg9))) k l l' := by
  have e1 : iblk1 (V3 m ρ) c 12 t = W3 m ρ c (Proc.devRef .tc main_v12_12) := blk1_full_12 (V3 m ρ) c t
  have e2 : W3 m ρ c (Proc.devRef .tc main_v12_12) = W2 m ρ c (Proc.devRef .tc main_v12_12) := W3_keep m ρ c main_v12_12 (by decide)
  have e3 : W2 m ρ c (Proc.devRef .tc main_v12_12) = left0_23 (V1 m ρ c main_v7) := (W2_arr m ρ c 23).trans (arr0_out_23 (V1 m ρ) c)
  rw [e1, e2, e3]
  exact wgC1_val _ _ (fun k f o => host0_v7 (W0 m ρ c) k f o) k l l'

theorem blk_hwkc (c : Dev nD) (p : Fin 32) (t : Fin cfg1.N) (ht : t.val = p.val) (k : Fin 3) (l l' : Fin 128) :
    iblk1 (V3 m ρ) c 13 t (ix3 k l l') = wkC1 (cur2 (a := 384) (b := 64) (m ((c.tc : Thread nD τ).loc main_arg9))) k l l' := by
  have e1 : iblk1 (V3 m ρ) c 13 t = W3 m ρ c (Proc.devRef .tc main_v12_13) := blk1_full_13 (V3 m ρ) c t
  have e2 : W3 m ρ c (Proc.devRef .tc main_v12_13) = W2 m ρ c (Proc.devRef .tc main_v12_13) := W3_keep m ρ c main_v12_13 (by decide)
  have e3 : W2 m ρ c (Proc.devRef .tc main_v12_13) = left0_24 (V1 m ρ c main_v7) := (W2_arr m ρ c 24).trans (arr0_out_24 (V1 m ρ) c)
  rw [e1, e2, e3]
  exact wkC1_val _ _ (fun k f o => host0_v7 (W0 m ρ c) k f o) k l l'

theorem blk_hbc1 (c : Dev nD) (p : Fin 32) (t : Fin cfg1.N) (ht : t.val = p.val) (l : Fin 128) :
    iblk1 (V3 m ρ) c 14 t (ix2 (0 : Fin 1) l) = bC1 (cur1 (a := 64) (m ((c.tc : Thread nD τ).loc main_arg10))) l := by
  have e1 : iblk1 (V3 m ρ) c 14 t = W3 m ρ c (Proc.devRef .tc main_v12_14) := blk1_full_14 (V3 m ρ) c t
  have e2 : W3 m ρ c (Proc.devRef .tc main_v12_14) = W2 m ρ c (Proc.devRef .tc main_v12_14) := W3_keep m ρ c main_v12_14 (by decide)
  have e3 : W2 m ρ c (Proc.devRef .tc main_v12_14) = left0_25 (V1 m ρ c main_v11) := (W2_arr m ρ c 25).trans (arr0_out_25 (V1 m ρ) c)
  rw [e1, e2, e3]
  exact bC1_val _ _ (fun o => host0_v11 (W0 m ρ c) o) l

theorem blk_hwp (c : Dev nD) (p : Fin 32) (t : Fin cfg1.N) (ht : t.val = p.val) (l : Fin 128) (j : Fin 2) :
    iblk1 (V3 m ρ) c 15 t (ix2 l j) = wpp (cur2 (a := 64) (b := 1) (m ((c.tc : Thread nD τ).loc main_arg11))) l j := by
  have e1 : iblk1 (V3 m ρ) c 15 t = W3 m ρ c (Proc.devRef .tc main_v12_15) := blk1_full_15 (V3 m ρ) c t
  have e2 : W3 m ρ c (Proc.devRef .tc main_v12_15) = W2 m ρ c (Proc.devRef .tc main_v12_15) := W3_keep m ρ c main_v12_15 (by decide)
  have e3 : W2 m ρ c (Proc.devRef .tc main_v12_15) = left0_26 (V1 m ρ c main_arg11) := (W2_arr m ρ c 26).trans (arr0_out_26 (V1 m ρ) c)
  have e4 : V1 m ρ c main_arg11 = m ((c.tc : Thread nD τ).loc main_arg11) := W1_keep m ρ c main_arg11 (by decide)
  rw [e1, e2, e3, e4]
  exact wpp_val _ _ (fun u => rfl) l j

theorem blk_hbp (c : Dev nD) (p : Fin 32) (t : Fin cfg1.N) (ht : t.val = p.val) :
    iblk1 (V3 m ρ) c 16 t (ix2 (0 : Fin 1) (0 : Fin 1)) = cur1 (a := 1) (m ((c.tc : Thread nD τ).loc main_arg12)) 0 := by
  have e1 : iblk1 (V3 m ρ) c 16 t = W3 m ρ c (Proc.devRef .tc main_v19) := blk1_full_16 (V3 m ρ) c t
  have e2 : W3 m ρ c (Proc.devRef .tc main_v19) (ix2 (0 : Fin 1) (0 : Fin 1)) = W2 m ρ c (Proc.devRef .tc main_arg12) (ix1 (0 : Fin 1)) :=
    host1_v19 (W2 m ρ c)
  have e3 : W2 m ρ c (Proc.devRef .tc main_arg12) = W1 m ρ c (Proc.devRef .tc main_arg12) := W2_of_ne m ρ c main_arg12 (by decide)
  have e4 : W1 m ρ c (Proc.devRef .tc main_arg12) = m ((c.tc : Thread nD τ).loc main_arg12) := W1_keep m ρ c main_arg12 (by decide)
  rw [e1, e2, e3, e4]
  rfl

theorem hi_lane (β : Fin 2) (u : Fin 64) : hi (lane β u) = β := Fin.ext (by show (64 * β.val + u.val) / 64 = β.val; omega)
theorem lo_lane (β : Fin 2) (u : Fin 64) : lo (lane β u) = u := Fin.ext (by show (64 * β.val + u.val) % 64 = u.val; omega)

theorem acolK_eq (X : Fin 64 → Fin 512 → Cert.Spec.R) (Adj : Fin 512 → Fin 512 → Cert.Spec.R) (p : Fin 32) (n : Fin 512) (r : Fin 6) (k : Fin 3) (β : Fin 2)
    (hk : r.val / 2 = k.val) (hβ : r.val % 2 = β.val) :
    acolK X Adj p n r = if k.val = 0 then X (bat p β) n else if k.val = 1 then a1K X Adj (bat p β) n else a2K X Adj (bat p β) n := by
  have e : (⟨r.val % 2, by omega⟩ : Fin 2) = β := Fin.ext hβ
  unfold acolK
  rw [hk, e]

theorem W2_arg0 (c : Dev nD) : W2 (F := Ideal) m ρ c (Proc.devRef .tc main_arg0) = (m ((c.tc : Thread nD τ).loc main_arg0)) :=
  ((W2_arr m ρ c 1).trans (((dat0 (V1 m ρ) c).arrAt_in 1 rfl _).trans (A_eq0 (V1 m ρ) c 1))).trans (W1_keep m ρ c main_arg0 (by decide))

theorem W2_a1 (c : Dev nD) (b : Fin 64) (n : Fin 512) :
    W2 (F := Ideal) m ρ c (Proc.devRef .tc main_v12_1) (ix2 b n)
      = a1K (cur2 (a := 64) (b := 512) (m ((c.tc : Thread nD τ).loc main_arg0))) (cur2 (a := 512) (b := 512) (m ((c.tc : Thread nD τ).loc main_arg2))) b n := by
  have e3 : W2 m ρ c (Proc.devRef .tc main_v12_1) = left0_12 (V1 m ρ c main_arg2) (V1 m ρ c main_arg0) :=
    (W2_arr m ρ c 12).trans (arr0_out_12 (V1 m ρ) c)
  have e4 : V1 m ρ c main_arg2 = (m ((c.tc : Thread nD τ).loc main_arg2)) := W1_keep m ρ c main_arg2 (by decide)
  have e5 : V1 m ρ c main_arg0 = (m ((c.tc : Thread nD τ).loc main_arg0)) := W1_keep m ρ c main_arg0 (by decide)
  rw [e3, e4, e5]
  exact a1_val _ _ b n
theorem W2_a2 (c : Dev nD) (b : Fin 64) (n : Fin 512) :
    W2 (F := Ideal) m ρ c (Proc.devRef .tc main_v12_2) (ix2 b n)
      = a2K (cur2 (a := 64) (b := 512) (m ((c.tc : Thread nD τ).loc main_arg0))) (cur2 (a := 512) (b := 512) (m ((c.tc : Thread nD τ).loc main_arg2))) b n := by
  have e3 : W2 m ρ c (Proc.devRef .tc main_v12_2) = left0_13 (V1 m ρ c main_arg2) (V1 m ρ c main_arg0) :=
    (W2_arr m ρ c 13).trans (arr0_out_13 (V1 m ρ) c)
  have e4 : V1 m ρ c main_arg2 = (m ((c.tc : Thread nD τ).loc main_arg2)) := W1_keep m ρ c main_arg2 (by decide)
  have e5 : V1 m ρ c main_arg0 = (m ((c.tc : Thread nD τ).loc main_arg0)) := W1_keep m ρ c main_arg0 (by decide)
  rw [e3, e4, e5]
  exact a2_val _ _ b n

theorem blk_hA (c : Dev nD) (p : Fin 32) (t : Fin cfg1.N) (ht : t.val = p.val) (k : Fin 3) (β : Fin 2) (n : Fin 512) :
    iblk1 (V3 m ρ) c 1 t (ix4 k (0 : Fin 1) β n)
      = acolK (cur2 (a := 64) (b := 512) (m ((c.tc : Thread nD τ).loc main_arg0))) (cur2 (a := 512) (b := 512) (m ((c.tc : Thread nD τ).loc main_arg2))) p n ⟨2 * k.val + β.val, by omega⟩ := by
  refine ((blk1_cols (V3 m ρ) c t k β n).trans
    (congrArg (fun p' : Fin 32 => V3 m ρ c main_v17 (ix4 k p' β n)) (Fin.ext ht : (⟨t.val, _⟩ : Fin 32) = p))).trans ?_
  refine (host1_v17 (W2 m ρ c) k p β n).trans ?_
  rw [acolK_eq _ _ p n ⟨2 * k.val + β.val, by omega⟩ k β (by show (2 * k.val + β.val) / 2 = k.val; omega)
    (by show (2 * k.val + β.val) % 2 = β.val; omega), W2_arg0, W2_a1, W2_a2]
  rfl

theorem W2_arg1 (c : Dev nD) : W2 (F := Ideal) m ρ c (Proc.devRef .tc main_arg1) = (m ((c.tc : Thread nD τ).loc main_arg1)) :=
  (W2_of_ne m ρ c main_arg1 (by decide)).trans (W1_keep m ρ c main_arg1 (by decide))

theorem blk_hH (c : Dev nD) (p : Fin 32) (t : Fin cfg1.N) (ht : t.val = p.val) (L β : Fin 2) (n : Fin 512) (u : Fin 64) :
    iblk1 (V3 m ρ) c 2 t (ix4 L β n u)
      = stK (cur3 (a := 2) (b := 64) (c := 32768) (m ((c.tc : Thread nD τ).loc main_arg1))) L p n (lane β u) := by
  refine ((blk1_hid (V3 m ρ) c t L β n u).trans
    (congrArg (fun b : Fin 64 => V3 m ρ c main_v18 (ix4 L b n u))
      (Fin.ext (by show 2 * t.val + β.val = 2 * p.val + β.val; rw [ht]) : (⟨2 * t.val + β.val, _⟩ : Fin 64) = bat p β))).trans ?_
  refine (host1_v18 (W2 m ρ c) L (bat p β) n u).trans ?_
  rw [W2_arg1]
  unfold stK
  rw [hi_lane, lo_lane]
  rfl

end Cert.KernelIdeal.Hand

end
-- ==== Proof.KI.Value.lean ====
import proofs.«105208_g19069654794669_cont_sun_m_30_30_alg».proof.Proof.Spec
import proofs.«105208_g19069654794669_cont_sun_m_30_30_alg».proof.Proof.KI.Run
import proofs.«105208_g19069654794669_cont_sun_m_30_30_alg».proof.Proof.KI.HostVals
import proofs.«105208_g19069654794669_cont_sun_m_30_30_alg».proof.Proof.KI.Val0Math
import proofs.«105208_g19069654794669_cont_sun_m_30_30_alg».proof.Proof.KI.Val0W0
import proofs.«105208_g19069654794669_cont_sun_m_30_30_alg».proof.Proof.KI.Val0W1
import proofs.«105208_g19069654794669_cont_sun_m_30_30_alg».proof.Proof.KI.Val1Cell0
import proofs.«105208_g19069654794669_cont_sun_m_30_30_alg».proof.Proof.KI.Val1Cell1
import proofs.«105208_g19069654794669_cont_sun_m_30_30_alg».proof.Proof.KI.Blocks
import proofs.«105208_g19069654794669_cont_sun_m_30_30_alg».proof.Proof.KI.BlockHyps
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Cert.KernelIdeal Cert.KernelIdeal.Gen Idealize.ShloMosaic Idealize.ShloMosaic.ValueIdx Idealize.ShloMosaic.StableHlo Idealize.ShloMosaic.TcCoe Cert.Spec

variable (m : (ℓ : Loc nD τ sig) → Buf (Elt Ideal) ℓ) (ρ : Dev nD → PrngReg)

abbrev ptOf (p : Fin 32) : Fin cfg1.N := ⟨p.val, lt_of_lt_of_eq p.isLt N_1.symm⟩

theorem out_block_read (w : Vec Ideal S1x2x512 .f32) :
    View.canon [(⟨rOut, w⟩ : View.Piece (Elt Ideal) S1x2x512 .f32)] = w :=
  View.canon_unit_zero (S := S1x2x512) (funext fun a => by
    match a with
    | ⟨0, _⟩ => rfl
    | ⟨1, _⟩ => rfl
    | ⟨2, _⟩ => rfl) _ w

theorem hid_block_read_11 (w11 w10 w01 w00 : Vec Ideal S1x1x512x64 .f32) (n : Fin 512) (u : Fin 64) :
    View.canon [(⟨rHid11, w11⟩ : View.Piece (Elt Ideal) S2x2x512x64 .f32), ⟨rHid10, w10⟩, ⟨rHid01, w01⟩, ⟨rHid00, w00⟩]
      (ix4 (1 : Fin 2) (1 : Fin 2) n u) = w11 (ix4 (0 : Fin 1) (0 : Fin 1) n u) := by
  have e : ix4 (1 : Fin 2) (1 : Fin 2) n u = rHid11.emb (ix4 (0 : Fin 1) (0 : Fin 1) n u) := funext fun a => Fin.ext (by
    match a with
    | ⟨0, _⟩ => rfl
    | ⟨1, _⟩ => rfl
    | ⟨2, _⟩ => show n.val = 0 + 1 * n.val; omega
    | ⟨3, _⟩ => show u.val = 0 + 1 * u.val; omega)
  rw [e]
  exact View.canon_cons_emb rHid11 w11 _ _

theorem hid_block_read_10 (w11 w10 w01 w00 : Vec Ideal S1x1x512x64 .f32) (n : Fin 512) (u : Fin 64) :
    View.canon [(⟨rHid11, w11⟩ : View.Piece (Elt Ideal) S2x2x512x64 .f32), ⟨rHid10, w10⟩, ⟨rHid01, w01⟩, ⟨rHid00, w00⟩]
      (ix4 (1 : Fin 2) (0 : Fin 2) n u) = w10 (ix4 (0 : Fin 1) (0 : Fin 1) n u) := by
  have e : ix4 (1 : Fin 2) (0 : Fin 2) n u = rHid10.emb (ix4 (0 : Fin 1) (0 : Fin 1) n u) := funext fun a => Fin.ext (by
    match a with
    | ⟨0, _⟩ => rfl
    | ⟨1, _⟩ => rfl
    | ⟨2, _⟩ => show n.val = 0 + 1 * n.val; omega
    | ⟨3, _⟩ => show u.val = 0 + 1 * u.val; omega)
  have hm : rHid10.emb (ix4 (0 : Fin 1) (0 : Fin 1) n u) ∈ rHid10.set := rHid10.idx_mem _
  have h11 : rHid10.emb (ix4 (0 : Fin 1) (0 : Fin 1) n u) ∉ rHid11.set := fun h =>
    Finset.disjoint_left.mp (Rect.unit_disjoint (1 : Fin 4) (Or.inr (by decide))) h hm
  rw [e, View.canon_cons_of_not_mem (⟨rHid11, w11⟩ : View.Piece (Elt Ideal) S2x2x512x64 .f32) [⟨rHid10, w10⟩, ⟨rHid01, w01⟩, ⟨rHid00, w00⟩] h11]
  exact View.canon_cons_emb rHid10 w10 _ _

theorem hid_block_read_01 (w11 w10 w01 w00 : Vec Ideal S1x1x512x64 .f32) (n : Fin 512) (u : Fin 64) :
    View.canon [(⟨rHid11, w11⟩ : View.Piece (Elt Ideal) S2x2x512x64 .f32), ⟨rHid10, w10⟩, ⟨rHid01, w01⟩, ⟨rHid00, w00⟩]
      (ix4 (0 : Fin 2) (1 : Fin 2) n u) = w01 (ix4 (0 : Fin 1) (0 : Fin 1) n u) := by
  have e : ix4 (0 : Fin 2) (1 : Fin 2) n u = rHid01.emb (ix4 (0 : Fin 1) (0 : Fin 1) n u) := funext fun a => Fin.ext (by
    match a with
    | ⟨0, _⟩ => rfl
    | ⟨1, _⟩ => rfl
    | ⟨2, _⟩ => show n.val = 0 + 1 * n.val; omega
    | ⟨3, _⟩ => show u.val = 0 + 1 * u.val; omega)
  have hm : rHid01.emb (ix4 (0 : Fin 1) (0 : Fin 1) n u) ∈ rHid01.set := rHid01.idx_mem _
  have h11 : rHid01.emb (ix4 (0 : Fin 1) (0 : Fin 1) n u) ∉ rHid11.set := fun h =>
    Finset.disjoint_left.mp (Rect.unit_disjoint (0 : Fin 4) (Or.inr (by decide))) h hm
  have h10 : rHid01.emb (ix4 (0 : Fin 1) (0 : Fin 1) n u) ∉ rHid10.set := fun h =>
    Finset.disjoint_left.mp (Rect.unit_disjoint (0 : Fin 4) (Or.inr (by decide))) h hm
  rw [e, View.canon_cons_of_not_mem (⟨rHid11, w11⟩ : View.Piece (Elt Ideal) S2x2x512x64 .f32) [⟨rHid10, w10⟩, ⟨rHid01, w01⟩, ⟨rHid00, w00⟩] h11,
    View.canon_cons_of_not_mem (⟨rHid10, w10⟩ : View.Piece (Elt Ideal) S2x2x512x64 .f32) [⟨rHid01, w01⟩, ⟨rHid00, w00⟩] h10]
  exact View.canon_cons_emb rHid01 w01 _ _

theorem hid_block_read_00 (w11 w10 w01 w00 : Vec Ideal S1x1x512x64 .f32) (n : Fin 512) (u : Fin 64) :
    View.canon [(⟨rHid11, w11⟩ : View.Piece (Elt Ideal) S2x2x512x64 .f32), ⟨rHid10, w10⟩, ⟨rHid01, w01⟩, ⟨rHid00, w00⟩]
      (ix4 (0 : Fin 2) (0 : Fin 2) n u) = w00 (ix4 (0 : Fin 1) (0 : Fin 1) n u) := by
  have e : ix4 (0 : Fin 2) (0 : Fin 2) n u = rHid00.emb (ix4 (0 : Fin 1) (0 : Fin 1) n u) := funext fun a => Fin.ext (by
    match a with
    | ⟨0, _⟩ => rfl
    | ⟨1, _⟩ => rfl
    | ⟨2, _⟩ => show n.val = 0 + 1 * n.val; omega
    | ⟨3, _⟩ => show u.val = 0 + 1 * u.val; omega)
  have hm : rHid00.emb (ix4 (0 : Fin 1) (0 : Fin 1) n u) ∈ rHid00.set := rHid00.idx_mem _
  have h11 : rHid00.emb (ix4 (0 : Fin 1) (0 : Fin 1) n u) ∉ rHid11.set := fun h =>
    Finset.disjoint_left.mp (Rect.unit_disjoint (0 : Fin 4) (Or.inr (by decide))) h hm
  have h10 : rHid00.emb (ix4 (0 : Fin 1) (0 : Fin 1) n u) ∉ rHid10.set := fun h =>
    Finset.disjoint_left.mp (Rect.unit_disjoint (0 : Fin 4) (Or.inr (by decide))) h hm
  have h01 : rHid00.emb (ix4 (0 : Fin 1) (0 : Fin 1) n u) ∉ rHid01.set := fun h =>
    Finset.disjoint_left.mp (Rect.unit_disjoint (1 : Fin 4) (Or.inr (by decide))) h hm
  rw [e, View.canon_cons_of_not_mem (⟨rHid11, w11⟩ : View.Piece (Elt Ideal) S2x2x512x64 .f32) [⟨rHid10, w10⟩, ⟨rHid01, w01⟩, ⟨rHid00, w00⟩] h11,
    View.canon_cons_of_not_mem (⟨rHid10, w10⟩ : View.Piece (Elt Ideal) S2x2x512x64 .f32) [⟨rHid01, w01⟩, ⟨rHid00, w00⟩] h10,
    View.canon_cons_of_not_mem (⟨rHid01, w01⟩ : View.Piece (Elt Ideal) S2x2x512x64 .f32) [⟨rHid00, w00⟩] h01]
  exact View.canon_cons_emb rHid00 w00 _ _

theorem fin2_cases (x : Fin 2) : x = 0 ∨ x = 1 :=
  match x with
  | ⟨0, _⟩ => Or.inl rfl
  | ⟨1, _⟩ => Or.inr rfl

theorem kernel_out_of (c : Dev nD) (b : Fin 64) (n : Fin 512) (X : Fin 64 → Fin 512 → Cert.Spec.R) (Hs : Fin 2 → Fin 64 → Fin 32768 → Cert.Spec.R) (Adj : Fin 512 → Fin 512 → Cert.Spec.R)
    (Wru0 : Fin 195 → Fin 128 → Cert.Spec.R) (bru0 : Fin 128 → Cert.Spec.R) (Wc0 : Fin 195 → Fin 64 → Cert.Spec.R) (bc0 : Fin 64 → Cert.Spec.R)
    (Wru1 : Fin 384 → Fin 128 → Cert.Spec.R) (bru1 : Fin 128 → Cert.Spec.R) (Wc1 : Fin 384 → Fin 64 → Cert.Spec.R) (bc1 : Fin 64 → Cert.Spec.R) (Wp : Fin 64 → Fin 1 → Cert.Spec.R) (bp : Fin 1 → Cert.Spec.R)
    (p : Fin 32) (hp : p = pairOf b) (t : Fin cfg1.N) (ht : t = ptOf p)
    (hS : ∀ i j : Fin 512, iblk1 (V3 (F := Ideal) m ρ) c 0 t (ix2 i j) = supK Adj i j)
    (hA : ∀ (k : Fin 3) (β : Fin 2) (n : Fin 512), iblk1 (V3 (F := Ideal) m ρ) c 1 t (ix4 k (0 : Fin 1) β n) = acolK X Adj p n ⟨2 * k.val + β.val, by omega⟩)
    (hH : ∀ (L β : Fin 2) (n : Fin 512) (u : Fin 64), iblk1 (V3 (F := Ideal) m ρ) c 2 t (ix4 L β n u) = stK Hs L p n (lane β u))
    (hwa : ∀ (r : Fin 6) (q : Fin 256), iblk1 (V3 (F := Ideal) m ρ) c 3 t (ix2 r q) = waRu0 Wru0 r q)
    (hwh : ∀ (k : Fin 3) (l : Fin 128) (q : Fin 256), iblk1 (V3 (F := Ideal) m ρ) c 4 t (ix3 k l q) = whRu0 Wru0 k l q)
    (hb : ∀ q : Fin 256, iblk1 (V3 (F := Ideal) m ρ) c 5 t (ix2 (0 : Fin 1) q) = bRu0 bru0 q)
    (hwac : ∀ (r : Fin 6) (l : Fin 128), iblk1 (V3 (F := Ideal) m ρ) c 6 t (ix2 r l) = waC0 Wc0 r l)
    (hwhc : ∀ (k : Fin 3) (l l' : Fin 128), iblk1 (V3 (F := Ideal) m ρ) c 7 t (ix3 k l l') = whC0 Wc0 k l l')
    (hbc : ∀ l : Fin 128, iblk1 (V3 (F := Ideal) m ρ) c 8 t (ix2 (0 : Fin 1) l) = bC0 bc0 l)
    (hwg : ∀ (k : Fin 3) (l : Fin 128) (q : Fin 256), iblk1 (V3 (F := Ideal) m ρ) c 9 t (ix3 k l q) = wgRu1 Wru1 k l q)
    (hwk : ∀ (k : Fin 3) (l : Fin 128) (q : Fin 256), iblk1 (V3 (F := Ideal) m ρ) c 10 t (ix3 k l q) = wkRu1 Wru1 k l q)
    (hb1 : ∀ q : Fin 256, iblk1 (V3 (F := Ideal) m ρ) c 11 t (ix2 (0 : Fin 1) q) = bRu1 bru1 q)
    (hwgc : ∀ (k : Fin 3) (l l' : Fin 128), iblk1 (V3 (F := Ideal) m ρ) c 12 t (ix3 k l l') = wgC1 Wc1 k l l')
    (hwkc : ∀ (k : Fin 3) (l l' : Fin 128), iblk1 (V3 (F := Ideal) m ρ) c 13 t (ix3 k l l') = wkC1 Wc1 k l l')
    (hbc1 : ∀ l : Fin 128, iblk1 (V3 (F := Ideal) m ρ) c 14 t (ix2 (0 : Fin 1) l) = bC1 bc1 l)
    (hwp : ∀ (l : Fin 128) (j : Fin 2), iblk1 (V3 (F := Ideal) m ρ) c 15 t (ix2 l j) = wpp Wp l j)
    (hbp : iblk1 (V3 (F := Ideal) m ρ) c 16 t (ix2 (0 : Fin 1) (0 : Fin 1)) = bp 0) :
    W5 (F := Ideal) m ρ c (Proc.devRef .tc main_v21) (ix2 b n) = outK X Hs Adj Wru0 bru0 Wc0 bc0 Wru1 bru1 Wc1 bc1 Wp bp b n := by
  subst hp ht
  calc W5 (F := Ideal) m ρ c (Proc.devRef .tc main_v21) (ix2 b n)
      = W4 (F := Ideal) m ρ c (Proc.devRef .tc main_v20_0) (ix3 (pairOf b) (slotOf b) n) := host2_v21 (W4 m ρ c) b n
    _ = (dat1 (V3 (F := Ideal) m ρ) c).arrAt 17 cfg1.N (ix3 (pairOf b) (slotOf b) n) := congrFun (W4_arr m ρ c 17) _
    _ = (dat1 (V3 (F := Ideal) m ρ) c).after 17 (ptOf (pairOf b)) (ix3 (0 : Fin 1) (slotOf b) n) := arr1_out17 (V3 m ρ) c (pairOf b) (slotOf b) n
    _ = prjK X Hs Adj Wru0 bru0 Wc0 bc0 Wru1 bru1 Wc1 bc1 Wp bp (pairOf b) n (slotOf b) := by
        rw [after1_17, out1_17, out_block_read]
        exact prj_val X Hs Adj Wru0 bru0 Wc0 bc0 Wru1 bru1 Wc1 bc1 Wp bp _ _ _ _ _ _ _ _ _ _ _ _ _ _ _ _ _ (pairOf b)
          hS hA hH hwa hwh hb hwac hwhc hbc hwg hwk hb1 hwgc hwkc hbc1 hwp hbp (slotOf b) n
    _ = outK X Hs Adj Wru0 bru0 Wc0 bc0 Wru1 bru1 Wc1 bc1 Wp bp b n := rfl

theorem kernel_hid_of (c : Dev nD) (L : Fin 2) (b : Fin 64) (q : Fin 32768) (X : Fin 64 → Fin 512 → Cert.Spec.R) (Hs : Fin 2 → Fin 64 → Fin 32768 → Cert.Spec.R) (Adj : Fin 512 → Fin 512 → Cert.Spec.R)
    (Wru0 : Fin 195 → Fin 128 → Cert.Spec.R) (bru0 : Fin 128 → Cert.Spec.R) (Wc0 : Fin 195 → Fin 64 → Cert.Spec.R) (bc0 : Fin 64 → Cert.Spec.R)
    (Wru1 : Fin 384 → Fin 128 → Cert.Spec.R) (bru1 : Fin 128 → Cert.Spec.R) (Wc1 : Fin 384 → Fin 64 → Cert.Spec.R) (bc1 : Fin 64 → Cert.Spec.R)
    (p : Fin 32) (hp : p = pairOf b) (t : Fin cfg1.N) (ht : t = ptOf p)
    (hS : ∀ i j : Fin 512, iblk1 (V3 (F := Ideal) m ρ) c 0 t (ix2 i j) = supK Adj i j)
    (hA : ∀ (k : Fin 3) (β : Fin 2) (n : Fin 512), iblk1 (V3 (F := Ideal) m ρ) c 1 t (ix4 k (0 : Fin 1) β n) = acolK X Adj p n ⟨2 * k.val + β.val, by omega⟩)
    (hH : ∀ (L β : Fin 2) (n : Fin 512) (u : Fin 64), iblk1 (V3 (F := Ideal) m ρ) c 2 t (ix4 L β n u) = stK Hs L p n (lane β u))
    (hwa : ∀ (r : Fin 6) (q : Fin 256), iblk1 (V3 (F := Ideal) m ρ) c 3 t (ix2 r q) = waRu0 Wru0 r q)
    (hwh : ∀ (k : Fin 3) (l : Fin 128) (q : Fin 256), iblk1 (V3 (F := Ideal) m ρ) c 4 t (ix3 k l q) = whRu0 Wru0 k l q)
    (hb : ∀ q : Fin 256, iblk1 (V3 (F := Ideal) m ρ) c 5 t (ix2 (0 : Fin 1) q) = bRu0 bru0 q)
    (hwac : ∀ (r : Fin 6) (l : Fin 128), iblk1 (V3 (F := Ideal) m ρ) c 6 t (ix2 r l) = waC0 Wc0 r l)
    (hwhc : ∀ (k : Fin 3) (l l' : Fin 128), iblk1 (V3 (F := Ideal) m ρ) c 7 t (ix3 k l l') = whC0 Wc0 k l l')
    (hbc : ∀ l : Fin 128, iblk1 (V3 (F := Ideal) m ρ) c 8 t (ix2 (0 : Fin 1) l) = bC0 bc0 l)
    (hwg : ∀ (k : Fin 3) (l : Fin 128) (q : Fin 256), iblk1 (V3 (F := Ideal) m ρ) c 9 t (ix3 k l q) = wgRu1 Wru1 k l q)
    (hwk : ∀ (k : Fin 3) (l : Fin 128) (q : Fin 256), iblk1 (V3 (F := Ideal) m ρ) c 10 t (ix3 k l q) = wkRu1 Wru1 k l q)
    (hb1 : ∀ q : Fin 256, iblk1 (V3 (F := Ideal) m ρ) c 11 t (ix2 (0 : Fin 1) q) = bRu1 bru1 q)
    (hwgc : ∀ (k : Fin 3) (l l' : Fin 128), iblk1 (V3 (F := Ideal) m ρ) c 12 t (ix3 k l l') = wgC1 Wc1 k l l')
    (hwkc : ∀ (k : Fin 3) (l l' : Fin 128), iblk1 (V3 (F := Ideal) m ρ) c 13 t (ix3 k l l') = wkC1 Wc1 k l l')
    (hbc1 : ∀ l : Fin 128, iblk1 (V3 (F := Ideal) m ρ) c 14 t (ix2 (0 : Fin 1) l) = bC1 bc1 l) :
    W5 (F := Ideal) m ρ c (Proc.devRef .tc main_v22) (ix3 L b q) = hidK X Hs Adj Wru0 bru0 Wc0 bc0 Wru1 bru1 Wc1 bc1 L b q := by
  subst hp ht
  have h0 := hid0_val X Hs Adj Wru0 bru0 Wc0 bc0 _ _ _ _ _ _ _ _ _ (pairOf b) hS hA hH hwa hwh hb hwac hwhc hbc (nodeOf q) (unitOf q)
  have h1 := hid1_val X Hs Adj Wru0 bru0 Wc0 bc0 Wru1 bru1 Wc1 bc1 _ _ _ _ _ _ _ _ _ _ _ _ _ _ _ (pairOf b)
    hS hA hH hwa hwh hb hwac hwhc hbc hwg hwk hb1 hwgc hwkc hbc1 (nodeOf q) (unitOf q)
  have step : W5 (F := Ideal) m ρ c (Proc.devRef .tc main_v22) (ix3 L b q)
      = out1_18 (iblk1 (V3 (F := Ideal) m ρ) c 0 (ptOf (pairOf b))) (iblk1 (V3 (F := Ideal) m ρ) c 1 (ptOf (pairOf b))) (iblk1 (V3 (F := Ideal) m ρ) c 2 (ptOf (pairOf b))) (iblk1 (V3 (F := Ideal) m ρ) c 3 (ptOf (pairOf b))) (iblk1 (V3 (F := Ideal) m ρ) c 4 (ptOf (pairOf b))) (iblk1 (V3 (F := Ideal) m ρ) c 5 (ptOf (pairOf b))) (iblk1 (V3 (F := Ideal) m ρ) c 6 (ptOf (pairOf b))) (iblk1 (V3 (F := Ideal) m ρ) c 7 (ptOf (pairOf b))) (iblk1 (V3 (F := Ideal) m ρ) c 8 (ptOf (pairOf b))) (iblk1 (V3 (F := Ideal) m ρ) c 9 (ptOf (pairOf b))) (iblk1 (V3 (F := Ideal) m ρ) c 10 (ptOf (pairOf b))) (iblk1 (V3 (F := Ideal) m ρ) c 11 (ptOf (pairOf b))) (iblk1 (V3 (F := Ideal) m ρ) c 12 (ptOf (pairOf b))) (iblk1 (V3 (F := Ideal) m ρ) c 13 (ptOf (pairOf b))) (iblk1 (V3 (F := Ideal) m ρ) c 14 (ptOf (pairOf b))) (ix4 L (slotOf b) (nodeOf q) (unitOf q)) :=
    calc W5 (F := Ideal) m ρ c (Proc.devRef .tc main_v22) (ix3 L b q)
        = W4 (F := Ideal) m ρ c (Proc.devRef .tc main_v20_1) (ix4 L b (nodeOf q) (unitOf q)) := host2_v22 (W4 m ρ c) L b q
      _ = (dat1 (V3 (F := Ideal) m ρ) c).arrAt 18 cfg1.N (ix4 L b (nodeOf q) (unitOf q)) := congrFun (W4_arr m ρ c 18) _
      _ = (dat1 (V3 (F := Ideal) m ρ) c).after 18 (ptOf (pairOf b)) (ix4 L (slotOf b) (nodeOf q) (unitOf q)) := arr1_out18 (V3 (F := Ideal) m ρ) c L b (nodeOf q) (unitOf q)
      _ = _ := by rw [after1_18]
  rw [step, out1_18]
  unfold hidK
  generalize slotOf b = β at h0 h1 ⊢
  obtain rfl | rfl := fin2_cases L
  · rw [if_pos rfl]
    obtain rfl | rfl := fin2_cases β
    · rw [hid_block_read_00]; exact h0.1
    · rw [hid_block_read_01]; exact h0.2
  · rw [if_neg (by decide)]
    obtain rfl | rfl := fin2_cases β
    · rw [hid_block_read_10]; exact h1.1
    · rw [hid_block_read_11]; exact h1.2

theorem kernel_out (c : Dev nD) (b : Fin 64) (n : Fin 512) :
    W5 (F := Ideal) m ρ c (Proc.devRef .tc main_v21) (ix2 b n)
      = outK (cur2 (a := 64) (b := 512) (m ((c.tc : Thread nD τ).loc main_arg0)))
          (cur3 (a := 2) (b := 64) (c := 32768) (m ((c.tc : Thread nD τ).loc main_arg1)))
          (cur2 (a := 512) (b := 512) (m ((c.tc : Thread nD τ).loc main_arg2)))
          (cur2 (a := 195) (b := 128) (m ((c.tc : Thread nD τ).loc main_arg3)))
          (cur1 (a := 128) (m ((c.tc : Thread nD τ).loc main_arg4)))
          (cur2 (a := 195) (b := 64) (m ((c.tc : Thread nD τ).loc main_arg5)))
          (cur1 (a := 64) (m ((c.tc : Thread nD τ).loc main_arg6)))
          (cur2 (a := 384) (b := 128) (m ((c.tc : Thread nD τ).loc main_arg7)))
          (cur1 (a := 128) (m ((c.tc : Thread nD τ).loc main_arg8)))
          (cur2 (a := 384) (b := 64) (m ((c.tc : Thread nD τ).loc main_arg9)))
          (cur1 (a := 64) (m ((c.tc : Thread nD τ).loc main_arg10)))
          (cur2 (a := 64) (b := 1) (m ((c.tc : Thread nD τ).loc main_arg11)))
          (cur1 (a := 1) (m ((c.tc : Thread nD τ).loc main_arg12))) b n :=
  kernel_out_of m ρ c b n _ _ _ _ _ _ _ _ _ _ _ _ _ (pairOf b) rfl (ptOf (pairOf b)) rfl
    (blk_hS m ρ c (pairOf b) (ptOf (pairOf b)) rfl)
    (blk_hA m ρ c (pairOf b) (ptOf (pairOf b)) rfl)
    (blk_hH m ρ c (pairOf b) (ptOf (pairOf b)) rfl)
    (blk_hwa m ρ c (pairOf b) (ptOf (pairOf b)) rfl)
    (blk_hwh m ρ c (pairOf b) (ptOf (pairOf b)) rfl)
    (blk_hb m ρ c (pairOf b) (ptOf (pairOf b)) rfl)
    (blk_hwac m ρ c (pairOf b) (ptOf (pairOf b)) rfl)
    (blk_hwhc m ρ c (pairOf b) (ptOf (pairOf b)) rfl)
    (blk_hbc m ρ c (pairOf b) (ptOf (pairOf b)) rfl)
    (blk_hwg m ρ c (pairOf b) (ptOf (pairOf b)) rfl)
    (blk_hwk m ρ c (pairOf b) (ptOf (pairOf b)) rfl)
    (blk_hb1 m ρ c (pairOf b) (ptOf (pairOf b)) rfl)
    (blk_hwgc m ρ c (pairOf b) (ptOf (pairOf b)) rfl)
    (blk_hwkc m ρ c (pairOf b) (ptOf (pairOf b)) rfl)
    (blk_hbc1 m ρ c (pairOf b) (ptOf (pairOf b)) rfl)
    (blk_hwp m ρ c (pairOf b) (ptOf (pairOf b)) rfl) (blk_hbp m ρ c (pairOf b) (ptOf (pairOf b)) rfl)

theorem kernel_hid (c : Dev nD) (L : Fin 2) (b : Fin 64) (q : Fin 32768) :
    W5 (F := Ideal) m ρ c (Proc.devRef .tc main_v22) (ix3 L b q)
      = hidK (cur2 (a := 64) (b := 512) (m ((c.tc : Thread nD τ).loc main_arg0)))
          (cur3 (a := 2) (b := 64) (c := 32768) (m ((c.tc : Thread nD τ).loc main_arg1)))
          (cur2 (a := 512) (b := 512) (m ((c.tc : Thread nD τ).loc main_arg2)))
          (cur2 (a := 195) (b := 128) (m ((c.tc : Thread nD τ).loc main_arg3)))
          (cur1 (a := 128) (m ((c.tc : Thread nD τ).loc main_arg4)))
          (cur2 (a := 195) (b := 64) (m ((c.tc : Thread nD τ).loc main_arg5)))
          (cur1 (a := 64) (m ((c.tc : Thread nD τ).loc main_arg6)))
          (cur2 (a := 384) (b := 128) (m ((c.tc : Thread nD τ).loc main_arg7)))
          (cur1 (a := 128) (m ((c.tc : Thread nD τ).loc main_arg8)))
          (cur2 (a := 384) (b := 64) (m ((c.tc : Thread nD τ).loc main_arg9)))
          (cur1 (a := 64) (m ((c.tc : Thread nD τ).loc main_arg10))) L b q :=
  kernel_hid_of m ρ c L b q _ _ _ _ _ _ _ _ _ _ _ (pairOf b) rfl (ptOf (pairOf b)) rfl
    (blk_hS m ρ c (pairOf b) (ptOf (pairOf b)) rfl)
    (blk_hA m ρ c (pairOf b) (ptOf (pairOf b)) rfl)
    (blk_hH m ρ c (pairOf b) (ptOf (pairOf b)) rfl)
    (blk_hwa m ρ c (pairOf b) (ptOf (pairOf b)) rfl)
    (blk_hwh m ρ c (pairOf b) (ptOf (pairOf b)) rfl)
    (blk_hb m ρ c (pairOf b) (ptOf (pairOf b)) rfl)
    (blk_hwac m ρ c (pairOf b) (ptOf (pairOf b)) rfl)
    (blk_hwhc m ρ c (pairOf b) (ptOf (pairOf b)) rfl)
    (blk_hbc m ρ c (pairOf b) (ptOf (pairOf b)) rfl)
    (blk_hwg m ρ c (pairOf b) (ptOf (pairOf b)) rfl)
    (blk_hwk m ρ c (pairOf b) (ptOf (pairOf b)) rfl)
    (blk_hb1 m ρ c (pairOf b) (ptOf (pairOf b)) rfl)
    (blk_hwgc m ρ c (pairOf b) (ptOf (pairOf b)) rfl)
    (blk_hwkc m ρ c (pairOf b) (ptOf (pairOf b)) rfl)
    (blk_hbc1 m ρ c (pairOf b) (ptOf (pairOf b)) rfl)

end Cert.KernelIdeal.Hand

end
-- ==== Proof.Bridge.Support.lean ====
import proofs.«105208_g19069654794669_cont_sun_m_30_30_alg».proof.Proof.Spec
import Idealize.ShloMosaic.PureOps.Ideal.Laws
import Idealize.ShloMosaic.Lib.IdealHost

noncomputable section

open scoped BigOperators

namespace Cert.Spec

open Idealize.ShloMosaic

theorem c0_eq : c0 = 0 := by
  unfold c0
  exact Ideal.ofBits_zero_f32
theorem c1_eq : c1 = 1 := by
  unfold c1
  exact Ideal.ofBits_one_f32

theorem one_sub_sub_one (x : EReal) : (1 - x) - 1 = -x := by
  induction x using EReal.rec with
  | bot =>
    rw [← EReal.coe_one, EReal.coe_sub_bot, EReal.top_sub_coe, EReal.neg_bot]
  | coe r => norm_cast; ring
  | top =>
    rw [EReal.sub_top, EReal.bot_sub, EReal.neg_top]

theorem zero_sub_sub_zero (x : EReal) : (0 - x) - 0 = -x := by
  rw [sub_zero, zero_sub]

theorem sym_comm (Adj : Fin 512 → Fin 512 → R) (i j : Fin 512) : sym Adj i j = sym Adj j i := by
  unfold sym
  exact max_comm _ _

theorem colsum_eq_rowsum (Adj : Fin 512 → Fin 512 → R) (j : Fin 512) :
    (∑ i', sym Adj i' j) = ∑ j', sym Adj j j' :=
  Finset.sum_congr rfl (fun i' _ => sym_comm Adj i' j)

theorem degR_eq (Adj : Fin 512 → Fin 512 → R) (i : Fin 512) : degR Adj i = ∑ j, sym Adj i j := by
  unfold degR
  rw [c0_eq, zero_add]

theorem supK_neg (Adj : Fin 512 → Fin 512 → R) (i j : Fin 512) :
    supK Adj i j = -((invs (∑ j', sym Adj i j') * sym Adj i j) * invs (∑ j', sym Adj j j')) := by
  unfold supK
  rw [colsum_eq_rowsum, c0_eq, zero_sub, EReal.neg_mul]

theorem supR_neg (Adj : Fin 512 → Fin 512 → R) (i j : Fin 512) :
    supR Adj i j = -((invs (∑ j', sym Adj i j') * sym Adj i j) * invs (∑ j', sym Adj j j')) := by
  unfold supR eye
  rw [degR_eq, degR_eq, c1_eq, one_mul]
  by_cases h : i = j
  · rw [if_pos h]; exact one_sub_sub_one _
  · rw [if_neg h]; exact zero_sub_sub_zero _

theorem supK_eq (Adj : Fin 512 → Fin 512 → R) (i j : Fin 512) : supK Adj i j = supR Adj i j := by
  rw [supK_neg, supR_neg]

theorem supK_symm (Adj : Fin 512 → Fin 512 → R) (i j : Fin 512) : supK Adj i j = supK Adj j i := by
  rw [supK_neg, supK_neg, sym_comm Adj i j, mul_comm (invs (∑ j', sym Adj i j')) (sym Adj j i), mul_assoc,
    mul_comm (invs (∑ j', sym Adj i j')), ← mul_assoc, mul_comm (sym Adj j i)]

theorem a1K_eq (X : Fin 64 → Fin 512 → R) (Adj : Fin 512 → Fin 512 → R) (b : Fin 64) (n : Fin 512) :
    a1K X Adj b n = ∑ j, supR Adj n j * X b j := by
  unfold a1K
  refine Finset.sum_congr rfl (fun j _ => ?_)
  rw [supK_symm, supK_eq, mul_comm]

theorem a2K_eq (X : Fin 64 → Fin 512 → R) (Adj : Fin 512 → Fin 512 → R) (b : Fin 64) (n : Fin 512) :
    a2K X Adj b n = c2 * (∑ j, supR Adj n j * (∑ j', supR Adj j j' * X b j')) - X b n := by
  unfold a2K
  congr 2
  refine Finset.sum_congr rfl (fun j _ => ?_)
  rw [a1K_eq, supK_symm, supK_eq, mul_comm]

end Cert.Spec

end
-- ==== Proof.Bridge.Gconv.lean ====
import proofs.«105208_g19069654794669_cont_sun_m_30_30_alg».proof.Proof.Spec
import proofs.«105208_g19069654794669_cont_sun_m_30_30_alg».proof.Proof.Bridge.Support
import Mathlib.Algebra.BigOperators.Fin
import Mathlib.Data.Fintype.BigOperators
import Mathlib.Data.EReal.Basic
import Mathlib.Tactic.Abel

noncomputable section

open scoped BigOperators

namespace Cert.Spec

open Idealize.ShloMosaic

theorem hi_lane (β : Fin 2) (u : Fin 64) : hi (lane β u) = β := by
  apply Fin.ext; simp only [hi, lane]; omega
theorem lo_lane (β : Fin 2) (u : Fin 64) : lo (lane β u) = u := by
  apply Fin.ext; simp only [lo, lane]; omega
theorem lane_hi_lo (l : Fin 128) : lane (hi l) (lo l) = l := by
  apply Fin.ext; simp only [hi, lo, lane]; omega

def laneEquiv : Fin 2 × Fin 64 ≃ Fin 128 where
  toFun x := lane x.1 x.2
  invFun l := (hi l, lo l)
  left_inv x := by
    rcases x with ⟨β, u⟩
    simp only [hi_lane, lo_lane]
  right_inv l := lane_hi_lo l

theorem sum_lanes (g : Fin 128 → R) : ∑ l : Fin 128, g l = ∑ u : Fin 64, g (lane 0 u) + ∑ u : Fin 64, g (lane 1 u) := by
  rw [← laneEquiv.sum_comp, Fintype.sum_prod_type, Fin.sum_univ_two]
  rfl

theorem sum_block (T : Fin 128 → R) (w : Fin 64 → R) (β : Fin 2) :
    ∑ l : Fin 128, T l * (if hi l = β then w (lo l) else c0) = ∑ u : Fin 64, T (lane β u) * w u := by
  rw [c0_eq, ← laneEquiv.sum_comp, Fintype.sum_prod_type]
  simp only [laneEquiv, Equiv.coe_fn_mk, hi_lane, lo_lane]
  rw [Finset.sum_eq_single β]
  · simp
  · intro β' _ hne
    simp [hne]
  · simp

theorem sum_six (A : Fin 6 → R) (w : Fin 3 → R) (β : Fin 2) :
    ∑ r : Fin 6, A r * (if r.val % 2 = β.val then w ⟨r.val / 2, by omega⟩ else c0)
      = ∑ k : Fin 3, A ⟨2 * k.val + β.val, by omega⟩ * w k := by
  rw [c0_eq, Fin.sum_univ_six, Fin.sum_univ_three]
  fin_cases β <;> simp

def rowEquiv65 : Fin 65 × Fin 3 ≃ Fin 195 where
  toFun x := fk65 x.1 x.2
  invFun q := (⟨q.val / 3, by omega⟩, ⟨q.val % 3, by omega⟩)
  left_inv x := by
    rcases x with ⟨f, k⟩
    apply Prod.ext <;> apply Fin.ext <;> simp only [fk65] <;> omega
  right_inv q := by
    apply Fin.ext; simp only [fk65]; omega

def rowEquiv128 : Fin 128 × Fin 3 ≃ Fin 384 where
  toFun x := fk128 x.1 x.2
  invFun q := (⟨q.val / 3, by omega⟩, ⟨q.val % 3, by omega⟩)
  left_inv x := by
    rcases x with ⟨f, k⟩
    apply Prod.ext <;> apply Fin.ext <;> simp only [fk128] <;> omega
  right_inv q := by
    apply Fin.ext; simp only [fk128]; omega

theorem sum_rows65 (F : Fin 3 → Fin 65 → R) (w : Fin 195 → R) :
    ∑ q : Fin 195, F ⟨q.val % 3, by omega⟩ ⟨q.val / 3, by omega⟩ * w q
      = ∑ f : Fin 65, ∑ k : Fin 3, F k f * w (fk65 f k) := by
  rw [← rowEquiv65.sum_comp, Fintype.sum_prod_type]
  refine Finset.sum_congr rfl fun f _ => Finset.sum_congr rfl fun k _ => ?_
  have h1 : (⟨(rowEquiv65 (f, k)).val % 3, by omega⟩ : Fin 3) = k := by
    apply Fin.ext; simp only [rowEquiv65, Equiv.coe_fn_mk, fk65]; omega
  have h2 : (⟨(rowEquiv65 (f, k)).val / 3, by omega⟩ : Fin 65) = f := by
    apply Fin.ext; simp only [rowEquiv65, Equiv.coe_fn_mk, fk65]; omega
  rw [h1, h2]
  rfl

theorem sum_rows128 (F : Fin 3 → Fin 128 → R) (w : Fin 384 → R) :
    ∑ q : Fin 384, F ⟨q.val % 3, by omega⟩ ⟨q.val / 3, by omega⟩ * w q
      = ∑ f : Fin 128, ∑ k : Fin 3, F k f * w (fk128 f k) := by
  rw [← rowEquiv128.sum_comp, Fintype.sum_prod_type]
  refine Finset.sum_congr rfl fun f _ => Finset.sum_congr rfl fun k _ => ?_
  have h1 : (⟨(rowEquiv128 (f, k)).val % 3, by omega⟩ : Fin 3) = k := by
    apply Fin.ext; simp only [rowEquiv128, Equiv.coe_fn_mk, fk128]; omega
  have h2 : (⟨(rowEquiv128 (f, k)).val / 3, by omega⟩ : Fin 128) = f := by
    apply Fin.ext; simp only [rowEquiv128, Equiv.coe_fn_mk, fk128]; omega
  rw [h1, h2]
  rfl

theorem succ_eq_f1 (u : Fin 64) : (Fin.succ u : Fin 65) = f1 u := by
  apply Fin.ext; simp only [f1, Fin.val_succ]; omega
theorem lane_zero_eq_fL (u : Fin 64) : lane 0 u = fL u := by
  apply Fin.ext; simp [lane, fL]
theorem lane_one_eq_fH (u : Fin 64) : lane 1 u = fH u := by
  apply Fin.ext; simp [lane, fH]

theorem sum_rows65_split (F : Fin 3 → Fin 65 → R) (w : Fin 195 → R) :
    ∑ q : Fin 195, F ⟨q.val % 3, by omega⟩ ⟨q.val / 3, by omega⟩ * w q
      = (F 0 0 * w (fk65 0 0) + F 1 0 * w (fk65 0 1) + F 2 0 * w (fk65 0 2))
        + ((∑ u : Fin 64, F 0 (f1 u) * w (fk65 (f1 u) 0)) + (∑ u : Fin 64, F 1 (f1 u) * w (fk65 (f1 u) 1))
          + (∑ u : Fin 64, F 2 (f1 u) * w (fk65 (f1 u) 2))) := by
  rw [sum_rows65, Fin.sum_univ_succ]
  simp only [Fin.sum_univ_three, succ_eq_f1, Finset.sum_add_distrib]

theorem sum_rows128_split (F : Fin 3 → Fin 128 → R) (w : Fin 384 → R) :
    ∑ q : Fin 384, F ⟨q.val % 3, by omega⟩ ⟨q.val / 3, by omega⟩ * w q
      = ((∑ u : Fin 64, F 0 (fL u) * w (fk128 (fL u) 0)) + (∑ u : Fin 64, F 1 (fL u) * w (fk128 (fL u) 1))
          + (∑ u : Fin 64, F 2 (fL u) * w (fk128 (fL u) 2)))
        + ((∑ u : Fin 64, F 0 (fH u) * w (fk128 (fH u) 0)) + (∑ u : Fin 64, F 1 (fH u) * w (fk128 (fH u) 1))
          + (∑ u : Fin 64, F 2 (fH u) * w (fk128 (fH u) 2))) := by
  rw [sum_rows128, sum_lanes]
  simp only [Fin.sum_univ_three, lane_zero_eq_fL, lane_one_eq_fH, Finset.sum_add_distrib]

section
variable {nf : ℕ} (S : Fin 512 → Fin 512 → R) (feat : Fin nf → Fin 64 → Fin 512 → R)

theorem chebR_zero (f : Fin nf) (b : Fin 64) (n : Fin 512) : chebR S feat 0 f b n = feat f b n := by
  unfold chebR; rw [if_pos rfl]
theorem chebR_one (f : Fin nf) (b : Fin 64) (n : Fin 512) : chebR S feat 1 f b n = ∑ j, S n j * feat f b j := by
  unfold chebR; rw [if_neg (by decide), if_pos rfl]
theorem chebR_two (f : Fin nf) (b : Fin 64) (n : Fin 512) :
    chebR S feat 2 f b n = c2 * (∑ j, S n j * (∑ j', S j j' * feat f b j')) - feat f b n := by
  unfold chebR; rw [if_neg (by decide), if_neg (by decide)]

variable (p : Fin 32) (P : Fin 512 → Fin 128 → R) (φ : Fin 64 → Fin nf)
  (hP : ∀ (n : Fin 512) (l : Fin 128), P n l = feat (φ (lo l)) (bat p (hi l)) n)
include hP

theorem packed_zero (β : Fin 2) (u : Fin 64) (n : Fin 512) : P n (lane β u) = chebR S feat 0 (φ u) (bat p β) n := by
  rw [chebR_zero, hP, hi_lane, lo_lane]
theorem packed_one (β : Fin 2) (u : Fin 64) (n : Fin 512) : diff S P n (lane β u) = chebR S feat 1 (φ u) (bat p β) n := by
  rw [chebR_one]; unfold diff; simp only [hP, hi_lane, lo_lane]
theorem packed_two (β : Fin 2) (u : Fin 64) (n : Fin 512) : cheb2 S P n (lane β u) = chebR S feat 2 (φ u) (bat p β) n := by
  rw [chebR_two]; unfold cheb2 diff; simp only [hP, hi_lane, lo_lane]

theorem block_zero (w : Fin 64 → R) (β : Fin 2) (n : Fin 512) :
    ∑ l : Fin 128, P n l * (if hi l = β then w (lo l) else c0) = ∑ u : Fin 64, chebR S feat 0 (φ u) (bat p β) n * w u := by
  rw [sum_block]
  exact Finset.sum_congr rfl fun u _ => by rw [packed_zero S feat p P φ hP]
theorem block_one (w : Fin 64 → R) (β : Fin 2) (n : Fin 512) :
    ∑ l : Fin 128, diff S P n l * (if hi l = β then w (lo l) else c0) = ∑ u : Fin 64, chebR S feat 1 (φ u) (bat p β) n * w u := by
  rw [sum_block]
  exact Finset.sum_congr rfl fun u _ => by rw [packed_one S feat p P φ hP]
theorem block_two (w : Fin 64 → R) (β : Fin 2) (n : Fin 512) :
    ∑ l : Fin 128, cheb2 S P n l * (if hi l = β then w (lo l) else c0) = ∑ u : Fin 64, chebR S feat 2 (φ u) (bat p β) n * w u := by
  rw [sum_block]
  exact Finset.sum_congr rfl fun u _ => by rw [packed_two S feat p P φ hP]

end

theorem cols_six (S : Fin 512 → Fin 512 → R) (feat : Fin 65 → Fin 64 → Fin 512 → R) (p : Fin 32) (A : Fin 512 → Fin 6 → R)
    (hA : ∀ (n : Fin 512) (r : Fin 6), A n r = chebR S feat ⟨r.val / 2, by omega⟩ 0 (bat p ⟨r.val % 2, by omega⟩) n)
    (w : Fin 3 → R) (β : Fin 2) (n : Fin 512) :
    ∑ r : Fin 6, A n r * (if r.val % 2 = β.val then w ⟨r.val / 2, by omega⟩ else c0)
      = chebR S feat 0 0 (bat p β) n * w 0 + chebR S feat 1 0 (bat p β) n * w 1 + chebR S feat 2 0 (bat p β) n * w 2 := by
  rw [sum_six (A n) w β, Fin.sum_univ_three]
  have h : ∀ k : Fin 3, A n ⟨2 * k.val + β.val, by omega⟩ = chebR S feat k 0 (bat p β) n := by
    intro k
    rw [hA]
    have h1 : (⟨(2 * k.val + β.val) / 2, by omega⟩ : Fin 3) = k := by apply Fin.ext; show (2 * k.val + β.val) / 2 = k.val; omega
    have h2 : (⟨(2 * k.val + β.val) % 2, by omega⟩ : Fin 2) = β := by apply Fin.ext; show (2 * k.val + β.val) % 2 = β.val; omega
    simp only [h1, h2]
  rw [h 0, h 1, h 2]

theorem pack65_core {no : ℕ} (S : Fin 512 → Fin 512 → R) (feat : Fin 65 → Fin 64 → Fin 512 → R) (p : Fin 32)
    (A : Fin 512 → Fin 6 → R) (M : Fin 512 → Fin 128 → R) (W : Fin 195 → Fin no → R) (bias : Fin no → R)
    (hA : ∀ (n : Fin 512) (r : Fin 6), A n r = chebR S feat ⟨r.val / 2, by omega⟩ 0 (bat p ⟨r.val % 2, by omega⟩) n)
    (hM : ∀ (n : Fin 512) (l : Fin 128), M n l = feat (f1 (lo l)) (bat p (hi l)) n) (n : Fin 512) (β : Fin 2) (o : Fin no) :
    ((((bias o + ∑ r : Fin 6, A n r * (if r.val % 2 = β.val then W (fk65 0 ⟨r.val / 2, by omega⟩) o else c0))
      + ∑ l : Fin 128, M n l * (if hi l = β then W (fk65 (f1 (lo l)) 0) o else c0))
      + ∑ l : Fin 128, diff S M n l * (if hi l = β then W (fk65 (f1 (lo l)) 1) o else c0))
      + ∑ l : Fin 128, cheb2 S M n l * (if hi l = β then W (fk65 (f1 (lo l)) 2) o else c0))
      = gconv65 S feat W bias (bat p β) n o := by
  rw [cols_six S feat p A hA (fun k => W (fk65 0 k) o) β n,
    block_zero S feat p M f1 hM (fun u => W (fk65 (f1 u) 0) o) β n,
    block_one S feat p M f1 hM (fun u => W (fk65 (f1 u) 1) o) β n,
    block_two S feat p M f1 hM (fun u => W (fk65 (f1 u) 2) o) β n]
  unfold gconv65
  rw [sum_rows65_split (fun k f => chebR S feat k f (bat p β) n) (fun q => W q o)]
  abel

theorem pack128_core {no : ℕ} (S : Fin 512 → Fin 512 → R) (feat : Fin 128 → Fin 64 → Fin 512 → R) (p : Fin 32)
    (G K : Fin 512 → Fin 128 → R) (W : Fin 384 → Fin no → R) (bias : Fin no → R)
    (hG : ∀ (n : Fin 512) (l : Fin 128), G n l = feat (fL (lo l)) (bat p (hi l)) n)
    (hK : ∀ (n : Fin 512) (l : Fin 128), K n l = feat (fH (lo l)) (bat p (hi l)) n) (n : Fin 512) (β : Fin 2) (o : Fin no) :
    ((((((bias o + ∑ l : Fin 128, G n l * (if hi l = β then W (fk128 (fL (lo l)) 0) o else c0))
      + ∑ l : Fin 128, diff S G n l * (if hi l = β then W (fk128 (fL (lo l)) 1) o else c0))
      + ∑ l : Fin 128, cheb2 S G n l * (if hi l = β then W (fk128 (fL (lo l)) 2) o else c0))
      + ∑ l : Fin 128, K n l * (if hi l = β then W (fk128 (fH (lo l)) 0) o else c0))
      + ∑ l : Fin 128, diff S K n l * (if hi l = β then W (fk128 (fH (lo l)) 1) o else c0))
      + ∑ l : Fin 128, cheb2 S K n l * (if hi l = β then W (fk128 (fH (lo l)) 2) o else c0))
      = gconv128 S feat W bias (bat p β) n o := by
  rw [block_zero S feat p G fL hG (fun u => W (fk128 (fL u) 0) o) β n,
    block_one S feat p G fL hG (fun u => W (fk128 (fL u) 1) o) β n,
    block_two S feat p G fL hG (fun u => W (fk128 (fL u) 2) o) β n,
    block_zero S feat p K fH hK (fun u => W (fk128 (fH u) 0) o) β n,
    block_one S feat p K fH hK (fun u => W (fk128 (fH u) 1) o) β n,
    block_two S feat p K fH hK (fun u => W (fk128 (fH u) 2) o) β n]
  unfold gconv128
  rw [sum_rows128_split (fun k f => chebR S feat k f (bat p β) n) (fun q => W q o)]
  abel

theorem pack65_ru (S : Fin 512 → Fin 512 → R) (feat : Fin 65 → Fin 64 → Fin 512 → R) (p : Fin 32)
    (A : Fin 512 → Fin 6 → R) (M : Fin 512 → Fin 128 → R) (W : Fin 195 → Fin 128 → R) (bias : Fin 128 → R)
    (hA : ∀ (n : Fin 512) (r : Fin 6), A n r = chebR S feat ⟨r.val / 2, by omega⟩ 0 (bat p ⟨r.val % 2, by omega⟩) n)
    (hM : ∀ (n : Fin 512) (l : Fin 128), M n l = feat (f1 (lo l)) (bat p (hi l)) n) (n : Fin 512) (q : Fin 256) :
    (((bRu0 bias q + mm A (waRu0 W) n q) + mm M (whRu0 W 0) n q) + mm (diff S M) (whRu0 W 1) n q) + mm (cheb2 S M) (whRu0 W 2) n q
      = gconv65 S feat W bias (bat p (qb q)) n (go (qg q) (qo q)) := by
  unfold bRu0 mm waRu0 whRu0
  exact pack65_core S feat p A M W bias hA hM n (qb q) (go (qg q) (qo q))

theorem pack65_c (S : Fin 512 → Fin 512 → R) (feat : Fin 65 → Fin 64 → Fin 512 → R) (p : Fin 32)
    (A : Fin 512 → Fin 6 → R) (M : Fin 512 → Fin 128 → R) (W : Fin 195 → Fin 64 → R) (bias : Fin 64 → R)
    (hA : ∀ (n : Fin 512) (r : Fin 6), A n r = chebR S feat ⟨r.val / 2, by omega⟩ 0 (bat p ⟨r.val % 2, by omega⟩) n)
    (hM : ∀ (n : Fin 512) (l : Fin 128), M n l = feat (f1 (lo l)) (bat p (hi l)) n) (n : Fin 512) (l : Fin 128) :
    (((bC0 bias l + mm A (waC0 W) n l) + mm M (whC0 W 0) n l) + mm (diff S M) (whC0 W 1) n l) + mm (cheb2 S M) (whC0 W 2) n l
      = gconv65 S feat W bias (bat p (hi l)) n (lo l) := by
  unfold bC0 mm waC0 whC0
  exact pack65_core S feat p A M W bias hA hM n (hi l) (lo l)

end Cert.Spec

end
-- ==== Proof.Bridge.Gconv128.lean ====
import proofs.«105208_g19069654794669_cont_sun_m_30_30_alg».proof.Proof.Spec
import proofs.«105208_g19069654794669_cont_sun_m_30_30_alg».proof.Proof.Bridge.Gconv
import Mathlib.Tactic.Abel

noncomputable section

open scoped BigOperators

namespace Cert.Spec

open Idealize.ShloMosaic

theorem pack128_ru (S : Fin 512 → Fin 512 → R) (feat : Fin 128 → Fin 64 → Fin 512 → R) (p : Fin 32)
    (G K0 : Fin 512 → Fin 128 → R) (W : Fin 384 → Fin 128 → R) (bias : Fin 128 → R)
    (hG : ∀ (n : Fin 512) (l : Fin 128), G n l = feat (fL (lo l)) (bat p (hi l)) n)
    (hK : ∀ (n : Fin 512) (l : Fin 128), K0 n l = feat (fH (lo l)) (bat p (hi l)) n) (n : Fin 512) (q : Fin 256) :
    ru1K S G K0 W bias n q = gconv128 S feat W bias (bat p (qb q)) n (go (qg q) (qo q)) := by
  rw [← pack128_core S feat p G K0 W bias hG hK n (qb q) (go (qg q) (qo q))]
  unfold ru1K bRu1 mm wgRu1 wkRu1
  abel

theorem pack128_c (S : Fin 512 → Fin 512 → R) (feat : Fin 128 → Fin 64 → Fin 512 → R) (p : Fin 32)
    (G P : Fin 512 → Fin 128 → R) (W : Fin 384 → Fin 64 → R) (bias : Fin 64 → R)
    (hG : ∀ (n : Fin 512) (l : Fin 128), G n l = feat (fL (lo l)) (bat p (hi l)) n)
    (hP : ∀ (n : Fin 512) (l : Fin 128), P n l = feat (fH (lo l)) (bat p (hi l)) n) (n : Fin 512) (l : Fin 128) :
    ((((((bC1 bias l + mm G (wgC1 W 0) n l) + mm (diff S G) (wgC1 W 1) n l) + mm (cheb2 S G) (wgC1 W 2) n l)
      + mm P (wkC1 W 0) n l) + mm (diff S P) (wkC1 W 1) n l) + mm (cheb2 S P) (wkC1 W 2) n l)
      = gconv128 S feat W bias (bat p (hi l)) n (lo l) := by
  unfold bC1 mm wgC1 wkC1
  exact pack128_core S feat p G P W bias hG hP n (hi l) (lo l)

end Cert.Spec

end
-- ==== Proof.Bridge.Main.lean ====
import proofs.«105208_g19069654794669_cont_sun_m_30_30_alg».proof.Proof.Spec
import proofs.«105208_g19069654794669_cont_sun_m_30_30_alg».proof.Proof.Bridge.Support
import proofs.«105208_g19069654794669_cont_sun_m_30_30_alg».proof.Proof.Bridge.Gconv
import proofs.«105208_g19069654794669_cont_sun_m_30_30_alg».proof.Proof.Bridge.Gconv128
import Mathlib.Algebra.BigOperators.Fin
import Mathlib.Data.Fintype.BigOperators

noncomputable section

open scoped BigOperators

namespace Cert.Spec

open Idealize.ShloMosaic

namespace Agree

theorem bat_pairOf_slotOf (b : Fin 64) : bat (pairOf b) (slotOf b) = b := by
  apply Fin.ext; simp only [bat, pairOf, slotOf]; omega
theorem hi_lane (β : Fin 2) (u : Fin 64) : hi (lane β u) = β := by
  apply Fin.ext; simp only [hi, lane]; omega
theorem lo_lane (β : Fin 2) (u : Fin 64) : lo (lane β u) = u := by
  apply Fin.ext; simp only [lo, lane]; omega
theorem lane_hi_lo (l : Fin 128) : lane (hi l) (lo l) = l := by
  apply Fin.ext; simp only [hi, lo, lane]; omega

theorem qb_lowQ (l : Fin 128) : qb (lowQ l) = hi l := by
  apply Fin.ext; simp only [qb, lowQ, hi]; omega
theorem qg_lowQ (l : Fin 128) : qg (lowQ l) = 0 := by
  apply Fin.ext; simp only [qg, lowQ, Fin.val_zero]; omega
theorem qo_lowQ (l : Fin 128) : qo (lowQ l) = lo l := by
  apply Fin.ext; simp only [qo, lowQ, lo]
theorem qb_highQ (l : Fin 128) : qb (highQ l) = hi l := by
  apply Fin.ext; simp only [qb, highQ, hi]; omega
theorem qg_highQ (l : Fin 128) : qg (highQ l) = 1 := by
  apply Fin.ext; simp only [qg, highQ, Fin.val_one]; omega
theorem qo_highQ (l : Fin 128) : qo (highQ l) = lo l := by
  apply Fin.ext; simp only [qo, highQ, lo]; omega

def laneSplit : Fin 128 ≃ Fin 2 × Fin 64 where
  toFun l := (hi l, lo l)
  invFun x := lane x.1 x.2
  left_inv l := lane_hi_lo l
  right_inv x := Prod.ext (hi_lane x.1 x.2) (lo_lane x.1 x.2)

theorem sum_lanes (F : Fin 2 → Fin 64 → R) : ∑ l : Fin 128, F (hi l) (lo l) = ∑ β, ∑ u, F β u := by
  rw [← Fintype.sum_prod_type']
  exact Fintype.sum_equiv laneSplit _ _ (fun _ => rfl)

theorem logistic_eq_sig (x : R) : Ideal.logistic x = sig x := by
  unfold Ideal.logistic sig
  rw [c1_eq]

theorem supK_fun (Adj : Fin 512 → Fin 512 → R) : supK Adj = supR Adj :=
  funext fun i => funext fun j => supK_eq Adj i j

section
variable (X : Fin 64 → Fin 512 → R) (Hs : Fin 2 → Fin 64 → Fin 32768 → R) (Adj : Fin 512 → Fin 512 → R)
  (Wru0 : Fin 195 → Fin 128 → R) (bru0 : Fin 128 → R) (Wc0 : Fin 195 → Fin 64 → R) (bc0 : Fin 64 → R)
  (Wru1 : Fin 384 → Fin 128 → R) (bru1 : Fin 128 → R) (Wc1 : Fin 384 → Fin 64 → R) (bc1 : Fin 64 → R)
  (Wp : Fin 64 → Fin 1 → R) (bp : Fin 1 → R)

theorem acolK_cheb (feat : Fin 65 → Fin 64 → Fin 512 → R) (h0 : ∀ b n, feat 0 b n = X b n) (p : Fin 32) (n : Fin 512)
    (r : Fin 6) :
    acolK X Adj p n r = chebR (supR Adj) feat ⟨r.val / 2, by omega⟩ 0 (bat p ⟨r.val % 2, by omega⟩) n := by
  unfold acolK chebR
  simp only [h0, a1K_eq, a2K_eq]
  fin_cases r <;> simp

theorem feat0_zero (b : Fin 64) (n : Fin 512) : feat0 X Hs 0 b n = X b n := by
  simp [feat0]
theorem feat0_f1 (u : Fin 64) (b : Fin 64) (n : Fin 512) : feat0 X Hs (f1 u) b n = Hs 0 b (nu n u) := by
  simp [feat0, f1]

theorem ruK_eq (p : Fin 32) (n : Fin 512) (q : Fin 256) :
    ruK X Hs Adj Wru0 bru0 p n q
      = gconv65 (supR Adj) (feat0 X Hs) Wru0 bru0 (bat p (qb q)) n (go (qg q) (qo q)) := by
  unfold ruK
  rw [supK_fun]
  exact pack65_ru (supR Adj) (feat0 X Hs) p (acolK X Adj p) (stK Hs 0 p) Wru0 bru0
    (fun n r => acolK_cheb X Adj (feat0 X Hs) (feat0_zero X Hs) p n r)
    (fun n l => by rw [feat0_f1]; rfl) n q

theorem rK_eq (p : Fin 32) (n : Fin 512) (l : Fin 128) :
    rK X Hs Adj Wru0 bru0 p n l = r0R X Hs Adj Wru0 bru0 (bat p (hi l)) n (lo l) := by
  unfold rK r0R val0R
  rw [logistic_eq_sig, ruK_eq, qb_lowQ, qg_lowQ, qo_lowQ]
theorem uK_eq (p : Fin 32) (n : Fin 512) (l : Fin 128) :
    uK X Hs Adj Wru0 bru0 p n l = u0R X Hs Adj Wru0 bru0 (bat p (hi l)) n (lo l) := by
  unfold uK u0R val0R
  rw [logistic_eq_sig, ruK_eq, qb_highQ, qg_highQ, qo_highQ]

theorem featc0_zero (b : Fin 64) (n : Fin 512) : featc0 X Hs Adj Wru0 bru0 0 b n = X b n := by
  simp [featc0]
theorem featc0_f1 (u : Fin 64) (b : Fin 64) (n : Fin 512) :
    featc0 X Hs Adj Wru0 bru0 (f1 u) b n = r0R X Hs Adj Wru0 bru0 b n u * Hs 0 b (nu n u) := by
  simp [featc0, f1]

theorem rhK_eq (p : Fin 32) (n : Fin 512) (l : Fin 128) :
    rhK X Hs Adj Wru0 bru0 p n l = featc0 X Hs Adj Wru0 bru0 (f1 (lo l)) (bat p (hi l)) n := by
  rw [featc0_f1]
  unfold rhK stK
  rw [rK_eq]

theorem cK_eq (p : Fin 32) (n : Fin 512) (l : Fin 128) :
    cK X Hs Adj Wru0 bru0 Wc0 bc0 p n l = c0R X Hs Adj Wru0 bru0 Wc0 bc0 (bat p (hi l)) n (lo l) := by
  unfold cK c0R
  rw [supK_fun]
  exact congrArg Ideal.tanh (pack65_c (supR Adj) (featc0 X Hs Adj Wru0 bru0) p (acolK X Adj p)
    (rhK X Hs Adj Wru0 bru0 p) Wc0 bc0
    (fun n r => acolK_cheb X Adj (featc0 X Hs Adj Wru0 bru0) (featc0_zero X Hs Adj Wru0 bru0) p n r)
    (fun n l => rhK_eq X Hs Adj Wru0 bru0 p n l) n l)

theorem h0K_eq (p : Fin 32) (n : Fin 512) (l : Fin 128) :
    h0K X Hs Adj Wru0 bru0 Wc0 bc0 p n l = h0R X Hs Adj Wru0 bru0 Wc0 bc0 (bat p (hi l)) n (lo l) := by
  unfold h0K h0R stK
  rw [uK_eq, cK_eq]

theorem feat1_fL (u : Fin 64) (b : Fin 64) (n : Fin 512) :
    feat1 X Hs Adj Wru0 bru0 Wc0 bc0 (fL u) b n = h0R X Hs Adj Wru0 bru0 Wc0 bc0 b n u := by
  simp [feat1, fL]
theorem feat1_fH (u : Fin 64) (b : Fin 64) (n : Fin 512) :
    feat1 X Hs Adj Wru0 bru0 Wc0 bc0 (fH u) b n = Hs 1 b (nu n u) := by
  simp [feat1, fH]

theorem ru1K_eq (p : Fin 32) (n : Fin 512) (q : Fin 256) :
    ru1K (supK Adj) (h0K X Hs Adj Wru0 bru0 Wc0 bc0 p) (stK Hs 1 p) Wru1 bru1 n q
      = gconv128 (supR Adj) (feat1 X Hs Adj Wru0 bru0 Wc0 bc0) Wru1 bru1 (bat p (qb q)) n (go (qg q) (qo q)) := by
  rw [supK_fun]
  exact pack128_ru (supR Adj) (feat1 X Hs Adj Wru0 bru0 Wc0 bc0) p (h0K X Hs Adj Wru0 bru0 Wc0 bc0 p) (stK Hs 1 p)
    Wru1 bru1 (fun n l => by rw [feat1_fL, h0K_eq]) (fun n l => by rw [feat1_fH]; rfl) n q

theorem r1K_eq (p : Fin 32) (n : Fin 512) (l : Fin 128) :
    r1K (supK Adj) (h0K X Hs Adj Wru0 bru0 Wc0 bc0 p) (stK Hs 1 p) Wru1 bru1 n l
      = r1R X Hs Adj Wru0 bru0 Wc0 bc0 Wru1 bru1 (bat p (hi l)) n (lo l) := by
  unfold r1K r1R val1R
  rw [logistic_eq_sig, ru1K_eq, qb_lowQ, qg_lowQ, qo_lowQ]
theorem u1K_eq (p : Fin 32) (n : Fin 512) (l : Fin 128) :
    u1K (supK Adj) (h0K X Hs Adj Wru0 bru0 Wc0 bc0 p) (stK Hs 1 p) Wru1 bru1 n l
      = u1R X Hs Adj Wru0 bru0 Wc0 bc0 Wru1 bru1 (bat p (hi l)) n (lo l) := by
  unfold u1K u1R val1R
  rw [logistic_eq_sig, ru1K_eq, qb_highQ, qg_highQ, qo_highQ]

theorem featc1_fL (u : Fin 64) (b : Fin 64) (n : Fin 512) :
    featc1 X Hs Adj Wru0 bru0 Wc0 bc0 Wru1 bru1 (fL u) b n = h0R X Hs Adj Wru0 bru0 Wc0 bc0 b n u := by
  simp [featc1, fL]
theorem featc1_fH (u : Fin 64) (b : Fin 64) (n : Fin 512) :
    featc1 X Hs Adj Wru0 bru0 Wc0 bc0 Wru1 bru1 (fH u) b n
      = r1R X Hs Adj Wru0 bru0 Wc0 bc0 Wru1 bru1 b n u * Hs 1 b (nu n u) := by
  simp [featc1, fH]

theorem rh1K_eq (p : Fin 32) (n : Fin 512) (l : Fin 128) :
    rh1K (supK Adj) (h0K X Hs Adj Wru0 bru0 Wc0 bc0 p) (stK Hs 1 p) Wru1 bru1 n l
      = featc1 X Hs Adj Wru0 bru0 Wc0 bc0 Wru1 bru1 (fH (lo l)) (bat p (hi l)) n := by
  rw [featc1_fH]
  unfold rh1K
  rw [r1K_eq]
  rfl

theorem c1K_eq (p : Fin 32) (n : Fin 512) (l : Fin 128) :
    c1K (supK Adj) (h0K X Hs Adj Wru0 bru0 Wc0 bc0 p) (stK Hs 1 p) Wru1 bru1 Wc1 bc1 n l
      = c1R X Hs Adj Wru0 bru0 Wc0 bc0 Wru1 bru1 Wc1 bc1 (bat p (hi l)) n (lo l) := by
  unfold c1K c1R
  refine congrArg Ideal.tanh ?_
  have hP := fun n l => rh1K_eq X Hs Adj Wru0 bru0 Wc0 bc0 Wru1 bru1 p n l
  rw [supK_fun] at hP ⊢
  exact pack128_c (supR Adj) (featc1 X Hs Adj Wru0 bru0 Wc0 bc0 Wru1 bru1) p (h0K X Hs Adj Wru0 bru0 Wc0 bc0 p)
    (rh1K (supR Adj) (h0K X Hs Adj Wru0 bru0 Wc0 bc0 p) (stK Hs 1 p) Wru1 bru1) Wc1 bc1
    (fun n l => by rw [featc1_fL, h0K_eq]) hP n l

theorem h1K_eq (p : Fin 32) (n : Fin 512) (l : Fin 128) :
    h1K X Hs Adj Wru0 bru0 Wc0 bc0 Wru1 bru1 Wc1 bc1 p n l
      = h1R X Hs Adj Wru0 bru0 Wc0 bc0 Wru1 bru1 Wc1 bc1 (bat p (hi l)) n (lo l) := by
  unfold h1K h1Kof h1R
  rw [u1K_eq, c1K_eq]
  rfl

theorem prj_eq (p : Fin 32) (n : Fin 512) (j : Fin 2) :
    mm (h1K X Hs Adj Wru0 bru0 Wc0 bc0 Wru1 bru1 Wc1 bc1 p) (wpp Wp) n j
      = ∑ u : Fin 64, h1R X Hs Adj Wru0 bru0 Wc0 bc0 Wru1 bru1 Wc1 bc1 (bat p j) n u * Wp u 0 := by
  unfold mm
  have hl : ∀ l : Fin 128, h1K X Hs Adj Wru0 bru0 Wc0 bc0 Wru1 bru1 Wc1 bc1 p n l * wpp Wp l j
      = (fun (β : Fin 2) (u : Fin 64) => h1R X Hs Adj Wru0 bru0 Wc0 bc0 Wru1 bru1 Wc1 bc1 (bat p β) n u
          * (if β = j then Wp u 0 else c0)) (hi l) (lo l) := fun l => by
    rw [h1K_eq]; rfl
  refine (Finset.sum_congr rfl (fun l _ => hl l)).trans ((sum_lanes (fun (β : Fin 2) (u : Fin 64) =>
    h1R X Hs Adj Wru0 bru0 Wc0 bc0 Wru1 bru1 Wc1 bc1 (bat p β) n u * (if β = j then Wp u 0 else c0))).trans ?_)
  rw [Finset.sum_eq_single j]
  · simp
  · intro β _ hβ
    simp [hβ, c0_eq]
  · simp

end

end Agree

open Agree

theorem out_eq (X : Fin 64 → Fin 512 → R) (Hs : Fin 2 → Fin 64 → Fin 32768 → R) (Adj : Fin 512 → Fin 512 → R)
    (Wru0 : Fin 195 → Fin 128 → R) (bru0 : Fin 128 → R) (Wc0 : Fin 195 → Fin 64 → R) (bc0 : Fin 64 → R)
    (Wru1 : Fin 384 → Fin 128 → R) (bru1 : Fin 128 → R) (Wc1 : Fin 384 → Fin 64 → R) (bc1 : Fin 64 → R)
    (Wp : Fin 64 → Fin 1 → R) (bp : Fin 1 → R) (b : Fin 64) (n : Fin 512) :
    outK X Hs Adj Wru0 bru0 Wc0 bc0 Wru1 bru1 Wc1 bc1 Wp bp b n = outR X Hs Adj Wru0 bru0 Wc0 bc0 Wru1 bru1 Wc1 bc1 Wp bp b n := by
  unfold outK prjK outR
  rw [prj_eq, bat_pairOf_slotOf]

theorem hid_eq (X : Fin 64 → Fin 512 → R) (Hs : Fin 2 → Fin 64 → Fin 32768 → R) (Adj : Fin 512 → Fin 512 → R)
    (Wru0 : Fin 195 → Fin 128 → R) (bru0 : Fin 128 → R) (Wc0 : Fin 195 → Fin 64 → R) (bc0 : Fin 64 → R)
    (Wru1 : Fin 384 → Fin 128 → R) (bru1 : Fin 128 → R) (Wc1 : Fin 384 → Fin 64 → R) (bc1 : Fin 64 → R)
    (Wp : Fin 64 → Fin 1 → R) (bp : Fin 1 → R) (L : Fin 2) (b : Fin 64) (q : Fin 32768) :
    hidK X Hs Adj Wru0 bru0 Wc0 bc0 Wru1 bru1 Wc1 bc1 L b q = hidR X Hs Adj Wru0 bru0 Wc0 bc0 Wru1 bru1 Wc1 bc1 L b q := by
  unfold hidK hidR
  rw [h0K_eq, h1K_eq, hi_lane, lo_lane, bat_pairOf_slotOf]

end Cert.Spec

end
-- ==== Proof.Algebraic.lean ====
import proofs.«105208_g19069654794669_cont_sun_m_30_30_alg».proof.Defs
import proofs.«105208_g19069654794669_cont_sun_m_30_30_alg».proof.Proof.Gen.Pre_finite_inputs
import proofs.«105208_g19069654794669_cont_sun_m_30_30_alg».proof.Proof.KI.Run
import proofs.«105208_g19069654794669_cont_sun_m_30_30_alg».proof.Proof.KI.Value
import proofs.«105208_g19069654794669_cont_sun_m_30_30_alg».proof.Proof.Ref.Final
import proofs.«105208_g19069654794669_cont_sun_m_30_30_alg».proof.Proof.Ref.Run
import proofs.«105208_g19069654794669_cont_sun_m_30_30_alg».proof.Proof.Bridge.Main
import Idealize.ShloMosaic.Lib.ValueIdx

noncomputable section

namespace Cert.Proof

open Idealize.ShloMosaic Idealize.ShloMosaic.TcCoe Idealize.ShloMosaic.ValueIdx Idealize.SL.Sem

theorem algebraic : Cert.algebraic_KernelIdeal_ReferenceIdeal := by
  intro m ρ m' ρ' _ hagree
  refine ⟨fun c => Cert.KernelIdeal.Hand.W5 (F := Ideal) m ρ c (Proc.devRef .tc Cert.KernelIdeal.main_v21),
    fun c => Cert.KernelIdeal.Hand.W5 (F := Ideal) m ρ c (Proc.devRef .tc Cert.KernelIdeal.main_v22), ?_, ?_⟩
  · open Cert.KernelIdeal Cert.KernelIdeal.Hand in
    exact (θ_run Cert.KernelIdeal.defs _ _).mono (fun r h c => ⟨h c _ (mem_uc main_v21 (by decide)),
      h c _ (mem_uc main_v22 (by decide)),
      kept m ρ c r.2.mem (h c)⟩) (run_all (F := Ideal) m ρ)
  · refine (θ_run Cert.ReferenceIdeal.defs _ _).mono (fun r h c => ⟨(h c).1.trans ?_, (h c).2.1.trans ?_, (h c).2.2⟩)
      (Cert.ReferenceIdeal.RefValue.ref_run m' ρ')
    · funext i
      obtain ⟨b, n, rfl⟩ : ∃ b n, i = ix2 b n := ⟨i 0, i 1, eq_ix2 i⟩
      rw [Cert.ReferenceIdeal.RefValue.out_apply, (hagree c).1, (hagree c).2.1, (hagree c).2.2.1, (hagree c).2.2.2.1,
        (hagree c).2.2.2.2.1, (hagree c).2.2.2.2.2.1, (hagree c).2.2.2.2.2.2.1, (hagree c).2.2.2.2.2.2.2.1,
        (hagree c).2.2.2.2.2.2.2.2.1, (hagree c).2.2.2.2.2.2.2.2.2.1, (hagree c).2.2.2.2.2.2.2.2.2.2.1,
        (hagree c).2.2.2.2.2.2.2.2.2.2.2.1, (hagree c).2.2.2.2.2.2.2.2.2.2.2.2]
      exact ((Cert.KernelIdeal.Hand.kernel_out m ρ c b n).trans (Cert.Spec.out_eq _ _ _ _ _ _ _ _ _ _ _ _ _ b n)).symm
    · funext i
      obtain ⟨L, b, q, rfl⟩ : ∃ L b q, i = ix3 L b q := ⟨i 0, i 1, i 2, eq_ix3 i⟩
      rw [Cert.ReferenceIdeal.RefValue.hid_apply, (hagree c).1, (hagree c).2.1, (hagree c).2.2.1, (hagree c).2.2.2.1,
        (hagree c).2.2.2.2.1, (hagree c).2.2.2.2.2.1, (hagree c).2.2.2.2.2.2.1, (hagree c).2.2.2.2.2.2.2.1,
        (hagree c).2.2.2.2.2.2.2.2.1, (hagree c).2.2.2.2.2.2.2.2.2.1, (hagree c).2.2.2.2.2.2.2.2.2.2.1]
      exact ((Cert.KernelIdeal.Hand.kernel_hid m ρ c L b q).trans
        (Cert.Spec.hid_eq _ _ _ _ _ _ _ _ _ _ _ (fun _ _ => 0) (fun _ => 0) L b q)).symm

end Cert.Proof

end
-- ==== Proof.lean ====
import proofs.«105208_g19069654794669_cont_sun_m_30_30_alg».proof.Defs
import proofs.«105208_g19069654794669_cont_sun_m_30_30_alg».proof.Proof.Gen.Kernel
import proofs.«105208_g19069654794669_cont_sun_m_30_30_alg».proof.Proof.Gen.KernelIdeal
import proofs.«105208_g19069654794669_cont_sun_m_30_30_alg».proof.Proof.Gen.ReferenceIdeal
import proofs.«105208_g19069654794669_cont_sun_m_30_30_alg».proof.Proof.Gen.Pre_finite_inputs
import proofs.«105208_g19069654794669_cont_sun_m_30_30_alg».proof.Proof.KI.Run
import proofs.«105208_g19069654794669_cont_sun_m_30_30_alg».proof.Proof.Ref.Run
import proofs.«105208_g19069654794669_cont_sun_m_30_30_alg».proof.Proof.Algebraic

noncomputable section

namespace Cert.Proof

open Idealize.ShloMosaic Idealize.ShloMosaic.Tactic Idealize.SL.Sem

theorem frame_KernelIdeal : Cert.frame_KernelIdeal := Cert.KernelIdeal.Hand.frame_all (F := Ideal) Cert.Pre_KernelIdeal

-- The two printed programs are one and the same term, so the frame proved once for every float instance is the frame of both.
theorem frame_same : Cert.frame_Kernel = Cert.KernelIdeal.Hand.Framed (F := Bits) Cert.Pre_Kernel := by sl_kernel_rfl

theorem frame_Kernel : Cert.frame_Kernel := frame_same ▸ Cert.KernelIdeal.Hand.frame_all _

theorem claim : Cert.Claim := ⟨Cert.Kernel.Gen.facts, Cert.KernelIdeal.Gen.facts, Cert.ReferenceIdeal.Gen.facts,
  Cert.Pre_finite_inputs.Gen.facts, frame_Kernel, frame_KernelIdeal, Cert.ReferenceIdeal.RefValue.frame_ri, trivial, algebraic⟩

end Cert.Proof

end
